-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![64, 1024]⟩ ⟨2, ![512, 1024]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 2048]⟩ ⟨2, ![1024, 16384]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![2048, 1024]⟩ ⟨2, ![16384, 1024]⟩ 0 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![1024, 2048]⟩ ⟨2, ![1024, 16384]⟩ 1 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![2048, 1024]⟩ ⟨2, ![16384, 1024]⟩ 0 8 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨2, ![1024, 2048]⟩ ⟨2, ![1024, 16384]⟩ 1 8 c (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.block ⟨2, ![2048, 1024]⟩ ⟨2, ![16384, 1024]⟩ 0 8 c (m' (((0 : Dev Cert.ReferenceIdeal.nD).tc : Thread Cert.ReferenceIdeal.nD Cert.ReferenceIdeal.τ).loc Cert.ReferenceIdeal.main_arg6))) →
    ∃ (v0 : Buf (Elt Ideal) (((0 : Dev Cert.ReferenceIdeal.nD).tc : Thread Cert.ReferenceIdeal.nD Cert.ReferenceIdeal.τ).loc Cert.ReferenceIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![64, 1024]⟩ ⟨2, ![512, 1024]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v12) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S64x1024 : Shape := ⟨2, ![64, 1024]⟩
abbrev S1024x2048 : Shape := ⟨2, ![1024, 2048]⟩
abbrev S2048x1024 : Shape := ⟨2, ![2048, 1024]⟩
abbrev S_ : Shape := ⟨0, ![]⟩

class Facts : Prop where
  bcast_S_S64x1024 : S_.BroadcastsInDim S64x1024 (![] : Fin 0 → Fin S64x1024.rank)
  reducesTo_S64x1024_S_d0_1 : S64x1024.ReducesTo [0, 1] S_
  h_S_ : 0 < S_.numel
  bcast_S_S1024x2048 : S_.BroadcastsInDim S1024x2048 (![] : Fin 0 → Fin S1024x2048.rank)
  reducesTo_S1024x2048_S_d0_1 : S1024x2048.ReducesTo [0, 1] S_
  bcast_S_S2048x1024 : S_.BroadcastsInDim S2048x1024 (![] : Fin 0 → Fin S2048x1024.rank)
  reducesTo_S2048x1024_S_d0_1 : S2048x1024.ReducesTo [0, 1] S_

variable [Facts]

def fn_part1 {F : FTy → Type} [FloatOps F] (main_arg4 : FVec F S2048x1024 .f32) (main_arg5 : FVec F S1024x2048 .f32) (main_arg6 : FVec F S2048x1024 .f32) (main_v13 : IVec S_ 1) (main_v16 : IVec S1024x2048 1) : IVec S_ 1 :=
  let main_c_5 : IVec S_ 1 := constantI S_ 1 1#1
  let main_v17 : IVec S_ 1 := (fun x v => Host.reduce IntOp.andi x v reducesTo_S1024x2048_S_d0_1 h_S_) main_v16 main_c_5
  let main_v18 : IVec S_ 1 := andi main_v13 main_v17
  let main_v19 : FVec F S2048x1024 .f32 := Host.absf main_arg4
  let main_cst_6 : FVec F S_ .f32 := constant S_ .f32 0x7F800000#32
  let main_v20 : FVec F S2048x1024 .f32 := broadcastInDim S2048x1024 ![] bcast_S_S2048x1024 main_cst_6
  let main_v21 : IVec S2048x1024 1 := cmpf .olt main_v19 main_v20
  let main_c_7 : IVec S_ 1 := constantI S_ 1 1#1
  let main_v22 : IVec S_ 1 := (fun x v => Host.reduce IntOp.andi x v reducesTo_S2048x1024_S_d0_1 h_S_) main_v21 main_c_7
  let main_v23 : IVec S_ 1 := andi main_v18 main_v22
  let main_v24 : FVec F S1024x2048 .f32 := Host.absf main_arg5
  let main_cst_8 : FVec F S_ .f32 := constant S_ .f32 0x7F800000#32
  let main_v25 : FVec F S1024x2048 .f32 := broadcastInDim S1024x2048 ![] bcast_S_S1024x2048 main_cst_8
  let main_v26 : IVec S1024x2048 1 := cmpf .olt main_v24 main_v25
  let main_c_9 : IVec S_ 1 := constantI S_ 1 1#1
  let main_v27 : IVec S_ 1 := (fun x v => Host.reduce IntOp.andi x v reducesTo_S1024x2048_S_d0_1 h_S_) main_v26 main_c_9
  let main_v28 : IVec S_ 1 := andi main_v23 main_v27
  let main_v29 : FVec F S2048x1024 .f32 := Host.absf main_arg6
  let main_cst_10 : FVec F S_ .f32 := constant S_ .f32 0x7F800000#32
  let main_v30 : FVec F S2048x1024 .f32 := broadcastInDim S2048x1024 ![] bcast_S_S2048x1024 main_cst_10
  let main_v31 : IVec S2048x1024 1 := cmpf .olt main_v29 main_v30
  let main_c_11 : IVec S_ 1 := constantI S_ 1 1#1
  let main_v32 : IVec S_ 1 := (fun x v => Host.reduce IntOp.andi x v reducesTo_S2048x1024_S_d0_1 h_S_) main_v31 main_c_11
  let main_v33 : IVec S_ 1 := andi main_v28 main_v32
  main_v33

def fn {F : FTy → Type} [FloatOps F] (main_arg0 : FVec F S64x1024 .f32) (main_arg1 : FVec F S1024x2048 .f32) (main_arg2 : FVec F S2048x1024 .f32) (main_arg3 : FVec F S1024x2048 .f32) (main_arg4 : FVec F S2048x1024 .f32) (main_arg5 : FVec F S1024x2048 .f32) (main_arg6 : FVec F S2048x1024 .f32) : IVec S_ 1 :=
  let main_v0 : FVec F S64x1024 .f32 := Host.absf main_arg0
  let main_cst : FVec F S_ .f32 := constant S_ .f32 0x7F800000#32
  let main_v1 : FVec F S64x1024 .f32 := broadcastInDim S64x1024 ![] bcast_S_S64x1024 main_cst
  let main_v2 : IVec S64x1024 1 := cmpf .olt main_v0 main_v1
  let main_c : IVec S_ 1 := constantI S_ 1 1#1
  let main_v3 : IVec S_ 1 := (fun x v => Host.reduce IntOp.andi x v reducesTo_S64x1024_S_d0_1 h_S_) main_v2 main_c
  let main_v4 : FVec F S1024x2048 .f32 := Host.absf main_arg1
  let main_cst_0 : FVec F S_ .f32 := constant S_ .f32 0x7F800000#32
  let main_v5 : FVec F S1024x2048 .f32 := broadcastInDim S1024x2048 ![] bcast_S_S1024x2048 main_cst_0
  let main_v6 : IVec S1024x2048 1 := cmpf .olt main_v4 main_v5
  let main_c_1 : IVec S_ 1 := constantI S_ 1 1#1
  let main_v7 : IVec S_ 1 := (fun x v => Host.reduce IntOp.andi x v reducesTo_S1024x2048_S_d0_1 h_S_) main_v6 main_c_1
  let main_v8 : IVec S_ 1 := andi main_v3 main_v7
  let main_v9 : FVec F S2048x1024 .f32 := Host.absf main_arg2
  let main_cst_2 : FVec F S_ .f32 := constant S_ .f32 0x7F800000#32
  let main_v10 : FVec F S2048x1024 .f32 := broadcastInDim S2048x1024 ![] bcast_S_S2048x1024 main_cst_2
  let main_v11 : IVec S2048x1024 1 := cmpf .olt main_v9 main_v10
  let main_c_3 : IVec S_ 1 := constantI S_ 1 1#1
  let main_v12 : IVec S_ 1 := (fun x v => Host.reduce IntOp.andi x v reducesTo_S2048x1024_S_d0_1 h_S_) main_v11 main_c_3
  let main_v13 : IVec S_ 1 := andi main_v8 main_v12
  let main_v14 : FVec F S1024x2048 .f32 := Host.absf main_arg3
  let main_cst_4 : FVec F S_ .f32 := constant S_ .f32 0x7F800000#32
  let main_v15 : FVec F S1024x2048 .f32 := broadcastInDim S1024x2048 ![] bcast_S_S1024x2048 main_cst_4
  let main_v16 : IVec S1024x2048 1 := cmpf .olt main_v14 main_v15
  fn_part1 (F := F) main_arg4 main_arg5 main_arg6 main_v13 main_v16
-- ==== Pre_finite_inputs_ReferenceIdeal.lean ====
abbrev S512x1024 : Shape := ⟨2, ![512, 1024]⟩
abbrev S1024x16384 : Shape := ⟨2, ![1024, 16384]⟩
abbrev S16384x1024 : Shape := ⟨2, ![16384, 1024]⟩
abbrev S_ : Shape := ⟨0, ![]⟩

class Facts : Prop where
  bcast_S_S512x1024 : S_.BroadcastsInDim S512x1024 (![] : Fin 0 → Fin S512x1024.rank)
  reducesTo_S512x1024_S_d0_1 : S512x1024.ReducesTo [0, 1] S_
  h_S_ : 0 < S_.numel
  bcast_S_S1024x16384 : S_.BroadcastsInDim S1024x16384 (![] : Fin 0 → Fin S1024x16384.rank)
  reducesTo_S1024x16384_S_d0_1 : S1024x16384.ReducesTo [0, 1] S_
  bcast_S_S16384x1024 : S_.BroadcastsInDim S16384x1024 (![] : Fin 0 → Fin S16384x1024.rank)
  reducesTo_S16384x1024_S_d0_1 : S16384x1024.ReducesTo [0, 1] S_

variable [Facts]

def fn_part1 {F : FTy → Type} [FloatOps F] (main_arg4 : FVec F S16384x1024 .f32) (main_arg5 : FVec F S1024x16384 .f32) (main_arg6 : FVec F S16384x1024 .f32) (main_v13 : IVec S_ 1) (main_v16 : IVec S1024x16384 1) : IVec S_ 1 :=
  let main_c_5 : IVec S_ 1 := constantI S_ 1 1#1
  let main_v17 : IVec S_ 1 := (fun x v => Host.reduce IntOp.andi x v reducesTo_S1024x16384_S_d0_1 h_S_) main_v16 main_c_5
  let main_v18 : IVec S_ 1 := andi main_v13 main_v17
  let main_v19 : FVec F S16384x1024 .f32 := Host.absf main_arg4
  let main_cst_6 : FVec F S_ .f32 := constant S_ .f32 0x7F800000#32
  let main_v20 : FVec F S16384x1024 .f32 := broadcastInDim S16384x1024 ![] bcast_S_S16384x1024 main_cst_6
  let main_v21 : IVec S16384x1024 1 := cmpf .olt main_v19 main_v20
  let main_c_7 : IVec S_ 1 := constantI S_ 1 1#1
  let main_v22 : IVec S_ 1 := (fun x v => Host.reduce IntOp.andi x v reducesTo_S16384x1024_S_d0_1 h_S_) main_v21 main_c_7
  let main_v23 : IVec S_ 1 := andi main_v18 main_v22
  let main_v24 : FVec F S1024x16384 .f32 := Host.absf main_arg5
  let main_cst_8 : FVec F S_ .f32 := constant S_ .f32 0x7F800000#32
  let main_v25 : FVec F S1024x16384 .f32 := broadcastInDim S1024x16384 ![] bcast_S_S1024x16384 main_cst_8
  let main_v26 : IVec S1024x16384 1 := cmpf .olt main_v24 main_v25
  let main_c_9 : IVec S_ 1 := constantI S_ 1 1#1
  let main_v27 : IVec S_ 1 := (fun x v => Host.reduce IntOp.andi x v reducesTo_S1024x16384_S_d0_1 h_S_) main_v26 main_c_9
  let main_v28 : IVec S_ 1 := andi main_v23 main_v27
  let main_v29 : FVec F S16384x1024 .f32 := Host.absf main_arg6
  let main_cst_10 : FVec F S_ .f32 := constant S_ .f32 0x7F800000#32
  let main_v30 : FVec F S16384x1024 .f32 := broadcastInDim S16384x1024 ![] bcast_S_S16384x1024 main_cst_10
  let main_v31 : IVec S16384x1024 1 := cmpf .olt main_v29 main_v30
  let main_c_11 : IVec S_ 1 := constantI S_ 1 1#1
  let main_v32 : IVec S_ 1 := (fun x v => Host.reduce IntOp.andi x v reducesTo_S16384x1024_S_d0_1 h_S_) main_v31 main_c_11
  let main_v33 : IVec S_ 1 := andi main_v28 main_v32
  main_v33

def fn {F : FTy → Type} [FloatOps F] (main_arg0 : FVec F S512x1024 .f32) (main_arg1 : FVec F S1024x16384 .f32) (main_arg2 : FVec F S16384x1024 .f32) (main_arg3 : FVec F S1024x16384 .f32) (main_arg4 : FVec F S16384x1024 .f32) (main_arg5 : FVec F S1024x16384 .f32) (main_arg6 : FVec F S16384x1024 .f32) : IVec S_ 1 :=
  let main_v0 : FVec F S512x1024 .f32 := Host.absf main_arg0
  let main_cst : FVec F S_ .f32 := constant S_ .f32 0x7F800000#32
  let main_v1 : FVec F S512x1024 .f32 := broadcastInDim S512x1024 ![] bcast_S_S512x1024 main_cst
  let main_v2 : IVec S512x1024 1 := cmpf .olt main_v0 main_v1
  let main_c : IVec S_ 1 := constantI S_ 1 1#1
  let main_v3 : IVec S_ 1 := (fun x v => Host.reduce IntOp.andi x v reducesTo_S512x1024_S_d0_1 h_S_) main_v2 main_c
  let main_v4 : FVec F S1024x16384 .f32 := Host.absf main_arg1
  let main_cst_0 : FVec F S_ .f32 := constant S_ .f32 0x7F800000#32
  let main_v5 : FVec F S1024x16384 .f32 := broadcastInDim S1024x16384 ![] bcast_S_S1024x16384 main_cst_0
  let main_v6 : IVec S1024x16384 1 := cmpf .olt main_v4 main_v5
  let main_c_1 : IVec S_ 1 := constantI S_ 1 1#1
  let main_v7 : IVec S_ 1 := (fun x v => Host.reduce IntOp.andi x v reducesTo_S1024x16384_S_d0_1 h_S_) main_v6 main_c_1
  let main_v8 : IVec S_ 1 := andi main_v3 main_v7
  let main_v9 : FVec F S16384x1024 .f32 := Host.absf main_arg2
  let main_cst_2 : FVec F S_ .f32 := constant S_ .f32 0x7F800000#32
  let main_v10 : FVec F S16384x1024 .f32 := broadcastInDim S16384x1024 ![] bcast_S_S16384x1024 main_cst_2
  let main_v11 : IVec S16384x1024 1 := cmpf .olt main_v9 main_v10
  let main_c_3 : IVec S_ 1 := constantI S_ 1 1#1
  let main_v12 : IVec S_ 1 := (fun x v => Host.reduce IntOp.andi x v reducesTo_S16384x1024_S_d0_1 h_S_) main_v11 main_c_3
  let main_v13 : IVec S_ 1 := andi main_v8 main_v12
  let main_v14 : FVec F S1024x16384 .f32 := Host.absf main_arg3
  let main_cst_4 : FVec F S_ .f32 := constant S_ .f32 0x7F800000#32
  let main_v15 : FVec F S1024x16384 .f32 := broadcastInDim S1024x16384 ![] bcast_S_S1024x16384 main_cst_4
  let main_v16 : IVec S1024x16384 1 := cmpf .olt main_v14 main_v15
  fn_part1 (F := F) main_arg4 main_arg5 main_arg6 main_v13 main_v16
-- ==== Kernel.lean ====
abbrev S64x1024 : Shape := ⟨2, ![64, 1024]⟩
abbrev S1024x2048 : Shape := ⟨2, ![1024, 2048]⟩
abbrev S2048x1024 : Shape := ⟨2, ![2048, 1024]⟩
abbrev S512x1024 : Shape := ⟨2, ![512, 1024]⟩
abbrev S2x1024x2048 : Shape := ⟨3, ![2, 1024, 2048]⟩
abbrev S2x2048x1024 : Shape := ⟨3, ![2, 2048, 1024]⟩
abbrev S8 : Shape := ⟨1, ![8]⟩
abbrev S4 : Shape := ⟨1, ![4]⟩
abbrev S_ : Shape := ⟨0, ![]⟩
abbrev S1 : Shape := ⟨1, ![1]⟩
abbrev S1x1024x2048 : Shape := ⟨3, ![1, 1024, 2048]⟩
abbrev S1x2048x1024 : Shape := ⟨3, ![1, 2048, 1024]⟩
abbrev S128x1024 : Shape := ⟨2, ![128, 1024]⟩
abbrev S128x2048 : Shape := ⟨2, ![128, 2048]⟩

abbrev nBuf : Space → Nat
  | .hbm => 8
  | .vmem => 9
  | .smem => 0
  | _ => 0

abbrev bufTy : (tb : Table) → Fin (tcTables nBuf tb) → BufTy
  | .hbm, ⟨0, _⟩ => ⟨S64x1024, .f32⟩
  | .hbm, ⟨1, _⟩ => ⟨S1024x2048, .f32⟩
  | .hbm, ⟨2, _⟩ => ⟨S2048x1024, .f32⟩
  | .hbm, ⟨3, _⟩ => ⟨S1024x2048, .f32⟩
  | .hbm, ⟨4, _⟩ => ⟨S2048x1024, .f32⟩
  | .hbm, ⟨5, _⟩ => ⟨S1024x2048, .f32⟩
  | .hbm, ⟨6, _⟩ => ⟨S2048x1024, .f32⟩
  | .hbm, ⟨7, _⟩ => ⟨S64x1024, .bf16⟩
  | .local _ .vmem, ⟨0, _⟩ => ⟨S64x1024, .f32⟩
  | .local _ .vmem, ⟨1, _⟩ => ⟨S64x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S2x1024x2048, .f32⟩
  | .local _ .vmem, ⟨6, _⟩ => ⟨S2x2048x1024, .f32⟩
  | .local _ .vmem, ⟨7, _⟩ => ⟨S1024x2048, .bf16⟩
  | .local _ .vmem, ⟨8, _⟩ => ⟨S2048x1024, .bf16⟩
  | _, _ => ⟨S64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  (ofTc nBuf bufTy 1 38 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_scratch6 : Ref sig .tc := ⟨.vmem, 8, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let v5 : BitVec 32 := Scalar.remsi v4 c8_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.addi v2 c2_i32
  let c8_i32_4 : BitVec 32 := 8#32
  let v9 : BitVec 32 := Scalar.remsi v8 c8_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v12 : BitVec 32 := Scalar.addi v2 c3_i32
  let c8_i32_8 : BitVec 32 := 8#32
  let v13 : BitVec 32 := Scalar.remsi v12 c8_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 32 := Scalar.addi v2 c4_i32
  let c8_i32_12 : BitVec 32 := 8#32
  let v17 : BitVec 32 := Scalar.remsi v16 c8_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v20 : BitVec 32 := Scalar.addi v2 c5_i32
  let c8_i32_16 : BitVec 32 := 8#32
  let v21 : BitVec 32 := Scalar.remsi v20 c8_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v24 : BitVec 32 := Scalar.addi v2 c6_i32
  let c8_i32_20 : BitVec 32 := 8#32
  let v25 : BitVec 32 := Scalar.remsi v24 c8_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v28 : BitVec 32 := Scalar.addi v2 c7_i32
  let c8_i32_24 : BitVec 32 := 8#32
  let v29 : BitVec 32 := Scalar.remsi v28 c8_i32_24
  let c1_i32_26 : BitVec 32 := 1#32
  let v30 : BitVec 32 := Scalar.muli v29 c1_i32_26
  let v31 : BitVec 32 := Scalar.addi c0_i32_27 v30
  v31.toNat
def k0_off1 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32 : BitVec 32 := 64#32
  let v32 : BitVec 32 := Scalar.muli v2 c64_i32
  let v36 : Index := Scalar.indexCast v32
  let c0_30 : Index := 0#32
  ![v36.toNat, 0]
def k0_off2 (d0 : Dev nD) (c7_i32_39 : BitVec 32) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v48 : BitVec 32 := Scalar.addi v2 c7_i32_39
  let c8_i32_40 : BitVec 32 := 8#32
  let v49 : BitVec 32 := Scalar.remsi v48 c8_i32_40
  ![v49.toNat]
def k0_off3 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off4 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c64_i32 : BitVec 32 := 64#32
  let v32 : BitVec 32 := Scalar.muli v2 c64_i32
  let c0_i32_43 : BitVec 32 := 0#32
  ![v32.toNat, 0]
def k0_dev8 (d0 : Dev nD) : Nat :=
  let c0_i32_42 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_39 : BitVec 32 := 7#32
  let v48 : BitVec 32 := Scalar.addi v2 c7_i32_39
  let c8_i32_40 : BitVec 32 := 8#32
  let v49 : BitVec 32 := Scalar.remsi v48 c8_i32_40
  let c1_i32_41 : BitVec 32 := 1#32
  let v50 : BitVec 32 := Scalar.muli v49 c1_i32_41
  let v51 : BitVec 32 := Scalar.addi c0_i32_42 v50
  v51.toNat
def k0_dev9 (d0 : Dev nD) : Nat :=
  let c0_i32_48 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_45 : BitVec 32 := 6#32
  let v58 : BitVec 32 := Scalar.addi v2 c6_i32_45
  let c8_i32_46 : BitVec 32 := 8#32
  let v59 : BitVec 32 := Scalar.remsi v58 c8_i32_46
  let c1_i32_47 : BitVec 32 := 1#32
  let v60 : BitVec 32 := Scalar.muli v59 c1_i32_47
  let v61 : BitVec 32 := Scalar.addi c0_i32_48 v60
  v61.toNat
def k0_dev10 (d0 : Dev nD) : Nat :=
  let c0_i32_54 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_51 : BitVec 32 := 5#32
  let v68 : BitVec 32 := Scalar.addi v2 c5_i32_51
  let c8_i32_52 : BitVec 32 := 8#32
  let v69 : BitVec 32 := Scalar.remsi v68 c8_i32_52
  let c1_i32_53 : BitVec 32 := 1#32
  let v70 : BitVec 32 := Scalar.muli v69 c1_i32_53
  let v71 : BitVec 32 := Scalar.addi c0_i32_54 v70
  v71.toNat
def k0_dev11 (d0 : Dev nD) : Nat :=
  let c0_i32_60 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_57 : BitVec 32 := 4#32
  let v78 : BitVec 32 := Scalar.addi v2 c4_i32_57
  let c8_i32_58 : BitVec 32 := 8#32
  let v79 : BitVec 32 := Scalar.remsi v78 c8_i32_58
  let c1_i32_59 : BitVec 32 := 1#32
  let v80 : BitVec 32 := Scalar.muli v79 c1_i32_59
  let v81 : BitVec 32 := Scalar.addi c0_i32_60 v80
  v81.toNat
def k0_dev12 (d0 : Dev nD) : Nat :=
  let c0_i32_66 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_63 : BitVec 32 := 3#32
  let v88 : BitVec 32 := Scalar.addi v2 c3_i32_63
  let c8_i32_64 : BitVec 32 := 8#32
  let v89 : BitVec 32 := Scalar.remsi v88 c8_i32_64
  let c1_i32_65 : BitVec 32 := 1#32
  let v90 : BitVec 32 := Scalar.muli v89 c1_i32_65
  let v91 : BitVec 32 := Scalar.addi c0_i32_66 v90
  v91.toNat
def k0_dev13 (d0 : Dev nD) : Nat :=
  let c0_i32_72 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_69 : BitVec 32 := 2#32
  let v98 : BitVec 32 := Scalar.addi v2 c2_i32_69
  let c8_i32_70 : BitVec 32 := 8#32
  let v99 : BitVec 32 := Scalar.remsi v98 c8_i32_70
  let c1_i32_71 : BitVec 32 := 1#32
  let v100 : BitVec 32 := Scalar.muli v99 c1_i32_71
  let v101 : BitVec 32 := Scalar.addi c0_i32_72 v100
  v101.toNat
def k0_dev14 (d0 : Dev nD) : Nat :=
  let c0_i32_78 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_75 : BitVec 32 := 1#32
  let v108 : BitVec 32 := Scalar.addi v2 c1_i32_75
  let c8_i32_76 : BitVec 32 := 8#32
  let v109 : BitVec 32 := Scalar.remsi v108 c8_i32_76
  let c1_i32_77 : BitVec 32 := 1#32
  let v110 : BitVec 32 := Scalar.muli v109 c1_i32_77
  let v111 : BitVec 32 := Scalar.addi c0_i32_78 v110
  v111.toNat
def k0_off5 (d0 : Dev nD) (c1_i32_109 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v148 : BitVec 32 := Scalar.addi v2 c1_i32_109
  let c8_i32_110 : BitVec 32 := 8#32
  let v149 : BitVec 32 := Scalar.remsi v148 c8_i32_110
  let c64_i32_111 : BitVec 32 := 64#32
  let v150 : BitVec 32 := Scalar.muli v149 c64_i32_111
  let c0_i32_114 : BitVec 32 := 0#32
  ![v150.toNat, 0]
def k0_off6 (d0 : Dev nD) (c0_i32_107 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v146 : BitVec 32 := Scalar.addi v2 c0_i32_107
  let c8_i32_108 : BitVec 32 := 8#32
  let v147 : BitVec 32 := Scalar.remsi v146 c8_i32_108
  let c64_i32_116 : BitVec 32 := 64#32
  let v157 : BitVec 32 := Scalar.muli v147 c64_i32_116
  let v158 : Index := Scalar.indexCast v157
  let c0_117 : Index := 0#32
  ![v158.toNat, 0]
def k0_dev15 (d0 : Dev nD) : Nat :=
  let c0_i32_131 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_109 : BitVec 32 := 1#32
  let v148 : BitVec 32 := Scalar.addi v2 c1_i32_109
  let c8_i32_110 : BitVec 32 := 8#32
  let v149 : BitVec 32 := Scalar.remsi v148 c8_i32_110
  let c1_i32_130 : BitVec 32 := 1#32
  let v181 : BitVec 32 := Scalar.muli v149 c1_i32_130
  let v182 : BitVec 32 := Scalar.addi c0_i32_131 v181
  v182.toNat
def k0_dev16 (d0 : Dev nD) : Nat :=
  let c0_i32_164 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_134 : BitVec 32 := 2#32
  let v189 : BitVec 32 := Scalar.addi v2 c2_i32_134
  let c8_i32_135 : BitVec 32 := 8#32
  let v190 : BitVec 32 := Scalar.remsi v189 c8_i32_135
  let c1_i32_163 : BitVec 32 := 1#32
  let v230 : BitVec 32 := Scalar.muli v190 c1_i32_163
  let v231 : BitVec 32 := Scalar.addi c0_i32_164 v230
  v231.toNat
def k0_dev17 (d0 : Dev nD) : Nat :=
  let c0_i32_172 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_136 : BitVec 32 := 3#32
  let v191 : BitVec 32 := Scalar.addi v2 c3_i32_136
  let c8_i32_137 : BitVec 32 := 8#32
  let v192 : BitVec 32 := Scalar.remsi v191 c8_i32_137
  let c1_i32_171 : BitVec 32 := 1#32
  let v247 : BitVec 32 := Scalar.muli v192 c1_i32_171
  let v248 : BitVec 32 := Scalar.addi c0_i32_172 v247
  v248.toNat
def k0_dev18 (d0 : Dev nD) : Nat :=
  let c0_i32_205 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_175 : BitVec 32 := 4#32
  let v255 : BitVec 32 := Scalar.addi v2 c4_i32_175
  let c8_i32_176 : BitVec 32 := 8#32
  let v256 : BitVec 32 := Scalar.remsi v255 c8_i32_176
  let c1_i32_204 : BitVec 32 := 1#32
  let v296 : BitVec 32 := Scalar.muli v256 c1_i32_204
  let v297 : BitVec 32 := Scalar.addi c0_i32_205 v296
  v297.toNat
def k0_dev19 (d0 : Dev nD) : Nat :=
  let c0_i32_213 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_177 : BitVec 32 := 5#32
  let v257 : BitVec 32 := Scalar.addi v2 c5_i32_177
  let c8_i32_178 : BitVec 32 := 8#32
  let v258 : BitVec 32 := Scalar.remsi v257 c8_i32_178
  let c1_i32_212 : BitVec 32 := 1#32
  let v313 : BitVec 32 := Scalar.muli v258 c1_i32_212
  let v314 : BitVec 32 := Scalar.addi c0_i32_213 v313
  v314.toNat
def k0_dev20 (d0 : Dev nD) : Nat :=
  let c0_i32_246 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_216 : BitVec 32 := 6#32
  let v321 : BitVec 32 := Scalar.addi v2 c6_i32_216
  let c8_i32_217 : BitVec 32 := 8#32
  let v322 : BitVec 32 := Scalar.remsi v321 c8_i32_217
  let c1_i32_245 : BitVec 32 := 1#32
  let v362 : BitVec 32 := Scalar.muli v322 c1_i32_245
  let v363 : BitVec 32 := Scalar.addi c0_i32_246 v362
  v363.toNat
def k0_dev21 (d0 : Dev nD) : Nat :=
  let c0_i32_254 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_218 : BitVec 32 := 7#32
  let v323 : BitVec 32 := Scalar.addi v2 c7_i32_218
  let c8_i32_219 : BitVec 32 := 8#32
  let v324 : BitVec 32 := Scalar.remsi v323 c8_i32_219
  let c1_i32_253 : BitVec 32 := 1#32
  let v379 : BitVec 32 := Scalar.muli v324 c1_i32_253
  let v380 : BitVec 32 := Scalar.addi c0_i32_254 v379
  v380.toNat
def k0_dev22 (d0 : Dev nD) : Nat :=
  let c0_i32_373 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_370 : BitVec 32 := 7#32
  let v553 : BitVec 32 := Scalar.addi v2 c7_i32_370
  let c8_i32_371 : BitVec 32 := 8#32
  let v554 : BitVec 32 := Scalar.remsi v553 c8_i32_371
  let c1_i32_372 : BitVec 32 := 1#32
  let v555 : BitVec 32 := Scalar.muli v554 c1_i32_372
  let v556 : BitVec 32 := Scalar.addi c0_i32_373 v555
  v556.toNat
def k0_dev23 (d0 : Dev nD) : Nat :=
  let c0_i32_379 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_376 : BitVec 32 := 6#32
  let v563 : BitVec 32 := Scalar.addi v2 c6_i32_376
  let c8_i32_377 : BitVec 32 := 8#32
  let v564 : BitVec 32 := Scalar.remsi v563 c8_i32_377
  let c1_i32_378 : BitVec 32 := 1#32
  let v565 : BitVec 32 := Scalar.muli v564 c1_i32_378
  let v566 : BitVec 32 := Scalar.addi c0_i32_379 v565
  v566.toNat
def k0_dev24 (d0 : Dev nD) : Nat :=
  let c0_i32_385 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_382 : BitVec 32 := 5#32
  let v573 : BitVec 32 := Scalar.addi v2 c5_i32_382
  let c8_i32_383 : BitVec 32 := 8#32
  let v574 : BitVec 32 := Scalar.remsi v573 c8_i32_383
  let c1_i32_384 : BitVec 32 := 1#32
  let v575 : BitVec 32 := Scalar.muli v574 c1_i32_384
  let v576 : BitVec 32 := Scalar.addi c0_i32_385 v575
  v576.toNat
def k0_dev25 (d0 : Dev nD) : Nat :=
  let c0_i32_391 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_388 : BitVec 32 := 4#32
  let v583 : BitVec 32 := Scalar.addi v2 c4_i32_388
  let c8_i32_389 : BitVec 32 := 8#32
  let v584 : BitVec 32 := Scalar.remsi v583 c8_i32_389
  let c1_i32_390 : BitVec 32 := 1#32
  let v585 : BitVec 32 := Scalar.muli v584 c1_i32_390
  let v586 : BitVec 32 := Scalar.addi c0_i32_391 v585
  v586.toNat
def k0_dev26 (d0 : Dev nD) : Nat :=
  let c0_i32_397 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_394 : BitVec 32 := 3#32
  let v593 : BitVec 32 := Scalar.addi v2 c3_i32_394
  let c8_i32_395 : BitVec 32 := 8#32
  let v594 : BitVec 32 := Scalar.remsi v593 c8_i32_395
  let c1_i32_396 : BitVec 32 := 1#32
  let v595 : BitVec 32 := Scalar.muli v594 c1_i32_396
  let v596 : BitVec 32 := Scalar.addi c0_i32_397 v595
  v596.toNat
def k0_dev27 (d0 : Dev nD) : Nat :=
  let c0_i32_403 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_400 : BitVec 32 := 2#32
  let v603 : BitVec 32 := Scalar.addi v2 c2_i32_400
  let c8_i32_401 : BitVec 32 := 8#32
  let v604 : BitVec 32 := Scalar.remsi v603 c8_i32_401
  let c1_i32_402 : BitVec 32 := 1#32
  let v605 : BitVec 32 := Scalar.muli v604 c1_i32_402
  let v606 : BitVec 32 := Scalar.addi c0_i32_403 v605
  v606.toNat
def k0_dev28 (d0 : Dev nD) : Nat :=
  let c0_i32_409 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_406 : BitVec 32 := 1#32
  let v613 : BitVec 32 := Scalar.addi v2 c1_i32_406
  let c8_i32_407 : BitVec 32 := 8#32
  let v614 : BitVec 32 := Scalar.remsi v613 c8_i32_407
  let c1_i32_408 : BitVec 32 := 1#32
  let v615 : BitVec 32 := Scalar.muli v614 c1_i32_408
  let v616 : BitVec 32 := Scalar.addi c0_i32_409 v615
  v616.toNat
def k0_dev29 (d0 : Dev nD) : Nat :=
  let c0_i32_462 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_439 : BitVec 32 := 1#32
  let v653 : BitVec 32 := Scalar.addi v2 c1_i32_439
  let c8_i32_440 : BitVec 32 := 8#32
  let v654 : BitVec 32 := Scalar.remsi v653 c8_i32_440
  let c1_i32_461 : BitVec 32 := 1#32
  let v686 : BitVec 32 := Scalar.muli v654 c1_i32_461
  let v687 : BitVec 32 := Scalar.addi c0_i32_462 v686
  v687.toNat
def k0_dev30 (d0 : Dev nD) : Nat :=
  let c0_i32_495 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_465 : BitVec 32 := 2#32
  let v694 : BitVec 32 := Scalar.addi v2 c2_i32_465
  let c8_i32_466 : BitVec 32 := 8#32
  let v695 : BitVec 32 := Scalar.remsi v694 c8_i32_466
  let c1_i32_494 : BitVec 32 := 1#32
  let v735 : BitVec 32 := Scalar.muli v695 c1_i32_494
  let v736 : BitVec 32 := Scalar.addi c0_i32_495 v735
  v736.toNat
def k0_dev31 (d0 : Dev nD) : Nat :=
  let c0_i32_503 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_467 : BitVec 32 := 3#32
  let v696 : BitVec 32 := Scalar.addi v2 c3_i32_467
  let c8_i32_468 : BitVec 32 := 8#32
  let v697 : BitVec 32 := Scalar.remsi v696 c8_i32_468
  let c1_i32_502 : BitVec 32 := 1#32
  let v752 : BitVec 32 := Scalar.muli v697 c1_i32_502
  let v753 : BitVec 32 := Scalar.addi c0_i32_503 v752
  v753.toNat
def k0_dev32 (d0 : Dev nD) : Nat :=
  let c0_i32_536 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_506 : BitVec 32 := 4#32
  let v760 : BitVec 32 := Scalar.addi v2 c4_i32_506
  let c8_i32_507 : BitVec 32 := 8#32
  let v761 : BitVec 32 := Scalar.remsi v760 c8_i32_507
  let c1_i32_535 : BitVec 32 := 1#32
  let v801 : BitVec 32 := Scalar.muli v761 c1_i32_535
  let v802 : BitVec 32 := Scalar.addi c0_i32_536 v801
  v802.toNat
def k0_dev33 (d0 : Dev nD) : Nat :=
  let c0_i32_544 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_508 : BitVec 32 := 5#32
  let v762 : BitVec 32 := Scalar.addi v2 c5_i32_508
  let c8_i32_509 : BitVec 32 := 8#32
  let v763 : BitVec 32 := Scalar.remsi v762 c8_i32_509
  let c1_i32_543 : BitVec 32 := 1#32
  let v818 : BitVec 32 := Scalar.muli v763 c1_i32_543
  let v819 : BitVec 32 := Scalar.addi c0_i32_544 v818
  v819.toNat
def k0_dev34 (d0 : Dev nD) : Nat :=
  let c0_i32_577 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_547 : BitVec 32 := 6#32
  let v826 : BitVec 32 := Scalar.addi v2 c6_i32_547
  let c8_i32_548 : BitVec 32 := 8#32
  let v827 : BitVec 32 := Scalar.remsi v826 c8_i32_548
  let c1_i32_576 : BitVec 32 := 1#32
  let v867 : BitVec 32 := Scalar.muli v827 c1_i32_576
  let v868 : BitVec 32 := Scalar.addi c0_i32_577 v867
  v868.toNat
def k0_dev35 (d0 : Dev nD) : Nat :=
  let c0_i32_585 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_549 : BitVec 32 := 7#32
  let v828 : BitVec 32 := Scalar.addi v2 c7_i32_549
  let c8_i32_550 : BitVec 32 := 8#32
  let v829 : BitVec 32 := Scalar.remsi v828 c8_i32_550
  let c1_i32_584 : BitVec 32 := 1#32
  let v884 : BitVec 32 := Scalar.muli v829 c1_i32_584
  let v885 : BitVec 32 := Scalar.addi c0_i32_585 v884
  v885.toNat
def k0_dev36 (d0 : Dev nD) : Nat :=
  let c0_i32_704 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_701 : BitVec 32 := 7#32
  let v1058 : BitVec 32 := Scalar.addi v2 c7_i32_701
  let c8_i32_702 : BitVec 32 := 8#32
  let v1059 : BitVec 32 := Scalar.remsi v1058 c8_i32_702
  let c1_i32_703 : BitVec 32 := 1#32
  let v1060 : BitVec 32 := Scalar.muli v1059 c1_i32_703
  let v1061 : BitVec 32 := Scalar.addi c0_i32_704 v1060
  v1061.toNat
def k0_dev37 (d0 : Dev nD) : Nat :=
  let c0_i32_710 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_707 : BitVec 32 := 6#32
  let v1068 : BitVec 32 := Scalar.addi v2 c6_i32_707
  let c8_i32_708 : BitVec 32 := 8#32
  let v1069 : BitVec 32 := Scalar.remsi v1068 c8_i32_708
  let c1_i32_709 : BitVec 32 := 1#32
  let v1070 : BitVec 32 := Scalar.muli v1069 c1_i32_709
  let v1071 : BitVec 32 := Scalar.addi c0_i32_710 v1070
  v1071.toNat
def k0_dev38 (d0 : Dev nD) : Nat :=
  let c0_i32_716 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_713 : BitVec 32 := 5#32
  let v1078 : BitVec 32 := Scalar.addi v2 c5_i32_713
  let c8_i32_714 : BitVec 32 := 8#32
  let v1079 : BitVec 32 := Scalar.remsi v1078 c8_i32_714
  let c1_i32_715 : BitVec 32 := 1#32
  let v1080 : BitVec 32 := Scalar.muli v1079 c1_i32_715
  let v1081 : BitVec 32 := Scalar.addi c0_i32_716 v1080
  v1081.toNat
def k0_dev39 (d0 : Dev nD) : Nat :=
  let c0_i32_722 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_719 : BitVec 32 := 4#32
  let v1088 : BitVec 32 := Scalar.addi v2 c4_i32_719
  let c8_i32_720 : BitVec 32 := 8#32
  let v1089 : BitVec 32 := Scalar.remsi v1088 c8_i32_720
  let c1_i32_721 : BitVec 32 := 1#32
  let v1090 : BitVec 32 := Scalar.muli v1089 c1_i32_721
  let v1091 : BitVec 32 := Scalar.addi c0_i32_722 v1090
  v1091.toNat
def k0_dev40 (d0 : Dev nD) : Nat :=
  let c0_i32_728 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_725 : BitVec 32 := 3#32
  let v1098 : BitVec 32 := Scalar.addi v2 c3_i32_725
  let c8_i32_726 : BitVec 32 := 8#32
  let v1099 : BitVec 32 := Scalar.remsi v1098 c8_i32_726
  let c1_i32_727 : BitVec 32 := 1#32
  let v1100 : BitVec 32 := Scalar.muli v1099 c1_i32_727
  let v1101 : BitVec 32 := Scalar.addi c0_i32_728 v1100
  v1101.toNat
def k0_dev41 (d0 : Dev nD) : Nat :=
  let c0_i32_734 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_731 : BitVec 32 := 2#32
  let v1108 : BitVec 32 := Scalar.addi v2 c2_i32_731
  let c8_i32_732 : BitVec 32 := 8#32
  let v1109 : BitVec 32 := Scalar.remsi v1108 c8_i32_732
  let c1_i32_733 : BitVec 32 := 1#32
  let v1110 : BitVec 32 := Scalar.muli v1109 c1_i32_733
  let v1111 : BitVec 32 := Scalar.addi c0_i32_734 v1110
  v1111.toNat
def k0_dev42 (d0 : Dev nD) : Nat :=
  let c0_i32_740 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_737 : BitVec 32 := 1#32
  let v1118 : BitVec 32 := Scalar.addi v2 c1_i32_737
  let c8_i32_738 : BitVec 32 := 8#32
  let v1119 : BitVec 32 := Scalar.remsi v1118 c8_i32_738
  let c1_i32_739 : BitVec 32 := 1#32
  let v1120 : BitVec 32 := Scalar.muli v1119 c1_i32_739
  let v1121 : BitVec 32 := Scalar.addi c0_i32_740 v1120
  v1121.toNat
def k0_dev43 (d0 : Dev nD) : Nat :=
  let c0_i32_786 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_763 : BitVec 32 := 1#32
  let v1150 : BitVec 32 := Scalar.addi v2 c1_i32_763
  let c8_i32_764 : BitVec 32 := 8#32
  let v1151 : BitVec 32 := Scalar.remsi v1150 c8_i32_764
  let c1_i32_785 : BitVec 32 := 1#32
  let v1183 : BitVec 32 := Scalar.muli v1151 c1_i32_785
  let v1184 : BitVec 32 := Scalar.addi c0_i32_786 v1183
  v1184.toNat
def k0_dev44 (d0 : Dev nD) : Nat :=
  let c0_i32_819 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_789 : BitVec 32 := 2#32
  let v1191 : BitVec 32 := Scalar.addi v2 c2_i32_789
  let c8_i32_790 : BitVec 32 := 8#32
  let v1192 : BitVec 32 := Scalar.remsi v1191 c8_i32_790
  let c1_i32_818 : BitVec 32 := 1#32
  let v1232 : BitVec 32 := Scalar.muli v1192 c1_i32_818
  let v1233 : BitVec 32 := Scalar.addi c0_i32_819 v1232
  v1233.toNat
def k0_dev45 (d0 : Dev nD) : Nat :=
  let c0_i32_827 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_791 : BitVec 32 := 3#32
  let v1193 : BitVec 32 := Scalar.addi v2 c3_i32_791
  let c8_i32_792 : BitVec 32 := 8#32
  let v1194 : BitVec 32 := Scalar.remsi v1193 c8_i32_792
  let c1_i32_826 : BitVec 32 := 1#32
  let v1249 : BitVec 32 := Scalar.muli v1194 c1_i32_826
  let v1250 : BitVec 32 := Scalar.addi c0_i32_827 v1249
  v1250.toNat
def k0_dev46 (d0 : Dev nD) : Nat :=
  let c0_i32_860 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_830 : BitVec 32 := 4#32
  let v1257 : BitVec 32 := Scalar.addi v2 c4_i32_830
  let c8_i32_831 : BitVec 32 := 8#32
  let v1258 : BitVec 32 := Scalar.remsi v1257 c8_i32_831
  let c1_i32_859 : BitVec 32 := 1#32
  let v1298 : BitVec 32 := Scalar.muli v1258 c1_i32_859
  let v1299 : BitVec 32 := Scalar.addi c0_i32_860 v1298
  v1299.toNat
def k0_dev47 (d0 : Dev nD) : Nat :=
  let c0_i32_868 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_832 : BitVec 32 := 5#32
  let v1259 : BitVec 32 := Scalar.addi v2 c5_i32_832
  let c8_i32_833 : BitVec 32 := 8#32
  let v1260 : BitVec 32 := Scalar.remsi v1259 c8_i32_833
  let c1_i32_867 : BitVec 32 := 1#32
  let v1315 : BitVec 32 := Scalar.muli v1260 c1_i32_867
  let v1316 : BitVec 32 := Scalar.addi c0_i32_868 v1315
  v1316.toNat
def k0_dev48 (d0 : Dev nD) : Nat :=
  let c0_i32_901 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_871 : BitVec 32 := 6#32
  let v1323 : BitVec 32 := Scalar.addi v2 c6_i32_871
  let c8_i32_872 : BitVec 32 := 8#32
  let v1324 : BitVec 32 := Scalar.remsi v1323 c8_i32_872
  let c1_i32_900 : BitVec 32 := 1#32
  let v1364 : BitVec 32 := Scalar.muli v1324 c1_i32_900
  let v1365 : BitVec 32 := Scalar.addi c0_i32_901 v1364
  v1365.toNat
def k0_dev49 (d0 : Dev nD) : Nat :=
  let c0_i32_909 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_873 : BitVec 32 := 7#32
  let v1325 : BitVec 32 := Scalar.addi v2 c7_i32_873
  let c8_i32_874 : BitVec 32 := 8#32
  let v1326 : BitVec 32 := Scalar.remsi v1325 c8_i32_874
  let c1_i32_908 : BitVec 32 := 1#32
  let v1381 : BitVec 32 := Scalar.muli v1326 c1_i32_908
  let v1382 : BitVec 32 := Scalar.addi c0_i32_909 v1381
  v1382.toNat
abbrev stage0_0 : Fin 1 → Memref sig .tc .vmem S64x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  hamt_7 : (7#32 : BitVec 32).msb = false
  inb_S64x1024_S64x1024_0_0 : ∀ a, (![0, 0] : Fin 2 → Nat) a + S64x1024.size a ≤ S64x1024.size a
  h_S64x1024 : 0 < S64x1024.numel
  shapeCasts_S64x1024_S64x1024 : S64x1024.ShapeCasts S64x1024
  bitsLt_bf16_f32 : FTy.bits .bf16 < FTy.bits .f32
  inb_S4_S1_0 : ∀ a, (![0] : Fin 1 → Nat) a + S1.size a ≤ S4.size a
  squeezes_S1_S_ : S1.Squeezes S_
  inb_S2x1024x2048_S1x1024x2048_0_0_0 : ∀ a, (![0, 0, 0] : Fin 3 → Nat) a + S1x1024x2048.size a ≤ S2x1024x2048.size a
  squeezes_S1x1024x2048_S1024x2048 : S1x1024x2048.Squeezes S1024x2048
  inb_S4_S1_1 : ∀ a, (![1] : Fin 1 → Nat) a + S1.size a ≤ S4.size a
  inb_S2x2048x1024_S1x2048x1024_0_0_0 : ∀ a, (![0, 0, 0] : Fin 3 → Nat) a + S1x2048x1024.size a ≤ S2x2048x1024.size a
  squeezes_S1x2048x1024_S2048x1024 : S1x2048x1024.Squeezes S2048x1024
  h_S1x1024x2048 : 0 < S1x1024x2048.numel
  shapeCasts_S1x1024x2048_S1024x2048 : S1x1024x2048.ShapeCasts S1024x2048
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  packedbf16_S1024x2048_S1024x2048_0_0 : (Rect.unit (s := S1024x2048) ![0, 0] S1024x2048.size inb_S1024x2048_S1024x2048_0_0).PackedRows (EltTy.packing .bf16)
  h_S1x2048x1024 : 0 < S1x2048x1024.numel
  shapeCasts_S1x2048x1024_S2048x1024 : S1x2048x1024.ShapeCasts S2048x1024
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  packedbf16_S2048x1024_S2048x1024_0_0 : (Rect.unit (s := S2048x1024) ![0, 0] S2048x1024.size inb_S2048x1024_S2048x1024_0_0).PackedRows (EltTy.packing .bf16)
  inb_S4_S1_2 : ∀ a, (![2] : Fin 1 → Nat) a + S1.size a ≤ S4.size a
  inb_S2x1024x2048_S1x1024x2048_1_0_0 : ∀ a, (![1, 0, 0] : Fin 3 → Nat) a + S1x1024x2048.size a ≤ S2x1024x2048.size a
  inb_S4_S1_3 : ∀ a, (![3] : Fin 1 → Nat) a + S1.size a ≤ S4.size a
  inb_S2x2048x1024_S1x2048x1024_1_0_0 : ∀ a, (![1, 0, 0] : Fin 3 → Nat) a + S1x2048x1024.size a ≤ S2x2048x1024.size a
  concatenates_S64x1024_S64x1024_S128x1024_d0 : Shape.Concatenates [S64x1024, S64x1024] S128x1024 0
  slices_S128x1024_o0_0_S64x1024 : S128x1024.Slices ![0, 0] S64x1024
  slices_S128x1024_o64_0_S64x1024 : S128x1024.Slices ![64, 0] S64x1024
  packedbf16_S64x1024_S64x1024_0_0 : (Rect.unit (s := S64x1024) ![0, 0] S64x1024.size inb_S64x1024_S64x1024_0_0).PackedRows (EltTy.packing .bf16)
  dot_S128x1024_S1024x2048_S128x2048_1_0_0_1_n_n_wf : DotDims.WF S128x1024 S1024x2048 S128x2048 [1] [0] [0] [1] [] []
  dot_S128x2048_S2048x1024_S128x1024_1_0_0_1_n_n_wf : DotDims.WF S128x2048 S2048x1024 S128x1024 [1] [0] [0] [1] [] []
  hcc0_scratch7 : 2 + S8.numel ≤ 38
  hcc0_scratch8 : 10 + S8.numel ≤ 38
  hcc0_scratch9 : 18 + S8.numel ≤ 38
  hcc0_scratch10 : 26 + S8.numel ≤ 38
  hcc0_scratch11 : 34 + S4.numel ≤ 38
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_off1_inb : ∀ d0 : Dev nD, ∀ a, (k0_off1 d0) a + S64x1024.size a ≤ S512x1024.size a
  k0_off1_packedbf16 : ∀ d0 : Dev nD, (Rect.unit (s := S512x1024) (k0_off1 d0) S64x1024.size (k0_off1_inb d0)).PackedRows (EltTy.packing .bf16)
  k0_off2_inb : ∀ d0 : Dev nD, ∀ (r : Fin 7), ∀ a, (k0_off2 d0 (BitVec.ofNat 32 (1 + r.val))) a + S1.size a ≤ S8.size a
  k0_off3_inb : ∀ d0 : Dev nD, ∀ a, (k0_off3 d0) a + S1.size a ≤ S8.size a
  k0_off4_inb : ∀ d0 : Dev nD, ∀ a, (k0_off4 d0) a + S64x1024.size a ≤ S512x1024.size a
  k0_off4_wordsbf16 : ∀ d0 : Dev nD, (Rect.unit (s := S512x1024) (k0_off4 d0) S64x1024.size (k0_off4_inb d0)).WholeWords (EltTy.packing .bf16)
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_off5_inb : ∀ d0 : Dev nD, ∀ (r : Fin 7), ∀ a, (k0_off5 d0 (BitVec.ofNat 32 (1 + r.val))) a + S64x1024.size a ≤ S512x1024.size a
  k0_off5_wordsbf16 : ∀ d0 : Dev nD, ∀ (r : Fin 7), (Rect.unit (s := S512x1024) (k0_off5 d0 (BitVec.ofNat 32 (1 + r.val))) S64x1024.size (k0_off5_inb d0 r)).WholeWords (EltTy.packing .bf16)
  k0_off6_inb : ∀ d0 : Dev nD, ∀ (r : Fin 8), ∀ a, (k0_off6 d0 (BitVec.ofNat 32 r.val)) a + S64x1024.size a ≤ S512x1024.size a
  k0_off6_packedbf16 : ∀ d0 : Dev nD, ∀ (r : Fin 8), (Rect.unit (s := S512x1024) (k0_off6 d0 (BitVec.ofNat 32 r.val)) S64x1024.size (k0_off6_inb d0 r)).PackedRows (EltTy.packing .bf16)
  k0_dev15_lt : ∀ d0 : Dev nD, (k0_dev15 d0) < nD
  k0_dev16_lt : ∀ d0 : Dev nD, (k0_dev16 d0) < nD
  k0_dev17_lt : ∀ d0 : Dev nD, (k0_dev17 d0) < nD
  k0_dev18_lt : ∀ d0 : Dev nD, (k0_dev18 d0) < nD
  k0_dev19_lt : ∀ d0 : Dev nD, (k0_dev19 d0) < nD
  k0_dev20_lt : ∀ d0 : Dev nD, (k0_dev20 d0) < nD
  k0_dev21_lt : ∀ d0 : Dev nD, (k0_dev21 d0) < nD
  k0_dev22_lt : ∀ d0 : Dev nD, (k0_dev22 d0) < nD
  k0_dev23_lt : ∀ d0 : Dev nD, (k0_dev23 d0) < nD
  k0_dev24_lt : ∀ d0 : Dev nD, (k0_dev24 d0) < nD
  k0_dev25_lt : ∀ d0 : Dev nD, (k0_dev25 d0) < nD
  k0_dev26_lt : ∀ d0 : Dev nD, (k0_dev26 d0) < nD
  k0_dev27_lt : ∀ d0 : Dev nD, (k0_dev27 d0) < nD
  k0_dev28_lt : ∀ d0 : Dev nD, (k0_dev28 d0) < nD
  k0_dev29_lt : ∀ d0 : Dev nD, (k0_dev29 d0) < nD
  k0_dev30_lt : ∀ d0 : Dev nD, (k0_dev30 d0) < nD
  k0_dev31_lt : ∀ d0 : Dev nD, (k0_dev31 d0) < nD
  k0_dev32_lt : ∀ d0 : Dev nD, (k0_dev32 d0) < nD
  k0_dev33_lt : ∀ d0 : Dev nD, (k0_dev33 d0) < nD
  k0_dev34_lt : ∀ d0 : Dev nD, (k0_dev34 d0) < nD
  k0_dev35_lt : ∀ d0 : Dev nD, (k0_dev35 d0) < nD
  k0_dev36_lt : ∀ d0 : Dev nD, (k0_dev36 d0) < nD
  k0_dev37_lt : ∀ d0 : Dev nD, (k0_dev37 d0) < nD
  k0_dev38_lt : ∀ d0 : Dev nD, (k0_dev38 d0) < nD
  k0_dev39_lt : ∀ d0 : Dev nD, (k0_dev39 d0) < nD
  k0_dev40_lt : ∀ d0 : Dev nD, (k0_dev40 d0) < nD
  k0_dev41_lt : ∀ d0 : Dev nD, (k0_dev41 d0) < nD
  k0_dev42_lt : ∀ d0 : Dev nD, (k0_dev42 d0) < nD
  k0_dev43_lt : ∀ d0 : Dev nD, (k0_dev43 d0) < nD
  k0_dev44_lt : ∀ d0 : Dev nD, (k0_dev44 d0) < nD
  k0_dev45_lt : ∀ d0 : Dev nD, (k0_dev45 d0) < nD
  k0_dev46_lt : ∀ d0 : Dev nD, (k0_dev46 d0) < nD
  k0_dev47_lt : ∀ d0 : Dev nD, (k0_dev47 d0) < nD
  k0_dev48_lt : ∀ d0 : Dev nD, (k0_dev48 d0) < nD
  k0_dev49_lt : ∀ d0 : Dev nD, (k0_dev49 d0) < nD
  hstage0_0 : ∀ j, (stage0_0 j).IsWhole
  hstage0_1 : ∀ j, (stage0_1 j).IsWhole

variable [Facts₀]

abbrev cc0_scratch7 : DmaSems sig S8 := SemArray.consecutive 2 S8 hcc0_scratch7
abbrev cc0_scratch8 : DmaSems sig S8 := SemArray.consecutive 10 S8 hcc0_scratch8
abbrev cc0_scratch9 : DmaSems sig S8 := SemArray.consecutive 18 S8 hcc0_scratch9
abbrev cc0_scratch10 : DmaSems sig S8 := SemArray.consecutive 26 S8 hcc0_scratch10
abbrev cc0_scratch11 : DmaSems sig S4 := SemArray.consecutive 34 S4 hcc0_scratch11
def dot_S128x1024_S1024x2048_S128x2048_1_0_0_1_n_n : DotDims S128x1024 S1024x2048 S128x2048 where
  lhsContracting := [1]
  rhsContracting := [0]
  lhsNonContracting := [0]
  rhsNonContracting := [1]
  lhsBatch := []
  rhsBatch := []
  wf := dot_S128x1024_S1024x2048_S128x2048_1_0_0_1_n_n_wf
def dot_S128x2048_S2048x1024_S128x1024_1_0_0_1_n_n : DotDims S128x2048 S2048x1024 S128x1024 where
  lhsContracting := [1]
  rhsContracting := [0]
  lhsNonContracting := [0]
  rhsNonContracting := [1]
  lhsBatch := []
  rhsBatch := []
  wf := dot_S128x2048_S2048x1024_S128x1024_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S512x1024 : Shape := ⟨2, ![512, 1024]⟩
abbrev S1024x16384 : Shape := ⟨2, ![1024, 16384]⟩
abbrev S16384x1024 : Shape := ⟨2, ![16384, 1024]⟩
abbrev S512x16384 : Shape := ⟨2, ![512, 16384]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S1024x16384, .f32⟩
  | .hbm, ⟨2, _⟩ => ⟨S16384x1024, .f32⟩
  | .hbm, ⟨3, _⟩ => ⟨S1024x16384, .f32⟩
  | .hbm, ⟨4, _⟩ => ⟨S16384x1024, .f32⟩
  | .hbm, ⟨5, _⟩ => ⟨S1024x16384, .f32⟩
  | .hbm, ⟨6, _⟩ => ⟨S16384x1024, .f32⟩
  | .hbm, ⟨7, _⟩ => ⟨S512x16384, .f32⟩
  | .hbm, ⟨8, _⟩ => ⟨S_, .f32⟩
  | .hbm, ⟨9, _⟩ => ⟨S512x16384, .f32⟩
  | .hbm, ⟨10, _⟩ => ⟨S512x16384, .f32⟩
  | .hbm, ⟨11, _⟩ => ⟨S512x1024, .f32⟩
  | .hbm, ⟨12, _⟩ => ⟨S512x16384, .f32⟩
  | .hbm, ⟨13, _⟩ => ⟨S_, .f32⟩
  | .hbm, ⟨14, _⟩ => ⟨S512x16384, .f32⟩
  | .hbm, ⟨15, _⟩ => ⟨S512x16384, .f32⟩
  | .hbm, ⟨16, _⟩ => ⟨S512x1024, .f32⟩
  | .hbm, ⟨17, _⟩ => ⟨S512x16384, .f32⟩
  | .hbm, ⟨18, _⟩ => ⟨S_, .f32⟩
  | .hbm, ⟨19, _⟩ => ⟨S512x16384, .f32⟩
  | .hbm, ⟨20, _⟩ => ⟨S512x16384, .f32⟩
  | .hbm, ⟨21, _⟩ => ⟨S512x1024, .f32⟩
  | .hbm, ⟨22, _⟩ => ⟨S512x1024, .bf16⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩

abbrev nD : Nat := 1
abbrev τ : Topo := Topo.v7x

variable {F : FTy → Type} [FloatOps F]

class Facts₀ : Prop where
  bcast_S_S512x16384 : S_.BroadcastsInDim S512x16384 (![] : Fin 0 → Fin S512x16384.rank)
  bitsLt_bf16_f32 : FTy.bits .bf16 < FTy.bits .f32
  dot_S512x1024_S1024x16384_S512x16384_1_0_0_1_n_n_wf : DotDims.WF S512x1024 S1024x16384 S512x16384 [1] [0] [0] [1] [] []
  dot_S512x16384_S16384x1024_S512x1024_1_0_0_1_n_n_wf : DotDims.WF S512x16384 S16384x1024 S512x1024 [1] [0] [0] [1] [] []

variable [Facts₀]

def dot_S512x1024_S1024x16384_S512x16384_1_0_0_1_n_n : DotDims S512x1024 S1024x16384 S512x16384 where
  lhsContracting := [1]
  rhsContracting := [0]
  lhsNonContracting := [0]
  rhsNonContracting := [1]
  lhsBatch := []
  rhsBatch := []
  wf := dot_S512x1024_S1024x16384_S512x16384_1_0_0_1_n_n_wf
def dot_S512x16384_S16384x1024_S512x1024_1_0_0_1_n_n : DotDims S512x16384 S16384x1024 S512x1024 where
  lhsContracting := [1]
  rhsContracting := [0]
  lhsNonContracting := [0]
  rhsNonContracting := [1]
  lhsBatch := []
  rhsBatch := []
  wf := dot_S512x16384_S16384x1024_S512x1024_1_0_0_1_n_n_wf

class Facts : Prop extends Facts₀ where

variable [Facts]
-- ==== Proof.KI.Spec.lean ====
import proofs.«900981_g7700000000000982_dist_mlpseq_tp1d_bs_bs_b64_d1024_h2048_v7x_i8_bf16_1_alg».proof.Proof.Gen.KernelIdeal.Skeleton

noncomputable section

namespace Cert.KernelIdeal.Spec

open Idealize.ShloMosaic Cert.KernelIdeal Cert.KernelIdeal.Gen

variable {F : FTy → Type} [FloatOps F]

def peer (c : Dev nD) (o : ℕ) : Dev nD := ⟨(c.val + o) % 8, Nat.mod_lt _ (by decide)⟩

abbrev Chunk (F : FTy → Type) := Vec F S64x1024 .bf16
abbrev WIn (F : FTy → Type) := Vec F S1024x2048 .bf16
abbrev WOut (F : FTy → Type) := Vec F S2048x1024 .bf16

def keep (a b : Chunk F) (wi : WIn F) (wo : WOut F) : FVec F S64x1024 .f32 := k0_pay6 a b wi wo

def upper (a b : Chunk F) (wi : WIn F) (wo : WOut F) : FVec F S64x1024 .bf16 := k0_pay17 a b wi wo

def lower (a b : Chunk F) (wi : WIn F) (wo : WOut F) : FVec F S64x1024 .bf16 := k0_pay7 a b wi wo

def plus (acc : FVec F S64x1024 .f32) (v : Chunk F) : FVec F S64x1024 .f32 := k0_pay63 acc v

section Layer
variable (X : Dev nD → Chunk F) (wi : Dev nD → WIn F) (wo : Dev nD → WOut F)

def piece (j : Dev nD) (d : ℕ) : Chunk F :=
  if d % 2 = 1 then lower (X (peer j (d - 1))) (X (peer j d)) (wi j) (wo j)
  else upper (X (peer j d)) (X (peer j (d + 1))) (wi j) (wo j)

def own (c : Dev nD) : FVec F S64x1024 .f32 := keep (X c) (X (peer c 1)) (wi c) (wo c)

def res (c : Dev nD) : FVec F S64x1024 .f32 :=
  plus (plus (plus (plus (plus (plus (plus (own X wi wo c)
    (piece X wi wo (peer c 7) 1)) (piece X wi wo (peer c 6) 2)) (piece X wi wo (peer c 5) 3)) (piece X wi wo (peer c 4) 4))
    (piece X wi wo (peer c 3) 5)) (piece X wi wo (peer c 2) 6)) (piece X wi wo (peer c 1) 7)

def next (c : Dev nD) : Chunk F := k0_pay23 (res X wi wo c)

end Layer

structure Params (F : FTy → Type) where
  x0 : Dev nD → Chunk F
  wi : Fin 3 → Dev nD → WIn F
  wo : Fin 3 → Dev nD → WOut F

variable (P : Params F)

def X1 : Dev nD → Chunk F := next P.x0 (P.wi 0) (P.wo 0)
def X2 : Dev nD → Chunk F := next (X1 P) (P.wi 1) (P.wo 1)

def XL : ℕ → Dev nD → Chunk F
  | 0 => P.x0
  | 1 => X1 P
  | _ => X2 P

def out (c : Dev nD) : FVec F S64x1024 .bf16 := k0_pay1 (res (X2 P) (P.wi 2) (P.wo 2) c)

def narrowIn (w : Vec F S1024x2048 .f32) : WIn F := truncf .bf16 w (by decide)
def narrowOut (w : Vec F S2048x1024 .f32) : WOut F := truncf .bf16 w (by decide)

def paramsOf (b0 : Dev nD → Vec F S64x1024 .f32)
    (w1 : Dev nD → Vec F S1024x2048 .f32) (w2 : Dev nD → Vec F S2048x1024 .f32)
    (w3 : Dev nD → Vec F S1024x2048 .f32) (w4 : Dev nD → Vec F S2048x1024 .f32)
    (w5 : Dev nD → Vec F S1024x2048 .f32) (w6 : Dev nD → Vec F S2048x1024 .f32) : Params F where
  x0 c := k0_pay2 (b0 c)
  wi l c := narrowIn (match l with | 0 => w1 c | 1 => w3 c | 2 => w5 c)
  wo l c := narrowOut (match l with | 0 => w2 c | 1 => w4 c | 2 => w6 c)

end Cert.KernelIdeal.Spec

end
-- ==== Proof.KI.Proto.lean ====
import proofs.«900981_g7700000000000982_dist_mlpseq_tp1d_bs_bs_b64_d1024_h2048_v7x_i8_bf16_1_alg».proof.Proof.KI.Spec
import proofs.«900981_g7700000000000982_dist_mlpseq_tp1d_bs_bs_b64_d1024_h2048_v7x_i8_bf16_1_alg».proof.Proof.Gen.KernelIdeal.Frame
import Idealize.ShloMosaic.Lib.Pipeline.Launch
import Idealize.ShloMosaic.Lib.Pipeline.Kit
import Idealize.ShloMosaic.Lib.Tactic
import Idealize.ShloMosaic.Lib.ValueIdx

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) (Dev nD)
abbrev UU : Type := UR sig nD τ × (UB × Counters)

local notation "𝕄" => MT nD τ sig ℕ (Elt F) ℕ UU ℕ

abbrev EP : Emb (UR sig nD τ) (MT nD τ sig ℕ (Elt F) ℕ UU ℕ) := embL
def ER : Emb UB (MT nD τ sig ℕ (Elt F) ℕ UU ℕ) := (Emb.inl : Emb UB (UB × Counters)).trans embR

instance ER_landsIn : (ER (F := F)).LandsIn (upEmb : UEmb _ (MT nD τ sig ℕ (Elt F) ℕ UU ℕ)) := by
  unfold ER embR; infer_instance

variable (m : (ℓ : Loc nD τ sig) → Buf (Elt F) ℓ)

def dist (t k : Dev nD) : ℕ := (k.val + 8 - t.val) % 8

theorem peer_dist (t k : Dev nD) : Spec.peer t (dist t k) = k := by revert t k; decide
theorem dist_peer (t : Dev nD) (o : Fin 8) : dist t (Spec.peer t o.val) = o.val := by revert t o; decide

theorem nds : sig.nDmaSem = 38 := rfl

def dsem (a : Fin 4) (k : Dev nD) : DmaSem sig :=
  ⟨2 + 8 * a.val + k.val, by have := nds; have h1 : a.val < 4 := a.isLt; have h2 : k.val < 8 := k.isLt; omega⟩

abbrev barS : Sem sig := (SemArray.scalar (sig.barrier 0 rfl) : Sems sig S_).sem

abbrev cell (t : Dev nD) (a : Fin 4) (k : Dev nD) : GSem nD τ sig := ((t : Thread nD τ), .dma (dsem a k))
abbrev barCell (t : Dev nD) : GSem nD τ sig := ((t : Thread nD τ), .reg barS)

def semA (q : DmaSem sig) : ℕ := (q.val - 2) / 8
def semK (q : DmaSem sig) : Dev nD := ⟨(q.val - 2) % 8, Nat.mod_lt _ (by decide)⟩

theorem semA_dsem (a : Fin 4) (k : Dev nD) : semA (dsem a k) = a.val := by
  have h2 : k.val < 8 := k.isLt
  show (2 + 8 * a.val + k.val - 2) / 8 = a.val
  omega
theorem semK_dsem (a : Fin 4) (k : Dev nD) : semK (dsem a k) = k := by
  have h2 : k.val < 8 := k.isLt
  apply Fin.ext
  show (2 + 8 * a.val + k.val - 2) % 8 = k.val
  omega

abbrev xfM : Memref sig .tc .vmem S512x1024 .bf16 := Memref.whole cc0_scratch0
abbrev rsM : Memref sig .tc .vmem S512x1024 .bf16 := Memref.whole cc0_scratch1
abbrev rrM : Memref sig .tc .vmem S512x1024 .bf16 := Memref.whole cc0_scratch2

theorem chunk_inb (k : Dev nD) : ∀ a : Fin 2, (![64 * k.val, 0] : Fin 2 → ℕ) a + S64x1024.size a ≤ S512x1024.size a := by
  revert k; decide

abbrev chunkM (M : Memref sig .tc .vmem S512x1024 .bf16) (k : Dev nD) : Memref sig .tc .vmem S64x1024 .bf16 :=
  M.slice (Rect.unit (s := S512x1024) ![64 * k.val, 0] S64x1024.size (chunk_inb k)) (fun _ => rfl)

def slot (M : Memref sig .tc .vmem S512x1024 .bf16) (t k : Dev nD) : sProp 𝕄 :=
  iprop(∃ f : Buf (Elt F) ((chunkM M k).view.loc (t : Thread nD τ)),
    ((chunkM M k).view.loc (t : Thread nD τ) ↦[(chunkM M k).view.set]{fullShare} f))

abbrev N : ℕ := (chunkM xfM 0).view.dmaCredit

def rpow : ℕ → PosShare TreeShare
  | 0 => fullShare
  | n + 1 => (rpow n).right

def agShare (o : ℕ) : PosShare TreeShare := (rpow (7 - o)).left
def keepShare : PosShare TreeShare := rpow 7

def xin (c : Dev nD) : Vec F S64x1024 .f32 :=
  (win0_0.blk (0 : Fin 1)).view.read (Elt F) (m ((c : Thread nD τ).loc main_arg0))

def par : Spec.Params F :=
  Spec.paramsOf (fun c => xin m c)
    (fun c => m ((c : Thread nD τ).loc main_arg1)) (fun c => m ((c : Thread nD τ).loc main_arg2))
    (fun c => m ((c : Thread nD τ).loc main_arg3)) (fun c => m ((c : Thread nD τ).loc main_arg4))
    (fun c => m ((c : Thread nD τ).loc main_arg5)) (fun c => m ((c : Thread nD τ).loc main_arg6))

def lf (l : ℕ) : Fin 3 := ⟨min l 2, by omega⟩

def XL (l : ℕ) (k : Dev nD) : Spec.Chunk F := Spec.XL (par m) l k

def RP (l : ℕ) (j dest : Dev nD) : Spec.Chunk F :=
  Spec.piece (Spec.XL (par m) l) ((par m).wi (lf l)) ((par m).wo (lf l)) j (dist j dest)

theorem row_div (i : S512x1024.Idx) : (i 0).val / 64 < 8 := by
  have h : (i 0).val < 512 := (i 0).isLt
  omega
theorem row_mod (i : S512x1024.Idx) : (i 0).val % 64 < 64 := Nat.mod_lt _ (by decide)

def rows (v : Dev nD → Spec.Chunk F) : (cc0_scratch0 : Ref sig .tc).ty.Contents (Elt F) :=
  fun i => v ⟨(i 0).val / 64, row_div i⟩ (ValueIdx.ix2 ⟨(i 0).val % 64, row_mod i⟩ (i 1))

def xfAll (l : ℕ) : (cc0_scratch0 : Ref sig .tc).ty.Contents (Elt F) := rows (fun k => XL m l k)

def rsAll (l : ℕ) (t : Dev nD) : (cc0_scratch1 : Ref sig .tc).ty.Contents (Elt F) := rows (fun k => RP m l t k)

def rrAll (l : ℕ) (t : Dev nD) : (cc0_scratch2 : Ref sig .tc).ty.Contents (Elt F) := rows (fun k => RP m l k t)

abbrev pts (M : Memref sig .tc .vmem S512x1024 .bf16) (t k : Dev nD) (q : PosShare TreeShare)
    (f : Buf (Elt F) ((chunkM M k).view.loc (t : Thread nD τ))) : sProp 𝕄 :=
  (chunkM M k).view.loc (t : Thread nD τ) ↦[(chunkM M k).view.set]{q} f

def barPay (t j : Dev nD) : sProp 𝕄 := iprop(slot (F := F) xfM j t ∗ slot (F := F) rrM j t)

def agSendPay (t k : Dev nD) (l : ℕ) : sProp 𝕄 := pts xfM t t (agShare (dist t k)) (xfAll m l)

def agRecvPay (t k : Dev nD) (l : ℕ) : sProp 𝕄 :=
  iprop(pts xfM t k fullShare (xfAll m l)
    ∗ (if 1 ≤ l then iprop(slot (F := F) rrM k t ∗ reached ER (cell k 3 t) l) else iprop(emp)))

def rsSendPay (t k : Dev nD) (l : ℕ) : sProp 𝕄 := pts rsM t k fullShare (rsAll m l t)

def rsRecvPay (t k : Dev nD) (l : ℕ) : sProp 𝕄 :=
  iprop(pts rrM t k fullShare (rrAll m l t)
    ∗ (if l < 2 then iprop(slot (F := F) xfM k t ∗ reached ER (cell k 1 t) (l + 1)) else iprop(emp)))

def dataPay (t : Dev nD) (a : ℕ) (k : Dev nD) (l : ℕ) : sProp 𝕄 :=
  match a with
  | 0 => agSendPay m t k l
  | 1 => agRecvPay m t k l
  | 2 => rsSendPay m t k l
  | _ => rsRecvPay m t k l

abbrev IsBar (g : GSem nD τ sig) : Prop := g.1.2 = .tc ∧ g.2 = .reg barS

def IsData (g : GSem nD τ sig) : Prop :=
  g.1.2 = .tc ∧ ∃ q, g.2 = .dma q ∧ 2 ≤ q.val ∧ q.val < 34 ∧ semK q ≠ g.1.1

instance (g : GSem nD τ sig) : Decidable (IsData g) := by
  unfold IsData
  cases h : g.2 with
  | reg s => exact isFalse (fun ⟨_, q, hq, _⟩ => by cases hq)
  | dma q' =>
    exact decidable_of_iff (g.1.2 = .tc ∧ 2 ≤ q'.val ∧ q'.val < 34 ∧ semK q' ≠ g.1.1)
      ⟨fun ⟨h1, h2⟩ => ⟨h1, q', rfl, h2⟩, fun ⟨h1, q, hq, h2⟩ => by cases hq; exact ⟨h1, h2⟩⟩

def sched : Rounds.Schedule (GSem nD τ sig) (Dev nD) 𝕄 where
  duties g r := if r = 0 ∧ IsBar g then Finset.univ.erase g.1.1 else if r < 3 ∧ IsData g then {0} else ∅
  unitless _ := False
  amount g _ _ := match g.2 with | .reg _ => 1 | .dma _ => N
  payload g r d := match g.2 with
    | .reg _ => barPay g.1.1 d
    | .dma q => dataPay m g.1.1 (semA q) (semK q) r
  amount_pos g _ _ _ := by
    cases g.2 with
    | reg _ => exact Nat.one_pos
    | dma _ => exact View.dmaCredit_pos _ (by decide)

instance slot_storable (M : Memref sig .tc .vmem S512x1024 .bf16) (t k : Dev nD) :
    BI.Storable (upEmb : UEmb _ 𝕄) (slot (F := F) M t k) := by unfold slot; infer_instance

instance sched_payload_storable (g : GSem nD τ sig) (r : ℕ) (d : Dev nD) :
    BI.Storable (upEmb : UEmb _ 𝕄) ((sched (F := F) m).payload g r d) := by
  show BI.Storable upEmb (match g.2 with
    | .reg _ => barPay g.1.1 d
    | .dma q => dataPay m g.1.1 (semA q) (semK q) r)
  cases g.2 with
  | reg _ => dsimp only; unfold barPay; infer_instance
  | dma q =>
    dsimp only; unfold dataPay
    split
    · unfold agSendPay; infer_instance
    · unfold agRecvPay; split <;> infer_instance
    · unfold rsSendPay; infer_instance
    · unfold rsRecvPay; split <;> infer_instance

section Tables
variable (t k : Dev nD) (a : Fin 4)

theorem isBar_bar : IsBar (barCell t) := ⟨rfl, rfl⟩
theorem not_isBar_cell : ¬ IsBar (cell t a k) := fun h => by cases h.2
theorem isData_cell (h : k ≠ t) : IsData (cell t a k) :=
  ⟨rfl, dsem a k, rfl, by show 2 ≤ 2 + 8 * a.val + k.val; omega,
    by have h1 : a.val < 4 := a.isLt; have h2 : k.val < 8 := k.isLt; show 2 + 8 * a.val + k.val < 34; omega,
    by rw [semK_dsem]; exact h⟩
theorem not_isData_bar : ¬ IsData (barCell t) := fun ⟨_, q, hq, _⟩ => by cases hq

theorem duties_bar : (sched (F := F) m).duties (barCell t) 0 = Finset.univ.erase t := by
  dsimp only [sched]; exact if_pos ⟨rfl, isBar_bar t⟩
theorem duties_bar_later (r : ℕ) (hr : 1 ≤ r) : (sched (F := F) m).duties (barCell t) r = ∅ := by
  dsimp only [sched]; rw [if_neg (fun h => by omega), if_neg (fun h => not_isData_bar t h.2)]
theorem duties_cell (h : k ≠ t) (l : ℕ) (hl : l < 3) : (sched (F := F) m).duties (cell t a k) l = {0} := by
  dsimp only [sched]; rw [if_neg (fun h' => not_isBar_cell t k a h'.2)]; exact if_pos ⟨hl, isData_cell t k a h⟩
theorem duties_cell_later (l : ℕ) (hl : 3 ≤ l) : (sched (F := F) m).duties (cell t a k) l = ∅ := by
  dsimp only [sched]; rw [if_neg (fun h' => not_isBar_cell t k a h'.2), if_neg (fun h' => by omega)]

theorem amount_bar (r : ℕ) (d : Dev nD) : (sched (F := F) m).amount (barCell t) r d = 1 := rfl
theorem amount_cell (r : ℕ) (d : Dev nD) : (sched (F := F) m).amount (cell t a k) r d = N := rfl

theorem expect_bar : (sched (F := F) m).expect (barCell t) 0 = 7 := by
  unfold Schedule.expect Schedule.amountOf
  rw [duties_bar, Finset.sum_congr rfl fun d _ => amount_bar m t 0 d, Finset.sum_const, Finset.card_erase_of_mem (Finset.mem_univ _),
    Finset.card_univ, Fintype.card_fin, smul_eq_mul]
  rfl
theorem expect_cell (h : k ≠ t) (l : ℕ) (hl : l < 3) : (sched (F := F) m).expect (cell t a k) l = N := by
  unfold Schedule.expect Schedule.amountOf; rw [duties_cell m t k a h l hl, Finset.sum_singleton, amount_cell]

theorem payload_bar (r : ℕ) (d : Dev nD) : (sched (F := F) m).payload (barCell t) r d = barPay t d := rfl
theorem payload_cell (l : ℕ) (d : Dev nD) : (sched (F := F) m).payload (cell t a k) l d = dataPay m t a.val k l := by
  show dataPay m t (semA (dsem a k)) (semK (dsem a k)) l = _
  rw [semA_dsem, semK_dsem]
theorem payload_agSend (l : ℕ) (d : Dev nD) : (sched (F := F) m).payload (cell t 0 k) l d = agSendPay m t k l := payload_cell m t k 0 l d
theorem payload_agRecv (l : ℕ) (d : Dev nD) : (sched (F := F) m).payload (cell t 1 k) l d = agRecvPay m t k l := payload_cell m t k 1 l d
theorem payload_rsSend (l : ℕ) (d : Dev nD) : (sched (F := F) m).payload (cell t 2 k) l d = rsSendPay m t k l := payload_cell m t k 2 l d
theorem payload_rsRecv (l : ℕ) (d : Dev nD) : (sched (F := F) m).payload (cell t 3 k) l d = rsRecvPay m t k l := payload_cell m t k 3 l d

theorem rest_cell (h : k ≠ t) (l : ℕ) (hl : l < 3) :
    bigSep ((sched (F := F) m).duties (cell t a k) l \ ∅) (fun d => (sched (F := F) m).payload (cell t a k) l d) = dataPay m t a.val k l := by
  rw [Finset.sdiff_empty, duties_cell m t k a h l hl, bigSep_singleton, payload_cell]

end Tables

def paysLayer (c : Dev nD) (l : ℕ) : List (GSem nD τ sig × ℕ × ℕ) :=
  [ (cell (Spec.peer c 7) 1 c, l, N), (cell (Spec.peer c 6) 1 c, l, N), (cell (Spec.peer c 5) 1 c, l, N), (cell (Spec.peer c 4) 1 c, l, N),
    (cell (Spec.peer c 3) 1 c, l, N), (cell (Spec.peer c 2) 1 c, l, N), (cell (Spec.peer c 1) 1 c, l, N),
    (cell (Spec.peer c 1) 3 c, l, N), (cell (Spec.peer c 2) 3 c, l, N), (cell (Spec.peer c 3) 3 c, l, N), (cell (Spec.peer c 4) 3 c, l, N),
    (cell (Spec.peer c 5) 3 c, l, N), (cell (Spec.peer c 6) 3 c, l, N), (cell (Spec.peer c 7) 3 c, l, N) ]
def pays (c : Dev nD) : List (GSem nD τ sig × ℕ × ℕ) :=
  [ (barCell (Spec.peer c 1), 0, 1), (barCell (Spec.peer c 2), 0, 1), (barCell (Spec.peer c 3), 0, 1), (barCell (Spec.peer c 4), 0, 1),
    (barCell (Spec.peer c 5), 0, 1), (barCell (Spec.peer c 6), 0, 1), (barCell (Spec.peer c 7), 0, 1) ]
    ++ paysLayer c 0 ++ paysLayer c 1 ++ paysLayer c 2

def owedOf : List (GSem nD τ sig × ℕ × ℕ) → CellTallies nD τ sig ℕ
  | [] => 0
  | p :: rest => owedOf rest + tallyAt p.1 p.2.1 p.2.2

def owedAfter (c : Dev nD) (n : ℕ) : CellTallies nD τ sig ℕ := owedOf ((pays c).drop n)
def O₀ (c : Dev nD) : CellTallies nD τ sig ℕ := owedAfter c 0

def L (g : GSem nD τ sig) : Finset ℕ := if g.1.2 = .tc then {0, 1, 2} else ∅
def lv (g : GSem nD τ sig) (l : ℕ) : ℕ :=
  match g.2 with
  | .reg _ => 1
  | .dma q => if 2 ≤ q.val ∧ q.val < 34 then 4 * l + (if semA q = 1 then 2 else if semA q = 3 then 3 else 4) else 0

theorem L_of_ne (g : GSem nD τ sig) (h : g.1.2 ≠ .tc) : L g = ∅ := if_neg h
theorem L_tc (c : Dev nD) (sm : SemLoc sig) : L ((c : Thread nD τ), sm) = {0, 1, 2} := if_pos rfl

end Cert.KernelIdeal.Proto

end
-- ==== Proof.KI.Tables.lean ====
import proofs.«900981_g7700000000000982_dist_mlpseq_tp1d_bs_bs_b64_d1024_h2048_v7x_i8_bf16_1_alg».proof.Proof.KI.Proto

noncomputable section

namespace Cert.KernelIdeal.Proto

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ)

theorem peer_ne (c : Dev nD) (o : Fin 8) (ho : o ≠ 0) : c ≠ Spec.peer c o.val := by revert c o; decide
theorem peer_ne' (c : Dev nD) (o : Fin 8) (ho : o ≠ 0) : Spec.peer c o.val ≠ c := fun h => peer_ne c o ho h.symm
theorem dist_self_peer (c : Dev nD) (o : Fin 8) : dist c (Spec.peer c o.val) = o.val := dist_peer c o
theorem dist_peer_self (c : Dev nD) (o : Fin 8) (ho : o ≠ 0) : dist (Spec.peer c o.val) c = 8 - o.val := by revert c o; decide

theorem mem_duties_bar (t j : Dev nD) (h : j ≠ t) : j ∈ (sched (F := F) m).duties (barCell t) 0 := by
  rw [duties_bar]; exact Finset.mem_erase.mpr ⟨h, Finset.mem_univ _⟩

theorem sr_duties_bar (t : Dev nD) : (sched (F := F) m).duties (barCell t) 0 = Finset.univ.erase t := duties_bar m t
theorem sr_amount_bar (t d : Dev nD) : (sched (F := F) m).amount (barCell t) 0 d = 1 := rfl
theorem sr_expect_bar (t : Dev nD) : (sched (F := F) m).expect (barCell t) 0 = 7 := expect_bar m t

theorem sr_payload_bar (t d : Dev nD) : (sched (F := F) m).payload (barCell t) 0 d
    = iprop((∃ f : Buf (Elt F) ((chunkM xfM t).view.loc (d : Thread nD τ)), ((chunkM xfM t).view.loc (d : Thread nD τ) ↦[(chunkM xfM t).view.set]{fullShare} f))
        ∗ (∃ f : Buf (Elt F) ((chunkM rrM t).view.loc (d : Thread nD τ)), ((chunkM rrM t).view.loc (d : Thread nD τ) ↦[(chunkM rrM t).view.set]{fullShare} f))) := rfl

theorem mem_duties_cell (t k : Dev nD) (a : Fin 4) (h : k ≠ t) (l : ℕ) (hl : l < 3) : (0 : Dev nD) ∈ (sched (F := F) m).duties (cell t a k) l := by
  rw [duties_cell m t k a h l hl]; exact Finset.mem_singleton_self _
theorem sr_duties_cell (t k : Dev nD) (a : Fin 4) (h : k ≠ t) (l : ℕ) (hl : l < 3) : (sched (F := F) m).duties (cell t a k) l = {0} :=
  duties_cell m t k a h l hl
theorem sr_amount_cell (t k : Dev nD) (a : Fin 4) (l : ℕ) (d : Dev nD) : (sched (F := F) m).amount (cell t a k) l d = N := rfl
theorem sr_expect_cell (t k : Dev nD) (a : Fin 4) (h : k ≠ t) (l : ℕ) (hl : l < 3) : (sched (F := F) m).expect (cell t a k) l = N :=
  expect_cell m t k a h l hl

theorem sr_payload_agSend (t k : Dev nD) (l : ℕ) (d : Dev nD) : (sched (F := F) m).payload (cell t 0 k) l d
    = ((chunkM xfM t).view.loc (t : Thread nD τ) ↦[(chunkM xfM t).view.set]{agShare (dist t k)} (xfAll m l)) := payload_agSend m t k l d

theorem sr_payload_agSend_1 (t : Dev nD) (l : ℕ) (d : Dev nD) : (sched (F := F) m).payload (cell t 0 (Spec.peer t 1)) l d
    = ((chunkM xfM t).view.loc (t : Thread nD τ) ↦[(chunkM xfM t).view.set]{agShare 1} (xfAll m l)) := by
  rw [sr_payload_agSend, show dist t (Spec.peer t 1) = 1 from by revert t; decide]
theorem sr_payload_agSend_2 (t : Dev nD) (l : ℕ) (d : Dev nD) : (sched (F := F) m).payload (cell t 0 (Spec.peer t 2)) l d
    = ((chunkM xfM t).view.loc (t : Thread nD τ) ↦[(chunkM xfM t).view.set]{agShare 2} (xfAll m l)) := by
  rw [sr_payload_agSend, show dist t (Spec.peer t 2) = 2 from by revert t; decide]
theorem sr_payload_agSend_3 (t : Dev nD) (l : ℕ) (d : Dev nD) : (sched (F := F) m).payload (cell t 0 (Spec.peer t 3)) l d
    = ((chunkM xfM t).view.loc (t : Thread nD τ) ↦[(chunkM xfM t).view.set]{agShare 3} (xfAll m l)) := by
  rw [sr_payload_agSend, show dist t (Spec.peer t 3) = 3 from by revert t; decide]
theorem sr_payload_agSend_4 (t : Dev nD) (l : ℕ) (d : Dev nD) : (sched (F := F) m).payload (cell t 0 (Spec.peer t 4)) l d
    = ((chunkM xfM t).view.loc (t : Thread nD τ) ↦[(chunkM xfM t).view.set]{agShare 4} (xfAll m l)) := by
  rw [sr_payload_agSend, show dist t (Spec.peer t 4) = 4 from by revert t; decide]
theorem sr_payload_agSend_5 (t : Dev nD) (l : ℕ) (d : Dev nD) : (sched (F := F) m).payload (cell t 0 (Spec.peer t 5)) l d
    = ((chunkM xfM t).view.loc (t : Thread nD τ) ↦[(chunkM xfM t).view.set]{agShare 5} (xfAll m l)) := by
  rw [sr_payload_agSend, show dist t (Spec.peer t 5) = 5 from by revert t; decide]
theorem sr_payload_agSend_6 (t : Dev nD) (l : ℕ) (d : Dev nD) : (sched (F := F) m).payload (cell t 0 (Spec.peer t 6)) l d
    = ((chunkM xfM t).view.loc (t : Thread nD τ) ↦[(chunkM xfM t).view.set]{agShare 6} (xfAll m l)) := by
  rw [sr_payload_agSend, show dist t (Spec.peer t 6) = 6 from by revert t; decide]
theorem sr_payload_agSend_7 (t : Dev nD) (l : ℕ) (d : Dev nD) : (sched (F := F) m).payload (cell t 0 (Spec.peer t 7)) l d
    = ((chunkM xfM t).view.loc (t : Thread nD τ) ↦[(chunkM xfM t).view.set]{agShare 7} (xfAll m l)) := by
  rw [sr_payload_agSend, show dist t (Spec.peer t 7) = 7 from by revert t; decide]

theorem sr_payload_agRecv0 (t k d : Dev nD) : (sched (F := F) m).payload (cell t 1 k) 0 d
    = iprop(((chunkM xfM k).view.loc (t : Thread nD τ) ↦[(chunkM xfM k).view.set]{fullShare} (xfAll m 0)) ∗ emp) := payload_agRecv m t k 0 d

theorem sr_payload_agRecv1 (t k d : Dev nD) : (sched (F := F) m).payload (cell t 1 k) 1 d
    = iprop(((chunkM xfM k).view.loc (t : Thread nD τ) ↦[(chunkM xfM k).view.set]{fullShare} (xfAll m 1)) ∗ (∃ f : Buf (Elt F) ((chunkM rrM t).view.loc (k : Thread nD τ)), ((chunkM rrM t).view.loc (k : Thread nD τ) ↦[(chunkM rrM t).view.set]{fullShare} f)) ∗ reached ER (cell k 3 t) 1) := payload_agRecv m t k 1 d
theorem sr_payload_agRecv2 (t k d : Dev nD) : (sched (F := F) m).payload (cell t 1 k) 2 d
    = iprop(((chunkM xfM k).view.loc (t : Thread nD τ) ↦[(chunkM xfM k).view.set]{fullShare} (xfAll m 2)) ∗ (∃ f : Buf (Elt F) ((chunkM rrM t).view.loc (k : Thread nD τ)), ((chunkM rrM t).view.loc (k : Thread nD τ) ↦[(chunkM rrM t).view.set]{fullShare} f)) ∗ reached ER (cell k 3 t) 2) := payload_agRecv m t k 2 d

theorem sr_payload_rsSend (t k : Dev nD) (l : ℕ) (d : Dev nD) : (sched (F := F) m).payload (cell t 2 k) l d
    = ((chunkM rsM k).view.loc (t : Thread nD τ) ↦[(chunkM rsM k).view.set]{fullShare} (rsAll m l t)) := payload_rsSend m t k l d

theorem sr_payload_rsRecv0 (t k d : Dev nD) : (sched (F := F) m).payload (cell t 3 k) 0 d
    = iprop(((chunkM rrM k).view.loc (t : Thread nD τ) ↦[(chunkM rrM k).view.set]{fullShare} (rrAll m 0 t)) ∗ (∃ f : Buf (Elt F) ((chunkM xfM t).view.loc (k : Thread nD τ)), ((chunkM xfM t).view.loc (k : Thread nD τ) ↦[(chunkM xfM t).view.set]{fullShare} f)) ∗ reached ER (cell k 1 t) 1) := payload_rsRecv m t k 0 d
theorem sr_payload_rsRecv1 (t k d : Dev nD) : (sched (F := F) m).payload (cell t 3 k) 1 d
    = iprop(((chunkM rrM k).view.loc (t : Thread nD τ) ↦[(chunkM rrM k).view.set]{fullShare} (rrAll m 1 t)) ∗ (∃ f : Buf (Elt F) ((chunkM xfM t).view.loc (k : Thread nD τ)), ((chunkM xfM t).view.loc (k : Thread nD τ) ↦[(chunkM xfM t).view.set]{fullShare} f)) ∗ reached ER (cell k 1 t) 2) := payload_rsRecv m t k 1 d

theorem sr_payload_rsRecv2 (t k d : Dev nD) : (sched (F := F) m).payload (cell t 3 k) 2 d
    = iprop(((chunkM rrM k).view.loc (t : Thread nD τ) ↦[(chunkM rrM k).view.set]{fullShare} (rrAll m 2 t)) ∗ emp) := payload_rsRecv m t k 2 d

end Cert.KernelIdeal.Proto

end
-- ==== Proof.KI.Ctx.lean ====
/- What one device holds when its kernel body starts, as two conjunctions in a fixed order: the invariants of the cells it
   touches and that their first round is reached; and the tokens of the duties it pays, its own cells' positions and
   launch credit, the weights, and its scratch buffers chunk by chunk. The names its conjuncts go by are listed last. -/
import proofs.«900981_g7700000000000982_dist_mlpseq_tp1d_bs_bs_b64_d1024_h2048_v7x_i8_bf16_1_alg».proof.Proof.KI.Tables

noncomputable section

namespace Cert.KernelIdeal.Proto

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ)

/-- The persistent part: invariants, first rounds reached, the levels. -/
def ctxP (K : GSem nD τ sig → ℕ) (c : Dev nD) : sProp 𝕄 :=
  iprop(cellInv ER (sched m) (K (barCell c)) (barCell c)
    ∗ cellInv ER (sched m) (K (barCell (Spec.peer c 1))) (barCell (Spec.peer c 1))
    ∗ cellInv ER (sched m) (K (barCell (Spec.peer c 2))) (barCell (Spec.peer c 2))
    ∗ cellInv ER (sched m) (K (barCell (Spec.peer c 3))) (barCell (Spec.peer c 3))
    ∗ cellInv ER (sched m) (K (barCell (Spec.peer c 4))) (barCell (Spec.peer c 4))
    ∗ cellInv ER (sched m) (K (barCell (Spec.peer c 5))) (barCell (Spec.peer c 5))
    ∗ cellInv ER (sched m) (K (barCell (Spec.peer c 6))) (barCell (Spec.peer c 6))
    ∗ cellInv ER (sched m) (K (barCell (Spec.peer c 7))) (barCell (Spec.peer c 7))
    ∗ cellInv ER (sched m) (K (cell c 0 (Spec.peer c 1))) (cell c 0 (Spec.peer c 1))
    ∗ cellInv ER (sched m) (K (cell c 0 (Spec.peer c 2))) (cell c 0 (Spec.peer c 2))
    ∗ cellInv ER (sched m) (K (cell c 0 (Spec.peer c 3))) (cell c 0 (Spec.peer c 3))
    ∗ cellInv ER (sched m) (K (cell c 0 (Spec.peer c 4))) (cell c 0 (Spec.peer c 4))
    ∗ cellInv ER (sched m) (K (cell c 0 (Spec.peer c 5))) (cell c 0 (Spec.peer c 5))
    ∗ cellInv ER (sched m) (K (cell c 0 (Spec.peer c 6))) (cell c 0 (Spec.peer c 6))
    ∗ cellInv ER (sched m) (K (cell c 0 (Spec.peer c 7))) (cell c 0 (Spec.peer c 7))
    ∗ cellInv ER (sched m) (K (cell c 1 (Spec.peer c 1))) (cell c 1 (Spec.peer c 1))
    ∗ cellInv ER (sched m) (K (cell c 1 (Spec.peer c 2))) (cell c 1 (Spec.peer c 2))
    ∗ cellInv ER (sched m) (K (cell c 1 (Spec.peer c 3))) (cell c 1 (Spec.peer c 3))
    ∗ cellInv ER (sched m) (K (cell c 1 (Spec.peer c 4))) (cell c 1 (Spec.peer c 4))
    ∗ cellInv ER (sched m) (K (cell c 1 (Spec.peer c 5))) (cell c 1 (Spec.peer c 5))
    ∗ cellInv ER (sched m) (K (cell c 1 (Spec.peer c 6))) (cell c 1 (Spec.peer c 6))
    ∗ cellInv ER (sched m) (K (cell c 1 (Spec.peer c 7))) (cell c 1 (Spec.peer c 7))
    ∗ cellInv ER (sched m) (K (cell c 2 (Spec.peer c 1))) (cell c 2 (Spec.peer c 1))
    ∗ cellInv ER (sched m) (K (cell c 2 (Spec.peer c 2))) (cell c 2 (Spec.peer c 2))
    ∗ cellInv ER (sched m) (K (cell c 2 (Spec.peer c 3))) (cell c 2 (Spec.peer c 3))
    ∗ cellInv ER (sched m) (K (cell c 2 (Spec.peer c 4))) (cell c 2 (Spec.peer c 4))
    ∗ cellInv ER (sched m) (K (cell c 2 (Spec.peer c 5))) (cell c 2 (Spec.peer c 5))
    ∗ cellInv ER (sched m) (K (cell c 2 (Spec.peer c 6))) (cell c 2 (Spec.peer c 6))
    ∗ cellInv ER (sched m) (K (cell c 2 (Spec.peer c 7))) (cell c 2 (Spec.peer c 7))
    ∗ cellInv ER (sched m) (K (cell c 3 (Spec.peer c 1))) (cell c 3 (Spec.peer c 1))
    ∗ cellInv ER (sched m) (K (cell c 3 (Spec.peer c 2))) (cell c 3 (Spec.peer c 2))
    ∗ cellInv ER (sched m) (K (cell c 3 (Spec.peer c 3))) (cell c 3 (Spec.peer c 3))
    ∗ cellInv ER (sched m) (K (cell c 3 (Spec.peer c 4))) (cell c 3 (Spec.peer c 4))
    ∗ cellInv ER (sched m) (K (cell c 3 (Spec.peer c 5))) (cell c 3 (Spec.peer c 5))
    ∗ cellInv ER (sched m) (K (cell c 3 (Spec.peer c 6))) (cell c 3 (Spec.peer c 6))
    ∗ cellInv ER (sched m) (K (cell c 3 (Spec.peer c 7))) (cell c 3 (Spec.peer c 7))
    ∗ cellInv ER (sched m) (K (cell (Spec.peer c 1) 1 c)) (cell (Spec.peer c 1) 1 c)
    ∗ cellInv ER (sched m) (K (cell (Spec.peer c 2) 1 c)) (cell (Spec.peer c 2) 1 c)
    ∗ cellInv ER (sched m) (K (cell (Spec.peer c 3) 1 c)) (cell (Spec.peer c 3) 1 c)
    ∗ cellInv ER (sched m) (K (cell (Spec.peer c 4) 1 c)) (cell (Spec.peer c 4) 1 c)
    ∗ cellInv ER (sched m) (K (cell (Spec.peer c 5) 1 c)) (cell (Spec.peer c 5) 1 c)
    ∗ cellInv ER (sched m) (K (cell (Spec.peer c 6) 1 c)) (cell (Spec.peer c 6) 1 c)
    ∗ cellInv ER (sched m) (K (cell (Spec.peer c 7) 1 c)) (cell (Spec.peer c 7) 1 c)
    ∗ cellInv ER (sched m) (K (cell (Spec.peer c 1) 3 c)) (cell (Spec.peer c 1) 3 c)
    ∗ cellInv ER (sched m) (K (cell (Spec.peer c 2) 3 c)) (cell (Spec.peer c 2) 3 c)
    ∗ cellInv ER (sched m) (K (cell (Spec.peer c 3) 3 c)) (cell (Spec.peer c 3) 3 c)
    ∗ cellInv ER (sched m) (K (cell (Spec.peer c 4) 3 c)) (cell (Spec.peer c 4) 3 c)
    ∗ cellInv ER (sched m) (K (cell (Spec.peer c 5) 3 c)) (cell (Spec.peer c 5) 3 c)
    ∗ cellInv ER (sched m) (K (cell (Spec.peer c 6) 3 c)) (cell (Spec.peer c 6) 3 c)
    ∗ cellInv ER (sched m) (K (cell (Spec.peer c 7) 3 c)) (cell (Spec.peer c 7) 3 c)
    ∗ reached ER (barCell (Spec.peer c 1)) 0
    ∗ reached ER (barCell (Spec.peer c 2)) 0
    ∗ reached ER (barCell (Spec.peer c 3)) 0
    ∗ reached ER (barCell (Spec.peer c 4)) 0
    ∗ reached ER (barCell (Spec.peer c 5)) 0
    ∗ reached ER (barCell (Spec.peer c 6)) 0
    ∗ reached ER (barCell (Spec.peer c 7)) 0
    ∗ reached ER (cell c 0 (Spec.peer c 1)) 0
    ∗ reached ER (cell c 0 (Spec.peer c 2)) 0
    ∗ reached ER (cell c 0 (Spec.peer c 3)) 0
    ∗ reached ER (cell c 0 (Spec.peer c 4)) 0
    ∗ reached ER (cell c 0 (Spec.peer c 5)) 0
    ∗ reached ER (cell c 0 (Spec.peer c 6)) 0
    ∗ reached ER (cell c 0 (Spec.peer c 7)) 0
    ∗ reached ER (cell c 1 (Spec.peer c 1)) 0
    ∗ reached ER (cell c 1 (Spec.peer c 2)) 0
    ∗ reached ER (cell c 1 (Spec.peer c 3)) 0
    ∗ reached ER (cell c 1 (Spec.peer c 4)) 0
    ∗ reached ER (cell c 1 (Spec.peer c 5)) 0
    ∗ reached ER (cell c 1 (Spec.peer c 6)) 0
    ∗ reached ER (cell c 1 (Spec.peer c 7)) 0
    ∗ reached ER (cell c 2 (Spec.peer c 1)) 0
    ∗ reached ER (cell c 2 (Spec.peer c 2)) 0
    ∗ reached ER (cell c 2 (Spec.peer c 3)) 0
    ∗ reached ER (cell c 2 (Spec.peer c 4)) 0
    ∗ reached ER (cell c 2 (Spec.peer c 5)) 0
    ∗ reached ER (cell c 2 (Spec.peer c 6)) 0
    ∗ reached ER (cell c 2 (Spec.peer c 7)) 0
    ∗ reached ER (cell c 3 (Spec.peer c 1)) 0
    ∗ reached ER (cell c 3 (Spec.peer c 2)) 0
    ∗ reached ER (cell c 3 (Spec.peer c 3)) 0
    ∗ reached ER (cell c 3 (Spec.peer c 4)) 0
    ∗ reached ER (cell c 3 (Spec.peer c 5)) 0
    ∗ reached ER (cell c 3 (Spec.peer c 6)) 0
    ∗ reached ER (cell c 3 (Spec.peer c 7)) 0
    ∗ reached ER (cell (Spec.peer c 1) 1 c) 0
    ∗ reached ER (cell (Spec.peer c 2) 1 c) 0
    ∗ reached ER (cell (Spec.peer c 3) 1 c) 0
    ∗ reached ER (cell (Spec.peer c 4) 1 c) 0
    ∗ reached ER (cell (Spec.peer c 5) 1 c) 0
    ∗ reached ER (cell (Spec.peer c 6) 1 c) 0
    ∗ reached ER (cell (Spec.peer c 7) 1 c) 0
    ∗ reached ER (cell (Spec.peer c 1) 3 c) 0
    ∗ reached ER (cell (Spec.peer c 2) 3 c) 0
    ∗ reached ER (cell (Spec.peer c 3) 3 c) 0
    ∗ reached ER (cell (Spec.peer c 4) 3 c) 0
    ∗ reached ER (cell (Spec.peer c 5) 3 c) 0
    ∗ reached ER (cell (Spec.peer c 6) 3 c) 0
    ∗ reached ER (cell (Spec.peer c 7) 3 c) 0
    ∗ levAts L lv)

/-- The rest: tokens, positions, credit, buffers, the weights' semaphores at zero. -/
def ctxS (c : Dev nD)
    (f0 : Buf (Elt F) ((c : Thread nD τ).loc cc0_scratch0)) (f1 : Buf (Elt F) ((c : Thread nD τ).loc cc0_scratch1)) (f2 : Buf (Elt F) ((c : Thread nD τ).loc cc0_scratch2))
    (f3 : Buf (Elt F) ((c : Thread nD τ).loc cc0_scratch3)) (f4 : Buf (Elt F) ((c : Thread nD τ).loc cc0_scratch4))
    (f5 : Buf (Elt F) ((c : Thread nD τ).loc cc0_scratch5)) (f6 : Buf (Elt F) ((c : Thread nD τ).loc cc0_scratch6)) : sProp 𝕄 :=
  iprop(dutyTok ER (barCell (Spec.peer c 1)) 0 c
    ∗ dutyTok ER (barCell (Spec.peer c 2)) 0 c
    ∗ dutyTok ER (barCell (Spec.peer c 3)) 0 c
    ∗ dutyTok ER (barCell (Spec.peer c 4)) 0 c
    ∗ dutyTok ER (barCell (Spec.peer c 5)) 0 c
    ∗ dutyTok ER (barCell (Spec.peer c 6)) 0 c
    ∗ dutyTok ER (barCell (Spec.peer c 7)) 0 c
    ∗ dutyTok ER (cell c 0 (Spec.peer c 1)) 0 0
    ∗ dutyTok ER (cell (Spec.peer c 1) 1 c) 0 0
    ∗ dutyTok ER (cell c 2 (Spec.peer c 1)) 0 0
    ∗ dutyTok ER (cell (Spec.peer c 1) 3 c) 0 0
    ∗ dutyTok ER (cell c 0 (Spec.peer c 2)) 0 0
    ∗ dutyTok ER (cell (Spec.peer c 2) 1 c) 0 0
    ∗ dutyTok ER (cell c 2 (Spec.peer c 2)) 0 0
    ∗ dutyTok ER (cell (Spec.peer c 2) 3 c) 0 0
    ∗ dutyTok ER (cell c 0 (Spec.peer c 3)) 0 0
    ∗ dutyTok ER (cell (Spec.peer c 3) 1 c) 0 0
    ∗ dutyTok ER (cell c 2 (Spec.peer c 3)) 0 0
    ∗ dutyTok ER (cell (Spec.peer c 3) 3 c) 0 0
    ∗ dutyTok ER (cell c 0 (Spec.peer c 4)) 0 0
    ∗ dutyTok ER (cell (Spec.peer c 4) 1 c) 0 0
    ∗ dutyTok ER (cell c 2 (Spec.peer c 4)) 0 0
    ∗ dutyTok ER (cell (Spec.peer c 4) 3 c) 0 0
    ∗ dutyTok ER (cell c 0 (Spec.peer c 5)) 0 0
    ∗ dutyTok ER (cell (Spec.peer c 5) 1 c) 0 0
    ∗ dutyTok ER (cell c 2 (Spec.peer c 5)) 0 0
    ∗ dutyTok ER (cell (Spec.peer c 5) 3 c) 0 0
    ∗ dutyTok ER (cell c 0 (Spec.peer c 6)) 0 0
    ∗ dutyTok ER (cell (Spec.peer c 6) 1 c) 0 0
    ∗ dutyTok ER (cell c 2 (Spec.peer c 6)) 0 0
    ∗ dutyTok ER (cell (Spec.peer c 6) 3 c) 0 0
    ∗ dutyTok ER (cell c 0 (Spec.peer c 7)) 0 0
    ∗ dutyTok ER (cell (Spec.peer c 7) 1 c) 0 0
    ∗ dutyTok ER (cell c 2 (Spec.peer c 7)) 0 0
    ∗ dutyTok ER (cell (Spec.peer c 7) 3 c) 0 0
    ∗ dutyTok ER (cell c 0 (Spec.peer c 1)) 1 0
    ∗ dutyTok ER (cell (Spec.peer c 1) 1 c) 1 0
    ∗ dutyTok ER (cell c 2 (Spec.peer c 1)) 1 0
    ∗ dutyTok ER (cell (Spec.peer c 1) 3 c) 1 0
    ∗ dutyTok ER (cell c 0 (Spec.peer c 2)) 1 0
    ∗ dutyTok ER (cell (Spec.peer c 2) 1 c) 1 0
    ∗ dutyTok ER (cell c 2 (Spec.peer c 2)) 1 0
    ∗ dutyTok ER (cell (Spec.peer c 2) 3 c) 1 0
    ∗ dutyTok ER (cell c 0 (Spec.peer c 3)) 1 0
    ∗ dutyTok ER (cell (Spec.peer c 3) 1 c) 1 0
    ∗ dutyTok ER (cell c 2 (Spec.peer c 3)) 1 0
    ∗ dutyTok ER (cell (Spec.peer c 3) 3 c) 1 0
    ∗ dutyTok ER (cell c 0 (Spec.peer c 4)) 1 0
    ∗ dutyTok ER (cell (Spec.peer c 4) 1 c) 1 0
    ∗ dutyTok ER (cell c 2 (Spec.peer c 4)) 1 0
    ∗ dutyTok ER (cell (Spec.peer c 4) 3 c) 1 0
    ∗ dutyTok ER (cell c 0 (Spec.peer c 5)) 1 0
    ∗ dutyTok ER (cell (Spec.peer c 5) 1 c) 1 0
    ∗ dutyTok ER (cell c 2 (Spec.peer c 5)) 1 0
    ∗ dutyTok ER (cell (Spec.peer c 5) 3 c) 1 0
    ∗ dutyTok ER (cell c 0 (Spec.peer c 6)) 1 0
    ∗ dutyTok ER (cell (Spec.peer c 6) 1 c) 1 0
    ∗ dutyTok ER (cell c 2 (Spec.peer c 6)) 1 0
    ∗ dutyTok ER (cell (Spec.peer c 6) 3 c) 1 0
    ∗ dutyTok ER (cell c 0 (Spec.peer c 7)) 1 0
    ∗ dutyTok ER (cell (Spec.peer c 7) 1 c) 1 0
    ∗ dutyTok ER (cell c 2 (Spec.peer c 7)) 1 0
    ∗ dutyTok ER (cell (Spec.peer c 7) 3 c) 1 0
    ∗ dutyTok ER (cell c 0 (Spec.peer c 1)) 2 0
    ∗ dutyTok ER (cell (Spec.peer c 1) 1 c) 2 0
    ∗ dutyTok ER (cell c 2 (Spec.peer c 1)) 2 0
    ∗ dutyTok ER (cell (Spec.peer c 1) 3 c) 2 0
    ∗ dutyTok ER (cell c 0 (Spec.peer c 2)) 2 0
    ∗ dutyTok ER (cell (Spec.peer c 2) 1 c) 2 0
    ∗ dutyTok ER (cell c 2 (Spec.peer c 2)) 2 0
    ∗ dutyTok ER (cell (Spec.peer c 2) 3 c) 2 0
    ∗ dutyTok ER (cell c 0 (Spec.peer c 3)) 2 0
    ∗ dutyTok ER (cell (Spec.peer c 3) 1 c) 2 0
    ∗ dutyTok ER (cell c 2 (Spec.peer c 3)) 2 0
    ∗ dutyTok ER (cell (Spec.peer c 3) 3 c) 2 0
    ∗ dutyTok ER (cell c 0 (Spec.peer c 4)) 2 0
    ∗ dutyTok ER (cell (Spec.peer c 4) 1 c) 2 0
    ∗ dutyTok ER (cell c 2 (Spec.peer c 4)) 2 0
    ∗ dutyTok ER (cell (Spec.peer c 4) 3 c) 2 0
    ∗ dutyTok ER (cell c 0 (Spec.peer c 5)) 2 0
    ∗ dutyTok ER (cell (Spec.peer c 5) 1 c) 2 0
    ∗ dutyTok ER (cell c 2 (Spec.peer c 5)) 2 0
    ∗ dutyTok ER (cell (Spec.peer c 5) 3 c) 2 0
    ∗ dutyTok ER (cell c 0 (Spec.peer c 6)) 2 0
    ∗ dutyTok ER (cell (Spec.peer c 6) 1 c) 2 0
    ∗ dutyTok ER (cell c 2 (Spec.peer c 6)) 2 0
    ∗ dutyTok ER (cell (Spec.peer c 6) 3 c) 2 0
    ∗ dutyTok ER (cell c 0 (Spec.peer c 7)) 2 0
    ∗ dutyTok ER (cell (Spec.peer c 7) 1 c) 2 0
    ∗ dutyTok ER (cell c 2 (Spec.peer c 7)) 2 0
    ∗ dutyTok ER (cell (Spec.peer c 7) 3 c) 2 0
    ∗ atPos ER (barCell c) 0 ∅ 0
    ∗ atPos ER (cell c 0 (Spec.peer c 1)) 0 ∅ 0
    ∗ atPos ER (cell c 0 (Spec.peer c 2)) 0 ∅ 0
    ∗ atPos ER (cell c 0 (Spec.peer c 3)) 0 ∅ 0
    ∗ atPos ER (cell c 0 (Spec.peer c 4)) 0 ∅ 0
    ∗ atPos ER (cell c 0 (Spec.peer c 5)) 0 ∅ 0
    ∗ atPos ER (cell c 0 (Spec.peer c 6)) 0 ∅ 0
    ∗ atPos ER (cell c 0 (Spec.peer c 7)) 0 ∅ 0
    ∗ atPos ER (cell c 1 (Spec.peer c 1)) 0 ∅ 0
    ∗ atPos ER (cell c 1 (Spec.peer c 2)) 0 ∅ 0
    ∗ atPos ER (cell c 1 (Spec.peer c 3)) 0 ∅ 0
    ∗ atPos ER (cell c 1 (Spec.peer c 4)) 0 ∅ 0
    ∗ atPos ER (cell c 1 (Spec.peer c 5)) 0 ∅ 0
    ∗ atPos ER (cell c 1 (Spec.peer c 6)) 0 ∅ 0
    ∗ atPos ER (cell c 1 (Spec.peer c 7)) 0 ∅ 0
    ∗ atPos ER (cell c 2 (Spec.peer c 1)) 0 ∅ 0
    ∗ atPos ER (cell c 2 (Spec.peer c 2)) 0 ∅ 0
    ∗ atPos ER (cell c 2 (Spec.peer c 3)) 0 ∅ 0
    ∗ atPos ER (cell c 2 (Spec.peer c 4)) 0 ∅ 0
    ∗ atPos ER (cell c 2 (Spec.peer c 5)) 0 ∅ 0
    ∗ atPos ER (cell c 2 (Spec.peer c 6)) 0 ∅ 0
    ∗ atPos ER (cell c 2 (Spec.peer c 7)) 0 ∅ 0
    ∗ atPos ER (cell c 3 (Spec.peer c 1)) 0 ∅ 0
    ∗ atPos ER (cell c 3 (Spec.peer c 2)) 0 ∅ 0
    ∗ atPos ER (cell c 3 (Spec.peer c 3)) 0 ∅ 0
    ∗ atPos ER (cell c 3 (Spec.peer c 4)) 0 ∅ 0
    ∗ atPos ER (cell c 3 (Spec.peer c 5)) 0 ∅ 0
    ∗ atPos ER (cell c 3 (Spec.peer c 6)) 0 ∅ 0
    ∗ atPos ER (cell c 3 (Spec.peer c 7)) 0 ∅ 0
    ∗ cred (tallyAt (barCell c) 0 7)
    ∗ cred (tallyAt (cell c 1 (Spec.peer c 1)) 0 N)
    ∗ cred (tallyAt (cell c 1 (Spec.peer c 2)) 0 N)
    ∗ cred (tallyAt (cell c 1 (Spec.peer c 3)) 0 N)
    ∗ cred (tallyAt (cell c 1 (Spec.peer c 4)) 0 N)
    ∗ cred (tallyAt (cell c 1 (Spec.peer c 5)) 0 N)
    ∗ cred (tallyAt (cell c 1 (Spec.peer c 6)) 0 N)
    ∗ cred (tallyAt (cell c 1 (Spec.peer c 7)) 0 N)
    ∗ cred (tallyAt (cell c 3 (Spec.peer c 1)) 0 N)
    ∗ cred (tallyAt (cell c 3 (Spec.peer c 2)) 0 N)
    ∗ cred (tallyAt (cell c 3 (Spec.peer c 3)) 0 N)
    ∗ cred (tallyAt (cell c 3 (Spec.peer c 4)) 0 N)
    ∗ cred (tallyAt (cell c 3 (Spec.peer c 5)) 0 N)
    ∗ cred (tallyAt (cell c 3 (Spec.peer c 6)) 0 N)
    ∗ cred (tallyAt (cell c 3 (Spec.peer c 7)) 0 N)
    ∗ cred (tallyAt (cell c 1 (Spec.peer c 1)) 1 N)
    ∗ cred (tallyAt (cell c 1 (Spec.peer c 2)) 1 N)
    ∗ cred (tallyAt (cell c 1 (Spec.peer c 3)) 1 N)
    ∗ cred (tallyAt (cell c 1 (Spec.peer c 4)) 1 N)
    ∗ cred (tallyAt (cell c 1 (Spec.peer c 5)) 1 N)
    ∗ cred (tallyAt (cell c 1 (Spec.peer c 6)) 1 N)
    ∗ cred (tallyAt (cell c 1 (Spec.peer c 7)) 1 N)
    ∗ cred (tallyAt (cell c 3 (Spec.peer c 1)) 1 N)
    ∗ cred (tallyAt (cell c 3 (Spec.peer c 2)) 1 N)
    ∗ cred (tallyAt (cell c 3 (Spec.peer c 3)) 1 N)
    ∗ cred (tallyAt (cell c 3 (Spec.peer c 4)) 1 N)
    ∗ cred (tallyAt (cell c 3 (Spec.peer c 5)) 1 N)
    ∗ cred (tallyAt (cell c 3 (Spec.peer c 6)) 1 N)
    ∗ cred (tallyAt (cell c 3 (Spec.peer c 7)) 1 N)
    ∗ cred (tallyAt (cell c 1 (Spec.peer c 1)) 2 N)
    ∗ cred (tallyAt (cell c 1 (Spec.peer c 2)) 2 N)
    ∗ cred (tallyAt (cell c 1 (Spec.peer c 3)) 2 N)
    ∗ cred (tallyAt (cell c 1 (Spec.peer c 4)) 2 N)
    ∗ cred (tallyAt (cell c 1 (Spec.peer c 5)) 2 N)
    ∗ cred (tallyAt (cell c 1 (Spec.peer c 6)) 2 N)
    ∗ cred (tallyAt (cell c 1 (Spec.peer c 7)) 2 N)
    ∗ cred (tallyAt (cell c 3 (Spec.peer c 1)) 2 N)
    ∗ cred (tallyAt (cell c 3 (Spec.peer c 2)) 2 N)
    ∗ cred (tallyAt (cell c 3 (Spec.peer c 3)) 2 N)
    ∗ cred (tallyAt (cell c 3 (Spec.peer c 4)) 2 N)
    ∗ cred (tallyAt (cell c 3 (Spec.peer c 5)) 2 N)
    ∗ cred (tallyAt (cell c 3 (Spec.peer c 6)) 2 N)
    ∗ cred (tallyAt (cell c 3 (Spec.peer c 7)) 2 N)
    ∗ ((View.loc (c : Thread nD τ) (Memref.whole main_arg1 : Memref sig .tc .hbm S1024x2048 .f32).view) ↦{fullShare} m ((c : Thread nD τ).loc main_arg1))
    ∗ ((View.loc (c : Thread nD τ) (Memref.whole main_arg2 : Memref sig .tc .hbm S2048x1024 .f32).view) ↦{fullShare} m ((c : Thread nD τ).loc main_arg2))
    ∗ ((View.loc (c : Thread nD τ) (Memref.whole main_arg3 : Memref sig .tc .hbm S1024x2048 .f32).view) ↦{fullShare} m ((c : Thread nD τ).loc main_arg3))
    ∗ ((View.loc (c : Thread nD τ) (Memref.whole main_arg4 : Memref sig .tc .hbm S2048x1024 .f32).view) ↦{fullShare} m ((c : Thread nD τ).loc main_arg4))
    ∗ ((View.loc (c : Thread nD τ) (Memref.whole main_arg5 : Memref sig .tc .hbm S1024x2048 .f32).view) ↦{fullShare} m ((c : Thread nD τ).loc main_arg5))
    ∗ ((View.loc (c : Thread nD τ) (Memref.whole main_arg6 : Memref sig .tc .hbm S2048x1024 .f32).view) ↦{fullShare} m ((c : Thread nD τ).loc main_arg6))
    ∗ pts (F := F) xfM c c fullShare f0
    ∗ (∃ f : Buf (Elt F) ((chunkM xfM (Spec.peer c 1)).view.loc (c : Thread nD τ)), pts (F := F) xfM c (Spec.peer c 1) fullShare f)
    ∗ (∃ f : Buf (Elt F) ((chunkM xfM (Spec.peer c 2)).view.loc (c : Thread nD τ)), pts (F := F) xfM c (Spec.peer c 2) fullShare f)
    ∗ (∃ f : Buf (Elt F) ((chunkM xfM (Spec.peer c 3)).view.loc (c : Thread nD τ)), pts (F := F) xfM c (Spec.peer c 3) fullShare f)
    ∗ (∃ f : Buf (Elt F) ((chunkM xfM (Spec.peer c 4)).view.loc (c : Thread nD τ)), pts (F := F) xfM c (Spec.peer c 4) fullShare f)
    ∗ (∃ f : Buf (Elt F) ((chunkM xfM (Spec.peer c 5)).view.loc (c : Thread nD τ)), pts (F := F) xfM c (Spec.peer c 5) fullShare f)
    ∗ (∃ f : Buf (Elt F) ((chunkM xfM (Spec.peer c 6)).view.loc (c : Thread nD τ)), pts (F := F) xfM c (Spec.peer c 6) fullShare f)
    ∗ (∃ f : Buf (Elt F) ((chunkM xfM (Spec.peer c 7)).view.loc (c : Thread nD τ)), pts (F := F) xfM c (Spec.peer c 7) fullShare f)
    ∗ pts (F := F) rsM c c fullShare f1
    ∗ pts (F := F) rsM c (Spec.peer c 1) fullShare f1
    ∗ pts (F := F) rsM c (Spec.peer c 2) fullShare f1
    ∗ pts (F := F) rsM c (Spec.peer c 3) fullShare f1
    ∗ pts (F := F) rsM c (Spec.peer c 4) fullShare f1
    ∗ pts (F := F) rsM c (Spec.peer c 5) fullShare f1
    ∗ pts (F := F) rsM c (Spec.peer c 6) fullShare f1
    ∗ pts (F := F) rsM c (Spec.peer c 7) fullShare f1
    ∗ pts (F := F) rrM c c fullShare f2
    ∗ (∃ f : Buf (Elt F) ((chunkM rrM (Spec.peer c 1)).view.loc (c : Thread nD τ)), pts (F := F) rrM c (Spec.peer c 1) fullShare f)
    ∗ (∃ f : Buf (Elt F) ((chunkM rrM (Spec.peer c 2)).view.loc (c : Thread nD τ)), pts (F := F) rrM c (Spec.peer c 2) fullShare f)
    ∗ (∃ f : Buf (Elt F) ((chunkM rrM (Spec.peer c 3)).view.loc (c : Thread nD τ)), pts (F := F) rrM c (Spec.peer c 3) fullShare f)
    ∗ (∃ f : Buf (Elt F) ((chunkM rrM (Spec.peer c 4)).view.loc (c : Thread nD τ)), pts (F := F) rrM c (Spec.peer c 4) fullShare f)
    ∗ (∃ f : Buf (Elt F) ((chunkM rrM (Spec.peer c 5)).view.loc (c : Thread nD τ)), pts (F := F) rrM c (Spec.peer c 5) fullShare f)
    ∗ (∃ f : Buf (Elt F) ((chunkM rrM (Spec.peer c 6)).view.loc (c : Thread nD τ)), pts (F := F) rrM c (Spec.peer c 6) fullShare f)
    ∗ (∃ f : Buf (Elt F) ((chunkM rrM (Spec.peer c 7)).view.loc (c : Thread nD τ)), pts (F := F) rrM c (Spec.peer c 7) fullShare f)
    ∗ ((View.loc (c : Thread nD τ) (Memref.whole cc0_scratch3 : Memref sig .tc .vmem S2x1024x2048 .f32).view) ↦{fullShare} f3)
    ∗ ((View.loc (c : Thread nD τ) (Memref.whole cc0_scratch4 : Memref sig .tc .vmem S2x2048x1024 .f32).view) ↦{fullShare} f4)
    ∗ ((View.loc (c : Thread nD τ) (Memref.whole cc0_scratch5 : Memref sig .tc .vmem S1024x2048 .bf16).view) ↦{fullShare} f5)
    ∗ ((View.loc (c : Thread nD τ) (Memref.whole cc0_scratch6 : Memref sig .tc .vmem S2048x1024 .bf16).view) ↦{fullShare} f6)
    ∗ semVal (((c : Thread nD τ), SemLoc.dma (⟨34, by have := nds; omega⟩ : DmaSem sig)) : GSem nD τ sig) 0
    ∗ semVal (((c : Thread nD τ), SemLoc.dma (⟨35, by have := nds; omega⟩ : DmaSem sig)) : GSem nD τ sig) 0
    ∗ semVal (((c : Thread nD τ), SemLoc.dma (⟨36, by have := nds; omega⟩ : DmaSem sig)) : GSem nD τ sig) 0
    ∗ semVal (((c : Thread nD τ), SemLoc.dma (⟨37, by have := nds; omega⟩ : DmaSem sig)) : GSem nD τ sig) 0)

/- The conjuncts' names, in order. ctxP: #HIb, #HIb1, #HIb2, #HIb3, #HIb4, #HIb5, #HIb6, #HIb7, #HIo0_1, #HIo0_2, #HIo0_3, #HIo0_4, #HIo0_5, #HIo0_6, #HIo0_7, #HIo1_1, #HIo1_2, #HIo1_3, #HIo1_4, #HIo1_5, #HIo1_6, #HIo1_7, #HIo2_1, #HIo2_2, #HIo2_3, #HIo2_4, #HIo2_5, #HIo2_6, #HIo2_7, #HIo3_1, #HIo3_2, #HIo3_3, #HIo3_4, #HIo3_5, #HIo3_6, #HIo3_7, #HIp1_1, #HIp1_2, #HIp1_3, #HIp1_4, #HIp1_5, #HIp1_6, #HIp1_7, #HIp3_1, #HIp3_2, #HIp3_3, #HIp3_4, #HIp3_5, #HIp3_6, #HIp3_7, #Hrb1, #Hrb2, #Hrb3, #Hrb4, #Hrb5, #Hrb6, #Hrb7, #Hro0_1, #Hro0_2, #Hro0_3, #Hro0_4, #Hro0_5, #Hro0_6, #Hro0_7, #Hro1_1, #Hro1_2, #Hro1_3, #Hro1_4, #Hro1_5, #Hro1_6, #Hro1_7, #Hro2_1, #Hro2_2, #Hro2_3, #Hro2_4, #Hro2_5, #Hro2_6, #Hro2_7, #Hro3_1, #Hro3_2, #Hro3_3, #Hro3_4, #Hro3_5, #Hro3_6, #Hro3_7, #Hrp1_1, #Hrp1_2, #Hrp1_3, #Hrp1_4, #Hrp1_5, #Hrp1_6, #Hrp1_7, #Hrp3_1, #Hrp3_2, #Hrp3_3, #Hrp3_4, #Hrp3_5, #Hrp3_6, #Hrp3_7, #Hlev
   ctxS: Htb1, Htb2, Htb3, Htb4, Htb5, Htb6, Htb7, Hts0_0_1, Htp1_0_1, Hts2_0_1, Htp3_0_1, Hts0_0_2, Htp1_0_2, Hts2_0_2, Htp3_0_2, Hts0_0_3, Htp1_0_3, Hts2_0_3, Htp3_0_3, Hts0_0_4, Htp1_0_4, Hts2_0_4, Htp3_0_4, Hts0_0_5, Htp1_0_5, Hts2_0_5, Htp3_0_5, Hts0_0_6, Htp1_0_6, Hts2_0_6, Htp3_0_6, Hts0_0_7, Htp1_0_7, Hts2_0_7, Htp3_0_7, Hts0_1_1, Htp1_1_1, Hts2_1_1, Htp3_1_1, Hts0_1_2, Htp1_1_2, Hts2_1_2, Htp3_1_2, Hts0_1_3, Htp1_1_3, Hts2_1_3, Htp3_1_3, Hts0_1_4, Htp1_1_4, Hts2_1_4, Htp3_1_4, Hts0_1_5, Htp1_1_5, Hts2_1_5, Htp3_1_5, Hts0_1_6, Htp1_1_6, Hts2_1_6, Htp3_1_6, Hts0_1_7, Htp1_1_7, Hts2_1_7, Htp3_1_7, Hts0_2_1, Htp1_2_1, Hts2_2_1, Htp3_2_1, Hts0_2_2, Htp1_2_2, Hts2_2_2, Htp3_2_2, Hts0_2_3, Htp1_2_3, Hts2_2_3, Htp3_2_3, Hts0_2_4, Htp1_2_4, Hts2_2_4, Htp3_2_4, Hts0_2_5, Htp1_2_5, Hts2_2_5, Htp3_2_5, Hts0_2_6, Htp1_2_6, Hts2_2_6, Htp3_2_6, Hts0_2_7, Htp1_2_7, Hts2_2_7, Htp3_2_7, Hatb, Hat0_1, Hat0_2, Hat0_3, Hat0_4, Hat0_5, Hat0_6, Hat0_7, Hat1_1, Hat1_2, Hat1_3, Hat1_4, Hat1_5, Hat1_6, Hat1_7, Hat2_1, Hat2_2, Hat2_3, Hat2_4, Hat2_5, Hat2_6, Hat2_7, Hat3_1, Hat3_2, Hat3_3, Hat3_4, Hat3_5, Hat3_6, Hat3_7, Hcrb, Hcr1_0_1, Hcr1_0_2, Hcr1_0_3, Hcr1_0_4, Hcr1_0_5, Hcr1_0_6, Hcr1_0_7, Hcr3_0_1, Hcr3_0_2, Hcr3_0_3, Hcr3_0_4, Hcr3_0_5, Hcr3_0_6, Hcr3_0_7, Hcr1_1_1, Hcr1_1_2, Hcr1_1_3, Hcr1_1_4, Hcr1_1_5, Hcr1_1_6, Hcr1_1_7, Hcr3_1_1, Hcr3_1_2, Hcr3_1_3, Hcr3_1_4, Hcr3_1_5, Hcr3_1_6, Hcr3_1_7, Hcr1_2_1, Hcr1_2_2, Hcr1_2_3, Hcr1_2_4, Hcr1_2_5, Hcr1_2_6, Hcr1_2_7, Hcr3_2_1, Hcr3_2_2, Hcr3_2_3, Hcr3_2_4, Hcr3_2_5, Hcr3_2_6, Hcr3_2_7, Hw1, Hw2, Hw3, Hw4, Hw5, Hw6, Hxf0, Hxf1, Hxf2, Hxf3, Hxf4, Hxf5, Hxf6, Hxf7, Hrs0, Hrs1, Hrs2, Hrs3, Hrs4, Hrs5, Hrs6, Hrs7, Hrr0, Hrr1, Hrr2, Hrr3, Hrr4, Hrr5, Hrr6, Hrr7, Hsc3, Hsc4, Hsc5, Hsc6, Hws0, Hws1, Hws2, Hws3 -/

end Cert.KernelIdeal.Proto

end
-- ==== Proof.KI.Canon.lean ====
import proofs.«900981_g7700000000000982_dist_mlpseq_tp1d_bs_bs_b64_d1024_h2048_v7x_i8_bf16_1_alg».proof.Proof.KI.Proto

noncomputable section

namespace Cert.KernelIdeal.Proto

open Cert.KernelIdeal Cert.KernelIdeal.Gen

open Idealize.ShloMosaic
open Idealize.SL.Sem

@[sl_canon] theorem dev_1 (d0 : Dev nD) : (⟨k0_dev1 d0, k0_dev1_lt d0⟩ : Dev nD) = Spec.peer d0 1 := Fin.ext (k0_dev1_eq d0)
@[sl_canon] theorem dev_2 (d0 : Dev nD) : (⟨k0_dev2 d0, k0_dev2_lt d0⟩ : Dev nD) = Spec.peer d0 2 := Fin.ext (k0_dev2_eq d0)
@[sl_canon] theorem dev_3 (d0 : Dev nD) : (⟨k0_dev3 d0, k0_dev3_lt d0⟩ : Dev nD) = Spec.peer d0 3 := Fin.ext (k0_dev3_eq d0)
@[sl_canon] theorem dev_4 (d0 : Dev nD) : (⟨k0_dev4 d0, k0_dev4_lt d0⟩ : Dev nD) = Spec.peer d0 4 := Fin.ext (k0_dev4_eq d0)
@[sl_canon] theorem dev_5 (d0 : Dev nD) : (⟨k0_dev5 d0, k0_dev5_lt d0⟩ : Dev nD) = Spec.peer d0 5 := Fin.ext (k0_dev5_eq d0)
@[sl_canon] theorem dev_6 (d0 : Dev nD) : (⟨k0_dev6 d0, k0_dev6_lt d0⟩ : Dev nD) = Spec.peer d0 6 := Fin.ext (k0_dev6_eq d0)
@[sl_canon] theorem dev_7 (d0 : Dev nD) : (⟨k0_dev7 d0, k0_dev7_lt d0⟩ : Dev nD) = Spec.peer d0 7 := Fin.ext (k0_dev7_eq d0)
@[sl_canon] theorem dev_8 (d0 : Dev nD) : (⟨k0_dev8 d0, k0_dev8_lt d0⟩ : Dev nD) = Spec.peer d0 7 := Fin.ext (k0_dev8_eq d0)
@[sl_canon] theorem dev_9 (d0 : Dev nD) : (⟨k0_dev9 d0, k0_dev9_lt d0⟩ : Dev nD) = Spec.peer d0 6 := Fin.ext (k0_dev9_eq d0)
@[sl_canon] theorem dev_10 (d0 : Dev nD) : (⟨k0_dev10 d0, k0_dev10_lt d0⟩ : Dev nD) = Spec.peer d0 5 := Fin.ext (k0_dev10_eq d0)
@[sl_canon] theorem dev_11 (d0 : Dev nD) : (⟨k0_dev11 d0, k0_dev11_lt d0⟩ : Dev nD) = Spec.peer d0 4 := Fin.ext (k0_dev11_eq d0)
@[sl_canon] theorem dev_12 (d0 : Dev nD) : (⟨k0_dev12 d0, k0_dev12_lt d0⟩ : Dev nD) = Spec.peer d0 3 := Fin.ext (k0_dev12_eq d0)
@[sl_canon] theorem dev_13 (d0 : Dev nD) : (⟨k0_dev13 d0, k0_dev13_lt d0⟩ : Dev nD) = Spec.peer d0 2 := Fin.ext (k0_dev13_eq d0)
@[sl_canon] theorem dev_14 (d0 : Dev nD) : (⟨k0_dev14 d0, k0_dev14_lt d0⟩ : Dev nD) = Spec.peer d0 1 := Fin.ext (k0_dev14_eq d0)
@[sl_canon] theorem dev_15 (d0 : Dev nD) : (⟨k0_dev15 d0, k0_dev15_lt d0⟩ : Dev nD) = Spec.peer d0 1 := Fin.ext (k0_dev15_eq d0)
@[sl_canon] theorem dev_16 (d0 : Dev nD) : (⟨k0_dev16 d0, k0_dev16_lt d0⟩ : Dev nD) = Spec.peer d0 2 := Fin.ext (k0_dev16_eq d0)
@[sl_canon] theorem dev_17 (d0 : Dev nD) : (⟨k0_dev17 d0, k0_dev17_lt d0⟩ : Dev nD) = Spec.peer d0 3 := Fin.ext (k0_dev17_eq d0)
@[sl_canon] theorem dev_18 (d0 : Dev nD) : (⟨k0_dev18 d0, k0_dev18_lt d0⟩ : Dev nD) = Spec.peer d0 4 := Fin.ext (k0_dev18_eq d0)
@[sl_canon] theorem dev_19 (d0 : Dev nD) : (⟨k0_dev19 d0, k0_dev19_lt d0⟩ : Dev nD) = Spec.peer d0 5 := Fin.ext (k0_dev19_eq d0)
@[sl_canon] theorem dev_20 (d0 : Dev nD) : (⟨k0_dev20 d0, k0_dev20_lt d0⟩ : Dev nD) = Spec.peer d0 6 := Fin.ext (k0_dev20_eq d0)
@[sl_canon] theorem dev_21 (d0 : Dev nD) : (⟨k0_dev21 d0, k0_dev21_lt d0⟩ : Dev nD) = Spec.peer d0 7 := Fin.ext (k0_dev21_eq d0)
@[sl_canon] theorem dev_22 (d0 : Dev nD) : (⟨k0_dev22 d0, k0_dev22_lt d0⟩ : Dev nD) = Spec.peer d0 7 := Fin.ext (k0_dev22_eq d0)
@[sl_canon] theorem dev_23 (d0 : Dev nD) : (⟨k0_dev23 d0, k0_dev23_lt d0⟩ : Dev nD) = Spec.peer d0 6 := Fin.ext (k0_dev23_eq d0)
@[sl_canon] theorem dev_24 (d0 : Dev nD) : (⟨k0_dev24 d0, k0_dev24_lt d0⟩ : Dev nD) = Spec.peer d0 5 := Fin.ext (k0_dev24_eq d0)
@[sl_canon] theorem dev_25 (d0 : Dev nD) : (⟨k0_dev25 d0, k0_dev25_lt d0⟩ : Dev nD) = Spec.peer d0 4 := Fin.ext (k0_dev25_eq d0)
@[sl_canon] theorem dev_26 (d0 : Dev nD) : (⟨k0_dev26 d0, k0_dev26_lt d0⟩ : Dev nD) = Spec.peer d0 3 := Fin.ext (k0_dev26_eq d0)
@[sl_canon] theorem dev_27 (d0 : Dev nD) : (⟨k0_dev27 d0, k0_dev27_lt d0⟩ : Dev nD) = Spec.peer d0 2 := Fin.ext (k0_dev27_eq d0)
@[sl_canon] theorem dev_28 (d0 : Dev nD) : (⟨k0_dev28 d0, k0_dev28_lt d0⟩ : Dev nD) = Spec.peer d0 1 := Fin.ext (k0_dev28_eq d0)
@[sl_canon] theorem dev_29 (d0 : Dev nD) : (⟨k0_dev29 d0, k0_dev29_lt d0⟩ : Dev nD) = Spec.peer d0 1 := Fin.ext (k0_dev29_eq d0)
@[sl_canon] theorem dev_30 (d0 : Dev nD) : (⟨k0_dev30 d0, k0_dev30_lt d0⟩ : Dev nD) = Spec.peer d0 2 := Fin.ext (k0_dev30_eq d0)
@[sl_canon] theorem dev_31 (d0 : Dev nD) : (⟨k0_dev31 d0, k0_dev31_lt d0⟩ : Dev nD) = Spec.peer d0 3 := Fin.ext (k0_dev31_eq d0)
@[sl_canon] theorem dev_32 (d0 : Dev nD) : (⟨k0_dev32 d0, k0_dev32_lt d0⟩ : Dev nD) = Spec.peer d0 4 := Fin.ext (k0_dev32_eq d0)
@[sl_canon] theorem dev_33 (d0 : Dev nD) : (⟨k0_dev33 d0, k0_dev33_lt d0⟩ : Dev nD) = Spec.peer d0 5 := Fin.ext (k0_dev33_eq d0)
@[sl_canon] theorem dev_34 (d0 : Dev nD) : (⟨k0_dev34 d0, k0_dev34_lt d0⟩ : Dev nD) = Spec.peer d0 6 := Fin.ext (k0_dev34_eq d0)
@[sl_canon] theorem dev_35 (d0 : Dev nD) : (⟨k0_dev35 d0, k0_dev35_lt d0⟩ : Dev nD) = Spec.peer d0 7 := Fin.ext (k0_dev35_eq d0)
@[sl_canon] theorem dev_36 (d0 : Dev nD) : (⟨k0_dev36 d0, k0_dev36_lt d0⟩ : Dev nD) = Spec.peer d0 7 := Fin.ext (k0_dev36_eq d0)
@[sl_canon] theorem dev_37 (d0 : Dev nD) : (⟨k0_dev37 d0, k0_dev37_lt d0⟩ : Dev nD) = Spec.peer d0 6 := Fin.ext (k0_dev37_eq d0)
@[sl_canon] theorem dev_38 (d0 : Dev nD) : (⟨k0_dev38 d0, k0_dev38_lt d0⟩ : Dev nD) = Spec.peer d0 5 := Fin.ext (k0_dev38_eq d0)
@[sl_canon] theorem dev_39 (d0 : Dev nD) : (⟨k0_dev39 d0, k0_dev39_lt d0⟩ : Dev nD) = Spec.peer d0 4 := Fin.ext (k0_dev39_eq d0)
@[sl_canon] theorem dev_40 (d0 : Dev nD) : (⟨k0_dev40 d0, k0_dev40_lt d0⟩ : Dev nD) = Spec.peer d0 3 := Fin.ext (k0_dev40_eq d0)
@[sl_canon] theorem dev_41 (d0 : Dev nD) : (⟨k0_dev41 d0, k0_dev41_lt d0⟩ : Dev nD) = Spec.peer d0 2 := Fin.ext (k0_dev41_eq d0)
@[sl_canon] theorem dev_42 (d0 : Dev nD) : (⟨k0_dev42 d0, k0_dev42_lt d0⟩ : Dev nD) = Spec.peer d0 1 := Fin.ext (k0_dev42_eq d0)
@[sl_canon] theorem dev_43 (d0 : Dev nD) : (⟨k0_dev43 d0, k0_dev43_lt d0⟩ : Dev nD) = Spec.peer d0 1 := Fin.ext (k0_dev43_eq d0)
@[sl_canon] theorem dev_44 (d0 : Dev nD) : (⟨k0_dev44 d0, k0_dev44_lt d0⟩ : Dev nD) = Spec.peer d0 2 := Fin.ext (k0_dev44_eq d0)
@[sl_canon] theorem dev_45 (d0 : Dev nD) : (⟨k0_dev45 d0, k0_dev45_lt d0⟩ : Dev nD) = Spec.peer d0 3 := Fin.ext (k0_dev45_eq d0)
@[sl_canon] theorem dev_46 (d0 : Dev nD) : (⟨k0_dev46 d0, k0_dev46_lt d0⟩ : Dev nD) = Spec.peer d0 4 := Fin.ext (k0_dev46_eq d0)
@[sl_canon] theorem dev_47 (d0 : Dev nD) : (⟨k0_dev47 d0, k0_dev47_lt d0⟩ : Dev nD) = Spec.peer d0 5 := Fin.ext (k0_dev47_eq d0)
@[sl_canon] theorem dev_48 (d0 : Dev nD) : (⟨k0_dev48 d0, k0_dev48_lt d0⟩ : Dev nD) = Spec.peer d0 6 := Fin.ext (k0_dev48_eq d0)
@[sl_canon] theorem dev_49 (d0 : Dev nD) : (⟨k0_dev49 d0, k0_dev49_lt d0⟩ : Dev nD) = Spec.peer d0 7 := Fin.ext (k0_dev49_eq d0)

@[sl_canon] theorem sem_ags_1 (d0 : Dev nD) : ((cc0_scratch7.slice (Rect.unit (s := S8) (k0_off2 d0 1#32) S1.size (Facts₀.k0_off2_inb d0 0))).squeeze S_ Facts₀.squeezes_S1_S_).sem = dsem 0 (Spec.peer d0 1) := by revert d0; decide
@[sl_canon] theorem sem_ags_2 (d0 : Dev nD) : ((cc0_scratch7.slice (Rect.unit (s := S8) (k0_off2 d0 2#32) S1.size (Facts₀.k0_off2_inb d0 1))).squeeze S_ Facts₀.squeezes_S1_S_).sem = dsem 0 (Spec.peer d0 2) := by revert d0; decide
@[sl_canon] theorem sem_ags_3 (d0 : Dev nD) : ((cc0_scratch7.slice (Rect.unit (s := S8) (k0_off2 d0 3#32) S1.size (Facts₀.k0_off2_inb d0 2))).squeeze S_ Facts₀.squeezes_S1_S_).sem = dsem 0 (Spec.peer d0 3) := by revert d0; decide
@[sl_canon] theorem sem_ags_4 (d0 : Dev nD) : ((cc0_scratch7.slice (Rect.unit (s := S8) (k0_off2 d0 4#32) S1.size (Facts₀.k0_off2_inb d0 3))).squeeze S_ Facts₀.squeezes_S1_S_).sem = dsem 0 (Spec.peer d0 4) := by revert d0; decide
@[sl_canon] theorem sem_ags_5 (d0 : Dev nD) : ((cc0_scratch7.slice (Rect.unit (s := S8) (k0_off2 d0 5#32) S1.size (Facts₀.k0_off2_inb d0 4))).squeeze S_ Facts₀.squeezes_S1_S_).sem = dsem 0 (Spec.peer d0 5) := by revert d0; decide
@[sl_canon] theorem sem_ags_6 (d0 : Dev nD) : ((cc0_scratch7.slice (Rect.unit (s := S8) (k0_off2 d0 6#32) S1.size (Facts₀.k0_off2_inb d0 5))).squeeze S_ Facts₀.squeezes_S1_S_).sem = dsem 0 (Spec.peer d0 6) := by revert d0; decide
@[sl_canon] theorem sem_ags_7 (d0 : Dev nD) : ((cc0_scratch7.slice (Rect.unit (s := S8) (k0_off2 d0 7#32) S1.size (Facts₀.k0_off2_inb d0 6))).squeeze S_ Facts₀.squeezes_S1_S_).sem = dsem 0 (Spec.peer d0 7) := by revert d0; decide

@[sl_canon] theorem sem_agr_own (d0 : Dev nD) : ((cc0_scratch8.slice (Rect.unit (s := S8) (k0_off3 d0) S1.size (Facts₀.k0_off3_inb d0))).squeeze S_ Facts₀.squeezes_S1_S_).sem = dsem 1 d0 := by revert d0; decide
@[sl_canon] theorem sem_agr_1 (d0 : Dev nD) : ((cc0_scratch8.slice (Rect.unit (s := S8) (k0_off2 d0 1#32) S1.size (Facts₀.k0_off2_inb d0 0))).squeeze S_ Facts₀.squeezes_S1_S_).sem = dsem 1 (Spec.peer d0 1) := by revert d0; decide
@[sl_canon] theorem sem_agr_2 (d0 : Dev nD) : ((cc0_scratch8.slice (Rect.unit (s := S8) (k0_off2 d0 2#32) S1.size (Facts₀.k0_off2_inb d0 1))).squeeze S_ Facts₀.squeezes_S1_S_).sem = dsem 1 (Spec.peer d0 2) := by revert d0; decide
@[sl_canon] theorem sem_agr_3 (d0 : Dev nD) : ((cc0_scratch8.slice (Rect.unit (s := S8) (k0_off2 d0 3#32) S1.size (Facts₀.k0_off2_inb d0 2))).squeeze S_ Facts₀.squeezes_S1_S_).sem = dsem 1 (Spec.peer d0 3) := by revert d0; decide
@[sl_canon] theorem sem_agr_4 (d0 : Dev nD) : ((cc0_scratch8.slice (Rect.unit (s := S8) (k0_off2 d0 4#32) S1.size (Facts₀.k0_off2_inb d0 3))).squeeze S_ Facts₀.squeezes_S1_S_).sem = dsem 1 (Spec.peer d0 4) := by revert d0; decide
@[sl_canon] theorem sem_agr_5 (d0 : Dev nD) : ((cc0_scratch8.slice (Rect.unit (s := S8) (k0_off2 d0 5#32) S1.size (Facts₀.k0_off2_inb d0 4))).squeeze S_ Facts₀.squeezes_S1_S_).sem = dsem 1 (Spec.peer d0 5) := by revert d0; decide
@[sl_canon] theorem sem_agr_6 (d0 : Dev nD) : ((cc0_scratch8.slice (Rect.unit (s := S8) (k0_off2 d0 6#32) S1.size (Facts₀.k0_off2_inb d0 5))).squeeze S_ Facts₀.squeezes_S1_S_).sem = dsem 1 (Spec.peer d0 6) := by revert d0; decide
@[sl_canon] theorem sem_agr_7 (d0 : Dev nD) : ((cc0_scratch8.slice (Rect.unit (s := S8) (k0_off2 d0 7#32) S1.size (Facts₀.k0_off2_inb d0 6))).squeeze S_ Facts₀.squeezes_S1_S_).sem = dsem 1 (Spec.peer d0 7) := by revert d0; decide

@[sl_canon] theorem sem_rss_1 (d0 : Dev nD) : ((cc0_scratch9.slice (Rect.unit (s := S8) (k0_off2 d0 1#32) S1.size (Facts₀.k0_off2_inb d0 0))).squeeze S_ Facts₀.squeezes_S1_S_).sem = dsem 2 (Spec.peer d0 1) := by revert d0; decide
@[sl_canon] theorem sem_rss_2 (d0 : Dev nD) : ((cc0_scratch9.slice (Rect.unit (s := S8) (k0_off2 d0 2#32) S1.size (Facts₀.k0_off2_inb d0 1))).squeeze S_ Facts₀.squeezes_S1_S_).sem = dsem 2 (Spec.peer d0 2) := by revert d0; decide
@[sl_canon] theorem sem_rss_3 (d0 : Dev nD) : ((cc0_scratch9.slice (Rect.unit (s := S8) (k0_off2 d0 3#32) S1.size (Facts₀.k0_off2_inb d0 2))).squeeze S_ Facts₀.squeezes_S1_S_).sem = dsem 2 (Spec.peer d0 3) := by revert d0; decide
@[sl_canon] theorem sem_rss_4 (d0 : Dev nD) : ((cc0_scratch9.slice (Rect.unit (s := S8) (k0_off2 d0 4#32) S1.size (Facts₀.k0_off2_inb d0 3))).squeeze S_ Facts₀.squeezes_S1_S_).sem = dsem 2 (Spec.peer d0 4) := by revert d0; decide
@[sl_canon] theorem sem_rss_5 (d0 : Dev nD) : ((cc0_scratch9.slice (Rect.unit (s := S8) (k0_off2 d0 5#32) S1.size (Facts₀.k0_off2_inb d0 4))).squeeze S_ Facts₀.squeezes_S1_S_).sem = dsem 2 (Spec.peer d0 5) := by revert d0; decide
@[sl_canon] theorem sem_rss_6 (d0 : Dev nD) : ((cc0_scratch9.slice (Rect.unit (s := S8) (k0_off2 d0 6#32) S1.size (Facts₀.k0_off2_inb d0 5))).squeeze S_ Facts₀.squeezes_S1_S_).sem = dsem 2 (Spec.peer d0 6) := by revert d0; decide
@[sl_canon] theorem sem_rss_7 (d0 : Dev nD) : ((cc0_scratch9.slice (Rect.unit (s := S8) (k0_off2 d0 7#32) S1.size (Facts₀.k0_off2_inb d0 6))).squeeze S_ Facts₀.squeezes_S1_S_).sem = dsem 2 (Spec.peer d0 7) := by revert d0; decide

@[sl_canon] theorem sem_rsr_own (d0 : Dev nD) : ((cc0_scratch10.slice (Rect.unit (s := S8) (k0_off3 d0) S1.size (Facts₀.k0_off3_inb d0))).squeeze S_ Facts₀.squeezes_S1_S_).sem = dsem 3 d0 := by revert d0; decide
@[sl_canon] theorem sem_rsr_1 (d0 : Dev nD) : ((cc0_scratch10.slice (Rect.unit (s := S8) (k0_off2 d0 1#32) S1.size (Facts₀.k0_off2_inb d0 0))).squeeze S_ Facts₀.squeezes_S1_S_).sem = dsem 3 (Spec.peer d0 1) := by revert d0; decide
@[sl_canon] theorem sem_rsr_2 (d0 : Dev nD) : ((cc0_scratch10.slice (Rect.unit (s := S8) (k0_off2 d0 2#32) S1.size (Facts₀.k0_off2_inb d0 1))).squeeze S_ Facts₀.squeezes_S1_S_).sem = dsem 3 (Spec.peer d0 2) := by revert d0; decide
@[sl_canon] theorem sem_rsr_3 (d0 : Dev nD) : ((cc0_scratch10.slice (Rect.unit (s := S8) (k0_off2 d0 3#32) S1.size (Facts₀.k0_off2_inb d0 2))).squeeze S_ Facts₀.squeezes_S1_S_).sem = dsem 3 (Spec.peer d0 3) := by revert d0; decide
@[sl_canon] theorem sem_rsr_4 (d0 : Dev nD) : ((cc0_scratch10.slice (Rect.unit (s := S8) (k0_off2 d0 4#32) S1.size (Facts₀.k0_off2_inb d0 3))).squeeze S_ Facts₀.squeezes_S1_S_).sem = dsem 3 (Spec.peer d0 4) := by revert d0; decide
@[sl_canon] theorem sem_rsr_5 (d0 : Dev nD) : ((cc0_scratch10.slice (Rect.unit (s := S8) (k0_off2 d0 5#32) S1.size (Facts₀.k0_off2_inb d0 4))).squeeze S_ Facts₀.squeezes_S1_S_).sem = dsem 3 (Spec.peer d0 5) := by revert d0; decide
@[sl_canon] theorem sem_rsr_6 (d0 : Dev nD) : ((cc0_scratch10.slice (Rect.unit (s := S8) (k0_off2 d0 6#32) S1.size (Facts₀.k0_off2_inb d0 5))).squeeze S_ Facts₀.squeezes_S1_S_).sem = dsem 3 (Spec.peer d0 6) := by revert d0; decide
@[sl_canon] theorem sem_rsr_7 (d0 : Dev nD) : ((cc0_scratch10.slice (Rect.unit (s := S8) (k0_off2 d0 7#32) S1.size (Facts₀.k0_off2_inb d0 6))).squeeze S_ Facts₀.squeezes_S1_S_).sem = dsem 3 (Spec.peer d0 7) := by revert d0; decide

@[sl_canon] theorem sem_w_0 : ((cc0_scratch11.slice (Rect.unit (s := S4) ![0] S1.size Facts₀.inb_S4_S1_0)).squeeze S_ Facts₀.squeezes_S1_S_).sem = (⟨34, by have := nds; omega⟩ : DmaSem sig) := by decide
@[sl_canon] theorem sem_w_1 : ((cc0_scratch11.slice (Rect.unit (s := S4) ![1] S1.size Facts₀.inb_S4_S1_1)).squeeze S_ Facts₀.squeezes_S1_S_).sem = (⟨35, by have := nds; omega⟩ : DmaSem sig) := by decide
@[sl_canon] theorem sem_w_2 : ((cc0_scratch11.slice (Rect.unit (s := S4) ![2] S1.size Facts₀.inb_S4_S1_2)).squeeze S_ Facts₀.squeezes_S1_S_).sem = (⟨36, by have := nds; omega⟩ : DmaSem sig) := by decide
@[sl_canon] theorem sem_w_3 : ((cc0_scratch11.slice (Rect.unit (s := S4) ![3] S1.size Facts₀.inb_S4_S1_3)).squeeze S_ Facts₀.squeezes_S1_S_).sem = (⟨37, by have := nds; omega⟩ : DmaSem sig) := by decide

end Cert.KernelIdeal.Proto

end
-- ==== Proof.KI.Incl.lean ====
import proofs.«900981_g7700000000000982_dist_mlpseq_tp1d_bs_bs_b64_d1024_h2048_v7x_i8_bf16_1_alg».proof.Proof.KI.Proto

noncomputable section

namespace Cert.KernelIdeal.Proto

open Cert.KernelIdeal Cert.KernelIdeal.Gen

open Idealize.ShloMosaic
open Idealize.SL.Sem

theorem incl_of_off (M : Memref sig .tc .vmem S512x1024 .bf16) (off : Fin S512x1024.rank → ℕ)
    (h : ∀ a, off a + S64x1024.size a ≤ S512x1024.size a) (k : Dev nD) (hoff : off = ![64 * k.val, 0]) :
    (M.access (Rect.unit (s := S512x1024) off S64x1024.size h)).set ⊆ (chunkM M k).view.set := by
  subst hoff; exact Finset.Subset.refl _

theorem incl_of_off_on (M : Memref sig .tc .vmem S512x1024 .bf16) (off : Fin S512x1024.rank → ℕ)
    (h : ∀ a, off a + S64x1024.size a ≤ S512x1024.size a) (k : Dev nD) (hoff : off = ![64 * k.val, 0]) :
    M.view.setOn (Rect.unit (s := S512x1024) off S64x1024.size h).set ⊆ (chunkM M k).view.set := by
  have e : M.view.setOn (Rect.unit (s := S512x1024) off S64x1024.size h).set
      = (M.access (Rect.unit (s := S512x1024) off S64x1024.size h)).set := (View.set_slice _ _).symm
  rw [e]; exact incl_of_off M off h k hoff

theorem off6_zero (c : Dev nD) : k0_off6 c 0#32 = ![64 * c.val, 0] :=
  (k0_off6_eq c 0).trans (by
    show ![64 * ((c.val + 0) % 8), 0] = ![64 * c.val, 0]
    rw [Nat.add_zero, Nat.mod_eq_of_lt (show c.val < 8 from c.isLt)])

theorem incl_xf_own (c : Dev nD) : ((Memref.whole cc0_scratch0 : Memref sig .tc .vmem S512x1024 .bf16).access (Rect.unit (s := S512x1024) (k0_off1 c) S64x1024.size (Facts₀.k0_off1_inb c))).set ⊆ (chunkM xfM c).view.set := incl_of_off _ _ _ c (k0_off1_eq c)
theorem incl_xf_own_on (c : Dev nD) : (Memref.whole cc0_scratch0 : Memref sig .tc .vmem S512x1024 .bf16).view.setOn (Rect.unit (s := S512x1024) (k0_off1 c) S64x1024.size (Facts₀.k0_off1_inb c)).set ⊆ (chunkM xfM c).view.set := incl_of_off_on _ _ _ c (k0_off1_eq c)
theorem incl_xf_0 (c : Dev nD) : ((Memref.whole cc0_scratch0 : Memref sig .tc .vmem S512x1024 .bf16).access (Rect.unit (s := S512x1024) (k0_off6 c 0#32) S64x1024.size (Facts₀.k0_off6_inb c 0))).set ⊆ (chunkM xfM c).view.set := incl_of_off _ _ _ c (off6_zero c)
theorem incl_xf_0_on (c : Dev nD) : (Memref.whole cc0_scratch0 : Memref sig .tc .vmem S512x1024 .bf16).view.setOn (Rect.unit (s := S512x1024) (k0_off6 c 0#32) S64x1024.size (Facts₀.k0_off6_inb c 0)).set ⊆ (chunkM xfM c).view.set := incl_of_off_on _ _ _ c (off6_zero c)
theorem incl_xf_1 (c : Dev nD) : ((Memref.whole cc0_scratch0 : Memref sig .tc .vmem S512x1024 .bf16).access (Rect.unit (s := S512x1024) (k0_off6 c 1#32) S64x1024.size (Facts₀.k0_off6_inb c 1))).set ⊆ (chunkM xfM (Spec.peer c 1)).view.set := incl_of_off _ _ _ _ (k0_off6_eq c 1)
theorem incl_xf_1_on (c : Dev nD) : (Memref.whole cc0_scratch0 : Memref sig .tc .vmem S512x1024 .bf16).view.setOn (Rect.unit (s := S512x1024) (k0_off6 c 1#32) S64x1024.size (Facts₀.k0_off6_inb c 1)).set ⊆ (chunkM xfM (Spec.peer c 1)).view.set := incl_of_off_on _ _ _ _ (k0_off6_eq c 1)
theorem incl_xf_2 (c : Dev nD) : ((Memref.whole cc0_scratch0 : Memref sig .tc .vmem S512x1024 .bf16).access (Rect.unit (s := S512x1024) (k0_off6 c 2#32) S64x1024.size (Facts₀.k0_off6_inb c 2))).set ⊆ (chunkM xfM (Spec.peer c 2)).view.set := incl_of_off _ _ _ _ (k0_off6_eq c 2)
theorem incl_xf_2_on (c : Dev nD) : (Memref.whole cc0_scratch0 : Memref sig .tc .vmem S512x1024 .bf16).view.setOn (Rect.unit (s := S512x1024) (k0_off6 c 2#32) S64x1024.size (Facts₀.k0_off6_inb c 2)).set ⊆ (chunkM xfM (Spec.peer c 2)).view.set := incl_of_off_on _ _ _ _ (k0_off6_eq c 2)
theorem incl_xf_3 (c : Dev nD) : ((Memref.whole cc0_scratch0 : Memref sig .tc .vmem S512x1024 .bf16).access (Rect.unit (s := S512x1024) (k0_off6 c 3#32) S64x1024.size (Facts₀.k0_off6_inb c 3))).set ⊆ (chunkM xfM (Spec.peer c 3)).view.set := incl_of_off _ _ _ _ (k0_off6_eq c 3)
theorem incl_xf_3_on (c : Dev nD) : (Memref.whole cc0_scratch0 : Memref sig .tc .vmem S512x1024 .bf16).view.setOn (Rect.unit (s := S512x1024) (k0_off6 c 3#32) S64x1024.size (Facts₀.k0_off6_inb c 3)).set ⊆ (chunkM xfM (Spec.peer c 3)).view.set := incl_of_off_on _ _ _ _ (k0_off6_eq c 3)
theorem incl_xf_4 (c : Dev nD) : ((Memref.whole cc0_scratch0 : Memref sig .tc .vmem S512x1024 .bf16).access (Rect.unit (s := S512x1024) (k0_off6 c 4#32) S64x1024.size (Facts₀.k0_off6_inb c 4))).set ⊆ (chunkM xfM (Spec.peer c 4)).view.set := incl_of_off _ _ _ _ (k0_off6_eq c 4)
theorem incl_xf_4_on (c : Dev nD) : (Memref.whole cc0_scratch0 : Memref sig .tc .vmem S512x1024 .bf16).view.setOn (Rect.unit (s := S512x1024) (k0_off6 c 4#32) S64x1024.size (Facts₀.k0_off6_inb c 4)).set ⊆ (chunkM xfM (Spec.peer c 4)).view.set := incl_of_off_on _ _ _ _ (k0_off6_eq c 4)
theorem incl_xf_5 (c : Dev nD) : ((Memref.whole cc0_scratch0 : Memref sig .tc .vmem S512x1024 .bf16).access (Rect.unit (s := S512x1024) (k0_off6 c 5#32) S64x1024.size (Facts₀.k0_off6_inb c 5))).set ⊆ (chunkM xfM (Spec.peer c 5)).view.set := incl_of_off _ _ _ _ (k0_off6_eq c 5)
theorem incl_xf_5_on (c : Dev nD) : (Memref.whole cc0_scratch0 : Memref sig .tc .vmem S512x1024 .bf16).view.setOn (Rect.unit (s := S512x1024) (k0_off6 c 5#32) S64x1024.size (Facts₀.k0_off6_inb c 5)).set ⊆ (chunkM xfM (Spec.peer c 5)).view.set := incl_of_off_on _ _ _ _ (k0_off6_eq c 5)
theorem incl_xf_6 (c : Dev nD) : ((Memref.whole cc0_scratch0 : Memref sig .tc .vmem S512x1024 .bf16).access (Rect.unit (s := S512x1024) (k0_off6 c 6#32) S64x1024.size (Facts₀.k0_off6_inb c 6))).set ⊆ (chunkM xfM (Spec.peer c 6)).view.set := incl_of_off _ _ _ _ (k0_off6_eq c 6)
theorem incl_xf_6_on (c : Dev nD) : (Memref.whole cc0_scratch0 : Memref sig .tc .vmem S512x1024 .bf16).view.setOn (Rect.unit (s := S512x1024) (k0_off6 c 6#32) S64x1024.size (Facts₀.k0_off6_inb c 6)).set ⊆ (chunkM xfM (Spec.peer c 6)).view.set := incl_of_off_on _ _ _ _ (k0_off6_eq c 6)
theorem incl_xf_7 (c : Dev nD) : ((Memref.whole cc0_scratch0 : Memref sig .tc .vmem S512x1024 .bf16).access (Rect.unit (s := S512x1024) (k0_off6 c 7#32) S64x1024.size (Facts₀.k0_off6_inb c 7))).set ⊆ (chunkM xfM (Spec.peer c 7)).view.set := incl_of_off _ _ _ _ (k0_off6_eq c 7)
theorem incl_xf_7_on (c : Dev nD) : (Memref.whole cc0_scratch0 : Memref sig .tc .vmem S512x1024 .bf16).view.setOn (Rect.unit (s := S512x1024) (k0_off6 c 7#32) S64x1024.size (Facts₀.k0_off6_inb c 7)).set ⊆ (chunkM xfM (Spec.peer c 7)).view.set := incl_of_off_on _ _ _ _ (k0_off6_eq c 7)
theorem incl_rs_1 (c : Dev nD) : ((Memref.whole cc0_scratch1 : Memref sig .tc .vmem S512x1024 .bf16).access (Rect.unit (s := S512x1024) (k0_off6 c 1#32) S64x1024.size (Facts₀.k0_off6_inb c 1))).set ⊆ (chunkM rsM (Spec.peer c 1)).view.set := incl_of_off _ _ _ _ (k0_off6_eq c 1)
theorem incl_rs_1_on (c : Dev nD) : (Memref.whole cc0_scratch1 : Memref sig .tc .vmem S512x1024 .bf16).view.setOn (Rect.unit (s := S512x1024) (k0_off6 c 1#32) S64x1024.size (Facts₀.k0_off6_inb c 1)).set ⊆ (chunkM rsM (Spec.peer c 1)).view.set := incl_of_off_on _ _ _ _ (k0_off6_eq c 1)
theorem incl_rs_2 (c : Dev nD) : ((Memref.whole cc0_scratch1 : Memref sig .tc .vmem S512x1024 .bf16).access (Rect.unit (s := S512x1024) (k0_off6 c 2#32) S64x1024.size (Facts₀.k0_off6_inb c 2))).set ⊆ (chunkM rsM (Spec.peer c 2)).view.set := incl_of_off _ _ _ _ (k0_off6_eq c 2)
theorem incl_rs_2_on (c : Dev nD) : (Memref.whole cc0_scratch1 : Memref sig .tc .vmem S512x1024 .bf16).view.setOn (Rect.unit (s := S512x1024) (k0_off6 c 2#32) S64x1024.size (Facts₀.k0_off6_inb c 2)).set ⊆ (chunkM rsM (Spec.peer c 2)).view.set := incl_of_off_on _ _ _ _ (k0_off6_eq c 2)
theorem incl_rs_3 (c : Dev nD) : ((Memref.whole cc0_scratch1 : Memref sig .tc .vmem S512x1024 .bf16).access (Rect.unit (s := S512x1024) (k0_off6 c 3#32) S64x1024.size (Facts₀.k0_off6_inb c 3))).set ⊆ (chunkM rsM (Spec.peer c 3)).view.set := incl_of_off _ _ _ _ (k0_off6_eq c 3)
theorem incl_rs_3_on (c : Dev nD) : (Memref.whole cc0_scratch1 : Memref sig .tc .vmem S512x1024 .bf16).view.setOn (Rect.unit (s := S512x1024) (k0_off6 c 3#32) S64x1024.size (Facts₀.k0_off6_inb c 3)).set ⊆ (chunkM rsM (Spec.peer c 3)).view.set := incl_of_off_on _ _ _ _ (k0_off6_eq c 3)
theorem incl_rs_4 (c : Dev nD) : ((Memref.whole cc0_scratch1 : Memref sig .tc .vmem S512x1024 .bf16).access (Rect.unit (s := S512x1024) (k0_off6 c 4#32) S64x1024.size (Facts₀.k0_off6_inb c 4))).set ⊆ (chunkM rsM (Spec.peer c 4)).view.set := incl_of_off _ _ _ _ (k0_off6_eq c 4)
theorem incl_rs_4_on (c : Dev nD) : (Memref.whole cc0_scratch1 : Memref sig .tc .vmem S512x1024 .bf16).view.setOn (Rect.unit (s := S512x1024) (k0_off6 c 4#32) S64x1024.size (Facts₀.k0_off6_inb c 4)).set ⊆ (chunkM rsM (Spec.peer c 4)).view.set := incl_of_off_on _ _ _ _ (k0_off6_eq c 4)
theorem incl_rs_5 (c : Dev nD) : ((Memref.whole cc0_scratch1 : Memref sig .tc .vmem S512x1024 .bf16).access (Rect.unit (s := S512x1024) (k0_off6 c 5#32) S64x1024.size (Facts₀.k0_off6_inb c 5))).set ⊆ (chunkM rsM (Spec.peer c 5)).view.set := incl_of_off _ _ _ _ (k0_off6_eq c 5)
theorem incl_rs_5_on (c : Dev nD) : (Memref.whole cc0_scratch1 : Memref sig .tc .vmem S512x1024 .bf16).view.setOn (Rect.unit (s := S512x1024) (k0_off6 c 5#32) S64x1024.size (Facts₀.k0_off6_inb c 5)).set ⊆ (chunkM rsM (Spec.peer c 5)).view.set := incl_of_off_on _ _ _ _ (k0_off6_eq c 5)
theorem incl_rs_6 (c : Dev nD) : ((Memref.whole cc0_scratch1 : Memref sig .tc .vmem S512x1024 .bf16).access (Rect.unit (s := S512x1024) (k0_off6 c 6#32) S64x1024.size (Facts₀.k0_off6_inb c 6))).set ⊆ (chunkM rsM (Spec.peer c 6)).view.set := incl_of_off _ _ _ _ (k0_off6_eq c 6)
theorem incl_rs_6_on (c : Dev nD) : (Memref.whole cc0_scratch1 : Memref sig .tc .vmem S512x1024 .bf16).view.setOn (Rect.unit (s := S512x1024) (k0_off6 c 6#32) S64x1024.size (Facts₀.k0_off6_inb c 6)).set ⊆ (chunkM rsM (Spec.peer c 6)).view.set := incl_of_off_on _ _ _ _ (k0_off6_eq c 6)
theorem incl_rs_7 (c : Dev nD) : ((Memref.whole cc0_scratch1 : Memref sig .tc .vmem S512x1024 .bf16).access (Rect.unit (s := S512x1024) (k0_off6 c 7#32) S64x1024.size (Facts₀.k0_off6_inb c 7))).set ⊆ (chunkM rsM (Spec.peer c 7)).view.set := incl_of_off _ _ _ _ (k0_off6_eq c 7)
theorem incl_rs_7_on (c : Dev nD) : (Memref.whole cc0_scratch1 : Memref sig .tc .vmem S512x1024 .bf16).view.setOn (Rect.unit (s := S512x1024) (k0_off6 c 7#32) S64x1024.size (Facts₀.k0_off6_inb c 7)).set ⊆ (chunkM rsM (Spec.peer c 7)).view.set := incl_of_off_on _ _ _ _ (k0_off6_eq c 7)
theorem incl_rr_1 (c : Dev nD) : ((Memref.whole cc0_scratch2 : Memref sig .tc .vmem S512x1024 .bf16).access (Rect.unit (s := S512x1024) (k0_off6 c 1#32) S64x1024.size (Facts₀.k0_off6_inb c 1))).set ⊆ (chunkM rrM (Spec.peer c 1)).view.set := incl_of_off _ _ _ _ (k0_off6_eq c 1)
theorem incl_rr_1_on (c : Dev nD) : (Memref.whole cc0_scratch2 : Memref sig .tc .vmem S512x1024 .bf16).view.setOn (Rect.unit (s := S512x1024) (k0_off6 c 1#32) S64x1024.size (Facts₀.k0_off6_inb c 1)).set ⊆ (chunkM rrM (Spec.peer c 1)).view.set := incl_of_off_on _ _ _ _ (k0_off6_eq c 1)
theorem incl_rr_2 (c : Dev nD) : ((Memref.whole cc0_scratch2 : Memref sig .tc .vmem S512x1024 .bf16).access (Rect.unit (s := S512x1024) (k0_off6 c 2#32) S64x1024.size (Facts₀.k0_off6_inb c 2))).set ⊆ (chunkM rrM (Spec.peer c 2)).view.set := incl_of_off _ _ _ _ (k0_off6_eq c 2)
theorem incl_rr_2_on (c : Dev nD) : (Memref.whole cc0_scratch2 : Memref sig .tc .vmem S512x1024 .bf16).view.setOn (Rect.unit (s := S512x1024) (k0_off6 c 2#32) S64x1024.size (Facts₀.k0_off6_inb c 2)).set ⊆ (chunkM rrM (Spec.peer c 2)).view.set := incl_of_off_on _ _ _ _ (k0_off6_eq c 2)
theorem incl_rr_3 (c : Dev nD) : ((Memref.whole cc0_scratch2 : Memref sig .tc .vmem S512x1024 .bf16).access (Rect.unit (s := S512x1024) (k0_off6 c 3#32) S64x1024.size (Facts₀.k0_off6_inb c 3))).set ⊆ (chunkM rrM (Spec.peer c 3)).view.set := incl_of_off _ _ _ _ (k0_off6_eq c 3)
theorem incl_rr_3_on (c : Dev nD) : (Memref.whole cc0_scratch2 : Memref sig .tc .vmem S512x1024 .bf16).view.setOn (Rect.unit (s := S512x1024) (k0_off6 c 3#32) S64x1024.size (Facts₀.k0_off6_inb c 3)).set ⊆ (chunkM rrM (Spec.peer c 3)).view.set := incl_of_off_on _ _ _ _ (k0_off6_eq c 3)
theorem incl_rr_4 (c : Dev nD) : ((Memref.whole cc0_scratch2 : Memref sig .tc .vmem S512x1024 .bf16).access (Rect.unit (s := S512x1024) (k0_off6 c 4#32) S64x1024.size (Facts₀.k0_off6_inb c 4))).set ⊆ (chunkM rrM (Spec.peer c 4)).view.set := incl_of_off _ _ _ _ (k0_off6_eq c 4)
theorem incl_rr_4_on (c : Dev nD) : (Memref.whole cc0_scratch2 : Memref sig .tc .vmem S512x1024 .bf16).view.setOn (Rect.unit (s := S512x1024) (k0_off6 c 4#32) S64x1024.size (Facts₀.k0_off6_inb c 4)).set ⊆ (chunkM rrM (Spec.peer c 4)).view.set := incl_of_off_on _ _ _ _ (k0_off6_eq c 4)
theorem incl_rr_5 (c : Dev nD) : ((Memref.whole cc0_scratch2 : Memref sig .tc .vmem S512x1024 .bf16).access (Rect.unit (s := S512x1024) (k0_off6 c 5#32) S64x1024.size (Facts₀.k0_off6_inb c 5))).set ⊆ (chunkM rrM (Spec.peer c 5)).view.set := incl_of_off _ _ _ _ (k0_off6_eq c 5)
theorem incl_rr_5_on (c : Dev nD) : (Memref.whole cc0_scratch2 : Memref sig .tc .vmem S512x1024 .bf16).view.setOn (Rect.unit (s := S512x1024) (k0_off6 c 5#32) S64x1024.size (Facts₀.k0_off6_inb c 5)).set ⊆ (chunkM rrM (Spec.peer c 5)).view.set := incl_of_off_on _ _ _ _ (k0_off6_eq c 5)
theorem incl_rr_6 (c : Dev nD) : ((Memref.whole cc0_scratch2 : Memref sig .tc .vmem S512x1024 .bf16).access (Rect.unit (s := S512x1024) (k0_off6 c 6#32) S64x1024.size (Facts₀.k0_off6_inb c 6))).set ⊆ (chunkM rrM (Spec.peer c 6)).view.set := incl_of_off _ _ _ _ (k0_off6_eq c 6)
theorem incl_rr_6_on (c : Dev nD) : (Memref.whole cc0_scratch2 : Memref sig .tc .vmem S512x1024 .bf16).view.setOn (Rect.unit (s := S512x1024) (k0_off6 c 6#32) S64x1024.size (Facts₀.k0_off6_inb c 6)).set ⊆ (chunkM rrM (Spec.peer c 6)).view.set := incl_of_off_on _ _ _ _ (k0_off6_eq c 6)
theorem incl_rr_7 (c : Dev nD) : ((Memref.whole cc0_scratch2 : Memref sig .tc .vmem S512x1024 .bf16).access (Rect.unit (s := S512x1024) (k0_off6 c 7#32) S64x1024.size (Facts₀.k0_off6_inb c 7))).set ⊆ (chunkM rrM (Spec.peer c 7)).view.set := incl_of_off _ _ _ _ (k0_off6_eq c 7)
theorem incl_rr_7_on (c : Dev nD) : (Memref.whole cc0_scratch2 : Memref sig .tc .vmem S512x1024 .bf16).view.setOn (Rect.unit (s := S512x1024) (k0_off6 c 7#32) S64x1024.size (Facts₀.k0_off6_inb c 7)).set ⊆ (chunkM rrM (Spec.peer c 7)).view.set := incl_of_off_on _ _ _ _ (k0_off6_eq c 7)

theorem incl_xf_own_st (c : Dev nD) : ((Memref.whole cc0_scratch0 : Memref sig .tc .vmem S512x1024 .bf16).access (Rect.unit (s := S512x1024) (k0_off1 c) S64x1024.size (Facts₀.k0_off1_inb c))).setOn Finset.univ ⊆ (chunkM xfM c).view.set := incl_xf_own c
theorem incl_rs_1_st (c : Dev nD) : ((Memref.whole cc0_scratch1 : Memref sig .tc .vmem S512x1024 .bf16).access (Rect.unit (s := S512x1024) (k0_off6 c 1#32) S64x1024.size (Facts₀.k0_off6_inb c 1))).setOn Finset.univ ⊆ (chunkM rsM (Spec.peer c 1)).view.set := incl_rs_1 c
theorem incl_rs_2_st (c : Dev nD) : ((Memref.whole cc0_scratch1 : Memref sig .tc .vmem S512x1024 .bf16).access (Rect.unit (s := S512x1024) (k0_off6 c 2#32) S64x1024.size (Facts₀.k0_off6_inb c 2))).setOn Finset.univ ⊆ (chunkM rsM (Spec.peer c 2)).view.set := incl_rs_2 c
theorem incl_rs_3_st (c : Dev nD) : ((Memref.whole cc0_scratch1 : Memref sig .tc .vmem S512x1024 .bf16).access (Rect.unit (s := S512x1024) (k0_off6 c 3#32) S64x1024.size (Facts₀.k0_off6_inb c 3))).setOn Finset.univ ⊆ (chunkM rsM (Spec.peer c 3)).view.set := incl_rs_3 c
theorem incl_rs_4_st (c : Dev nD) : ((Memref.whole cc0_scratch1 : Memref sig .tc .vmem S512x1024 .bf16).access (Rect.unit (s := S512x1024) (k0_off6 c 4#32) S64x1024.size (Facts₀.k0_off6_inb c 4))).setOn Finset.univ ⊆ (chunkM rsM (Spec.peer c 4)).view.set := incl_rs_4 c
theorem incl_rs_5_st (c : Dev nD) : ((Memref.whole cc0_scratch1 : Memref sig .tc .vmem S512x1024 .bf16).access (Rect.unit (s := S512x1024) (k0_off6 c 5#32) S64x1024.size (Facts₀.k0_off6_inb c 5))).setOn Finset.univ ⊆ (chunkM rsM (Spec.peer c 5)).view.set := incl_rs_5 c
theorem incl_rs_6_st (c : Dev nD) : ((Memref.whole cc0_scratch1 : Memref sig .tc .vmem S512x1024 .bf16).access (Rect.unit (s := S512x1024) (k0_off6 c 6#32) S64x1024.size (Facts₀.k0_off6_inb c 6))).setOn Finset.univ ⊆ (chunkM rsM (Spec.peer c 6)).view.set := incl_rs_6 c
theorem incl_rs_7_st (c : Dev nD) : ((Memref.whole cc0_scratch1 : Memref sig .tc .vmem S512x1024 .bf16).access (Rect.unit (s := S512x1024) (k0_off6 c 7#32) S64x1024.size (Facts₀.k0_off6_inb c 7))).setOn Finset.univ ⊆ (chunkM rsM (Spec.peer c 7)).view.set := incl_rs_7 c

@[sl_canon] theorem slice_xf_own (d0 : Dev nD) : (Memref.whole cc0_scratch0 : Memref sig .tc .vmem S512x1024 .bf16).slice (Rect.unit (s := S512x1024) (k0_off4 d0) S64x1024.size (Facts₀.k0_off4_inb d0)) (fun _ => rfl) = chunkM xfM d0 := Memref.slice_unit_congr _ (k0_off4_eq d0) _ _ _ _
@[sl_canon] theorem slice_rr_own (d0 : Dev nD) : (Memref.whole cc0_scratch2 : Memref sig .tc .vmem S512x1024 .bf16).slice (Rect.unit (s := S512x1024) (k0_off4 d0) S64x1024.size (Facts₀.k0_off4_inb d0)) (fun _ => rfl) = chunkM rrM d0 := Memref.slice_unit_congr _ (k0_off4_eq d0) _ _ _ _
@[sl_canon] theorem slice_xf_1 (d0 : Dev nD) : (Memref.whole cc0_scratch0 : Memref sig .tc .vmem S512x1024 .bf16).slice (Rect.unit (s := S512x1024) (k0_off5 d0 1#32) S64x1024.size (Facts₀.k0_off5_inb d0 0)) (fun _ => rfl) = chunkM xfM (Spec.peer d0 1) := Memref.slice_unit_congr _ (k0_off5_eq d0 0) _ _ _ _
@[sl_canon] theorem slice_xf_2 (d0 : Dev nD) : (Memref.whole cc0_scratch0 : Memref sig .tc .vmem S512x1024 .bf16).slice (Rect.unit (s := S512x1024) (k0_off5 d0 2#32) S64x1024.size (Facts₀.k0_off5_inb d0 1)) (fun _ => rfl) = chunkM xfM (Spec.peer d0 2) := Memref.slice_unit_congr _ (k0_off5_eq d0 1) _ _ _ _
@[sl_canon] theorem slice_xf_3 (d0 : Dev nD) : (Memref.whole cc0_scratch0 : Memref sig .tc .vmem S512x1024 .bf16).slice (Rect.unit (s := S512x1024) (k0_off5 d0 3#32) S64x1024.size (Facts₀.k0_off5_inb d0 2)) (fun _ => rfl) = chunkM xfM (Spec.peer d0 3) := Memref.slice_unit_congr _ (k0_off5_eq d0 2) _ _ _ _
@[sl_canon] theorem slice_xf_4 (d0 : Dev nD) : (Memref.whole cc0_scratch0 : Memref sig .tc .vmem S512x1024 .bf16).slice (Rect.unit (s := S512x1024) (k0_off5 d0 4#32) S64x1024.size (Facts₀.k0_off5_inb d0 3)) (fun _ => rfl) = chunkM xfM (Spec.peer d0 4) := Memref.slice_unit_congr _ (k0_off5_eq d0 3) _ _ _ _
@[sl_canon] theorem slice_xf_5 (d0 : Dev nD) : (Memref.whole cc0_scratch0 : Memref sig .tc .vmem S512x1024 .bf16).slice (Rect.unit (s := S512x1024) (k0_off5 d0 5#32) S64x1024.size (Facts₀.k0_off5_inb d0 4)) (fun _ => rfl) = chunkM xfM (Spec.peer d0 5) := Memref.slice_unit_congr _ (k0_off5_eq d0 4) _ _ _ _
@[sl_canon] theorem slice_xf_6 (d0 : Dev nD) : (Memref.whole cc0_scratch0 : Memref sig .tc .vmem S512x1024 .bf16).slice (Rect.unit (s := S512x1024) (k0_off5 d0 6#32) S64x1024.size (Facts₀.k0_off5_inb d0 5)) (fun _ => rfl) = chunkM xfM (Spec.peer d0 6) := Memref.slice_unit_congr _ (k0_off5_eq d0 5) _ _ _ _
@[sl_canon] theorem slice_xf_7 (d0 : Dev nD) : (Memref.whole cc0_scratch0 : Memref sig .tc .vmem S512x1024 .bf16).slice (Rect.unit (s := S512x1024) (k0_off5 d0 7#32) S64x1024.size (Facts₀.k0_off5_inb d0 6)) (fun _ => rfl) = chunkM xfM (Spec.peer d0 7) := Memref.slice_unit_congr _ (k0_off5_eq d0 6) _ _ _ _
@[sl_canon] theorem slice_rs_1 (d0 : Dev nD) : (Memref.whole cc0_scratch1 : Memref sig .tc .vmem S512x1024 .bf16).slice (Rect.unit (s := S512x1024) (k0_off5 d0 1#32) S64x1024.size (Facts₀.k0_off5_inb d0 0)) (fun _ => rfl) = chunkM rsM (Spec.peer d0 1) := Memref.slice_unit_congr _ (k0_off5_eq d0 0) _ _ _ _
@[sl_canon] theorem slice_rs_2 (d0 : Dev nD) : (Memref.whole cc0_scratch1 : Memref sig .tc .vmem S512x1024 .bf16).slice (Rect.unit (s := S512x1024) (k0_off5 d0 2#32) S64x1024.size (Facts₀.k0_off5_inb d0 1)) (fun _ => rfl) = chunkM rsM (Spec.peer d0 2) := Memref.slice_unit_congr _ (k0_off5_eq d0 1) _ _ _ _
@[sl_canon] theorem slice_rs_3 (d0 : Dev nD) : (Memref.whole cc0_scratch1 : Memref sig .tc .vmem S512x1024 .bf16).slice (Rect.unit (s := S512x1024) (k0_off5 d0 3#32) S64x1024.size (Facts₀.k0_off5_inb d0 2)) (fun _ => rfl) = chunkM rsM (Spec.peer d0 3) := Memref.slice_unit_congr _ (k0_off5_eq d0 2) _ _ _ _
@[sl_canon] theorem slice_rs_4 (d0 : Dev nD) : (Memref.whole cc0_scratch1 : Memref sig .tc .vmem S512x1024 .bf16).slice (Rect.unit (s := S512x1024) (k0_off5 d0 4#32) S64x1024.size (Facts₀.k0_off5_inb d0 3)) (fun _ => rfl) = chunkM rsM (Spec.peer d0 4) := Memref.slice_unit_congr _ (k0_off5_eq d0 3) _ _ _ _
@[sl_canon] theorem slice_rs_5 (d0 : Dev nD) : (Memref.whole cc0_scratch1 : Memref sig .tc .vmem S512x1024 .bf16).slice (Rect.unit (s := S512x1024) (k0_off5 d0 5#32) S64x1024.size (Facts₀.k0_off5_inb d0 4)) (fun _ => rfl) = chunkM rsM (Spec.peer d0 5) := Memref.slice_unit_congr _ (k0_off5_eq d0 4) _ _ _ _
@[sl_canon] theorem slice_rs_6 (d0 : Dev nD) : (Memref.whole cc0_scratch1 : Memref sig .tc .vmem S512x1024 .bf16).slice (Rect.unit (s := S512x1024) (k0_off5 d0 6#32) S64x1024.size (Facts₀.k0_off5_inb d0 5)) (fun _ => rfl) = chunkM rsM (Spec.peer d0 6) := Memref.slice_unit_congr _ (k0_off5_eq d0 5) _ _ _ _
@[sl_canon] theorem slice_rs_7 (d0 : Dev nD) : (Memref.whole cc0_scratch1 : Memref sig .tc .vmem S512x1024 .bf16).slice (Rect.unit (s := S512x1024) (k0_off5 d0 7#32) S64x1024.size (Facts₀.k0_off5_inb d0 6)) (fun _ => rfl) = chunkM rsM (Spec.peer d0 7) := Memref.slice_unit_congr _ (k0_off5_eq d0 6) _ _ _ _
@[sl_canon] theorem slice_rr_1 (d0 : Dev nD) : (Memref.whole cc0_scratch2 : Memref sig .tc .vmem S512x1024 .bf16).slice (Rect.unit (s := S512x1024) (k0_off5 d0 1#32) S64x1024.size (Facts₀.k0_off5_inb d0 0)) (fun _ => rfl) = chunkM rrM (Spec.peer d0 1) := Memref.slice_unit_congr _ (k0_off5_eq d0 0) _ _ _ _
@[sl_canon] theorem slice_rr_2 (d0 : Dev nD) : (Memref.whole cc0_scratch2 : Memref sig .tc .vmem S512x1024 .bf16).slice (Rect.unit (s := S512x1024) (k0_off5 d0 2#32) S64x1024.size (Facts₀.k0_off5_inb d0 1)) (fun _ => rfl) = chunkM rrM (Spec.peer d0 2) := Memref.slice_unit_congr _ (k0_off5_eq d0 1) _ _ _ _
@[sl_canon] theorem slice_rr_3 (d0 : Dev nD) : (Memref.whole cc0_scratch2 : Memref sig .tc .vmem S512x1024 .bf16).slice (Rect.unit (s := S512x1024) (k0_off5 d0 3#32) S64x1024.size (Facts₀.k0_off5_inb d0 2)) (fun _ => rfl) = chunkM rrM (Spec.peer d0 3) := Memref.slice_unit_congr _ (k0_off5_eq d0 2) _ _ _ _
@[sl_canon] theorem slice_rr_4 (d0 : Dev nD) : (Memref.whole cc0_scratch2 : Memref sig .tc .vmem S512x1024 .bf16).slice (Rect.unit (s := S512x1024) (k0_off5 d0 4#32) S64x1024.size (Facts₀.k0_off5_inb d0 3)) (fun _ => rfl) = chunkM rrM (Spec.peer d0 4) := Memref.slice_unit_congr _ (k0_off5_eq d0 3) _ _ _ _
@[sl_canon] theorem slice_rr_5 (d0 : Dev nD) : (Memref.whole cc0_scratch2 : Memref sig .tc .vmem S512x1024 .bf16).slice (Rect.unit (s := S512x1024) (k0_off5 d0 5#32) S64x1024.size (Facts₀.k0_off5_inb d0 4)) (fun _ => rfl) = chunkM rrM (Spec.peer d0 5) := Memref.slice_unit_congr _ (k0_off5_eq d0 4) _ _ _ _
@[sl_canon] theorem slice_rr_6 (d0 : Dev nD) : (Memref.whole cc0_scratch2 : Memref sig .tc .vmem S512x1024 .bf16).slice (Rect.unit (s := S512x1024) (k0_off5 d0 6#32) S64x1024.size (Facts₀.k0_off5_inb d0 5)) (fun _ => rfl) = chunkM rrM (Spec.peer d0 6) := Memref.slice_unit_congr _ (k0_off5_eq d0 5) _ _ _ _
@[sl_canon] theorem slice_rr_7 (d0 : Dev nD) : (Memref.whole cc0_scratch2 : Memref sig .tc .vmem S512x1024 .bf16).slice (Rect.unit (s := S512x1024) (k0_off5 d0 7#32) S64x1024.size (Facts₀.k0_off5_inb d0 6)) (fun _ => rfl) = chunkM rrM (Spec.peer d0 7) := Memref.slice_unit_congr _ (k0_off5_eq d0 6) _ _ _ _

end Cert.KernelIdeal.Proto

end
-- ==== Proof.KI.Ledger.lean ====
import proofs.«900981_g7700000000000982_dist_mlpseq_tp1d_bs_bs_b64_d1024_h2048_v7x_i8_bf16_1_alg».proof.Proof.KI.Proto

noncomputable section

namespace Cert.KernelIdeal.Proto

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

def Below (x : ℕ) (O : CellTallies nD τ sig ℕ) : Prop :=
  ∀ g u, 0 < O g u → g.1.2 = .tc ∧ u ∈ L g ∧ x < lv g u

theorem below_zero (x : ℕ) : Below x (0 : CellTallies nD τ sig ℕ) := by
  intro g u h
  simp at h

theorem below_add {x : ℕ} {O : CellTallies nD τ sig ℕ} (g : GSem nD τ sig) (u n : ℕ)
    (h : Below x O) (hg : g.1.2 = .tc) (hu : u ∈ L g) (hl : x < lv g u) : Below x (O + tallyAt g u n) := by
  intro g' u' h'
  rw [Pi.add_apply, Finsupp.add_apply, tallyAt_apply] at h'
  by_cases e : g' = g ∧ u' = u
  · rw [e.1, e.2]; exact ⟨hg, hu, hl⟩
  · rw [if_neg e, Nat.add_zero] at h'; exact h g' u' h'

theorem lv_bar (t : Dev nD) (l : ℕ) : lv (barCell t) l = 1 := rfl
theorem lv_cell (t k : Dev nD) (a : Fin 4) (l : ℕ) :
    lv (cell t a k) l = 4 * l + (if a.val = 1 then 2 else if a.val = 3 then 3 else 4) := by
  have h1 : a.val < 4 := a.isLt
  have h2 : k.val < 8 := k.isLt
  unfold lv
  dsimp only
  rw [if_pos ⟨by show 2 ≤ 2 + 8 * a.val + k.val; omega, by show 2 + 8 * a.val + k.val < 34; omega⟩, semA_dsem]

theorem mayWait_of_below (c : Dev nD) (sm : SemLoc sig) (ι : ℕ) (O : CellTallies nD τ sig ℕ)
    (hι : ι ∈ L ((c : Thread nD τ), sm)) (h : Below (lv ((c : Thread nD τ), sm) ι) O) :
    (levAts L lv : sProp 𝕄) ⊢ MayWait (c : Thread nD τ) sm ι O := by
  exact MayOwe.of_cut (L := L) (lev := lv) (lv ((c : Thread nD τ), sm) ι)
    (fun p hp => by obtain rfl := Finset.mem_singleton.mp hp; exact hι)
    (fun g u hg => (h g u hg).2.1)
    (fun p hp => by obtain rfl := Finset.mem_singleton.mp hp; exact le_refl _)
    (fun g u hg => (h g u hg).2.2)

macro "below_tac" : tactic =>
  `(tactic| first
    | (rw [L_tc]; decide)
    | (repeat (first
        | exact below_zero _
        | (show Below _ _; assumption)
        | (refine below_add _ _ _ ?_ rfl ?_ ?_
           rotate_left
           (rw [L_tc]; decide)
           (simp only [lv_bar, lv_cell] <;> decide)));
       done))

end Cert.KernelIdeal.Proto

end
-- ==== Proof.KI.Split.lean ====
import proofs.«900981_g7700000000000982_dist_mlpseq_tp1d_bs_bs_b64_d1024_h2048_v7x_i8_bf16_1_alg».proof.Proof.KI.Proto

noncomputable section

namespace Cert.KernelIdeal.Proto

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig ℕ (Elt F) ℕ UU ℕ

abbrev chunkR (k : Dev nD) : Rect S512x1024 := Rect.unit (s := S512x1024) ![64 * k.val, 0] S64x1024.size (chunk_inb k)

theorem mem_chunkR (i : S512x1024.Idx) : i ∈ (chunkR ⟨(i 0).val / 64, row_div i⟩).set := by
  rw [Rect.mem_set_unit]
  intro a
  have h0 : (i 0).val < 512 := (i 0).isLt
  have h1 : (i 1).val < 1024 := (i 1).isLt
  match a with
  | ⟨0, _⟩ =>
    show 64 * ((i 0).val / 64) ≤ (i 0).val ∧ (i 0).val < 64 * ((i 0).val / 64) + 64
    omega
  | ⟨1, _⟩ =>
    show 0 ≤ (i 1).val ∧ (i 1).val < 0 + 1024
    omega

theorem chunkR_disjoint (k k' : Dev nD) (h : k ≠ k') : Disjoint (chunkR k).set (chunkR k').set := by
  refine Rect.unit_disjoint 0 ?_
  show 64 * k.val + 64 ≤ 64 * k'.val ∨ 64 * k'.val + 64 ≤ 64 * k.val
  have : k.val ≠ k'.val := fun e => h (Fin.ext e)
  omega

theorem mem_chunks (M : Memref sig .tc .vmem S512x1024 .bf16) (x : M.view.ty.Idx) :
    x ∈ M.view.set ↔ ∃ k : Dev nD, x ∈ (chunkM M k).view.set := by
  constructor
  · intro hx
    obtain ⟨i, _, rfl⟩ := Finset.mem_map.mp hx
    refine ⟨⟨(i 0).val / 64, row_div i⟩, ?_⟩
    show M.view.emb i ∈ (M.view.slice (chunkR ⟨(i 0).val / 64, row_div i⟩)).set
    rw [View.set_slice]
    exact Finset.mem_map_of_mem _ (mem_chunkR i)
  · rintro ⟨k, hk⟩
    exact View.set_slice_subset M.view (chunkR k) hk

theorem chunks_disjoint (M : Memref sig .tc .vmem S512x1024 .bf16) (k k' : Dev nD) (h : k ≠ k') :
    Disjoint (chunkM M k).view.set (chunkM M k').view.set := by
  show Disjoint (M.view.slice (chunkR k)).set (M.view.slice (chunkR k')).set
  rw [View.set_slice, View.set_slice, Finset.disjoint_map]
  exact chunkR_disjoint k k' h

theorem chunks_literal (M : Memref sig .tc .vmem S512x1024 .bf16) (t : Dev nD) (q : PosShare TreeShare)
    (f : Buf (Elt F) (M.view.loc (t : Thread nD τ))) :
    (M.view.loc (t : Thread nD τ) ↦[M.view.set]{q} f : sProp 𝕄) = bigSep Finset.univ (fun k : Dev nD => pts (F := F) M t k q f) := by
  have hb := pointsTo_biUnion (nD := nD) (τ := τ) (sig := sig) (Ix := ℕ) (Val := Elt F) (Name := ℕ) (U := UU) (Lvl := ℕ)
    (ℓ := M.view.loc (t : Thread nD τ)) (q := q) (f := f) Finset.univ
    (fun k : Dev nD => (chunkM M k).view.set) (fun k _ k' _ h => chunks_disjoint M k k' h)
  refine Eq.trans (congrArg (fun S => (M.view.loc (t : Thread nD τ) ↦[S]{q} f : sProp 𝕄)) ?_) hb
  ext x
  rw [Finset.mem_biUnion]
  simp only [Finset.mem_univ, true_and]
  exact mem_chunks M x

def peerEquiv (t : Dev nD) : Fin 8 ≃ Dev nD where
  toFun o := Spec.peer t o.val
  invFun k := ⟨dist t k, Nat.mod_lt _ (by decide)⟩
  left_inv o := Fin.ext (dist_peer t o)
  right_inv k := peer_dist t k

theorem pts_halves (M : Memref sig .tc .vmem S512x1024 .bf16) (t k : Dev nD) (q : PosShare TreeShare)
    (f : Buf (Elt F) ((chunkM M k).view.loc (t : Thread nD τ))) :
    (pts (F := F) M t k q f : sProp 𝕄) = iprop(pts (F := F) M t k q.left f ∗ pts (F := F) M t k q.right f) := by
  have h : (pts (F := F) M t k q f : sProp 𝕄) ⊣⊢ iprop(pts (F := F) M t k q.left f ∗ pts (F := F) M t k q.right f) :=
    pointsTo_share (PosShare.mem_left_op_right q)
  exact equiv_iff.mp ⟨h.1, h.2⟩

theorem chunks_of_whole (M : Memref sig .tc .vmem S512x1024 .bf16) (hM : M = xfM ∨ M = rsM ∨ M = rrM) (t : Dev nD) (q : PosShare TreeShare)
    (f : Buf (Elt F) (M.view.loc (t : Thread nD τ))) :
    (M.view.loc (t : Thread nD τ) ↦[M.view.set]{q} f : sProp 𝕄)
      ⊣⊢ iprop(pts (F := F) M t (Spec.peer t 0) q f ∗ pts (F := F) M t (Spec.peer t 1) q f ∗ pts (F := F) M t (Spec.peer t 2) q f
          ∗ pts (F := F) M t (Spec.peer t 3) q f ∗ pts (F := F) M t (Spec.peer t 4) q f ∗ pts (F := F) M t (Spec.peer t 5) q f
          ∗ pts (F := F) M t (Spec.peer t 6) q f ∗ pts (F := F) M t (Spec.peer t 7) q f) := by
  refine BiEntails.of_eq ?_
  rw [chunks_literal, bigSep_univ_equiv (peerEquiv t), bigSep_univ_eq_bigSepL [0, 1, 2, 3, 4, 5, 6, 7] (by decide) (by decide)]
  rfl

theorem whole_eq (b : Ref sig .tc) (t : Dev nD) (q : PosShare TreeShare) (f : Buf (Elt F) ((t : Thread nD τ).loc b)) :
    ((Memref.whole b : Memref sig .tc b.space b.ty.shape b.ty.elt).view.loc (t : Thread nD τ) ↦[(Memref.whole b : Memref sig .tc b.space b.ty.shape b.ty.elt).view.set]{q} f : sProp 𝕄)
      = (((t : Thread nD τ).loc b) ↦{q} f : sProp 𝕄) := by
  have h : (Memref.whole b : Memref sig .tc b.space b.ty.shape b.ty.elt).view.set = Finset.univ := View.set_whole b
  rw [h]

theorem shares_of_full (M : Memref sig .tc .vmem S512x1024 .bf16) (t k : Dev nD) (f : Buf (Elt F) ((chunkM M k).view.loc (t : Thread nD τ))) :
    (pts (F := F) M t k fullShare f : sProp 𝕄)
      ⊣⊢ iprop(pts (F := F) M t k (agShare 7) f ∗ pts (F := F) M t k (agShare 6) f ∗ pts (F := F) M t k (agShare 5) f ∗ pts (F := F) M t k (agShare 4) f
          ∗ pts (F := F) M t k (agShare 3) f ∗ pts (F := F) M t k (agShare 2) f ∗ pts (F := F) M t k (agShare 1) f ∗ pts (F := F) M t k keepShare f) := by
  refine BiEntails.of_eq ?_
  show (pts (F := F) M t k fullShare f : sProp 𝕄)
      = iprop(pts (F := F) M t k fullShare.left f ∗ pts (F := F) M t k fullShare.right.left f
          ∗ pts (F := F) M t k fullShare.right.right.left f ∗ pts (F := F) M t k fullShare.right.right.right.left f
          ∗ pts (F := F) M t k fullShare.right.right.right.right.left f ∗ pts (F := F) M t k fullShare.right.right.right.right.right.left f
          ∗ pts (F := F) M t k fullShare.right.right.right.right.right.right.left f
          ∗ pts (F := F) M t k fullShare.right.right.right.right.right.right.right f)
  rw [← pts_halves M t k fullShare.right.right.right.right.right.right, ← pts_halves M t k fullShare.right.right.right.right.right,
    ← pts_halves M t k fullShare.right.right.right.right, ← pts_halves M t k fullShare.right.right.right,
    ← pts_halves M t k fullShare.right.right, ← pts_halves M t k fullShare.right, ← pts_halves M t k fullShare]

end Cert.KernelIdeal.Proto

end
-- ==== Proof.KI.Inv.lean ====
import proofs.«900981_g7700000000000982_dist_mlpseq_tp1d_bs_bs_b64_d1024_h2048_v7x_i8_bf16_1_alg».proof.Proof.KI.Ctx
import proofs.«900981_g7700000000000982_dist_mlpseq_tp1d_bs_bs_b64_d1024_h2048_v7x_i8_bf16_1_alg».proof.Proof.KI.Canon
import proofs.«900981_g7700000000000982_dist_mlpseq_tp1d_bs_bs_b64_d1024_h2048_v7x_i8_bf16_1_alg».proof.Proof.KI.Incl
import proofs.«900981_g7700000000000982_dist_mlpseq_tp1d_bs_bs_b64_d1024_h2048_v7x_i8_bf16_1_alg».proof.Proof.KI.Ledger
import proofs.«900981_g7700000000000982_dist_mlpseq_tp1d_bs_bs_b64_d1024_h2048_v7x_i8_bf16_1_alg».proof.Proof.KI.Split

noncomputable section

namespace Cert.KernelIdeal.Proto

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ)

abbrev 𝒱₀ : Variants := Variants.none

abbrev osem : Fin 36 → SemLoc sig := fun i => .dma ⟨2 + i.val, by have := nds; have := i.isLt; omega⟩

def outAt (c : Dev nD) : (cc0_stg1_0 : Ref sig .tc).ty.Contents (Elt F) := Spec.out (par m) c

def idleSems (c : Dev nD) : sProp 𝕄 :=
  iprop(semVal (cell c 0 c) 0 ∗ semVal (cell c 1 c) 0 ∗ semVal (cell c 2 c) 0 ∗ semVal (cell c 3 c) 0)

def Φ₀ (c : Dev nD) : sProp 𝕄 :=
  iprop((∃ K, ctxP m K c) ∗ (∃ f0 f1 f2 f3 f4 f5 f6, ctxS m c f0 f1 f2 f3 f4 f5 f6) ∗ idleSems (F := F) c)

def scratchBack (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f)
    ∗ (∃ f : Buf (Elt F) ((c : Thread nD τ).loc cc0_scratch4), ((c : Thread nD τ).loc cc0_scratch4) ↦{fullShare} f)
    ∗ (∃ f : Buf (Elt F) ((c : Thread nD τ).loc cc0_scratch5), ((c : Thread nD τ).loc cc0_scratch5) ↦{fullShare} f)
    ∗ (∃ f : Buf (Elt F) ((c : Thread nD τ).loc cc0_scratch6), ((c : Thread nD τ).loc cc0_scratch6) ↦{fullShare} f))

def weightsBack (c : Dev nD) : sProp 𝕄 :=
  iprop((((c : Thread nD τ).loc main_arg1) ↦{fullShare} m ((c : Thread nD τ).loc main_arg1))
    ∗ (((c : Thread nD τ).loc main_arg2) ↦{fullShare} m ((c : Thread nD τ).loc main_arg2))
    ∗ (((c : Thread nD τ).loc main_arg3) ↦{fullShare} m ((c : Thread nD τ).loc main_arg3))
    ∗ (((c : Thread nD τ).loc main_arg4) ↦{fullShare} m ((c : Thread nD τ).loc main_arg4))
    ∗ (((c : Thread nD τ).loc main_arg5) ↦{fullShare} m ((c : Thread nD τ).loc main_arg5))
    ∗ (((c : Thread nD τ).loc main_arg6) ↦{fullShare} m ((c : Thread nD τ).loc main_arg6)))

def Φ₁ (c : Dev nD) : sProp 𝕄 :=
  iprop(scratchBack (F := F) c ∗ weightsBack m c ∗ bigSep Finset.univ (fun i : Fin 36 => semVal (((c : Thread nD τ), osem i) : GSem nD τ sig) 0))

def dats (_ : Fin 1) (c : Dev nD) : Dat τ (Elt F) ℕ ℕ UU ℕ cfg0 c where
  A w := m ((cfg0.win w).arr.view.loc (c : Thread nD τ))
  after w _ := match w with
    | ⟨0, _⟩ => xin m c
    | ⟨1, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

end Cert.KernelIdeal.Proto

end
-- ==== Proof.KI.Glue.lean ====
import proofs.«900981_g7700000000000982_dist_mlpseq_tp1d_bs_bs_b64_d1024_h2048_v7x_i8_bf16_1_alg».proof.Proof.KI.Split
import proofs.«900981_g7700000000000982_dist_mlpseq_tp1d_bs_bs_b64_d1024_h2048_v7x_i8_bf16_1_alg».proof.Proof.KI.Tables
import Idealize.ShloMosaic.Lib.Pipeline.Value

noncomputable section

namespace Cert.KernelIdeal.Proto

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig ℕ (Elt F) ℕ UU ℕ

variable (m : (ℓ : Loc nD τ sig) → Buf (Elt F) ℓ)

theorem erase_eq_peers (c : Dev nD) : (Finset.univ : Finset (Dev nD)).erase c
    = [Spec.peer c 1, Spec.peer c 2, Spec.peer c 3, Spec.peer c 4, Spec.peer c 5, Spec.peer c 6, Spec.peer c 7].toFinset := by
  revert c; decide
theorem peers_nodup (c : Dev nD) :
    [Spec.peer c 1, Spec.peer c 2, Spec.peer c 3, Spec.peer c 4, Spec.peer c 5, Spec.peer c 6, Spec.peer c 7].Nodup := by
  revert c; decide

omit [FloatOps F] in

theorem bar_split (c : Dev nD) (Φ : Dev nD → sProp 𝕄) :
    bigSep (Finset.univ.erase c) Φ ⊢ iprop(Φ (Spec.peer c 1) ∗ Φ (Spec.peer c 2) ∗ Φ (Spec.peer c 3) ∗ Φ (Spec.peer c 4)
      ∗ Φ (Spec.peer c 5) ∗ Φ (Spec.peer c 6) ∗ Φ (Spec.peer c 7)) := by
  refine Entails.of_eq ?_
  rw [bigSep_eq_bigSepL_of_eq _ (erase_eq_peers c) (peers_nodup c)]
  rfl

theorem pts_congr (M : Memref sig .tc .vmem S512x1024 .bf16) (t k : Dev nD) (q : PosShare TreeShare)
    (w g : Buf (Elt F) ((chunkM M k).view.loc (t : Thread nD τ))) (h : ∀ i ∈ (chunkM M k).view.set, w i = g i) :
    (pts (F := F) M t k q w : sProp 𝕄) ⊢ pts (F := F) M t k q g :=
  Entails.of_eq (pointsTo_congr h)

theorem own_ready (c : Dev nD) (w g : Buf (Elt F) ((chunkM xfM c).view.loc (c : Thread nD τ)))
    (h : ∀ i ∈ (chunkM xfM c).view.set, w i = g i) :
    (pts (F := F) xfM c c fullShare w : sProp 𝕄)
      ⊢ iprop(pts (F := F) xfM c c (agShare 7) g ∗ pts (F := F) xfM c c (agShare 6) g ∗ pts (F := F) xfM c c (agShare 5) g
          ∗ pts (F := F) xfM c c (agShare 4) g ∗ pts (F := F) xfM c c (agShare 3) g ∗ pts (F := F) xfM c c (agShare 2) g
          ∗ pts (F := F) xfM c c (agShare 1) g ∗ pts (F := F) xfM c c keepShare g) :=
  (pts_congr xfM c c fullShare w g h).trans (shares_of_full xfM c c g).1

theorem own_back (c : Dev nD) (g : Buf (Elt F) ((chunkM xfM c).view.loc (c : Thread nD τ))) :
    iprop(pts (F := F) xfM c c (agShare 7) g ∗ pts (F := F) xfM c c (agShare 6) g ∗ pts (F := F) xfM c c (agShare 5) g
          ∗ pts (F := F) xfM c c (agShare 4) g ∗ pts (F := F) xfM c c (agShare 3) g ∗ pts (F := F) xfM c c (agShare 2) g
          ∗ pts (F := F) xfM c c (agShare 1) g ∗ pts (F := F) xfM c c keepShare g)
      ⊢ (pts (F := F) xfM c c fullShare g : sProp 𝕄) :=
  (shares_of_full xfM c c g).2

theorem mem_chunkR_iff (k : Dev nD) (i : S512x1024.Idx) : i ∈ (chunkR k).set ↔ (i 0).val / 64 = k.val := by
  rw [Rect.mem_set_unit]
  have h1 : (i 1).val < 1024 := (i 1).isLt
  constructor
  · intro h
    have h0 : 64 * k.val ≤ (i 0).val ∧ (i 0).val < 64 * k.val + 64 := h 0
    omega
  · intro h a
    match a with
    | ⟨0, _⟩ =>
      show 64 * k.val ≤ (i 0).val ∧ (i 0).val < 64 * k.val + 64
      omega
    | ⟨1, _⟩ =>
      show 0 ≤ (i 1).val ∧ (i 1).val < 0 + 1024
      omega

theorem emb_mem_chunk (M : Memref sig .tc .vmem S512x1024 .bf16) (k : Dev nD) (i : S512x1024.Idx) :
    M.view.emb i ∈ (chunkM M k).view.set ↔ (i 0).val / 64 = k.val := by
  show M.view.emb i ∈ (M.view.slice (chunkR k)).set ↔ _
  rw [View.set_slice, Finset.mem_map', mem_chunkR_iff]

theorem rows_emb (v : Dev nD → Spec.Chunk F) (k : Dev nD) (x : S64x1024.Idx) : rows v ((chunkR k).emb x) = v k x := by
  have hx0 : (x 0).val < 64 := (x 0).isLt
  have hk : k.val < 8 := k.isLt
  have e0 : (((chunkR k).emb x) 0).val = 64 * k.val + 1 * (x 0).val := rfl
  have e1 : (((chunkR k).emb x) 1).val = 0 + 1 * (x 1).val := rfl
  have hk' : (⟨(((chunkR k).emb x) 0).val / 64, row_div _⟩ : Dev nD) = k := Fin.ext (by
    show (((chunkR k).emb x) 0).val / 64 = k.val
    rw [e0]; omega)
  have hidx : ValueIdx.ix2 (⟨(((chunkR k).emb x) 0).val % 64, row_mod _⟩ : Fin 64) (((chunkR k).emb x) 1) = x := by
    funext a
    match a with
    | ⟨0, _⟩ => exact Fin.ext (by show (((chunkR k).emb x) 0).val % 64 = (x 0).val; rw [e0]; omega)
    | ⟨1, _⟩ => exact Fin.ext (by show (((chunkR k).emb x) 1).val = (x 1).val; rw [e1]; omega)
  exact (congrFun (congrArg v hk') _).trans (congrArg (v k) hidx)

theorem mem_chunk_xf (k : Dev nD) (i : S512x1024.Idx) : i ∈ (chunkM xfM k).view.set ↔ (i 0).val / 64 = k.val :=
  emb_mem_chunk xfM k i
theorem read_chunk_rows_xf (k : Dev nD) (v : Dev nD → Spec.Chunk F) : (chunkM xfM k).view.read (Elt F) (rows v) = v k := by
  funext x
  show rows v ((chunkR k).emb x) = v k x
  exact rows_emb v k x
theorem write_chunk_rows_xf (k : Dev nD) (f : (chunkM xfM k).view.ty.Contents (Elt F)) (x : Spec.Chunk F) (v : Dev nD → Spec.Chunk F)
    (hx : x = v k) : ∀ i ∈ (chunkM xfM k).view.set, ((chunkM xfM k).view.write (Elt F) f x Finset.univ) i = rows v i := by
  intro i hi
  obtain ⟨y, rfl⟩ := View.exists_emb_of_mem_set _ hi
  rw [View.write_emb_of_mem _ _ (Finset.mem_univ y), hx]
  show v k y = rows v ((chunkR k).emb y)
  exact (rows_emb v k y).symm

theorem mem_chunk_rs (k : Dev nD) (i : S512x1024.Idx) : i ∈ (chunkM rsM k).view.set ↔ (i 0).val / 64 = k.val :=
  emb_mem_chunk rsM k i
theorem read_chunk_rows_rs (k : Dev nD) (v : Dev nD → Spec.Chunk F) : (chunkM rsM k).view.read (Elt F) (rows v) = v k := by
  funext x
  show rows v ((chunkR k).emb x) = v k x
  exact rows_emb v k x
theorem write_chunk_rows_rs (k : Dev nD) (f : (chunkM rsM k).view.ty.Contents (Elt F)) (x : Spec.Chunk F) (v : Dev nD → Spec.Chunk F)
    (hx : x = v k) : ∀ i ∈ (chunkM rsM k).view.set, ((chunkM rsM k).view.write (Elt F) f x Finset.univ) i = rows v i := by
  intro i hi
  obtain ⟨y, rfl⟩ := View.exists_emb_of_mem_set _ hi
  rw [View.write_emb_of_mem _ _ (Finset.mem_univ y), hx]
  show v k y = rows v ((chunkR k).emb y)
  exact (rows_emb v k y).symm

theorem mem_chunk_rr (k : Dev nD) (i : S512x1024.Idx) : i ∈ (chunkM rrM k).view.set ↔ (i 0).val / 64 = k.val :=
  emb_mem_chunk rrM k i
theorem read_chunk_rows_rr (k : Dev nD) (v : Dev nD → Spec.Chunk F) : (chunkM rrM k).view.read (Elt F) (rows v) = v k := by
  funext x
  show rows v ((chunkR k).emb x) = v k x
  exact rows_emb v k x
theorem write_chunk_rows_rr (k : Dev nD) (f : (chunkM rrM k).view.ty.Contents (Elt F)) (x : Spec.Chunk F) (v : Dev nD → Spec.Chunk F)
    (hx : x = v k) : ∀ i ∈ (chunkM rrM k).view.set, ((chunkM rrM k).view.write (Elt F) f x Finset.univ) i = rows v i := by
  intro i hi
  obtain ⟨y, rfl⟩ := View.exists_emb_of_mem_set _ hi
  rw [View.write_emb_of_mem _ _ (Finset.mem_univ y), hx]
  show v k y = rows v ((chunkR k).emb y)
  exact (rows_emb v k y).symm

theorem ag_landed (c : Dev nD) (l : ℕ) (fd : (chunkM xfM c).view.ty.Contents (Elt F)) :
    ∀ i ∈ (chunkM xfM c).view.set,
      ((chunkM xfM c).view.write (Elt F) fd ((chunkM xfM c).view.read (Elt F) (xfAll m l)) Finset.univ) i = xfAll m l i :=
  write_chunk_rows_xf c fd _ (fun k => XL m l k) (read_chunk_rows_xf c (fun k => XL m l k))

theorem rs_landed (c k : Dev nD) (l : ℕ) (fd : (chunkM rrM c).view.ty.Contents (Elt F)) :
    ∀ i ∈ (chunkM rrM c).view.set,
      ((chunkM rrM c).view.write (Elt F) fd ((chunkM rsM k).view.read (Elt F) (rsAll m l c)) Finset.univ) i = rrAll m l k i :=
  write_chunk_rows_rr c fd _ (fun j => RP m l j k) (read_chunk_rows_rs k (fun k' => RP m l c k'))

end Cert.KernelIdeal.Proto

end
-- ==== Proof.KI.LaunchA.lean ====
import proofs.«900981_g7700000000000982_dist_mlpseq_tp1d_bs_bs_b64_d1024_h2048_v7x_i8_bf16_1_alg».proof.Proof.KI.Tables

noncomputable section

namespace Cert.KernelIdeal.Proto

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ)

abbrev CI : Type := Unit ⊕ (Fin 4 × Fin 7)

abbrev TI : Type := Fin 7 ⊕ (Fin 4 × Fin 7 × Fin 3)

def pk (t : Dev nD) (o : Fin 7) : Dev nD := Spec.peer t (o.val + 1)

theorem pk_injective (t : Dev nD) : Function.Injective (pk t) := by revert t; decide
theorem pk_ne (t : Dev nD) (o : Fin 7) : pk t o ≠ t := by revert t o; decide
theorem exists_pk (t k : Dev nD) (h : k ≠ t) : ∃ o : Fin 7, pk t o = k := by revert t k; decide

def kcell (x : Dev nD × CI) : GSem nD τ sig :=
  match x.2 with
  | .inl _ => barCell x.1
  | .inr (a, o) => cell x.1 a (pk x.1 o)

theorem dsem_injective {a a' : Fin 4} {k k' : Dev nD} (h : dsem a k = dsem a' k') : a = a' ∧ k = k' := by
  have h1 := congrArg semA h
  have h2 := congrArg semK h
  rw [semA_dsem, semA_dsem] at h1
  rw [semK_dsem, semK_dsem] at h2
  exact ⟨Fin.ext h1, h2⟩

theorem kcell_injective : Function.Injective kcell := by
  rintro ⟨t, i⟩ ⟨t', i'⟩ h
  have h1 : t = t' := by
    rcases i with _ | ⟨a, o⟩ <;> rcases i' with _ | ⟨a', o'⟩ <;> exact congrArg (fun g : GSem nD τ sig => g.1.1) h
  subst h1
  rcases i with u | ⟨a, o⟩ <;> rcases i' with u' | ⟨a', o'⟩
  · rfl
  · exact absurd (congrArg Prod.snd h) (fun h' => by cases h')
  · exact absurd (congrArg Prod.snd h) (fun h' => by cases h')
  · have h2 : SemLoc.dma (dsem a (pk t o)) = SemLoc.dma (dsem a' (pk t o')) := congrArg Prod.snd h
    obtain ⟨ha, hk⟩ := dsem_injective (SemLoc.dma.inj h2)
    rw [ha, pk_injective t hk]

def tokOf (x : Dev nD × TI) : GSem nD τ sig × ℕ × Dev nD :=
  match x.2 with
  | .inl o => (barCell x.1, 0, pk x.1 o)
  | .inr (a, o, l) => (cell x.1 a (pk x.1 o), l.val, 0)

theorem tokOf_injective : Function.Injective tokOf := by
  rintro ⟨t, j⟩ ⟨t', j'⟩ h
  have h1 : t = t' := by
    rcases j with o | ⟨a, o, l⟩ <;> rcases j' with o' | ⟨a', o', l'⟩ <;>
      exact congrArg (fun x : GSem nD τ sig × ℕ × Dev nD => x.1.1.1) h
  subst h1
  rcases j with o | ⟨a, o, l⟩ <;> rcases j' with o' | ⟨a', o', l'⟩
  · have h2 : pk t o = pk t o' := congrArg (fun x : GSem nD τ sig × ℕ × Dev nD => x.2.2) h
    rw [pk_injective t h2]
  · exact absurd (congrArg (fun x : GSem nD τ sig × ℕ × Dev nD => x.1.2) h) (fun h' => by cases h')
  · exact absurd (congrArg (fun x : GSem nD τ sig × ℕ × Dev nD => x.1.2) h) (fun h' => by cases h')
  · have h2 : SemLoc.dma (dsem a (pk t o)) = SemLoc.dma (dsem a' (pk t o')) := congrArg (fun x : GSem nD τ sig × ℕ × Dev nD => x.1.2) h
    obtain ⟨ha, hk⟩ := dsem_injective (SemLoc.dma.inj h2)
    have h3 : l.val = l'.val := congrArg (fun x : GSem nD τ sig × ℕ × Dev nD => x.2.1) h
    rw [ha, pk_injective t hk, Fin.ext h3]

def ringCells : Finset (GSem nD τ sig) := Finset.univ.map ⟨kcell, kcell_injective⟩
def ringToks : Finset (GSem nD τ sig × ℕ × Dev nD) := Finset.univ.map ⟨tokOf, tokOf_injective⟩

theorem barCell_mem (t : Dev nD) : barCell t ∈ ringCells :=
  Finset.mem_map.mpr ⟨(t, .inl ()), Finset.mem_univ _, rfl⟩
theorem cell_mem (t k : Dev nD) (a : Fin 4) (h : k ≠ t) : cell t a k ∈ ringCells := by
  obtain ⟨o, rfl⟩ := exists_pk t k h
  exact Finset.mem_map.mpr ⟨(t, .inr (a, o)), Finset.mem_univ _, rfl⟩

def u₀ : UU :=
  (initOf (Pipeline.cells cfgs cellOf_inj) (Pipeline.launchToks cfgs cellOf_inj), (initOf ringCells ringToks, 1))

abbrev tokAt (x : GSem nD τ sig × ℕ × Dev nD) : sProp 𝕄 := dutyTok (ER (F := F)) x.1 x.2.1 x.2.2

def reachedAll : sProp 𝕄 := bigSep ringCells fun g => reached (ER (F := F)) g 0

instance reachedAll_persistent : BI.Persistent (reachedAll (F := F)) := by unfold reachedAll; infer_instance

def G (c : Dev nD) : sProp 𝕄 :=
  iprop((bigSep Finset.univ fun i : CI => roundState ER (sched m) (kcell (c, i)) 0)
    ∗ (bigSep Finset.univ fun i : CI => atPos (ER (F := F)) (kcell (c, i)) 0 ∅ 0)
    ∗ (bigSep Finset.univ fun j : TI => tokAt (F := F) (tokOf (c, j)))
    ∗ reachedAll (F := F))

theorem bigSep_ringCells (Φ : GSem nD τ sig → sProp 𝕄) :
    bigSep ringCells Φ = bigSep Finset.univ fun c : Dev nD => bigSep Finset.univ fun i : CI => Φ (kcell (c, i)) := by
  unfold ringCells; rw [bigSep_map, bigSep_univ_prod]; rfl

theorem bigSep_ringToks (Φ : GSem nD τ sig × ℕ × Dev nD → sProp 𝕄) :
    bigSep ringToks Φ = bigSep Finset.univ fun c : Dev nD => bigSep Finset.univ fun j : TI => Φ (tokOf (c, j)) := by
  unfold ringToks; rw [bigSep_map, bigSep_univ_prod]; rfl

theorem fund_ring : BI.own (ER (F := F) (initOf ringCells ringToks)) ⊢ (|==> bigSep Finset.univ (G m) : sProp 𝕄) := by
  iintro HX
  imod (Rounds.fund (ER (F := F)) (sched m) ringCells ringToks) $$ HX with ⟨Hst, #Hr, Hat, Htok⟩
  imodintro
  ihave Hst' := (Entails.of_eq (bigSep_ringCells fun g => roundState ER (sched m) g 0)) $$ Hst
  ihave Hat' := (Entails.of_eq (bigSep_ringCells fun g => atPos (ER (F := F)) g 0 ∅ 0)) $$ Hat
  ihave Htok' := (Entails.of_eq (bigSep_ringToks fun x => tokAt (F := F) x)) $$ Htok
  unfold G; simp only [bigSep_sep']
  isplitl [Hst']; · iexact Hst'
  isplitl [Hat']; · iexact Hat'
  isplitl [Htok']; · iexact Htok'
  iapply (BI.bigSep_of_persistent Finset.univ (reachedAll (F := F)))
  unfold reachedAll; iexact Hr

theorem hu₀ : (ownU (u₀ : UU) : sProp 𝕄)
    ⊢ |={Set.univ}=> iprop(BI.own (EP (F := F) (initOf (Pipeline.cells cfgs cellOf_inj) (Pipeline.launchToks cfgs cellOf_inj))) ∗ bigSep Finset.univ (G m)) := by
  unfold u₀
  iintro Hu
  ihave H := (ownU_pair _ _) $$ Hu
  icases H with ⟨HP, HX⟩
  ihave HX' := (show (BI.own (embR (initOf ringCells ringToks, (1 : Counters))) : sProp 𝕄) ⊢ BI.own (ER (F := F) (initOf ringCells ringToks)) from
    Entails.of_eq rfl) $$ HX
  imod (fund_ring m) $$ HX' with HG
  imodintro
  isplitl [HP] <;> iassumption

end Cert.KernelIdeal.Proto

end
-- ==== Proof.KI.LaunchB.lean ====
import proofs.«900981_g7700000000000982_dist_mlpseq_tp1d_bs_bs_b64_d1024_h2048_v7x_i8_bf16_1_alg».proof.Proof.KI.LaunchA
import proofs.«900981_g7700000000000982_dist_mlpseq_tp1d_bs_bs_b64_d1024_h2048_v7x_i8_bf16_1_alg».proof.Proof.KI.Inv

noncomputable section

namespace Cert.KernelIdeal.Proto

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ)

abbrev OwnIx : Type := (Fin 4 × Fin 7) ⊕ (Fin 4 ⊕ Fin 4)

def semIx (c : Dev nD) : OwnIx → Fin 36
  | .inl (a, o) => ⟨8 * a.val + (pk c o).val, by have h1 : a.val < 4 := a.isLt; have h2 : (pk c o).val < 8 := (pk c o).isLt; omega⟩
  | .inr (.inl a) => ⟨8 * a.val + c.val, by have h1 : a.val < 4 := a.isLt; have h2 : c.val < 8 := c.isLt; omega⟩
  | .inr (.inr j) => ⟨32 + j.val, by have h1 : j.val < 4 := j.isLt; omega⟩

theorem semIx_injective (c : Dev nD) : Function.Injective (semIx c) := by revert c; decide

theorem semIx_bijective (c : Dev nD) : Function.Bijective (semIx c) :=
  (Fintype.bijective_iff_injective_and_card _).mpr ⟨semIx_injective c, by decide⟩

def rawSems (c : Dev nD) : sProp 𝕄 :=
  iprop((bigSep Finset.univ fun a : Fin 4 => semVal (cell c a c) 0)
    ∗ (bigSep Finset.univ fun j : Fin 4 => semVal (((c : Thread nD τ), osem (semIx c (.inr (.inr j)))) : GSem nD τ sig) 0))

theorem osem_cell (c : Dev nD) (a : Fin 4) (o : Fin 7) : osem (semIx c (.inl (a, o))) = .dma (dsem a (pk c o)) :=
  congrArg SemLoc.dma (Fin.ext (by show 2 + (8 * a.val + (pk c o).val) = 2 + 8 * a.val + (pk c o).val; omega))
theorem osem_own (c : Dev nD) (a : Fin 4) : osem (semIx c (.inr (.inl a))) = .dma (dsem a c) :=
  congrArg SemLoc.dma (Fin.ext (by show 2 + (8 * a.val + c.val) = 2 + 8 * a.val + c.val; omega))

theorem ownSems0_eq (c : Dev nD) :
    (Pipeline.ownSems0 (Ix := ℕ) (Name := ℕ) (U := UU) (Lvl := ℕ) (Val := Elt F) (τ := τ) osem c : sProp 𝕄)
      = iprop((bigSep Finset.univ fun a : Fin 4 => bigSep Finset.univ fun o : Fin 7 => semVal (cell c a (pk c o)) 0) ∗ rawSems (F := F) c) := by
  unfold Pipeline.ownSems0 rawSems
  rw [bigSep_univ_equiv (Equiv.ofBijective (semIx c) (semIx_bijective c)), bigSep_univ_sum, bigSep_univ_prod, bigSep_univ_sum]
  simp only [Equiv.ofBijective_apply, osem_cell, osem_own]
  rfl

theorem unscopedSems0_eq (c : Dev nD) : (unscopedSems0 c : sProp 𝕄) = semVal (barCell c) 0 := by
  unfold unscopedSems0; rw [bigSep_eq_bigSepL_of_eq [SemLoc.reg barS] (by decide) (by decide)]; rfl

theorem bigSep_CI (Φ : CI → sProp 𝕄) :
    bigSep Finset.univ Φ = iprop(Φ (.inl ()) ∗ bigSep Finset.univ fun a : Fin 4 => bigSep Finset.univ fun o : Fin 7 => Φ (.inr (a, o))) := by
  rw [bigSep_univ_sum, bigSep_univ_prod, bigSep_univ_of_subsingleton ()]
  rfl

def records (K : GSem nD τ sig → ℕ) : sProp 𝕄 := bigSep ringCells fun g => cellInv ER (sched m) (K g) g

instance records_persistent (K : GSem nD τ sig → ℕ) : BI.Persistent (records m K) := by unfold records; infer_instance

theorem core_alloc (c : Dev nD) :
    iprop(Pipeline.ownSems0 (Ix := ℕ) (Name := ℕ) (U := UU) (Lvl := ℕ) (Val := Elt F) (τ := τ) osem c ∗ unscopedSems0 c ∗ G m c)
      ⊢ |={Set.univ}=> iprop((bigSep Finset.univ fun i : CI => iprop(∃ κ : ℕ, cellInv ER (sched m) κ (kcell (c, i))))
          ∗ rawSems (F := F) c
          ∗ (bigSep Finset.univ fun i : CI => atPos (ER (F := F)) (kcell (c, i)) 0 ∅ 0)
          ∗ (bigSep Finset.univ fun j : TI => tokAt (F := F) (tokOf (c, j)))
          ∗ reachedAll (F := F)) := by
  rw [ownSems0_eq, unscopedSems0_eq]
  unfold G
  iintro ⟨⟨Hcells, Hraw⟩, Hbar, Hst, Hat, Htok, Hr⟩
  imod (show iprop((bigSep Finset.univ fun i : CI => semVal (kcell (c, i)) 0) ∗ bigSep Finset.univ fun i : CI => roundState ER (sched m) (kcell (c, i)) 0)
      ⊢ (|={Set.univ}=> bigSep Finset.univ fun i : CI => iprop(∃ κ : ℕ, cellInv ER (sched m) κ (kcell (c, i))) : sProp 𝕄) from by
        rw [← bigSep_sep']
        exact (bigSep_mono fun i _ => (Rounds.body_intro ER (sched m) (kcell (c, i))).trans inv_alloc).trans (bigSep_fupd _ _)) $$ [Hcells Hbar Hst] with Hinv
  · isplitl [Hcells Hbar]
    · rw [bigSep_CI]
      isplitl [Hbar]; · iexact Hbar
      iexact Hcells
    · iexact Hst
  imodintro
  isplitl [Hinv]; · iexact Hinv
  isplitl [Hraw]; · iexact Hraw
  isplitl [Hat]; · iexact Hat
  isplitl [Htok]; · iexact Htok
  iexact Hr

def rev (o : Fin 7) : Fin 7 := ⟨6 - o.val, by omega⟩

theorem pk_pk_rev (c : Dev nD) (o : Fin 7) : pk (pk c o) (rev o) = c := by revert c o; decide
theorem rev_rev (o : Fin 7) : rev (rev o) = o := by revert o; decide

def deal (x : Dev nD × TI) : Dev nD × TI :=
  match x.2 with
  | .inl o => (pk x.1 o, .inl (rev o))
  | .inr (a, o, l) => if a = 1 ∨ a = 3 then (pk x.1 o, .inr (a, rev o, l)) else x

theorem deal_deal (x : Dev nD × TI) : deal (deal x) = x := by
  obtain ⟨c, o | ⟨a, o, l⟩⟩ := x
  · show (pk (pk c o) (rev o), Sum.inl (rev (rev o))) = _
    rw [pk_pk_rev, rev_rev]
  · by_cases h : a = 1 ∨ a = 3
    · have e : deal (c, Sum.inr (a, o, l)) = (pk c o, Sum.inr (a, rev o, l)) := if_pos h
      rw [e]
      have e' : deal (pk c o, Sum.inr (a, rev o, l)) = (pk (pk c o) (rev o), Sum.inr (a, rev (rev o), l)) := if_pos h
      rw [e', pk_pk_rev, rev_rev]
    · have e : deal (c, Sum.inr (a, o, l)) = (c, Sum.inr (a, o, l)) := if_neg h
      rw [e, e]

def dealEquiv : Dev nD × TI ≃ Dev nD × TI := ⟨deal, deal, deal_deal, deal_deal⟩

def payOf (x : Dev nD × TI) : GSem nD τ sig × ℕ × Dev nD :=
  match x.2 with
  | .inl o => (barCell (pk x.1 o), 0, x.1)
  | .inr (a, o, l) => if a = 1 ∨ a = 3 then (cell (pk x.1 o) a x.1, l.val, 0) else (cell x.1 a (pk x.1 o), l.val, 0)

theorem tokOf_deal (x : Dev nD × TI) : tokOf (deal x) = payOf x := by
  obtain ⟨c, o | ⟨a, o, l⟩⟩ := x
  · show (barCell (pk c o), 0, pk (pk c o) (rev o)) = (barCell (pk c o), 0, c)
    rw [pk_pk_rev]
  · by_cases h : a = 1 ∨ a = 3
    · have e : deal (c, Sum.inr (a, o, l)) = (pk c o, Sum.inr (a, rev o, l)) := if_pos h
      have e' : payOf (c, Sum.inr (a, o, l)) = (cell (pk c o) a c, l.val, 0) := if_pos h
      rw [e, e']
      show (cell (pk c o) a (pk (pk c o) (rev o)), l.val, (0 : Dev nD)) = _
      rw [pk_pk_rev]
    · have e : deal (c, Sum.inr (a, o, l)) = (c, Sum.inr (a, o, l)) := if_neg h
      have e' : payOf (c, Sum.inr (a, o, l)) = (cell c a (pk c o), l.val, 0) := if_neg h
      rw [e, e']
      rfl

def payTok (c : Dev nD) : sProp 𝕄 := bigSep Finset.univ fun j : TI => tokAt (F := F) (payOf (c, j))

theorem toks_around :
    (bigSep Finset.univ fun c : Dev nD => bigSep Finset.univ fun j : TI => tokAt (F := F) (tokOf (c, j)))
      = bigSep Finset.univ fun c : Dev nD => payTok (F := F) c := by
  unfold payTok
  rw [← bigSep_univ_prod (fun x : Dev nD × TI => tokAt (F := F) (tokOf x)), ← bigSep_univ_prod (fun x : Dev nD × TI => tokAt (F := F) (payOf x)),
    bigSep_univ_equiv dealEquiv (fun x : Dev nD × TI => tokAt (F := F) (tokOf x))]
  exact bigSep_congr fun x _ => by
    show tokAt (F := F) (tokOf (deal x)) = tokAt (F := F) (payOf x)
    rw [tokOf_deal]

def G' (c : Dev nD) : sProp 𝕄 :=
  iprop((∃ K, records m K) ∗ reachedAll (F := F) ∗ rawSems (F := F) c
    ∗ (bigSep Finset.univ fun i : CI => atPos (ER (F := F)) (kcell (c, i)) 0 ∅ 0) ∗ payTok (F := F) c)

theorem records_of (K' : Dev nD × CI → ℕ) :
    (bigSep Finset.univ fun x : Dev nD × CI => (cellInv ER (sched m) (K' x) (kcell x) : sProp 𝕄))
      = records m (Function.extend kcell K' 0) := by
  unfold records ringCells
  rw [bigSep_map]
  exact bigSep_congr fun x _ => by
    show _ = cellInv ER (sched m) (Function.extend kcell K' 0 (kcell x)) (kcell x)
    rw [kcell_injective.extend_apply]

theorem regroup :
    (bigSep Finset.univ fun c : Dev nD => iprop((bigSep Finset.univ fun i : CI => iprop(∃ κ : ℕ, cellInv ER (sched m) κ (kcell (c, i))))
          ∗ rawSems (F := F) c
          ∗ (bigSep Finset.univ fun i : CI => atPos (ER (F := F)) (kcell (c, i)) 0 ∅ 0)
          ∗ (bigSep Finset.univ fun j : TI => tokAt (F := F) (tokOf (c, j)))
          ∗ reachedAll (F := F)) : sProp 𝕄)
      ⊢ bigSep Finset.univ (G' m) := by
  rw [bigSep_sep', bigSep_sep', bigSep_sep', bigSep_sep', ← bigSep_univ_prod (fun x : Dev nD × CI => iprop(∃ κ : ℕ, cellInv ER (sched m) κ (kcell x))),
    toks_around]
  iintro ⟨HI, Hraw, Hat, Htok, #HR⟩
  ihave HK := (BI.bigSep_exists_pi Finset.univ (fun (x : Dev nD × CI) (κ : ℕ) => (cellInv ER (sched m) κ (kcell x) : sProp 𝕄))) $$ HI
  icases HK with ⟨%K', HI⟩
  ihave HI' := (Entails.of_eq (records_of m K')) $$ HI
  icases HI' with #HI
  unfold G'
  rw [bigSep_sep', bigSep_sep', bigSep_sep', bigSep_sep']
  isplitr
  · iapply ((BI.bigSep_of_persistent Finset.univ (records m (Function.extend kcell K' 0))).trans
      (bigSep_mono fun c _ => show records m (Function.extend kcell K' 0) ⊢ iprop(∃ K, records m K) from by iintro H; iexists _; iexact H))
    iexact HI
  isplitr; · iexact HR
  isplitl [Hraw]; · iexact Hraw
  isplitl [Hat]; · iexact Hat
  iexact Htok

theorem glob : (bigSep Finset.univ fun c => iprop(Pipeline.ownSems0 (Ix := ℕ) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

end Cert.KernelIdeal.Proto

end
-- ==== Proof.KI.LaunchC.lean ====
import proofs.«900981_g7700000000000982_dist_mlpseq_tp1d_bs_bs_b64_d1024_h2048_v7x_i8_bf16_1_alg».proof.Proof.KI.LaunchB

noncomputable section

namespace Cert.KernelIdeal.Proto

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ)

def chainOnto {I : Type} (l : List I) (Φ : I → sProp 𝕄) (R : sProp 𝕄) : sProp 𝕄 := l.foldr (fun i acc => iprop(Φ i ∗ acc)) R

theorem sep_chainOnto {I : Type} (l : List I) (Φ : I → sProp 𝕄) (R : sProp 𝕄) :
    iprop(bigSepL l Φ ∗ R) = chainOnto l Φ R := by
  induction l with
  | nil => exact equiv_iff.mp emp_sep
  | cons i l ih =>
    rw [bigSepL_cons]
    show iprop((Φ i ∗ bigSepL l Φ) ∗ R) = iprop(Φ i ∗ chainOnto l Φ R)
    rw [← ih]
    exact equiv_iff.mp ⟨BI.sep_assoc, BI.sep_assoc'⟩

theorem peer_peer (o o' : ℕ) (h : (o + o') % 8 = 0) (c : Dev nD) : Spec.peer (Spec.peer c o') o = c := by
  apply Fin.ext
  show ((c.val + o') % 8 + o) % 8 = c.val
  have hc : c.val < 8 := c.isLt
  omega

theorem peer_zero (c : Dev nD) : Spec.peer c 0 = c := by revert c; decide

theorem launchCred_tallyAt' (sm : Dev nD → SemLoc sig) (f finv : Dev nD → Dev nD) (h1 : ∀ c, f (finv c) = c) (h2 : ∀ d, finv (f d) = d)
    (ι : ℕ) (n : ℕ) (c : Dev nD) :
    (Pipeline.launchCred (fun d => tallyAt (((f d : Dev nD) : Thread nD τ), sm d) ι n) c : sProp 𝕄)
      ⊢ cred (tallyAt ((c : Thread nD τ), sm (finv c)) ι n) := by
  refine (Pipeline.launchCred_elim _ c (sm (finv c))).trans (Entails.of_eq (congrArg cred ?_))
  rw [Pipeline.tallyOn_launchCredit_owing]
  unfold tallyAt
  refine congrArg _ ?_
  rw [Finset.sum_apply]
  have h0 : ∀ d ∈ (Finset.univ : Finset (Dev nD)), d ≠ finv c →
      tallyOn (nD := nD) (sig := sig) (((f d : Dev nD) : Thread nD τ), sm d) (Finsupp.single ι n) ((c : Thread nD τ), sm (finv c)) = 0 := fun d _ hd => by
    unfold tallyOn
    refine Pi.single_eq_of_ne (fun h => hd ?_) _
    have h3 : c = f d := congrArg (fun g : GSem nD τ sig => g.1.1) h
    rw [h3, h2]
  rw [Finset.sum_eq_single (finv c) h0 (fun h => absurd (Finset.mem_univ _) h)]
  unfold tallyOn
  rw [h1, Pi.single_eq_same]

theorem cred_bar (o o' : ℕ) (h : (o + o') % 8 = 0) (c : Dev nD) :
    (Pipeline.launchCred (fun d => tallyAt (barCell (Spec.peer d o)) 0 1) c : sProp 𝕄) ⊢ cred (tallyAt (barCell c) 0 1) :=
  Pipeline.launchCred_tallyAt (.reg barS) (fun d => Spec.peer d o) (fun c => Spec.peer c o')
    (peer_peer o o' h) (peer_peer o' o (by omega)) 0 1 c

theorem cred_land (a : Fin 4) (o o' : ℕ) (h : (o + o') % 8 = 0) (l : ℕ) (c : Dev nD) :
    (Pipeline.launchCred (fun d => tallyAt (cell (Spec.peer d o) a d) l N) c : sProp 𝕄) ⊢ cred (tallyAt (cell c a (Spec.peer c o')) l N) :=
  launchCred_tallyAt' (fun d => .dma (dsem a d)) (fun d => Spec.peer d o) (fun c => Spec.peer c o')
    (peer_peer o o' h) (peer_peer o' o (by omega)) l N c

theorem cred_seven (g : GSem nD τ sig) (ι : ℕ) :
    iprop(cred (tallyAt g ι 1) ∗ cred (tallyAt g ι 1) ∗ cred (tallyAt g ι 1) ∗ cred (tallyAt g ι 1) ∗ cred (tallyAt g ι 1) ∗ cred (tallyAt g ι 1) ∗ cred (tallyAt g ι 1))
      ⊢ (cred (tallyAt g ι 7) : sProp 𝕄) := by
  have e : (tallyAt g ι 7 : CellTallies nD τ sig ℕ) = tallyAt g ι 1 + (tallyAt g ι 1 + (tallyAt g ι 1 + (tallyAt g ι 1 + (tallyAt g ι 1 + (tallyAt g ι 1 + tallyAt g ι 1))))) := by
    simp only [tallyAt_add]
  rw [e]
  refine (sep_mono_right ((sep_mono_right ((sep_mono_right ((sep_mono_right ((sep_mono_right (cred_add _ _).2).trans (cred_add _ _).2)).trans (cred_add _ _).2)).trans (cred_add _ _).2)).trans (cred_add _ _).2)).trans (cred_add _ _).2

def credChain (c : Dev nD) : sProp 𝕄 :=
  iprop(cred (tallyAt (barCell c) 0 7)
    ∗ cred (tallyAt (cell c 1 (Spec.peer c 1)) 0 N)
    ∗ cred (tallyAt (cell c 1 (Spec.peer c 2)) 0 N)
    ∗ cred (tallyAt (cell c 1 (Spec.peer c 3)) 0 N)
    ∗ cred (tallyAt (cell c 1 (Spec.peer c 4)) 0 N)
    ∗ cred (tallyAt (cell c 1 (Spec.peer c 5)) 0 N)
    ∗ cred (tallyAt (cell c 1 (Spec.peer c 6)) 0 N)
    ∗ cred (tallyAt (cell c 1 (Spec.peer c 7)) 0 N)
    ∗ cred (tallyAt (cell c 3 (Spec.peer c 1)) 0 N)
    ∗ cred (tallyAt (cell c 3 (Spec.peer c 2)) 0 N)
    ∗ cred (tallyAt (cell c 3 (Spec.peer c 3)) 0 N)
    ∗ cred (tallyAt (cell c 3 (Spec.peer c 4)) 0 N)
    ∗ cred (tallyAt (cell c 3 (Spec.peer c 5)) 0 N)
    ∗ cred (tallyAt (cell c 3 (Spec.peer c 6)) 0 N)
    ∗ cred (tallyAt (cell c 3 (Spec.peer c 7)) 0 N)
    ∗ cred (tallyAt (cell c 1 (Spec.peer c 1)) 1 N)
    ∗ cred (tallyAt (cell c 1 (Spec.peer c 2)) 1 N)
    ∗ cred (tallyAt (cell c 1 (Spec.peer c 3)) 1 N)
    ∗ cred (tallyAt (cell c 1 (Spec.peer c 4)) 1 N)
    ∗ cred (tallyAt (cell c 1 (Spec.peer c 5)) 1 N)
    ∗ cred (tallyAt (cell c 1 (Spec.peer c 6)) 1 N)
    ∗ cred (tallyAt (cell c 1 (Spec.peer c 7)) 1 N)
    ∗ cred (tallyAt (cell c 3 (Spec.peer c 1)) 1 N)
    ∗ cred (tallyAt (cell c 3 (Spec.peer c 2)) 1 N)
    ∗ cred (tallyAt (cell c 3 (Spec.peer c 3)) 1 N)
    ∗ cred (tallyAt (cell c 3 (Spec.peer c 4)) 1 N)
    ∗ cred (tallyAt (cell c 3 (Spec.peer c 5)) 1 N)
    ∗ cred (tallyAt (cell c 3 (Spec.peer c 6)) 1 N)
    ∗ cred (tallyAt (cell c 3 (Spec.peer c 7)) 1 N)
    ∗ cred (tallyAt (cell c 1 (Spec.peer c 1)) 2 N)
    ∗ cred (tallyAt (cell c 1 (Spec.peer c 2)) 2 N)
    ∗ cred (tallyAt (cell c 1 (Spec.peer c 3)) 2 N)
    ∗ cred (tallyAt (cell c 1 (Spec.peer c 4)) 2 N)
    ∗ cred (tallyAt (cell c 1 (Spec.peer c 5)) 2 N)
    ∗ cred (tallyAt (cell c 1 (Spec.peer c 6)) 2 N)
    ∗ cred (tallyAt (cell c 1 (Spec.peer c 7)) 2 N)
    ∗ cred (tallyAt (cell c 3 (Spec.peer c 1)) 2 N)
    ∗ cred (tallyAt (cell c 3 (Spec.peer c 2)) 2 N)
    ∗ cred (tallyAt (cell c 3 (Spec.peer c 3)) 2 N)
    ∗ cred (tallyAt (cell c 3 (Spec.peer c 4)) 2 N)
    ∗ cred (tallyAt (cell c 3 (Spec.peer c 5)) 2 N)
    ∗ cred (tallyAt (cell c 3 (Spec.peer c 6)) 2 N)
    ∗ cred (tallyAt (cell c 3 (Spec.peer c 7)) 2 N))

theorem creds (c : Dev nD) : (Pipeline.launchCred O₀ c : sProp 𝕄) ⊢ credChain (F := F) c := by
  show (Pipeline.launchCred (fun d : Dev nD => ((((((((((((((((((((((((((((((((((((((((((((((((((0 : CellTallies nD τ sig ℕ) + tallyAt (cell (Spec.peer d 7) 3 d) 2 N) + tallyAt (cell (Spec.peer d 6) 3 d) 2 N) + tallyAt (cell (Spec.peer d 5) 3 d) 2 N) + tallyAt (cell (Spec.peer d 4) 3 d) 2 N) + tallyAt (cell (Spec.peer d 3) 3 d) 2 N) + tallyAt (cell (Spec.peer d 2) 3 d) 2 N) + tallyAt (cell (Spec.peer d 1) 3 d) 2 N) + tallyAt (cell (Spec.peer d 1) 1 d) 2 N) + tallyAt (cell (Spec.peer d 2) 1 d) 2 N) + tallyAt (cell (Spec.peer d 3) 1 d) 2 N) + tallyAt (cell (Spec.peer d 4) 1 d) 2 N) + tallyAt (cell (Spec.peer d 5) 1 d) 2 N) + tallyAt (cell (Spec.peer d 6) 1 d) 2 N) + tallyAt (cell (Spec.peer d 7) 1 d) 2 N) + tallyAt (cell (Spec.peer d 7) 3 d) 1 N) + tallyAt (cell (Spec.peer d 6) 3 d) 1 N) + tallyAt (cell (Spec.peer d 5) 3 d) 1 N) + tallyAt (cell (Spec.peer d 4) 3 d) 1 N) + tallyAt (cell (Spec.peer d 3) 3 d) 1 N) + tallyAt (cell (Spec.peer d 2) 3 d) 1 N) + tallyAt (cell (Spec.peer d 1) 3 d) 1 N) + tallyAt (cell (Spec.peer d 1) 1 d) 1 N) + tallyAt (cell (Spec.peer d 2) 1 d) 1 N) + tallyAt (cell (Spec.peer d 3) 1 d) 1 N) + tallyAt (cell (Spec.peer d 4) 1 d) 1 N) + tallyAt (cell (Spec.peer d 5) 1 d) 1 N) + tallyAt (cell (Spec.peer d 6) 1 d) 1 N) + tallyAt (cell (Spec.peer d 7) 1 d) 1 N) + tallyAt (cell (Spec.peer d 7) 3 d) 0 N) + tallyAt (cell (Spec.peer d 6) 3 d) 0 N) + tallyAt (cell (Spec.peer d 5) 3 d) 0 N) + tallyAt (cell (Spec.peer d 4) 3 d) 0 N) + tallyAt (cell (Spec.peer d 3) 3 d) 0 N) + tallyAt (cell (Spec.peer d 2) 3 d) 0 N) + tallyAt (cell (Spec.peer d 1) 3 d) 0 N) + tallyAt (cell (Spec.peer d 1) 1 d) 0 N) + tallyAt (cell (Spec.peer d 2) 1 d) 0 N) + tallyAt (cell (Spec.peer d 3) 1 d) 0 N) + tallyAt (cell (Spec.peer d 4) 1 d) 0 N) + tallyAt (cell (Spec.peer d 5) 1 d) 0 N) + tallyAt (cell (Spec.peer d 6) 1 d) 0 N) + tallyAt (cell (Spec.peer d 7) 1 d) 0 N) + tallyAt (barCell (Spec.peer d 7)) 0 1) + tallyAt (barCell (Spec.peer d 6)) 0 1) + tallyAt (barCell (Spec.peer d 5)) 0 1) + tallyAt (barCell (Spec.peer d 4)) 0 1) + tallyAt (barCell (Spec.peer d 3)) 0 1) + tallyAt (barCell (Spec.peer d 2)) 0 1) + tallyAt (barCell (Spec.peer d 1)) 0 1)) c : sProp 𝕄) ⊢ _
  simp only [Pipeline.launchCred_add, Pipeline.launchCred_zero]
  unfold credChain
  iintro ⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨⟨-, H49⟩, H48⟩, H47⟩, H46⟩, H45⟩, H44⟩, H43⟩, H42⟩, H41⟩, H40⟩, H39⟩, H38⟩, H37⟩, H36⟩, H35⟩, H34⟩, H33⟩, H32⟩, H31⟩, H30⟩, H29⟩, H28⟩, H27⟩, H26⟩, H25⟩, H24⟩, H23⟩, H22⟩, H21⟩, H20⟩, H19⟩, H18⟩, H17⟩, H16⟩, H15⟩, H14⟩, H13⟩, H12⟩, H11⟩, H10⟩, H9⟩, H8⟩, H7⟩, H6⟩, H5⟩, H4⟩, H3⟩, H2⟩, H1⟩
  ihave C1 := (cred_bar 1 7 (by decide) c) $$ H1
  ihave C2 := (cred_bar 2 6 (by decide) c) $$ H2
  ihave C3 := (cred_bar 3 5 (by decide) c) $$ H3
  ihave C4 := (cred_bar 4 4 (by decide) c) $$ H4
  ihave C5 := (cred_bar 5 3 (by decide) c) $$ H5
  ihave C6 := (cred_bar 6 2 (by decide) c) $$ H6
  ihave C7 := (cred_bar 7 1 (by decide) c) $$ H7
  ihave C8 := (cred_land 1 7 1 (by decide) 0 c) $$ H8
  ihave C9 := (cred_land 1 6 2 (by decide) 0 c) $$ H9
  ihave C10 := (cred_land 1 5 3 (by decide) 0 c) $$ H10
  ihave C11 := (cred_land 1 4 4 (by decide) 0 c) $$ H11
  ihave C12 := (cred_land 1 3 5 (by decide) 0 c) $$ H12
  ihave C13 := (cred_land 1 2 6 (by decide) 0 c) $$ H13
  ihave C14 := (cred_land 1 1 7 (by decide) 0 c) $$ H14
  ihave C15 := (cred_land 3 1 7 (by decide) 0 c) $$ H15
  ihave C16 := (cred_land 3 2 6 (by decide) 0 c) $$ H16
  ihave C17 := (cred_land 3 3 5 (by decide) 0 c) $$ H17
  ihave C18 := (cred_land 3 4 4 (by decide) 0 c) $$ H18
  ihave C19 := (cred_land 3 5 3 (by decide) 0 c) $$ H19
  ihave C20 := (cred_land 3 6 2 (by decide) 0 c) $$ H20
  ihave C21 := (cred_land 3 7 1 (by decide) 0 c) $$ H21
  ihave C22 := (cred_land 1 7 1 (by decide) 1 c) $$ H22
  ihave C23 := (cred_land 1 6 2 (by decide) 1 c) $$ H23
  ihave C24 := (cred_land 1 5 3 (by decide) 1 c) $$ H24
  ihave C25 := (cred_land 1 4 4 (by decide) 1 c) $$ H25
  ihave C26 := (cred_land 1 3 5 (by decide) 1 c) $$ H26
  ihave C27 := (cred_land 1 2 6 (by decide) 1 c) $$ H27
  ihave C28 := (cred_land 1 1 7 (by decide) 1 c) $$ H28
  ihave C29 := (cred_land 3 1 7 (by decide) 1 c) $$ H29
  ihave C30 := (cred_land 3 2 6 (by decide) 1 c) $$ H30
  ihave C31 := (cred_land 3 3 5 (by decide) 1 c) $$ H31
  ihave C32 := (cred_land 3 4 4 (by decide) 1 c) $$ H32
  ihave C33 := (cred_land 3 5 3 (by decide) 1 c) $$ H33
  ihave C34 := (cred_land 3 6 2 (by decide) 1 c) $$ H34
  ihave C35 := (cred_land 3 7 1 (by decide) 1 c) $$ H35
  ihave C36 := (cred_land 1 7 1 (by decide) 2 c) $$ H36
  ihave C37 := (cred_land 1 6 2 (by decide) 2 c) $$ H37
  ihave C38 := (cred_land 1 5 3 (by decide) 2 c) $$ H38
  ihave C39 := (cred_land 1 4 4 (by decide) 2 c) $$ H39
  ihave C40 := (cred_land 1 3 5 (by decide) 2 c) $$ H40
  ihave C41 := (cred_land 1 2 6 (by decide) 2 c) $$ H41
  ihave C42 := (cred_land 1 1 7 (by decide) 2 c) $$ H42
  ihave C43 := (cred_land 3 1 7 (by decide) 2 c) $$ H43
  ihave C44 := (cred_land 3 2 6 (by decide) 2 c) $$ H44
  ihave C45 := (cred_land 3 3 5 (by decide) 2 c) $$ H45
  ihave C46 := (cred_land 3 4 4 (by decide) 2 c) $$ H46
  ihave C47 := (cred_land 3 5 3 (by decide) 2 c) $$ H47
  ihave C48 := (cred_land 3 6 2 (by decide) 2 c) $$ H48
  ihave C49 := (cred_land 3 7 1 (by decide) 2 c) $$ H49
  isplitl [C1 C2 C3 C4 C5 C6 C7]
  · iapply (cred_seven (barCell c) 0)
    isplitl [C1]; · iexact C1
    isplitl [C2]; · iexact C2
    isplitl [C3]; · iexact C3
    isplitl [C4]; · iexact C4
    isplitl [C5]; · iexact C5
    isplitl [C6]; · iexact C6
    iexact C7
  isplitl [C8]; · iexact C8
  isplitl [C9]; · iexact C9
  isplitl [C10]; · iexact C10
  isplitl [C11]; · iexact C11
  isplitl [C12]; · iexact C12
  isplitl [C13]; · iexact C13
  isplitl [C14]; · iexact C14
  isplitl [C21]; · iexact C21
  isplitl [C20]; · iexact C20
  isplitl [C19]; · iexact C19
  isplitl [C18]; · iexact C18
  isplitl [C17]; · iexact C17
  isplitl [C16]; · iexact C16
  isplitl [C15]; · iexact C15
  isplitl [C22]; · iexact C22
  isplitl [C23]; · iexact C23
  isplitl [C24]; · iexact C24
  isplitl [C25]; · iexact C25
  isplitl [C26]; · iexact C26
  isplitl [C27]; · iexact C27
  isplitl [C28]; · iexact C28
  isplitl [C35]; · iexact C35
  isplitl [C34]; · iexact C34
  isplitl [C33]; · iexact C33
  isplitl [C32]; · iexact C32
  isplitl [C31]; · iexact C31
  isplitl [C30]; · iexact C30
  isplitl [C29]; · iexact C29
  isplitl [C36]; · iexact C36
  isplitl [C37]; · iexact C37
  isplitl [C38]; · iexact C38
  isplitl [C39]; · iexact C39
  isplitl [C40]; · iexact C40
  isplitl [C41]; · iexact C41
  isplitl [C42]; · iexact C42
  isplitl [C49]; · iexact C49
  isplitl [C48]; · iexact C48
  isplitl [C47]; · iexact C47
  isplitl [C46]; · iexact C46
  isplitl [C45]; · iexact C45
  isplitl [C44]; · iexact C44
  iexact C43

theorem peer_off_ne (o : ℕ) (h : o % 8 ≠ 0) (c : Dev nD) : Spec.peer c o ≠ c := by
  intro e
  have e' : (c.val + o) % 8 = c.val := congrArg Fin.val e
  have hc : c.val < 8 := c.isLt
  omega

theorem inv_at (K : GSem nD τ sig → ℕ) (g : GSem nD τ sig) (hg : g ∈ ringCells) : records m K ⊢ cellInv ER (sched m) (K g) g :=
  bigSep_elim hg
theorem reached_at (g : GSem nD τ sig) (hg : g ∈ ringCells) : reachedAll (F := F) ⊢ reached (ER (F := F)) g 0 :=
  bigSep_elim hg

theorem ctxP_intro (K : GSem nD τ sig → ℕ) (c : Dev nD) :
    iprop(records m K ∗ reachedAll (F := F) ∗ levAts L lv) ⊢ ctxP m K c := by
  unfold ctxP
  iintro ⟨#HI, #HR, #Hlev⟩
  isplitr; · iapply (inv_at m K _ (barCell_mem c)); iexact HI
  isplitr; · iapply (inv_at m K _ (barCell_mem _)); iexact HI
  isplitr; · iapply (inv_at m K _ (barCell_mem _)); iexact HI
  isplitr; · iapply (inv_at m K _ (barCell_mem _)); iexact HI
  isplitr; · iapply (inv_at m K _ (barCell_mem _)); iexact HI
  isplitr; · iapply (inv_at m K _ (barCell_mem _)); iexact HI
  isplitr; · iapply (inv_at m K _ (barCell_mem _)); iexact HI
  isplitr; · iapply (inv_at m K _ (barCell_mem _)); iexact HI
  isplitr; · iapply (inv_at m K _ (cell_mem c _ 0 (peer_off_ne 1 (by decide) c))); iexact HI
  isplitr; · iapply (inv_at m K _ (cell_mem c _ 0 (peer_off_ne 2 (by decide) c))); iexact HI
  isplitr; · iapply (inv_at m K _ (cell_mem c _ 0 (peer_off_ne 3 (by decide) c))); iexact HI
  isplitr; · iapply (inv_at m K _ (cell_mem c _ 0 (peer_off_ne 4 (by decide) c))); iexact HI
  isplitr; · iapply (inv_at m K _ (cell_mem c _ 0 (peer_off_ne 5 (by decide) c))); iexact HI
  isplitr; · iapply (inv_at m K _ (cell_mem c _ 0 (peer_off_ne 6 (by decide) c))); iexact HI
  isplitr; · iapply (inv_at m K _ (cell_mem c _ 0 (peer_off_ne 7 (by decide) c))); iexact HI
  isplitr; · iapply (inv_at m K _ (cell_mem c _ 1 (peer_off_ne 1 (by decide) c))); iexact HI
  isplitr; · iapply (inv_at m K _ (cell_mem c _ 1 (peer_off_ne 2 (by decide) c))); iexact HI
  isplitr; · iapply (inv_at m K _ (cell_mem c _ 1 (peer_off_ne 3 (by decide) c))); iexact HI
  isplitr; · iapply (inv_at m K _ (cell_mem c _ 1 (peer_off_ne 4 (by decide) c))); iexact HI
  isplitr; · iapply (inv_at m K _ (cell_mem c _ 1 (peer_off_ne 5 (by decide) c))); iexact HI
  isplitr; · iapply (inv_at m K _ (cell_mem c _ 1 (peer_off_ne 6 (by decide) c))); iexact HI
  isplitr; · iapply (inv_at m K _ (cell_mem c _ 1 (peer_off_ne 7 (by decide) c))); iexact HI
  isplitr; · iapply (inv_at m K _ (cell_mem c _ 2 (peer_off_ne 1 (by decide) c))); iexact HI
  isplitr; · iapply (inv_at m K _ (cell_mem c _ 2 (peer_off_ne 2 (by decide) c))); iexact HI
  isplitr; · iapply (inv_at m K _ (cell_mem c _ 2 (peer_off_ne 3 (by decide) c))); iexact HI
  isplitr; · iapply (inv_at m K _ (cell_mem c _ 2 (peer_off_ne 4 (by decide) c))); iexact HI
  isplitr; · iapply (inv_at m K _ (cell_mem c _ 2 (peer_off_ne 5 (by decide) c))); iexact HI
  isplitr; · iapply (inv_at m K _ (cell_mem c _ 2 (peer_off_ne 6 (by decide) c))); iexact HI
  isplitr; · iapply (inv_at m K _ (cell_mem c _ 2 (peer_off_ne 7 (by decide) c))); iexact HI
  isplitr; · iapply (inv_at m K _ (cell_mem c _ 3 (peer_off_ne 1 (by decide) c))); iexact HI
  isplitr; · iapply (inv_at m K _ (cell_mem c _ 3 (peer_off_ne 2 (by decide) c))); iexact HI
  isplitr; · iapply (inv_at m K _ (cell_mem c _ 3 (peer_off_ne 3 (by decide) c))); iexact HI
  isplitr; · iapply (inv_at m K _ (cell_mem c _ 3 (peer_off_ne 4 (by decide) c))); iexact HI
  isplitr; · iapply (inv_at m K _ (cell_mem c _ 3 (peer_off_ne 5 (by decide) c))); iexact HI
  isplitr; · iapply (inv_at m K _ (cell_mem c _ 3 (peer_off_ne 6 (by decide) c))); iexact HI
  isplitr; · iapply (inv_at m K _ (cell_mem c _ 3 (peer_off_ne 7 (by decide) c))); iexact HI
  isplitr; · iapply (inv_at m K _ (cell_mem _ c 1 (Ne.symm (peer_off_ne 1 (by decide) c)))); iexact HI
  isplitr; · iapply (inv_at m K _ (cell_mem _ c 1 (Ne.symm (peer_off_ne 2 (by decide) c)))); iexact HI
  isplitr; · iapply (inv_at m K _ (cell_mem _ c 1 (Ne.symm (peer_off_ne 3 (by decide) c)))); iexact HI
  isplitr; · iapply (inv_at m K _ (cell_mem _ c 1 (Ne.symm (peer_off_ne 4 (by decide) c)))); iexact HI
  isplitr; · iapply (inv_at m K _ (cell_mem _ c 1 (Ne.symm (peer_off_ne 5 (by decide) c)))); iexact HI
  isplitr; · iapply (inv_at m K _ (cell_mem _ c 1 (Ne.symm (peer_off_ne 6 (by decide) c)))); iexact HI
  isplitr; · iapply (inv_at m K _ (cell_mem _ c 1 (Ne.symm (peer_off_ne 7 (by decide) c)))); iexact HI
  isplitr; · iapply (inv_at m K _ (cell_mem _ c 3 (Ne.symm (peer_off_ne 1 (by decide) c)))); iexact HI
  isplitr; · iapply (inv_at m K _ (cell_mem _ c 3 (Ne.symm (peer_off_ne 2 (by decide) c)))); iexact HI
  isplitr; · iapply (inv_at m K _ (cell_mem _ c 3 (Ne.symm (peer_off_ne 3 (by decide) c)))); iexact HI
  isplitr; · iapply (inv_at m K _ (cell_mem _ c 3 (Ne.symm (peer_off_ne 4 (by decide) c)))); iexact HI
  isplitr; · iapply (inv_at m K _ (cell_mem _ c 3 (Ne.symm (peer_off_ne 5 (by decide) c)))); iexact HI
  isplitr; · iapply (inv_at m K _ (cell_mem _ c 3 (Ne.symm (peer_off_ne 6 (by decide) c)))); iexact HI
  isplitr; · iapply (inv_at m K _ (cell_mem _ c 3 (Ne.symm (peer_off_ne 7 (by decide) c)))); iexact HI
  isplitr; · iapply (reached_at (F := F) _ (barCell_mem _)); iexact HR
  isplitr; · iapply (reached_at (F := F) _ (barCell_mem _)); iexact HR
  isplitr; · iapply (reached_at (F := F) _ (barCell_mem _)); iexact HR
  isplitr; · iapply (reached_at (F := F) _ (barCell_mem _)); iexact HR
  isplitr; · iapply (reached_at (F := F) _ (barCell_mem _)); iexact HR
  isplitr; · iapply (reached_at (F := F) _ (barCell_mem _)); iexact HR
  isplitr; · iapply (reached_at (F := F) _ (barCell_mem _)); iexact HR
  isplitr; · iapply (reached_at (F := F) _ (cell_mem c _ 0 (peer_off_ne 1 (by decide) c))); iexact HR
  isplitr; · iapply (reached_at (F := F) _ (cell_mem c _ 0 (peer_off_ne 2 (by decide) c))); iexact HR
  isplitr; · iapply (reached_at (F := F) _ (cell_mem c _ 0 (peer_off_ne 3 (by decide) c))); iexact HR
  isplitr; · iapply (reached_at (F := F) _ (cell_mem c _ 0 (peer_off_ne 4 (by decide) c))); iexact HR
  isplitr; · iapply (reached_at (F := F) _ (cell_mem c _ 0 (peer_off_ne 5 (by decide) c))); iexact HR
  isplitr; · iapply (reached_at (F := F) _ (cell_mem c _ 0 (peer_off_ne 6 (by decide) c))); iexact HR
  isplitr; · iapply (reached_at (F := F) _ (cell_mem c _ 0 (peer_off_ne 7 (by decide) c))); iexact HR
  isplitr; · iapply (reached_at (F := F) _ (cell_mem c _ 1 (peer_off_ne 1 (by decide) c))); iexact HR
  isplitr; · iapply (reached_at (F := F) _ (cell_mem c _ 1 (peer_off_ne 2 (by decide) c))); iexact HR
  isplitr; · iapply (reached_at (F := F) _ (cell_mem c _ 1 (peer_off_ne 3 (by decide) c))); iexact HR
  isplitr; · iapply (reached_at (F := F) _ (cell_mem c _ 1 (peer_off_ne 4 (by decide) c))); iexact HR
  isplitr; · iapply (reached_at (F := F) _ (cell_mem c _ 1 (peer_off_ne 5 (by decide) c))); iexact HR
  isplitr; · iapply (reached_at (F := F) _ (cell_mem c _ 1 (peer_off_ne 6 (by decide) c))); iexact HR
  isplitr; · iapply (reached_at (F := F) _ (cell_mem c _ 1 (peer_off_ne 7 (by decide) c))); iexact HR
  isplitr; · iapply (reached_at (F := F) _ (cell_mem c _ 2 (peer_off_ne 1 (by decide) c))); iexact HR
  isplitr; · iapply (reached_at (F := F) _ (cell_mem c _ 2 (peer_off_ne 2 (by decide) c))); iexact HR
  isplitr; · iapply (reached_at (F := F) _ (cell_mem c _ 2 (peer_off_ne 3 (by decide) c))); iexact HR
  isplitr; · iapply (reached_at (F := F) _ (cell_mem c _ 2 (peer_off_ne 4 (by decide) c))); iexact HR
  isplitr; · iapply (reached_at (F := F) _ (cell_mem c _ 2 (peer_off_ne 5 (by decide) c))); iexact HR
  isplitr; · iapply (reached_at (F := F) _ (cell_mem c _ 2 (peer_off_ne 6 (by decide) c))); iexact HR
  isplitr; · iapply (reached_at (F := F) _ (cell_mem c _ 2 (peer_off_ne 7 (by decide) c))); iexact HR
  isplitr; · iapply (reached_at (F := F) _ (cell_mem c _ 3 (peer_off_ne 1 (by decide) c))); iexact HR
  isplitr; · iapply (reached_at (F := F) _ (cell_mem c _ 3 (peer_off_ne 2 (by decide) c))); iexact HR
  isplitr; · iapply (reached_at (F := F) _ (cell_mem c _ 3 (peer_off_ne 3 (by decide) c))); iexact HR
  isplitr; · iapply (reached_at (F := F) _ (cell_mem c _ 3 (peer_off_ne 4 (by decide) c))); iexact HR
  isplitr; · iapply (reached_at (F := F) _ (cell_mem c _ 3 (peer_off_ne 5 (by decide) c))); iexact HR
  isplitr; · iapply (reached_at (F := F) _ (cell_mem c _ 3 (peer_off_ne 6 (by decide) c))); iexact HR
  isplitr; · iapply (reached_at (F := F) _ (cell_mem c _ 3 (peer_off_ne 7 (by decide) c))); iexact HR
  isplitr; · iapply (reached_at (F := F) _ (cell_mem _ c 1 (Ne.symm (peer_off_ne 1 (by decide) c)))); iexact HR
  isplitr; · iapply (reached_at (F := F) _ (cell_mem _ c 1 (Ne.symm (peer_off_ne 2 (by decide) c)))); iexact HR
  isplitr; · iapply (reached_at (F := F) _ (cell_mem _ c 1 (Ne.symm (peer_off_ne 3 (by decide) c)))); iexact HR
  isplitr; · iapply (reached_at (F := F) _ (cell_mem _ c 1 (Ne.symm (peer_off_ne 4 (by decide) c)))); iexact HR
  isplitr; · iapply (reached_at (F := F) _ (cell_mem _ c 1 (Ne.symm (peer_off_ne 5 (by decide) c)))); iexact HR
  isplitr; · iapply (reached_at (F := F) _ (cell_mem _ c 1 (Ne.symm (peer_off_ne 6 (by decide) c)))); iexact HR
  isplitr; · iapply (reached_at (F := F) _ (cell_mem _ c 1 (Ne.symm (peer_off_ne 7 (by decide) c)))); iexact HR
  isplitr; · iapply (reached_at (F := F) _ (cell_mem _ c 3 (Ne.symm (peer_off_ne 1 (by decide) c)))); iexact HR
  isplitr; · iapply (reached_at (F := F) _ (cell_mem _ c 3 (Ne.symm (peer_off_ne 2 (by decide) c)))); iexact HR
  isplitr; · iapply (reached_at (F := F) _ (cell_mem _ c 3 (Ne.symm (peer_off_ne 3 (by decide) c)))); iexact HR
  isplitr; · iapply (reached_at (F := F) _ (cell_mem _ c 3 (Ne.symm (peer_off_ne 4 (by decide) c)))); iexact HR
  isplitr; · iapply (reached_at (F := F) _ (cell_mem _ c 3 (Ne.symm (peer_off_ne 5 (by decide) c)))); iexact HR
  isplitr; · iapply (reached_at (F := F) _ (cell_mem _ c 3 (Ne.symm (peer_off_ne 6 (by decide) c)))); iexact HR
  isplitr; · iapply (reached_at (F := F) _ (cell_mem _ c 3 (Ne.symm (peer_off_ne 7 (by decide) c)))); iexact HR
  iexact Hlev

theorem sep_assoc_eq (P Q R : sProp 𝕄) : iprop((P ∗ Q) ∗ R) = iprop(P ∗ Q ∗ R) := equiv_iff.mp ⟨BI.sep_assoc, BI.sep_assoc'⟩

def tokChain (c : Dev nD) : sProp 𝕄 :=
  iprop(dutyTok ER (barCell (Spec.peer c 1)) 0 c
    ∗ dutyTok ER (barCell (Spec.peer c 2)) 0 c
    ∗ dutyTok ER (barCell (Spec.peer c 3)) 0 c
    ∗ dutyTok ER (barCell (Spec.peer c 4)) 0 c
    ∗ dutyTok ER (barCell (Spec.peer c 5)) 0 c
    ∗ dutyTok ER (barCell (Spec.peer c 6)) 0 c
    ∗ dutyTok ER (barCell (Spec.peer c 7)) 0 c
    ∗ dutyTok ER (cell c 0 (Spec.peer c 1)) 0 0
    ∗ dutyTok ER (cell (Spec.peer c 1) 1 c) 0 0
    ∗ dutyTok ER (cell c 2 (Spec.peer c 1)) 0 0
    ∗ dutyTok ER (cell (Spec.peer c 1) 3 c) 0 0
    ∗ dutyTok ER (cell c 0 (Spec.peer c 2)) 0 0
    ∗ dutyTok ER (cell (Spec.peer c 2) 1 c) 0 0
    ∗ dutyTok ER (cell c 2 (Spec.peer c 2)) 0 0
    ∗ dutyTok ER (cell (Spec.peer c 2) 3 c) 0 0
    ∗ dutyTok ER (cell c 0 (Spec.peer c 3)) 0 0
    ∗ dutyTok ER (cell (Spec.peer c 3) 1 c) 0 0
    ∗ dutyTok ER (cell c 2 (Spec.peer c 3)) 0 0
    ∗ dutyTok ER (cell (Spec.peer c 3) 3 c) 0 0
    ∗ dutyTok ER (cell c 0 (Spec.peer c 4)) 0 0
    ∗ dutyTok ER (cell (Spec.peer c 4) 1 c) 0 0
    ∗ dutyTok ER (cell c 2 (Spec.peer c 4)) 0 0
    ∗ dutyTok ER (cell (Spec.peer c 4) 3 c) 0 0
    ∗ dutyTok ER (cell c 0 (Spec.peer c 5)) 0 0
    ∗ dutyTok ER (cell (Spec.peer c 5) 1 c) 0 0
    ∗ dutyTok ER (cell c 2 (Spec.peer c 5)) 0 0
    ∗ dutyTok ER (cell (Spec.peer c 5) 3 c) 0 0
    ∗ dutyTok ER (cell c 0 (Spec.peer c 6)) 0 0
    ∗ dutyTok ER (cell (Spec.peer c 6) 1 c) 0 0
    ∗ dutyTok ER (cell c 2 (Spec.peer c 6)) 0 0
    ∗ dutyTok ER (cell (Spec.peer c 6) 3 c) 0 0
    ∗ dutyTok ER (cell c 0 (Spec.peer c 7)) 0 0
    ∗ dutyTok ER (cell (Spec.peer c 7) 1 c) 0 0
    ∗ dutyTok ER (cell c 2 (Spec.peer c 7)) 0 0
    ∗ dutyTok ER (cell (Spec.peer c 7) 3 c) 0 0
    ∗ dutyTok ER (cell c 0 (Spec.peer c 1)) 1 0
    ∗ dutyTok ER (cell (Spec.peer c 1) 1 c) 1 0
    ∗ dutyTok ER (cell c 2 (Spec.peer c 1)) 1 0
    ∗ dutyTok ER (cell (Spec.peer c 1) 3 c) 1 0
    ∗ dutyTok ER (cell c 0 (Spec.peer c 2)) 1 0
    ∗ dutyTok ER (cell (Spec.peer c 2) 1 c) 1 0
    ∗ dutyTok ER (cell c 2 (Spec.peer c 2)) 1 0
    ∗ dutyTok ER (cell (Spec.peer c 2) 3 c) 1 0
    ∗ dutyTok ER (cell c 0 (Spec.peer c 3)) 1 0
    ∗ dutyTok ER (cell (Spec.peer c 3) 1 c) 1 0
    ∗ dutyTok ER (cell c 2 (Spec.peer c 3)) 1 0
    ∗ dutyTok ER (cell (Spec.peer c 3) 3 c) 1 0
    ∗ dutyTok ER (cell c 0 (Spec.peer c 4)) 1 0
    ∗ dutyTok ER (cell (Spec.peer c 4) 1 c) 1 0
    ∗ dutyTok ER (cell c 2 (Spec.peer c 4)) 1 0
    ∗ dutyTok ER (cell (Spec.peer c 4) 3 c) 1 0
    ∗ dutyTok ER (cell c 0 (Spec.peer c 5)) 1 0
    ∗ dutyTok ER (cell (Spec.peer c 5) 1 c) 1 0
    ∗ dutyTok ER (cell c 2 (Spec.peer c 5)) 1 0
    ∗ dutyTok ER (cell (Spec.peer c 5) 3 c) 1 0
    ∗ dutyTok ER (cell c 0 (Spec.peer c 6)) 1 0
    ∗ dutyTok ER (cell (Spec.peer c 6) 1 c) 1 0
    ∗ dutyTok ER (cell c 2 (Spec.peer c 6)) 1 0
    ∗ dutyTok ER (cell (Spec.peer c 6) 3 c) 1 0
    ∗ dutyTok ER (cell c 0 (Spec.peer c 7)) 1 0
    ∗ dutyTok ER (cell (Spec.peer c 7) 1 c) 1 0
    ∗ dutyTok ER (cell c 2 (Spec.peer c 7)) 1 0
    ∗ dutyTok ER (cell (Spec.peer c 7) 3 c) 1 0
    ∗ dutyTok ER (cell c 0 (Spec.peer c 1)) 2 0
    ∗ dutyTok ER (cell (Spec.peer c 1) 1 c) 2 0
    ∗ dutyTok ER (cell c 2 (Spec.peer c 1)) 2 0
    ∗ dutyTok ER (cell (Spec.peer c 1) 3 c) 2 0
    ∗ dutyTok ER (cell c 0 (Spec.peer c 2)) 2 0
    ∗ dutyTok ER (cell (Spec.peer c 2) 1 c) 2 0
    ∗ dutyTok ER (cell c 2 (Spec.peer c 2)) 2 0
    ∗ dutyTok ER (cell (Spec.peer c 2) 3 c) 2 0
    ∗ dutyTok ER (cell c 0 (Spec.peer c 3)) 2 0
    ∗ dutyTok ER (cell (Spec.peer c 3) 1 c) 2 0
    ∗ dutyTok ER (cell c 2 (Spec.peer c 3)) 2 0
    ∗ dutyTok ER (cell (Spec.peer c 3) 3 c) 2 0
    ∗ dutyTok ER (cell c 0 (Spec.peer c 4)) 2 0
    ∗ dutyTok ER (cell (Spec.peer c 4) 1 c) 2 0
    ∗ dutyTok ER (cell c 2 (Spec.peer c 4)) 2 0
    ∗ dutyTok ER (cell (Spec.peer c 4) 3 c) 2 0
    ∗ dutyTok ER (cell c 0 (Spec.peer c 5)) 2 0
    ∗ dutyTok ER (cell (Spec.peer c 5) 1 c) 2 0
    ∗ dutyTok ER (cell c 2 (Spec.peer c 5)) 2 0
    ∗ dutyTok ER (cell (Spec.peer c 5) 3 c) 2 0
    ∗ dutyTok ER (cell c 0 (Spec.peer c 6)) 2 0
    ∗ dutyTok ER (cell (Spec.peer c 6) 1 c) 2 0
    ∗ dutyTok ER (cell c 2 (Spec.peer c 6)) 2 0
    ∗ dutyTok ER (cell (Spec.peer c 6) 3 c) 2 0
    ∗ dutyTok ER (cell c 0 (Spec.peer c 7)) 2 0
    ∗ dutyTok ER (cell (Spec.peer c 7) 1 c) 2 0
    ∗ dutyTok ER (cell c 2 (Spec.peer c 7)) 2 0
    ∗ dutyTok ER (cell (Spec.peer c 7) 3 c) 2 0)

def atChain (c : Dev nD) : sProp 𝕄 :=
  iprop(atPos ER (barCell c) 0 ∅ 0
    ∗ atPos ER (cell c 0 (Spec.peer c 1)) 0 ∅ 0
    ∗ atPos ER (cell c 0 (Spec.peer c 2)) 0 ∅ 0
    ∗ atPos ER (cell c 0 (Spec.peer c 3)) 0 ∅ 0
    ∗ atPos ER (cell c 0 (Spec.peer c 4)) 0 ∅ 0
    ∗ atPos ER (cell c 0 (Spec.peer c 5)) 0 ∅ 0
    ∗ atPos ER (cell c 0 (Spec.peer c 6)) 0 ∅ 0
    ∗ atPos ER (cell c 0 (Spec.peer c 7)) 0 ∅ 0
    ∗ atPos ER (cell c 1 (Spec.peer c 1)) 0 ∅ 0
    ∗ atPos ER (cell c 1 (Spec.peer c 2)) 0 ∅ 0
    ∗ atPos ER (cell c 1 (Spec.peer c 3)) 0 ∅ 0
    ∗ atPos ER (cell c 1 (Spec.peer c 4)) 0 ∅ 0
    ∗ atPos ER (cell c 1 (Spec.peer c 5)) 0 ∅ 0
    ∗ atPos ER (cell c 1 (Spec.peer c 6)) 0 ∅ 0
    ∗ atPos ER (cell c 1 (Spec.peer c 7)) 0 ∅ 0
    ∗ atPos ER (cell c 2 (Spec.peer c 1)) 0 ∅ 0
    ∗ atPos ER (cell c 2 (Spec.peer c 2)) 0 ∅ 0
    ∗ atPos ER (cell c 2 (Spec.peer c 3)) 0 ∅ 0
    ∗ atPos ER (cell c 2 (Spec.peer c 4)) 0 ∅ 0
    ∗ atPos ER (cell c 2 (Spec.peer c 5)) 0 ∅ 0
    ∗ atPos ER (cell c 2 (Spec.peer c 6)) 0 ∅ 0
    ∗ atPos ER (cell c 2 (Spec.peer c 7)) 0 ∅ 0
    ∗ atPos ER (cell c 3 (Spec.peer c 1)) 0 ∅ 0
    ∗ atPos ER (cell c 3 (Spec.peer c 2)) 0 ∅ 0
    ∗ atPos ER (cell c 3 (Spec.peer c 3)) 0 ∅ 0
    ∗ atPos ER (cell c 3 (Spec.peer c 4)) 0 ∅ 0
    ∗ atPos ER (cell c 3 (Spec.peer c 5)) 0 ∅ 0
    ∗ atPos ER (cell c 3 (Spec.peer c 6)) 0 ∅ 0
    ∗ atPos ER (cell c 3 (Spec.peer c 7)) 0 ∅ 0)

def wChain (c : Dev nD) : sProp 𝕄 :=
  iprop(((View.loc (c : Thread nD τ) (Memref.whole main_arg1 : Memref sig .tc .hbm S1024x2048 .f32).view) ↦{fullShare} m ((c : Thread nD τ).loc main_arg1))
    ∗ ((View.loc (c : Thread nD τ) (Memref.whole main_arg2 : Memref sig .tc .hbm S2048x1024 .f32).view) ↦{fullShare} m ((c : Thread nD τ).loc main_arg2))
    ∗ ((View.loc (c : Thread nD τ) (Memref.whole main_arg3 : Memref sig .tc .hbm S1024x2048 .f32).view) ↦{fullShare} m ((c : Thread nD τ).loc main_arg3))
    ∗ ((View.loc (c : Thread nD τ) (Memref.whole main_arg4 : Memref sig .tc .hbm S2048x1024 .f32).view) ↦{fullShare} m ((c : Thread nD τ).loc main_arg4))
    ∗ ((View.loc (c : Thread nD τ) (Memref.whole main_arg5 : Memref sig .tc .hbm S1024x2048 .f32).view) ↦{fullShare} m ((c : Thread nD τ).loc main_arg5))
    ∗ ((View.loc (c : Thread nD τ) (Memref.whole main_arg6 : Memref sig .tc .hbm S2048x1024 .f32).view) ↦{fullShare} m ((c : Thread nD τ).loc main_arg6)))

def bufChain (c : Dev nD) (f0 : Buf (Elt F) ((c : Thread nD τ).loc cc0_scratch0)) (f1 : Buf (Elt F) ((c : Thread nD τ).loc cc0_scratch1)) (f2 : Buf (Elt F) ((c : Thread nD τ).loc cc0_scratch2))
    (f3 : Buf (Elt F) ((c : Thread nD τ).loc cc0_scratch3)) (f4 : Buf (Elt F) ((c : Thread nD τ).loc cc0_scratch4))
    (f5 : Buf (Elt F) ((c : Thread nD τ).loc cc0_scratch5)) (f6 : Buf (Elt F) ((c : Thread nD τ).loc cc0_scratch6)) : sProp 𝕄 :=
  iprop(pts (F := F) xfM c c fullShare f0
    ∗ (∃ f : Buf (Elt F) ((chunkM xfM (Spec.peer c 1)).view.loc (c : Thread nD τ)), pts (F := F) xfM c (Spec.peer c 1) fullShare f)
    ∗ (∃ f : Buf (Elt F) ((chunkM xfM (Spec.peer c 2)).view.loc (c : Thread nD τ)), pts (F := F) xfM c (Spec.peer c 2) fullShare f)
    ∗ (∃ f : Buf (Elt F) ((chunkM xfM (Spec.peer c 3)).view.loc (c : Thread nD τ)), pts (F := F) xfM c (Spec.peer c 3) fullShare f)
    ∗ (∃ f : Buf (Elt F) ((chunkM xfM (Spec.peer c 4)).view.loc (c : Thread nD τ)), pts (F := F) xfM c (Spec.peer c 4) fullShare f)
    ∗ (∃ f : Buf (Elt F) ((chunkM xfM (Spec.peer c 5)).view.loc (c : Thread nD τ)), pts (F := F) xfM c (Spec.peer c 5) fullShare f)
    ∗ (∃ f : Buf (Elt F) ((chunkM xfM (Spec.peer c 6)).view.loc (c : Thread nD τ)), pts (F := F) xfM c (Spec.peer c 6) fullShare f)
    ∗ (∃ f : Buf (Elt F) ((chunkM xfM (Spec.peer c 7)).view.loc (c : Thread nD τ)), pts (F := F) xfM c (Spec.peer c 7) fullShare f)
    ∗ pts (F := F) rsM c c fullShare f1
    ∗ pts (F := F) rsM c (Spec.peer c 1) fullShare f1
    ∗ pts (F := F) rsM c (Spec.peer c 2) fullShare f1
    ∗ pts (F := F) rsM c (Spec.peer c 3) fullShare f1
    ∗ pts (F := F) rsM c (Spec.peer c 4) fullShare f1
    ∗ pts (F := F) rsM c (Spec.peer c 5) fullShare f1
    ∗ pts (F := F) rsM c (Spec.peer c 6) fullShare f1
    ∗ pts (F := F) rsM c (Spec.peer c 7) fullShare f1
    ∗ pts (F := F) rrM c c fullShare f2
    ∗ (∃ f : Buf (Elt F) ((chunkM rrM (Spec.peer c 1)).view.loc (c : Thread nD τ)), pts (F := F) rrM c (Spec.peer c 1) fullShare f)
    ∗ (∃ f : Buf (Elt F) ((chunkM rrM (Spec.peer c 2)).view.loc (c : Thread nD τ)), pts (F := F) rrM c (Spec.peer c 2) fullShare f)
    ∗ (∃ f : Buf (Elt F) ((chunkM rrM (Spec.peer c 3)).view.loc (c : Thread nD τ)), pts (F := F) rrM c (Spec.peer c 3) fullShare f)
    ∗ (∃ f : Buf (Elt F) ((chunkM rrM (Spec.peer c 4)).view.loc (c : Thread nD τ)), pts (F := F) rrM c (Spec.peer c 4) fullShare f)
    ∗ (∃ f : Buf (Elt F) ((chunkM rrM (Spec.peer c 5)).view.loc (c : Thread nD τ)), pts (F := F) rrM c (Spec.peer c 5) fullShare f)
    ∗ (∃ f : Buf (Elt F) ((chunkM rrM (Spec.peer c 6)).view.loc (c : Thread nD τ)), pts (F := F) rrM c (Spec.peer c 6) fullShare f)
    ∗ (∃ f : Buf (Elt F) ((chunkM rrM (Spec.peer c 7)).view.loc (c : Thread nD τ)), pts (F := F) rrM c (Spec.peer c 7) fullShare f)
    ∗ ((View.loc (c : Thread nD τ) (Memref.whole cc0_scratch3 : Memref sig .tc .vmem S2x1024x2048 .f32).view) ↦{fullShare} f3)
    ∗ ((View.loc (c : Thread nD τ) (Memref.whole cc0_scratch4 : Memref sig .tc .vmem S2x2048x1024 .f32).view) ↦{fullShare} f4)
    ∗ ((View.loc (c : Thread nD τ) (Memref.whole cc0_scratch5 : Memref sig .tc .vmem S1024x2048 .bf16).view) ↦{fullShare} f5)
    ∗ ((View.loc (c : Thread nD τ) (Memref.whole cc0_scratch6 : Memref sig .tc .vmem S2048x1024 .bf16).view) ↦{fullShare} f6))

def wsChain (c : Dev nD) : sProp 𝕄 :=
  iprop(semVal (((c : Thread nD τ), SemLoc.dma (⟨34, by have := nds; omega⟩ : DmaSem sig)) : GSem nD τ sig) 0
    ∗ semVal (((c : Thread nD τ), SemLoc.dma (⟨35, by have := nds; omega⟩ : DmaSem sig)) : GSem nD τ sig) 0
    ∗ semVal (((c : Thread nD τ), SemLoc.dma (⟨36, by have := nds; omega⟩ : DmaSem sig)) : GSem nD τ sig) 0
    ∗ semVal (((c : Thread nD τ), SemLoc.dma (⟨37, by have := nds; omega⟩ : DmaSem sig)) : GSem nD τ sig) 0)

theorem ctxS_eq (c : Dev nD) (f0 : Buf (Elt F) ((c : Thread nD τ).loc cc0_scratch0)) (f1 : Buf (Elt F) ((c : Thread nD τ).loc cc0_scratch1)) (f2 : Buf (Elt F) ((c : Thread nD τ).loc cc0_scratch2))
    (f3 : Buf (Elt F) ((c : Thread nD τ).loc cc0_scratch3)) (f4 : Buf (Elt F) ((c : Thread nD τ).loc cc0_scratch4))
    (f5 : Buf (Elt F) ((c : Thread nD τ).loc cc0_scratch5)) (f6 : Buf (Elt F) ((c : Thread nD τ).loc cc0_scratch6)) :
    iprop(tokChain (F := F) c ∗ atChain (F := F) c ∗ credChain (F := F) c ∗ wChain m c ∗ bufChain c f0 f1 f2 f3 f4 f5 f6 ∗ wsChain (F := F) c)
      = ctxS m c f0 f1 f2 f3 f4 f5 f6 := by
  unfold tokChain atChain credChain wChain bufChain wsChain ctxS
  simp only [sep_assoc_eq]

theorem payTok_eq (c : Dev nD) : payTok (F := F) c = tokChain (F := F) c := by
  unfold payTok tokChain
  rw [bigSep_univ_eq_bigSepL [.inl 0, .inl 1, .inl 2, .inl 3, .inl 4, .inl 5, .inl 6, .inr (0, 0, 0), .inr (1, 0, 0), .inr (2, 0, 0), .inr (3, 0, 0), .inr (0, 1, 0), .inr (1, 1, 0), .inr (2, 1, 0), .inr (3, 1, 0), .inr (0, 2, 0), .inr (1, 2, 0), .inr (2, 2, 0), .inr (3, 2, 0), .inr (0, 3, 0), .inr (1, 3, 0), .inr (2, 3, 0), .inr (3, 3, 0), .inr (0, 4, 0), .inr (1, 4, 0), .inr (2, 4, 0), .inr (3, 4, 0), .inr (0, 5, 0), .inr (1, 5, 0), .inr (2, 5, 0), .inr (3, 5, 0), .inr (0, 6, 0), .inr (1, 6, 0), .inr (2, 6, 0), .inr (3, 6, 0), .inr (0, 0, 1), .inr (1, 0, 1), .inr (2, 0, 1), .inr (3, 0, 1), .inr (0, 1, 1), .inr (1, 1, 1), .inr (2, 1, 1), .inr (3, 1, 1), .inr (0, 2, 1), .inr (1, 2, 1), .inr (2, 2, 1), .inr (3, 2, 1), .inr (0, 3, 1), .inr (1, 3, 1), .inr (2, 3, 1), .inr (3, 3, 1), .inr (0, 4, 1), .inr (1, 4, 1), .inr (2, 4, 1), .inr (3, 4, 1), .inr (0, 5, 1), .inr (1, 5, 1), .inr (2, 5, 1), .inr (3, 5, 1), .inr (0, 6, 1), .inr (1, 6, 1), .inr (2, 6, 1), .inr (3, 6, 1), .inr (0, 0, 2), .inr (1, 0, 2), .inr (2, 0, 2), .inr (3, 0, 2), .inr (0, 1, 2), .inr (1, 1, 2), .inr (2, 1, 2), .inr (3, 1, 2), .inr (0, 2, 2), .inr (1, 2, 2), .inr (2, 2, 2), .inr (3, 2, 2), .inr (0, 3, 2), .inr (1, 3, 2), .inr (2, 3, 2), .inr (3, 3, 2), .inr (0, 4, 2), .inr (1, 4, 2), .inr (2, 4, 2), .inr (3, 4, 2), .inr (0, 5, 2), .inr (1, 5, 2), .inr (2, 5, 2), .inr (3, 5, 2), .inr (0, 6, 2), .inr (1, 6, 2), .inr (2, 6, 2), .inr (3, 6, 2)] (by decide) (by decide)]
  rfl

theorem ats_eq (c : Dev nD) : (bigSep Finset.univ fun i : CI => atPos (ER (F := F)) (kcell (c, i)) 0 ∅ 0) = atChain (F := F) c := by
  unfold atChain
  rw [bigSep_univ_eq_bigSepL [.inl (), .inr (0, 0), .inr (0, 1), .inr (0, 2), .inr (0, 3), .inr (0, 4), .inr (0, 5), .inr (0, 6), .inr (1, 0), .inr (1, 1), .inr (1, 2), .inr (1, 3), .inr (1, 4), .inr (1, 5), .inr (1, 6), .inr (2, 0), .inr (2, 1), .inr (2, 2), .inr (2, 3), .inr (2, 4), .inr (2, 5), .inr (2, 6), .inr (3, 0), .inr (3, 1), .inr (3, 2), .inr (3, 3), .inr (3, 4), .inr (3, 5), .inr (3, 6)] (by decide) (by decide)]
  rfl

theorem rawSems_eq (c : Dev nD) : rawSems (F := F) c = iprop(idleSems (F := F) c ∗ wsChain (F := F) c) := by
  unfold rawSems idleSems wsChain
  rw [bigSep_univ_eq_bigSepL [0, 1, 2, 3] (by decide) (by decide), bigSep_univ_eq_bigSepL [0, 1, 2, 3] (by decide) (by decide)]
  rfl

theorem erase_eq_peerList (t : Dev nD) : Finset.univ.erase t = [Spec.peer t 1, Spec.peer t 2, Spec.peer t 3, Spec.peer t 4, Spec.peer t 5, Spec.peer t 6, Spec.peer t 7].toFinset := by revert t; decide
theorem peerList_nodup (t : Dev nD) : [Spec.peer t 1, Spec.peer t 2, Spec.peer t 3, Spec.peer t 4, Spec.peer t 5, Spec.peer t 6, Spec.peer t 7].Nodup := by revert t; decide

theorem chunks_own (M : Memref sig .tc .vmem S512x1024 .bf16) (t : Dev nD) (q : PosShare TreeShare)
    (f : Buf (Elt F) (M.view.loc (t : Thread nD τ))) :
    (M.view.loc (t : Thread nD τ) ↦[M.view.set]{q} f : sProp 𝕄)
      = iprop(pts (F := F) M t t q f ∗ pts (F := F) M t (Spec.peer t 1) q f ∗ pts (F := F) M t (Spec.peer t 2) q f
          ∗ pts (F := F) M t (Spec.peer t 3) q f ∗ pts (F := F) M t (Spec.peer t 4) q f ∗ pts (F := F) M t (Spec.peer t 5) q f
          ∗ pts (F := F) M t (Spec.peer t 6) q f ∗ pts (F := F) M t (Spec.peer t 7) q f) := by
  rw [chunks_literal, bigSep_univ_split t, bigSep_eq_bigSepL_of_eq [Spec.peer t 1, Spec.peer t 2, Spec.peer t 3, Spec.peer t 4, Spec.peer t 5, Spec.peer t 6, Spec.peer t 7] (erase_eq_peerList t) (peerList_nodup t)]
  rfl

def X (c : Dev nD) : sProp 𝕄 :=
  iprop((∃ K, ctxP m K c) ∗ tokChain (F := F) c ∗ atChain (F := F) c ∗ credChain (F := F) c ∗ wChain m c ∗ wsChain (F := F) c ∗ idleSems (F := F) c)

theorem hX (ρ : Dev nD → PrngReg) (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(X m c ∗ emp) := by
  rw [Pipeline.unscopedRestP_none, unscopedRest0_eq]
  unfold G'
  iintro ⟨Hw, #Hlev, Hcr, -, ⟨%K, #HI⟩, #HR, Hraw, Hat, Htok⟩
  imodintro
  ihave Hraw' := (Entails.of_eq (rawSems_eq (F := F) c)) $$ Hraw
  icases Hraw' with ⟨Hidle, Hws⟩
  unfold X
  isplitl
  · isplitr
    · iexists K
      iapply (ctxP_intro m K c)
      isplitr; · iexact HI
      isplitr; · iexact HR
      iexact Hlev
    isplitl [Htok]; · iapply (Entails.of_eq (payTok_eq (F := F) c)); iexact Htok
    isplitl [Hat]; · iapply (Entails.of_eq (ats_eq (F := F) c)); iexact Hat
    isplitl [Hcr]; · iapply (creds (F := F) c); iexact Hcr
    isplitl [Hw]; · unfold wChain; iexact Hw
    isplitl [Hws]; · iexact Hws
    iexact Hidle
  · iempintro

theorem bufs_intro (c : Dev nD) (f0 : Buf (Elt F) ((c : Thread nD τ).loc cc0_scratch0)) (f1 : Buf (Elt F) ((c : Thread nD τ).loc cc0_scratch1)) (f2 : Buf (Elt F) ((c : Thread nD τ).loc cc0_scratch2))
    (f3 : Buf (Elt F) ((c : Thread nD τ).loc cc0_scratch3)) (f4 : Buf (Elt F) ((c : Thread nD τ).loc cc0_scratch4))
    (f5 : Buf (Elt F) ((c : Thread nD τ).loc cc0_scratch5)) (f6 : Buf (Elt F) ((c : Thread nD τ).loc cc0_scratch6)) :
    iprop((((c : Thread nD τ).loc cc0_scratch0) ↦{fullShare} f0) ∗ (((c : Thread nD τ).loc cc0_scratch1) ↦{fullShare} f1)
        ∗ (((c : Thread nD τ).loc cc0_scratch2) ↦{fullShare} f2) ∗ (((c : Thread nD τ).loc cc0_scratch3) ↦{fullShare} f3)
        ∗ (((c : Thread nD τ).loc cc0_scratch4) ↦{fullShare} f4) ∗ (((c : Thread nD τ).loc cc0_scratch5) ↦{fullShare} f5)
        ∗ (((c : Thread nD τ).loc cc0_scratch6) ↦{fullShare} f6))
      ⊢ (bufChain c f0 f1 f2 f3 f4 f5 f6 : sProp 𝕄) := by
  rw [← whole_eq (F := F) cc0_scratch0 c fullShare f0, ← whole_eq (F := F) cc0_scratch1 c fullShare f1, ← whole_eq (F := F) cc0_scratch2 c fullShare f2,
    chunks_own xfM c fullShare f0, chunks_own rsM c fullShare f1, chunks_own rrM c fullShare f2]
  unfold bufChain
  iintro ⟨⟨Hx0, Hx1, Hx2, Hx3, Hx4, Hx5, Hx6, Hx7⟩, ⟨Hs0, Hs1, Hs2, Hs3, Hs4, Hs5, Hs6, Hs7⟩, ⟨Hr0, Hr1, Hr2, Hr3, Hr4, Hr5, Hr6, Hr7⟩, H3, H4, H5, H6⟩
  isplitl [Hx0]; · iexact Hx0
  isplitl [Hx1]; · iexists f0; iexact Hx1
  isplitl [Hx2]; · iexists f0; iexact Hx2
  isplitl [Hx3]; · iexists f0; iexact Hx3
  isplitl [Hx4]; · iexists f0; iexact Hx4
  isplitl [Hx5]; · iexists f0; iexact Hx5
  isplitl [Hx6]; · iexists f0; iexact Hx6
  isplitl [Hx7]; · iexists f0; iexact Hx7
  isplitl [Hs0]; · iexact Hs0
  isplitl [Hs1]; · iexact Hs1
  isplitl [Hs2]; · iexact Hs2
  isplitl [Hs3]; · iexact Hs3
  isplitl [Hs4]; · iexact Hs4
  isplitl [Hs5]; · iexact Hs5
  isplitl [Hs6]; · iexact Hs6
  isplitl [Hs7]; · iexact Hs7
  isplitl [Hr0]; · iexact Hr0
  isplitl [Hr1]; · iexists f2; iexact Hr1
  isplitl [Hr2]; · iexists f2; iexact Hr2
  isplitl [Hr3]; · iexists f2; iexact Hr3
  isplitl [Hr4]; · iexists f2; iexact Hr4
  isplitl [Hr5]; · iexists f2; iexact Hr5
  isplitl [Hr6]; · iexists f2; iexact Hr6
  isplitl [Hr7]; · iexists f2; iexact Hr7
  isplitl [H3]; · iexact H3
  isplitl [H4]; · iexact H4
  isplitl [H5]; · iexact H5
  iexact H6

theorem hin (c : Dev nD) :
    iprop(X m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ X
  iintro ⟨⟨HP, Htok, Hat, Hcr, Hw, Hws, Hidle⟩, -, ⟨%f0, H0⟩, ⟨%f1, H1⟩, ⟨%f2, H2⟩, ⟨%f3, H3⟩, ⟨%f4, H4⟩, ⟨%f5, H5⟩, ⟨%f6, H6⟩⟩
  isplitl [HP]; · iexact HP
  isplitr [Hidle]
  · iexists f0, f1, f2, f3, f4, f5, f6
    iapply (Entails.of_eq (ctxS_eq m c f0 f1 f2 f3 f4 f5 f6))
    isplitl [Htok]; · iexact Htok
    isplitl [Hat]; · iexact Hat
    isplitl [Hcr]; · iexact Hcr
    isplitl [Hw]; · iexact Hw
    isplitr [Hws]
    · iapply (bufs_intro (F := F) c f0 f1 f2 f3 f4 f5 f6)
      isplitl [H0]; · iexact H0
      isplitl [H1]; · iexact H1
      isplitl [H2]; · iexact H2
      isplitl [H3]; · iexact H3
      isplitl [H4]; · iexact H4
      isplitl [H5]; · iexact H5
      iexact H6
    · iexact Hws
  · iexact Hidle

theorem hout (c : Dev nD) :
    (dats m 0 c).Φ (Fin.last cfg0.N) ⊢ iprop(weightsBack m c ∗ Pipeline.ownSems0 osem c ∗ Pipeline.scopedRest cfg0.spec c) := by
  rw [show (dats m 0 c).Φ (Fin.last cfg0.N) = Φ₁ m c from rfl, scopedRest0_eq]
  unfold Φ₁ scratchBack Pipeline.ownSems0
  iintro ⟨Hs, Hw, Hsem⟩
  isplitl [Hw]; · iexact Hw
  isplitl [Hsem]; · iexact Hsem
  iexact Hs

end Cert.KernelIdeal.Proto

end
-- ==== Proof.KI.Finish.lean ====
import proofs.«900981_g7700000000000982_dist_mlpseq_tp1d_bs_bs_b64_d1024_h2048_v7x_i8_bf16_1_alg».proof.Proof.KI.Inv
import proofs.«900981_g7700000000000982_dist_mlpseq_tp1d_bs_bs_b64_d1024_h2048_v7x_i8_bf16_1_alg».proof.Proof.KI.Glue
import proofs.«900981_g7700000000000982_dist_mlpseq_tp1d_bs_bs_b64_d1024_h2048_v7x_i8_bf16_1_alg».proof.Proof.KI.LaunchC

noncomputable section

namespace Cert.KernelIdeal.Proto

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ)

theorem close_cell (K : GSem nD τ sig → ℕ) (c : Dev nD) (a : Fin 4) (k : Dev nD) (hk : k ≠ c) :
    iprop(cellInv ER (sched m) (K (cell c a k)) (cell c a k) ∗ atPos (ER (F := F)) (cell c a k) 3 ∅ 0)
      ⊢ |={Set.univ}=> semVal (cell c a k) 0 :=
  Rounds.cell_close ER (sched m) (Set.mem_univ _) (fun h => h) (R := 3) (fun r hr => duties_cell_later m c k a r hr)

theorem sep_assoc_eq' (P Q R : sProp 𝕄) : iprop((BI.sep P Q) ∗ R) = iprop(P ∗ Q ∗ R) := sep_assoc_eq P Q R

theorem sems_back (c : Dev nD) :
    iprop(semVal (cell c 0 (Spec.peer c 1)) 0
        ∗ semVal (cell c 0 (Spec.peer c 2)) 0
        ∗ semVal (cell c 0 (Spec.peer c 3)) 0
        ∗ semVal (cell c 0 (Spec.peer c 4)) 0
        ∗ semVal (cell c 0 (Spec.peer c 5)) 0
        ∗ semVal (cell c 0 (Spec.peer c 6)) 0
        ∗ semVal (cell c 0 (Spec.peer c 7)) 0
        ∗ semVal (cell c 1 (Spec.peer c 1)) 0
        ∗ semVal (cell c 1 (Spec.peer c 2)) 0
        ∗ semVal (cell c 1 (Spec.peer c 3)) 0
        ∗ semVal (cell c 1 (Spec.peer c 4)) 0
        ∗ semVal (cell c 1 (Spec.peer c 5)) 0
        ∗ semVal (cell c 1 (Spec.peer c 6)) 0
        ∗ semVal (cell c 1 (Spec.peer c 7)) 0
        ∗ semVal (cell c 2 (Spec.peer c 1)) 0
        ∗ semVal (cell c 2 (Spec.peer c 2)) 0
        ∗ semVal (cell c 2 (Spec.peer c 3)) 0
        ∗ semVal (cell c 2 (Spec.peer c 4)) 0
        ∗ semVal (cell c 2 (Spec.peer c 5)) 0
        ∗ semVal (cell c 2 (Spec.peer c 6)) 0
        ∗ semVal (cell c 2 (Spec.peer c 7)) 0
        ∗ semVal (cell c 3 (Spec.peer c 1)) 0
        ∗ semVal (cell c 3 (Spec.peer c 2)) 0
        ∗ semVal (cell c 3 (Spec.peer c 3)) 0
        ∗ semVal (cell c 3 (Spec.peer c 4)) 0
        ∗ semVal (cell c 3 (Spec.peer c 5)) 0
        ∗ semVal (cell c 3 (Spec.peer c 6)) 0
        ∗ semVal (cell c 3 (Spec.peer c 7)) 0
        ∗ idleSems (F := F) c
        ∗ semVal (((c : Thread nD τ), SemLoc.dma (⟨34, by have := nds; omega⟩ : DmaSem sig)) : GSem nD τ sig) 0
        ∗ semVal (((c : Thread nD τ), SemLoc.dma (⟨35, by have := nds; omega⟩ : DmaSem sig)) : GSem nD τ sig) 0
        ∗ semVal (((c : Thread nD τ), SemLoc.dma (⟨36, by have := nds; omega⟩ : DmaSem sig)) : GSem nD τ sig) 0
        ∗ semVal (((c : Thread nD τ), SemLoc.dma (⟨37, by have := nds; omega⟩ : DmaSem sig)) : GSem nD τ sig) 0)
      ⊢ (bigSep Finset.univ (fun i : Fin 36 => semVal (((c : Thread nD τ), osem i) : GSem nD τ sig) 0) : sProp 𝕄) := by
  refine Entails.of_eq (Eq.symm ?_)
  have e := ownSems0_eq (F := F) c
  unfold Pipeline.ownSems0 at e
  rw [e, rawSems_eq, ← bigSep_univ_prod (fun x : Fin 4 × Fin 7 => (semVal (cell c x.1 (pk c x.2)) 0 : sProp 𝕄)),
    bigSep_univ_eq_bigSepL [(0, 0), (0, 1), (0, 2), (0, 3), (0, 4), (0, 5), (0, 6), (1, 0), (1, 1), (1, 2), (1, 3), (1, 4), (1, 5), (1, 6), (2, 0), (2, 1), (2, 2), (2, 3), (2, 4), (2, 5), (2, 6), (3, 0), (3, 1), (3, 2), (3, 3), (3, 4), (3, 5), (3, 6)] (by decide) (by decide)]
  unfold wsChain
  simp only [bigSepL_cons_cons, bigSepL_singleton, sep_assoc_eq, sep_assoc_eq']
  rfl

theorem dist_peer_off (c : Dev nD) (o : ℕ) (ho : o < 8) : dist c (Spec.peer c o) = o := dist_peer c ⟨o, ho⟩
theorem dist_self (c : Dev nD) : dist c c = 0 := by revert c; decide

theorem chunks_back (M : Memref sig .tc .vmem S512x1024 .bf16) (hM : M = xfM ∨ M = rsM ∨ M = rrM) (c : Dev nD)
    (g0 : Buf (Elt F) ((chunkM M c).view.loc (c : Thread nD τ))) (g1 : Buf (Elt F) ((chunkM M (Spec.peer c 1)).view.loc (c : Thread nD τ))) (g2 : Buf (Elt F) ((chunkM M (Spec.peer c 2)).view.loc (c : Thread nD τ))) (g3 : Buf (Elt F) ((chunkM M (Spec.peer c 3)).view.loc (c : Thread nD τ))) (g4 : Buf (Elt F) ((chunkM M (Spec.peer c 4)).view.loc (c : Thread nD τ))) (g5 : Buf (Elt F) ((chunkM M (Spec.peer c 5)).view.loc (c : Thread nD τ))) (g6 : Buf (Elt F) ((chunkM M (Spec.peer c 6)).view.loc (c : Thread nD τ))) (g7 : Buf (Elt F) ((chunkM M (Spec.peer c 7)).view.loc (c : Thread nD τ))) :
    iprop(pts (F := F) M c c fullShare g0 ∗ pts (F := F) M c (Spec.peer c 1) fullShare g1 ∗ pts (F := F) M c (Spec.peer c 2) fullShare g2 ∗ pts (F := F) M c (Spec.peer c 3) fullShare g3 ∗ pts (F := F) M c (Spec.peer c 4) fullShare g4 ∗ pts (F := F) M c (Spec.peer c 5) fullShare g5 ∗ pts (F := F) M c (Spec.peer c 6) fullShare g6 ∗ pts (F := F) M c (Spec.peer c 7) fullShare g7)
      ⊢ iprop(∃ f, (M.view.loc (c : Thread nD τ) ↦[M.view.set]{fullShare} f : sProp 𝕄)) := by

  let sel : ℕ → Buf (Elt F) (M.view.loc (c : Thread nD τ)) := fun n =>
    match n with | 0 => g0 | 1 => g1 | 2 => g2 | 3 => g3 | 4 => g4 | 5 => g5 | 6 => g6 | _ => g7
  let fs : Dev nD → Buf (Elt F) (M.view.loc (c : Thread nD τ)) := fun k => sel (dist c k)
  have h0 : fs c = g0 := by show sel (dist c c) = g0; rw [dist_self]; rfl
  have h1 : fs (Spec.peer c 1) = g1 := by show sel (dist c (Spec.peer c 1)) = g1; rw [dist_peer_off c 1 (by decide)]; rfl
  have h2 : fs (Spec.peer c 2) = g2 := by show sel (dist c (Spec.peer c 2)) = g2; rw [dist_peer_off c 2 (by decide)]; rfl
  have h3 : fs (Spec.peer c 3) = g3 := by show sel (dist c (Spec.peer c 3)) = g3; rw [dist_peer_off c 3 (by decide)]; rfl
  have h4 : fs (Spec.peer c 4) = g4 := by show sel (dist c (Spec.peer c 4)) = g4; rw [dist_peer_off c 4 (by decide)]; rfl
  have h5 : fs (Spec.peer c 5) = g5 := by show sel (dist c (Spec.peer c 5)) = g5; rw [dist_peer_off c 5 (by decide)]; rfl
  have h6 : fs (Spec.peer c 6) = g6 := by show sel (dist c (Spec.peer c 6)) = g6; rw [dist_peer_off c 6 (by decide)]; rfl
  have h7 : fs (Spec.peer c 7) = g7 := by show sel (dist c (Spec.peer c 7)) = g7; rw [dist_peer_off c 7 (by decide)]; rfl
  have hall : iprop(pts (F := F) M c c fullShare g0 ∗ pts (F := F) M c (Spec.peer c 1) fullShare g1 ∗ pts (F := F) M c (Spec.peer c 2) fullShare g2 ∗ pts (F := F) M c (Spec.peer c 3) fullShare g3 ∗ pts (F := F) M c (Spec.peer c 4) fullShare g4 ∗ pts (F := F) M c (Spec.peer c 5) fullShare g5 ∗ pts (F := F) M c (Spec.peer c 6) fullShare g6 ∗ pts (F := F) M c (Spec.peer c 7) fullShare g7)
      = bigSep Finset.univ (fun k : Dev nD => (M.view.loc (c : Thread nD τ) ↦[(chunkM M k).view.set]{fullShare} fs k : sProp 𝕄)) := by
    rw [bigSep_univ_split c, bigSep_eq_bigSepL_of_eq [Spec.peer c 1, Spec.peer c 2, Spec.peer c 3, Spec.peer c 4, Spec.peer c 5, Spec.peer c 6, Spec.peer c 7] (erase_eq_peerList c) (peerList_nodup c)]
    show _ = iprop((M.view.loc (c : Thread nD τ) ↦[(chunkM M c).view.set]{fullShare} fs c)
      ∗ (M.view.loc (c : Thread nD τ) ↦[(chunkM M (Spec.peer c 1)).view.set]{fullShare} fs (Spec.peer c 1))
      ∗ (M.view.loc (c : Thread nD τ) ↦[(chunkM M (Spec.peer c 2)).view.set]{fullShare} fs (Spec.peer c 2))
      ∗ (M.view.loc (c : Thread nD τ) ↦[(chunkM M (Spec.peer c 3)).view.set]{fullShare} fs (Spec.peer c 3))
      ∗ (M.view.loc (c : Thread nD τ) ↦[(chunkM M (Spec.peer c 4)).view.set]{fullShare} fs (Spec.peer c 4))
      ∗ (M.view.loc (c : Thread nD τ) ↦[(chunkM M (Spec.peer c 5)).view.set]{fullShare} fs (Spec.peer c 5))
      ∗ (M.view.loc (c : Thread nD τ) ↦[(chunkM M (Spec.peer c 6)).view.set]{fullShare} fs (Spec.peer c 6))
      ∗ (M.view.loc (c : Thread nD τ) ↦[(chunkM M (Spec.peer c 7)).view.set]{fullShare} fs (Spec.peer c 7)))
    rw [h0, h1, h2, h3, h4, h5, h6, h7]
  rw [hall]
  have key := pointsTo_biUnion_join (nD := nD) (τ := τ) (sig := sig) (Ix := ℕ) (Val := Elt F) (Name := ℕ) (U := UU) (Lvl := ℕ)
    (ℓ := M.view.loc (c : Thread nD τ)) (q := fullShare) Finset.univ (fun k : Dev nD => (chunkM M k).view.set) fs g0
    (fun k _ k' _ h => chunks_disjoint M k k' h)
  refine key.trans ?_
  iintro ⟨%g, -, Hg⟩
  iexists g
  iapply (Entails.of_eq (congrArg (fun S => (M.view.loc (c : Thread nD τ) ↦[S]{fullShare} g : sProp 𝕄)) ?_))
  rotate_left
  · iexact Hg
  · ext x
    rw [Finset.mem_biUnion]
    simp only [Finset.mem_univ, _root_.true_and]
    exact (mem_chunks M x).symm

theorem scratch_back (c : Dev nD)
    (f3 : Buf (Elt F) ((c : Thread nD τ).loc cc0_scratch3)) (f4 : Buf (Elt F) ((c : Thread nD τ).loc cc0_scratch4))
    (f5 : Buf (Elt F) ((c : Thread nD τ).loc cc0_scratch5)) (f6 : Buf (Elt F) ((c : Thread nD τ).loc cc0_scratch6)) :
    iprop((∃ f, (xfM.view.loc (c : Thread nD τ) ↦[xfM.view.set]{fullShare} f : sProp 𝕄))
        ∗ (∃ f, (rsM.view.loc (c : Thread nD τ) ↦[rsM.view.set]{fullShare} f : sProp 𝕄))
        ∗ (∃ f, (rrM.view.loc (c : Thread nD τ) ↦[rrM.view.set]{fullShare} f : sProp 𝕄))
        ∗ ((View.loc (c : Thread nD τ) (Memref.whole cc0_scratch3 : Memref sig .tc .vmem S2x1024x2048 .f32).view) ↦{fullShare} f3)
        ∗ ((View.loc (c : Thread nD τ) (Memref.whole cc0_scratch4 : Memref sig .tc .vmem S2x2048x1024 .f32).view) ↦{fullShare} f4)
        ∗ ((View.loc (c : Thread nD τ) (Memref.whole cc0_scratch5 : Memref sig .tc .vmem S1024x2048 .bf16).view) ↦{fullShare} f5)
        ∗ ((View.loc (c : Thread nD τ) (Memref.whole cc0_scratch6 : Memref sig .tc .vmem S2048x1024 .bf16).view) ↦{fullShare} f6))
      ⊢ scratchBack (F := F) c := by
  unfold scratchBack
  iintro ⟨⟨%f0, H0⟩, ⟨%f1, H1⟩, ⟨%f2, H2⟩, H3, H4, H5, H6⟩
  isplitl [H0]; · iexists f0; iapply (Entails.of_eq (whole_eq (F := F) cc0_scratch0 c fullShare f0)); iexact H0
  isplitl [H1]; · iexists f1; iapply (Entails.of_eq (whole_eq (F := F) cc0_scratch1 c fullShare f1)); iexact H1
  isplitl [H2]; · iexists f2; iapply (Entails.of_eq (whole_eq (F := F) cc0_scratch2 c fullShare f2)); iexact H2
  isplitl [H3]; · iexists f3; iexact H3
  isplitl [H4]; · iexists f4; iexact H4
  isplitl [H5]; · iexists f5; iexact H5
  iexists f6; iexact H6

theorem weights_back (c : Dev nD) :
    iprop(((View.loc (c : Thread nD τ) (Memref.whole main_arg1 : Memref sig .tc .hbm S1024x2048 .f32).view) ↦{fullShare} m ((c : Thread nD τ).loc main_arg1))
        ∗ ((View.loc (c : Thread nD τ) (Memref.whole main_arg2 : Memref sig .tc .hbm S2048x1024 .f32).view) ↦{fullShare} m ((c : Thread nD τ).loc main_arg2))
        ∗ ((View.loc (c : Thread nD τ) (Memref.whole main_arg3 : Memref sig .tc .hbm S1024x2048 .f32).view) ↦{fullShare} m ((c : Thread nD τ).loc main_arg3))
        ∗ ((View.loc (c : Thread nD τ) (Memref.whole main_arg4 : Memref sig .tc .hbm S2048x1024 .f32).view) ↦{fullShare} m ((c : Thread nD τ).loc main_arg4))
        ∗ ((View.loc (c : Thread nD τ) (Memref.whole main_arg5 : Memref sig .tc .hbm S1024x2048 .f32).view) ↦{fullShare} m ((c : Thread nD τ).loc main_arg5))
        ∗ ((View.loc (c : Thread nD τ) (Memref.whole main_arg6 : Memref sig .tc .hbm S2048x1024 .f32).view) ↦{fullShare} m ((c : Thread nD τ).loc main_arg6)))
      ⊢ weightsBack m c := by
  unfold weightsBack
  iintro H; iexact H

end Cert.KernelIdeal.Proto

end
-- ==== Proof.KI.Ledger2.lean ====
import proofs.«900981_g7700000000000982_dist_mlpseq_tp1d_bs_bs_b64_d1024_h2048_v7x_i8_bf16_1_alg».proof.Proof.KI.Ledger

noncomputable section

namespace Cert.KernelIdeal.Proto

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

abbrev Code := ℕ × ℕ × ℕ

def decode (c : Dev nD) (p : Code) : GSem nD τ sig × ℕ × ℕ :=
  match p.1 with
  | 0 => (barCell (Spec.peer c p.2.1), 0, 1)
  | 1 => (cell (Spec.peer c p.2.1) 1 c, p.2.2, N)
  | _ => (cell (Spec.peer c p.2.1) 3 c, p.2.2, N)

def payCodes : List Code :=
  [
    (0, 1, 0), (0, 2, 0), (0, 3, 0), (0, 4, 0), (0, 5, 0), (0, 6, 0), (0, 7, 0),
    (1, 7, 0), (1, 6, 0), (1, 5, 0), (1, 4, 0), (1, 3, 0), (1, 2, 0), (1, 1, 0),
    (3, 1, 0), (3, 2, 0), (3, 3, 0), (3, 4, 0), (3, 5, 0), (3, 6, 0), (3, 7, 0),
    (1, 7, 1), (1, 6, 1), (1, 5, 1), (1, 4, 1), (1, 3, 1), (1, 2, 1), (1, 1, 1),
    (3, 1, 1), (3, 2, 1), (3, 3, 1), (3, 4, 1), (3, 5, 1), (3, 6, 1), (3, 7, 1),
    (1, 7, 2), (1, 6, 2), (1, 5, 2), (1, 4, 2), (1, 3, 2), (1, 2, 2), (1, 1, 2),
    (3, 1, 2), (3, 2, 2), (3, 3, 2), (3, 4, 2), (3, 5, 2), (3, 6, 2), (3, 7, 2) ]

theorem pays_eq (c : Dev nD) : pays c = payCodes.map (decode c) := rfl

def level (p : Code) : ℕ :=
  match p.1 with
  | 0 => 1
  | 1 => 4 * p.2.2 + 2
  | _ => 4 * p.2.2 + 3

def chk (x : ℕ) (ps : List Code) : Bool := ps.all fun p => decide (x < level p ∧ p.2.2 < 3)

theorem mem_L_of_lt (t : Dev nD) (sm : SemLoc sig) (l : ℕ) (h : l < 3) : l ∈ L ((t : Thread nD τ), sm) := by
  rw [L_tc]
  simp only [Finset.mem_insert, Finset.mem_singleton]
  omega

theorem below_codes (c : Dev nD) (x : ℕ) (ps : List Code) (h : chk x ps = true) : Below x (owedOf (ps.map (decode c))) := by
  induction ps with
  | nil => exact below_zero x
  | cons p ps ih =>
    have h' : (decide (x < level p ∧ p.2.2 < 3) && chk x ps) = true := h
    rw [Bool.and_eq_true] at h'
    have hp := of_decide_eq_true h'.1
    have hr := ih h'.2
    obtain ⟨k, o, l⟩ := p
    match k, hp with
    | 0, hp =>
      show Below x (owedOf (ps.map (decode c)) + tallyAt (barCell (Spec.peer c o)) 0 1)
      exact below_add _ _ _ hr rfl (mem_L_of_lt _ _ 0 (by decide)) (by rw [lv_bar]; exact hp.1)
    | 1, hp =>
      show Below x (owedOf (ps.map (decode c)) + tallyAt (cell (Spec.peer c o) 1 c) l N)
      exact below_add _ _ _ hr rfl (mem_L_of_lt _ _ l hp.2) (by rw [lv_cell]; exact hp.1)
    | (k + 2), hp =>
      show Below x (owedOf (ps.map (decode c)) + tallyAt (cell (Spec.peer c o) 3 c) l N)
      exact below_add _ _ _ hr rfl (mem_L_of_lt _ _ l hp.2) (by rw [lv_cell]; exact hp.1)

theorem below_at (c : Dev nD) (n x : ℕ) (h : chk x (payCodes.drop n) = true) : Below x (owedOf ((pays c).drop n)) := by
  have e : (pays c).drop n = (payCodes.drop n).map (decode c) := by rw [pays_eq, List.map_drop]
  rw [e]; exact below_codes c x _ h

theorem mayWait_at (c : Dev nD) (sm : SemLoc sig) (ι x : ℕ) (O : CellTallies nD τ sig ℕ)
    (hι : ι ∈ L ((c : Thread nD τ), sm)) (hx : lv ((c : Thread nD τ), sm) ι = x) (h : Below x O) :
    (levAts L lv : sProp 𝕄) ⊢ MayWait (c : Thread nD τ) sm ι O := by
  subst hx; exact mayWait_of_below c sm ι O hι h

theorem lv_dma_low (c : Dev nD) (q : DmaSem sig) (l : ℕ) (h : q.val < 2) : lv ((c : Thread nD τ), SemLoc.dma q) l = 0 := by
  unfold lv; dsimp only; rw [if_neg (fun h' => by omega)]
theorem lv_dma_high (c : Dev nD) (q : DmaSem sig) (l : ℕ) (h : 34 ≤ q.val) : lv ((c : Thread nD τ), SemLoc.dma q) l = 0 := by
  unfold lv; dsimp only; rw [if_neg (fun h' => by omega)]

theorem lv_w (c : Dev nD) (j : Fin 4) (l : ℕ) :
    lv ((c : Thread nD τ), SemLoc.dma (⟨34 + j.val, by have := nds; have := j.isLt; omega⟩ : DmaSem sig)) l = 0 :=
  lv_dma_high c _ l (Nat.le_add_right _ _)

theorem lv_stage (c : Dev nD) (j : Fin 2) (l : ℕ) :
    lv ((c : Thread nD τ), SemLoc.dma (⟨j.val, by have := nds; have := j.isLt; omega⟩ : DmaSem sig)) l = 0 :=
  lv_dma_low c _ l j.isLt

end Cert.KernelIdeal.Proto

end
-- ==== Proof.KI.Vals.lean ====
import proofs.«900981_g7700000000000982_dist_mlpseq_tp1d_bs_bs_b64_d1024_h2048_v7x_i8_bf16_1_alg».proof.Proof.KI.Glue
import proofs.«900981_g7700000000000982_dist_mlpseq_tp1d_bs_bs_b64_d1024_h2048_v7x_i8_bf16_1_alg».proof.Proof.KI.Incl

noncomputable section

namespace Cert.KernelIdeal.Proto

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig ℕ (Elt F) ℕ UU ℕ

variable (m : (ℓ : Loc nD τ sig) → Buf (Elt F) ℓ)

theorem write_access_rows_xf (off : Fin S512x1024.rank → ℕ) (h : ∀ a, off a + S64x1024.size a ≤ S512x1024.size a) (k : Dev nD)
    (hoff : off = ![64 * k.val, 0]) (f : (xfM.access (Rect.unit (s := S512x1024) off S64x1024.size h)).ty.Contents (Elt F))
    (x : Spec.Chunk F) (v : Dev nD → Spec.Chunk F) (hx : x = v k) :
    ∀ i ∈ (chunkM xfM k).view.set, (View.write (Elt F) (xfM.access (Rect.unit (s := S512x1024) off S64x1024.size h)) f x Finset.univ) i = rows v i := by
  subst hoff; exact write_chunk_rows_xf k f x v hx
theorem read_access_rows_xf (off : Fin S512x1024.rank → ℕ) (h : ∀ a, off a + S64x1024.size a ≤ S512x1024.size a) (k : Dev nD)
    (hoff : off = ![64 * k.val, 0]) (v : Dev nD → Spec.Chunk F) :
    View.readAt (Elt F) xfM.view (Rect.unit (s := S512x1024) off S64x1024.size h).toLoadRect (rows v) = v k := by
  subst hoff; exact read_chunk_rows_xf k v

theorem write_access_rows_rs (off : Fin S512x1024.rank → ℕ) (h : ∀ a, off a + S64x1024.size a ≤ S512x1024.size a) (k : Dev nD)
    (hoff : off = ![64 * k.val, 0]) (f : (rsM.access (Rect.unit (s := S512x1024) off S64x1024.size h)).ty.Contents (Elt F))
    (x : Spec.Chunk F) (v : Dev nD → Spec.Chunk F) (hx : x = v k) :
    ∀ i ∈ (chunkM rsM k).view.set, (View.write (Elt F) (rsM.access (Rect.unit (s := S512x1024) off S64x1024.size h)) f x Finset.univ) i = rows v i := by
  subst hoff; exact write_chunk_rows_rs k f x v hx
theorem read_access_rows_rs (off : Fin S512x1024.rank → ℕ) (h : ∀ a, off a + S64x1024.size a ≤ S512x1024.size a) (k : Dev nD)
    (hoff : off = ![64 * k.val, 0]) (v : Dev nD → Spec.Chunk F) :
    View.readAt (Elt F) rsM.view (Rect.unit (s := S512x1024) off S64x1024.size h).toLoadRect (rows v) = v k := by
  subst hoff; exact read_chunk_rows_rs k v

theorem write_access_rows_rr (off : Fin S512x1024.rank → ℕ) (h : ∀ a, off a + S64x1024.size a ≤ S512x1024.size a) (k : Dev nD)
    (hoff : off = ![64 * k.val, 0]) (f : (rrM.access (Rect.unit (s := S512x1024) off S64x1024.size h)).ty.Contents (Elt F))
    (x : Spec.Chunk F) (v : Dev nD → Spec.Chunk F) (hx : x = v k) :
    ∀ i ∈ (chunkM rrM k).view.set, (View.write (Elt F) (rrM.access (Rect.unit (s := S512x1024) off S64x1024.size h)) f x Finset.univ) i = rows v i := by
  subst hoff; exact write_chunk_rows_rr k f x v hx
theorem read_access_rows_rr (off : Fin S512x1024.rank → ℕ) (h : ∀ a, off a + S64x1024.size a ≤ S512x1024.size a) (k : Dev nD)
    (hoff : off = ![64 * k.val, 0]) (v : Dev nD → Spec.Chunk F) :
    View.readAt (Elt F) rrM.view (Rect.unit (s := S512x1024) off S64x1024.size h).toLoadRect (rows v) = v k := by
  subst hoff; exact read_chunk_rows_rr k v

theorem zero_offsets : (![0, 0] : Fin 2 → ℕ) = fun _ => 0 := funext fun a => by fin_cases a <;> rfl

omit [FloatOps F] in

theorem stage_read (c : Dev nD) (f : Vec F S64x1024 .f32) :
    View.readAt (Elt F) (Memref.whole cc0_stg0_0 : Memref sig .tc .vmem S64x1024 .f32).view
      (Rect.unit (s := S64x1024) ![0, 0] S64x1024.size Facts₀.inb_S64x1024_S64x1024_0_0).toLoadRect f = f :=
  Memref.readAt_unit_zero (Elt F) cc0_stg0_0 zero_offsets _ f

theorem own_store_val (c : Dev nD) (f0 : Buf (Elt F) ((c : Thread nD τ).loc cc0_scratch0)) (x : Spec.Chunk F) (v : Dev nD → Spec.Chunk F) (hx : x = v c) :
    ∀ i ∈ (chunkM xfM c).view.set, (View.write (Elt F) ((Memref.whole cc0_scratch0 : Memref sig .tc .vmem S512x1024 .bf16).access (Rect.unit (s := S512x1024) (k0_off1 c) S64x1024.size (Facts₀.k0_off1_inb c))) f0 x Finset.univ) i = rows v i :=
  write_access_rows_xf (k0_off1 c) (Facts₀.k0_off1_inb c) c (k0_off1_eq c) f0 x v hx

theorem own0_val (c : Dev nD) (f0 : Buf (Elt F) ((c : Thread nD τ).loc cc0_scratch0)) :
    ∀ i ∈ (chunkM xfM c).view.set,
      (View.write (Elt F) ((Memref.whole cc0_scratch0 : Memref sig .tc .vmem S512x1024 .bf16).access (Rect.unit (s := S512x1024) (k0_off1 c) S64x1024.size (Facts₀.k0_off1_inb c))) f0
        (k0_pay2 (View.readAt (Elt F) (Memref.whole cc0_stg0_0 : Memref sig .tc .vmem S64x1024 .f32).view
          (Rect.unit (s := S64x1024) ![0, 0] S64x1024.size Facts₀.inb_S64x1024_S64x1024_0_0).toLoadRect (xin m c))) Finset.univ) i = xfAll m 0 i :=
  own_store_val c f0 (k0_pay2 (View.readAt (Elt F) (Memref.whole cc0_stg0_0 : Memref sig .tc .vmem S64x1024 .f32).view
          (Rect.unit (s := S64x1024) ![0, 0] S64x1024.size Facts₀.inb_S64x1024_S64x1024_0_0).toLoadRect (xin m c))) (fun k => XL m 0 k) (by rw [stage_read c]; rfl)

theorem rs_store_val_1 (c : Dev nD) (f0 : Buf (Elt F) ((c : Thread nD τ).loc cc0_scratch1)) (x : Spec.Chunk F) (v : Dev nD → Spec.Chunk F) (hx : x = v (Spec.peer c 1)) : ∀ i ∈ (chunkM rsM (Spec.peer c 1)).view.set, (View.write (Elt F) ((Memref.whole cc0_scratch1 : Memref sig .tc .vmem S512x1024 .bf16).access (Rect.unit (s := S512x1024) (k0_off6 c 1#32) S64x1024.size (Facts₀.k0_off6_inb c 1))) f0 x Finset.univ) i = rows v i := write_access_rows_rs (k0_off6 c 1#32) (Facts₀.k0_off6_inb c 1) (Spec.peer c 1) (k0_off6_eq c 1) f0 x v hx
theorem rs_store_val_2 (c : Dev nD) (f0 : Buf (Elt F) ((c : Thread nD τ).loc cc0_scratch1)) (x : Spec.Chunk F) (v : Dev nD → Spec.Chunk F) (hx : x = v (Spec.peer c 2)) : ∀ i ∈ (chunkM rsM (Spec.peer c 2)).view.set, (View.write (Elt F) ((Memref.whole cc0_scratch1 : Memref sig .tc .vmem S512x1024 .bf16).access (Rect.unit (s := S512x1024) (k0_off6 c 2#32) S64x1024.size (Facts₀.k0_off6_inb c 2))) f0 x Finset.univ) i = rows v i := write_access_rows_rs (k0_off6 c 2#32) (Facts₀.k0_off6_inb c 2) (Spec.peer c 2) (k0_off6_eq c 2) f0 x v hx
theorem rs_store_val_3 (c : Dev nD) (f0 : Buf (Elt F) ((c : Thread nD τ).loc cc0_scratch1)) (x : Spec.Chunk F) (v : Dev nD → Spec.Chunk F) (hx : x = v (Spec.peer c 3)) : ∀ i ∈ (chunkM rsM (Spec.peer c 3)).view.set, (View.write (Elt F) ((Memref.whole cc0_scratch1 : Memref sig .tc .vmem S512x1024 .bf16).access (Rect.unit (s := S512x1024) (k0_off6 c 3#32) S64x1024.size (Facts₀.k0_off6_inb c 3))) f0 x Finset.univ) i = rows v i := write_access_rows_rs (k0_off6 c 3#32) (Facts₀.k0_off6_inb c 3) (Spec.peer c 3) (k0_off6_eq c 3) f0 x v hx
theorem rs_store_val_4 (c : Dev nD) (f0 : Buf (Elt F) ((c : Thread nD τ).loc cc0_scratch1)) (x : Spec.Chunk F) (v : Dev nD → Spec.Chunk F) (hx : x = v (Spec.peer c 4)) : ∀ i ∈ (chunkM rsM (Spec.peer c 4)).view.set, (View.write (Elt F) ((Memref.whole cc0_scratch1 : Memref sig .tc .vmem S512x1024 .bf16).access (Rect.unit (s := S512x1024) (k0_off6 c 4#32) S64x1024.size (Facts₀.k0_off6_inb c 4))) f0 x Finset.univ) i = rows v i := write_access_rows_rs (k0_off6 c 4#32) (Facts₀.k0_off6_inb c 4) (Spec.peer c 4) (k0_off6_eq c 4) f0 x v hx
theorem rs_store_val_5 (c : Dev nD) (f0 : Buf (Elt F) ((c : Thread nD τ).loc cc0_scratch1)) (x : Spec.Chunk F) (v : Dev nD → Spec.Chunk F) (hx : x = v (Spec.peer c 5)) : ∀ i ∈ (chunkM rsM (Spec.peer c 5)).view.set, (View.write (Elt F) ((Memref.whole cc0_scratch1 : Memref sig .tc .vmem S512x1024 .bf16).access (Rect.unit (s := S512x1024) (k0_off6 c 5#32) S64x1024.size (Facts₀.k0_off6_inb c 5))) f0 x Finset.univ) i = rows v i := write_access_rows_rs (k0_off6 c 5#32) (Facts₀.k0_off6_inb c 5) (Spec.peer c 5) (k0_off6_eq c 5) f0 x v hx
theorem rs_store_val_6 (c : Dev nD) (f0 : Buf (Elt F) ((c : Thread nD τ).loc cc0_scratch1)) (x : Spec.Chunk F) (v : Dev nD → Spec.Chunk F) (hx : x = v (Spec.peer c 6)) : ∀ i ∈ (chunkM rsM (Spec.peer c 6)).view.set, (View.write (Elt F) ((Memref.whole cc0_scratch1 : Memref sig .tc .vmem S512x1024 .bf16).access (Rect.unit (s := S512x1024) (k0_off6 c 6#32) S64x1024.size (Facts₀.k0_off6_inb c 6))) f0 x Finset.univ) i = rows v i := write_access_rows_rs (k0_off6 c 6#32) (Facts₀.k0_off6_inb c 6) (Spec.peer c 6) (k0_off6_eq c 6) f0 x v hx
theorem rs_store_val_7 (c : Dev nD) (f0 : Buf (Elt F) ((c : Thread nD τ).loc cc0_scratch1)) (x : Spec.Chunk F) (v : Dev nD → Spec.Chunk F) (hx : x = v (Spec.peer c 7)) : ∀ i ∈ (chunkM rsM (Spec.peer c 7)).view.set, (View.write (Elt F) ((Memref.whole cc0_scratch1 : Memref sig .tc .vmem S512x1024 .bf16).access (Rect.unit (s := S512x1024) (k0_off6 c 7#32) S64x1024.size (Facts₀.k0_off6_inb c 7))) f0 x Finset.univ) i = rows v i := write_access_rows_rs (k0_off6 c 7#32) (Facts₀.k0_off6_inb c 7) (Spec.peer c 7) (k0_off6_eq c 7) f0 x v hx
theorem xf_load_val_0 (c : Dev nD) (v : Dev nD → Spec.Chunk F) : View.readAt (Elt F) (Memref.whole cc0_scratch0 : Memref sig .tc .vmem S512x1024 .bf16).view (Rect.unit (s := S512x1024) (k0_off6 c 0#32) S64x1024.size (Facts₀.k0_off6_inb c 0)).toLoadRect (rows v) = v c := read_access_rows_xf (k0_off6 c 0#32) (Facts₀.k0_off6_inb c 0) c (off6_zero c) v
theorem xf_load_val_1 (c : Dev nD) (v : Dev nD → Spec.Chunk F) : View.readAt (Elt F) (Memref.whole cc0_scratch0 : Memref sig .tc .vmem S512x1024 .bf16).view (Rect.unit (s := S512x1024) (k0_off6 c 1#32) S64x1024.size (Facts₀.k0_off6_inb c 1)).toLoadRect (rows v) = v (Spec.peer c 1) := read_access_rows_xf (k0_off6 c 1#32) (Facts₀.k0_off6_inb c 1) (Spec.peer c 1) (k0_off6_eq c 1) v
theorem xf_load_val_2 (c : Dev nD) (v : Dev nD → Spec.Chunk F) : View.readAt (Elt F) (Memref.whole cc0_scratch0 : Memref sig .tc .vmem S512x1024 .bf16).view (Rect.unit (s := S512x1024) (k0_off6 c 2#32) S64x1024.size (Facts₀.k0_off6_inb c 2)).toLoadRect (rows v) = v (Spec.peer c 2) := read_access_rows_xf (k0_off6 c 2#32) (Facts₀.k0_off6_inb c 2) (Spec.peer c 2) (k0_off6_eq c 2) v
theorem xf_load_val_3 (c : Dev nD) (v : Dev nD → Spec.Chunk F) : View.readAt (Elt F) (Memref.whole cc0_scratch0 : Memref sig .tc .vmem S512x1024 .bf16).view (Rect.unit (s := S512x1024) (k0_off6 c 3#32) S64x1024.size (Facts₀.k0_off6_inb c 3)).toLoadRect (rows v) = v (Spec.peer c 3) := read_access_rows_xf (k0_off6 c 3#32) (Facts₀.k0_off6_inb c 3) (Spec.peer c 3) (k0_off6_eq c 3) v
theorem xf_load_val_4 (c : Dev nD) (v : Dev nD → Spec.Chunk F) : View.readAt (Elt F) (Memref.whole cc0_scratch0 : Memref sig .tc .vmem S512x1024 .bf16).view (Rect.unit (s := S512x1024) (k0_off6 c 4#32) S64x1024.size (Facts₀.k0_off6_inb c 4)).toLoadRect (rows v) = v (Spec.peer c 4) := read_access_rows_xf (k0_off6 c 4#32) (Facts₀.k0_off6_inb c 4) (Spec.peer c 4) (k0_off6_eq c 4) v
theorem xf_load_val_5 (c : Dev nD) (v : Dev nD → Spec.Chunk F) : View.readAt (Elt F) (Memref.whole cc0_scratch0 : Memref sig .tc .vmem S512x1024 .bf16).view (Rect.unit (s := S512x1024) (k0_off6 c 5#32) S64x1024.size (Facts₀.k0_off6_inb c 5)).toLoadRect (rows v) = v (Spec.peer c 5) := read_access_rows_xf (k0_off6 c 5#32) (Facts₀.k0_off6_inb c 5) (Spec.peer c 5) (k0_off6_eq c 5) v
theorem xf_load_val_6 (c : Dev nD) (v : Dev nD → Spec.Chunk F) : View.readAt (Elt F) (Memref.whole cc0_scratch0 : Memref sig .tc .vmem S512x1024 .bf16).view (Rect.unit (s := S512x1024) (k0_off6 c 6#32) S64x1024.size (Facts₀.k0_off6_inb c 6)).toLoadRect (rows v) = v (Spec.peer c 6) := read_access_rows_xf (k0_off6 c 6#32) (Facts₀.k0_off6_inb c 6) (Spec.peer c 6) (k0_off6_eq c 6) v
theorem xf_load_val_7 (c : Dev nD) (v : Dev nD → Spec.Chunk F) : View.readAt (Elt F) (Memref.whole cc0_scratch0 : Memref sig .tc .vmem S512x1024 .bf16).view (Rect.unit (s := S512x1024) (k0_off6 c 7#32) S64x1024.size (Facts₀.k0_off6_inb c 7)).toLoadRect (rows v) = v (Spec.peer c 7) := read_access_rows_xf (k0_off6 c 7#32) (Facts₀.k0_off6_inb c 7) (Spec.peer c 7) (k0_off6_eq c 7) v
theorem rr_load_val_1 (c : Dev nD) (v : Dev nD → Spec.Chunk F) : View.readAt (Elt F) (Memref.whole cc0_scratch2 : Memref sig .tc .vmem S512x1024 .bf16).view (Rect.unit (s := S512x1024) (k0_off6 c 1#32) S64x1024.size (Facts₀.k0_off6_inb c 1)).toLoadRect (rows v) = v (Spec.peer c 1) := read_access_rows_rr (k0_off6 c 1#32) (Facts₀.k0_off6_inb c 1) (Spec.peer c 1) (k0_off6_eq c 1) v
theorem rr_load_val_2 (c : Dev nD) (v : Dev nD → Spec.Chunk F) : View.readAt (Elt F) (Memref.whole cc0_scratch2 : Memref sig .tc .vmem S512x1024 .bf16).view (Rect.unit (s := S512x1024) (k0_off6 c 2#32) S64x1024.size (Facts₀.k0_off6_inb c 2)).toLoadRect (rows v) = v (Spec.peer c 2) := read_access_rows_rr (k0_off6 c 2#32) (Facts₀.k0_off6_inb c 2) (Spec.peer c 2) (k0_off6_eq c 2) v
theorem rr_load_val_3 (c : Dev nD) (v : Dev nD → Spec.Chunk F) : View.readAt (Elt F) (Memref.whole cc0_scratch2 : Memref sig .tc .vmem S512x1024 .bf16).view (Rect.unit (s := S512x1024) (k0_off6 c 3#32) S64x1024.size (Facts₀.k0_off6_inb c 3)).toLoadRect (rows v) = v (Spec.peer c 3) := read_access_rows_rr (k0_off6 c 3#32) (Facts₀.k0_off6_inb c 3) (Spec.peer c 3) (k0_off6_eq c 3) v
theorem rr_load_val_4 (c : Dev nD) (v : Dev nD → Spec.Chunk F) : View.readAt (Elt F) (Memref.whole cc0_scratch2 : Memref sig .tc .vmem S512x1024 .bf16).view (Rect.unit (s := S512x1024) (k0_off6 c 4#32) S64x1024.size (Facts₀.k0_off6_inb c 4)).toLoadRect (rows v) = v (Spec.peer c 4) := read_access_rows_rr (k0_off6 c 4#32) (Facts₀.k0_off6_inb c 4) (Spec.peer c 4) (k0_off6_eq c 4) v
theorem rr_load_val_5 (c : Dev nD) (v : Dev nD → Spec.Chunk F) : View.readAt (Elt F) (Memref.whole cc0_scratch2 : Memref sig .tc .vmem S512x1024 .bf16).view (Rect.unit (s := S512x1024) (k0_off6 c 5#32) S64x1024.size (Facts₀.k0_off6_inb c 5)).toLoadRect (rows v) = v (Spec.peer c 5) := read_access_rows_rr (k0_off6 c 5#32) (Facts₀.k0_off6_inb c 5) (Spec.peer c 5) (k0_off6_eq c 5) v
theorem rr_load_val_6 (c : Dev nD) (v : Dev nD → Spec.Chunk F) : View.readAt (Elt F) (Memref.whole cc0_scratch2 : Memref sig .tc .vmem S512x1024 .bf16).view (Rect.unit (s := S512x1024) (k0_off6 c 6#32) S64x1024.size (Facts₀.k0_off6_inb c 6)).toLoadRect (rows v) = v (Spec.peer c 6) := read_access_rows_rr (k0_off6 c 6#32) (Facts₀.k0_off6_inb c 6) (Spec.peer c 6) (k0_off6_eq c 6) v
theorem rr_load_val_7 (c : Dev nD) (v : Dev nD → Spec.Chunk F) : View.readAt (Elt F) (Memref.whole cc0_scratch2 : Memref sig .tc .vmem S512x1024 .bf16).view (Rect.unit (s := S512x1024) (k0_off6 c 7#32) S64x1024.size (Facts₀.k0_off6_inb c 7)).toLoadRect (rows v) = v (Spec.peer c 7) := read_access_rows_rr (k0_off6 c 7#32) (Facts₀.k0_off6_inb c 7) (Spec.peer c 7) (k0_off6_eq c 7) v

end Cert.KernelIdeal.Proto

end
-- ==== Proof.KI.Vals2.lean ====
import proofs.«900981_g7700000000000982_dist_mlpseq_tp1d_bs_bs_b64_d1024_h2048_v7x_i8_bf16_1_alg».proof.Proof.KI.Vals
import Idealize.ShloMosaic.Lib.Pipeline.FrameBody

noncomputable section

namespace Cert.KernelIdeal.Proto

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig ℕ (Elt F) ℕ UU ℕ

variable (m : (ℓ : Loc nD τ sig) → Buf (Elt F) ℓ)

theorem slot_read_in (off : Fin S2x1024x2048.rank → ℕ) (inb : ∀ a, off a + S1x1024x2048.size a ≤ S2x1024x2048.size a) (hs)
    (f3 : (Memref.whole cc0_scratch3 : Memref sig .tc .vmem S2x1024x2048 .f32).view.ty.Contents (Elt F)) (D : S1024x2048.Idx → Elt F .f32) :
    shapeCast S1024x2048
      (View.readAt (Elt F) (Memref.whole cc0_scratch3 : Memref sig .tc .vmem S2x1024x2048 .f32).view (Rect.unit (s := S2x1024x2048) off S1x1024x2048.size inb).toLoadRect
        (View.write (Elt F) (((Memref.whole cc0_scratch3 : Memref sig .tc .vmem S2x1024x2048 .f32).slice (Rect.unit (s := S2x1024x2048) off S1x1024x2048.size inb) hs).squeeze S1024x2048 squeezes_S1x1024x2048_S1024x2048).view f3 D Finset.univ))
      shapeCasts_S1x1024x2048_S1024x2048 = D :=
  View.read_write_univ (v := (((Memref.whole cc0_scratch3 : Memref sig .tc .vmem S2x1024x2048 .f32).slice (Rect.unit (s := S2x1024x2048) off S1x1024x2048.size inb) hs).squeeze S1024x2048 squeezes_S1x1024x2048_S1024x2048).view) f3 D

theorem slot_read_out (off : Fin S2x2048x1024.rank → ℕ) (inb : ∀ a, off a + S1x2048x1024.size a ≤ S2x2048x1024.size a) (hs)
    (f4 : (Memref.whole cc0_scratch4 : Memref sig .tc .vmem S2x2048x1024 .f32).view.ty.Contents (Elt F)) (D : S2048x1024.Idx → Elt F .f32) :
    shapeCast S2048x1024
      (View.readAt (Elt F) (Memref.whole cc0_scratch4 : Memref sig .tc .vmem S2x2048x1024 .f32).view (Rect.unit (s := S2x2048x1024) off S1x2048x1024.size inb).toLoadRect
        (View.write (Elt F) (((Memref.whole cc0_scratch4 : Memref sig .tc .vmem S2x2048x1024 .f32).slice (Rect.unit (s := S2x2048x1024) off S1x2048x1024.size inb) hs).squeeze S2048x1024 squeezes_S1x2048x1024_S2048x1024).view f4 D Finset.univ))
      shapeCasts_S1x2048x1024_S2048x1024 = D :=
  View.read_write_univ (v := (((Memref.whole cc0_scratch4 : Memref sig .tc .vmem S2x2048x1024 .f32).slice (Rect.unit (s := S2x2048x1024) off S1x2048x1024.size inb) hs).squeeze S2048x1024 squeezes_S1x2048x1024_S2048x1024).view) f4 D

theorem win_read (X : Vec F S1x1024x2048 .f32) (D : S1024x2048.Idx → Elt F .f32)
    (hX : shapeCast S1024x2048 X shapeCasts_S1x1024x2048_S1024x2048 = D) :
    (Memref.whole cc0_scratch5 : Memref sig .tc .vmem S1024x2048 .bf16).view.readCov
        [⟨Rect.unit (s := S1024x2048) ![0, 0] S1024x2048.size inb_S1024x2048_S1024x2048_0_0, k0_pay3 X⟩]
        (Rect.unit (s := S1024x2048) ![0, 0] S1024x2048.size inb_S1024x2048_S1024x2048_0_0).toLoadRect
      = Spec.narrowIn D := by
  rw [View.readCov_cons_toLoadRect]
  unfold k0_pay3
  refine (shapeCast_self _ _).trans ?_
  rw [hX]; rfl

theorem wout_read (X : Vec F S1x2048x1024 .f32) (D : S2048x1024.Idx → Elt F .f32)
    (hX : shapeCast S2048x1024 X shapeCasts_S1x2048x1024_S2048x1024 = D) :
    (Memref.whole cc0_scratch6 : Memref sig .tc .vmem S2048x1024 .bf16).view.readCov
        [⟨Rect.unit (s := S2048x1024) ![0, 0] S2048x1024.size inb_S2048x1024_S2048x1024_0_0, k0_pay4 X⟩]
        (Rect.unit (s := S2048x1024) ![0, 0] S2048x1024.size inb_S2048x1024_S2048x1024_0_0).toLoadRect
      = Spec.narrowOut D := by
  rw [View.readCov_cons_toLoadRect]
  unfold k0_pay4
  refine (shapeCast_self _ _).trans ?_
  rw [hX]; rfl

/-- A layer's slices of W_in and W_out as a device holds them, written out once as terms of what it started with. -/
abbrev wInT0 (c : Dev nD) (f3 : Buf (Elt F) ((c : Thread nD τ).loc cc0_scratch3)) : Spec.WIn F :=
  ((Memref.whole cc0_scratch5 : Memref sig .tc .vmem S1024x2048 .bf16).view.readCov [⟨(Rect.unit (s := S1024x2048) ![0, 0] S1024x2048.size inb_S1024x2048_S1024x2048_0_0), k0_pay3 (View.readAt (Elt F) (Memref.whole cc0_scratch3 : Memref sig .tc .vmem S2x1024x2048 .f32).view (Rect.unit (s := S2x1024x2048) ![0, 0, 0] S1x1024x2048.size inb_S2x1024x2048_S1x1024x2048_0_0_0).toLoadRect (View.write (Elt F) (((Memref.whole cc0_scratch3 : Memref sig .tc .vmem S2x1024x2048 .f32).slice (Rect.unit (s := S2x1024x2048) ![0, 0, 0] S1x1024x2048.size inb_S2x1024x2048_S1x1024x2048_0_0_0) (fun _ => rfl)).squeeze S1024x2048 squeezes_S1x1024x2048_S1024x2048).view f3 (ReadAs.same.apply (View.read (Elt F) (Memref.whole main_arg1).view (m ((c : Thread nD τ).loc main_arg1)))) Finset.univ))⟩] (Rect.unit (s := S1024x2048) ![0, 0] S1024x2048.size inb_S1024x2048_S1024x2048_0_0).toLoadRect)

theorem wIn_val_0 (c : Dev nD) (f3 : Buf (Elt F) ((c : Thread nD τ).loc cc0_scratch3)) :
    (wInT0 m c f3) = (par m).wi (lf 0) c :=
  win_read _ _ (slot_read_in ![0, 0, 0] inb_S2x1024x2048_S1x1024x2048_0_0_0 (fun _ => rfl) f3 _)
abbrev wOutT0 (c : Dev nD) (f4 : Buf (Elt F) ((c : Thread nD τ).loc cc0_scratch4)) : Spec.WOut F :=
  ((Memref.whole cc0_scratch6 : Memref sig .tc .vmem S2048x1024 .bf16).view.readCov [⟨(Rect.unit (s := S2048x1024) ![0, 0] S2048x1024.size inb_S2048x1024_S2048x1024_0_0), k0_pay4 (View.readAt (Elt F) (Memref.whole cc0_scratch4 : Memref sig .tc .vmem S2x2048x1024 .f32).view (Rect.unit (s := S2x2048x1024) ![0, 0, 0] S1x2048x1024.size inb_S2x2048x1024_S1x2048x1024_0_0_0).toLoadRect (View.write (Elt F) (((Memref.whole cc0_scratch4 : Memref sig .tc .vmem S2x2048x1024 .f32).slice (Rect.unit (s := S2x2048x1024) ![0, 0, 0] S1x2048x1024.size inb_S2x2048x1024_S1x2048x1024_0_0_0) (fun _ => rfl)).squeeze S2048x1024 squeezes_S1x2048x1024_S2048x1024).view f4 (ReadAs.same.apply (View.read (Elt F) (Memref.whole main_arg2).view (m ((c : Thread nD τ).loc main_arg2)))) Finset.univ))⟩] (Rect.unit (s := S2048x1024) ![0, 0] S2048x1024.size inb_S2048x1024_S2048x1024_0_0).toLoadRect)

theorem wOut_val_0 (c : Dev nD) (f4 : Buf (Elt F) ((c : Thread nD τ).loc cc0_scratch4)) :
    (wOutT0 m c f4) = (par m).wo (lf 0) c :=
  wout_read _ _ (slot_read_out ![0, 0, 0] inb_S2x2048x1024_S1x2048x1024_0_0_0 (fun _ => rfl) f4 _)

theorem peer_off_zero (c : Dev nD) : Spec.peer c 0 = c := by revert c; decide

theorem dist_peer_le (c : Dev nD) (o : ℕ) (ho' : o ≤ 7) : dist c (Spec.peer c o) = o := dist_self_peer c ⟨o, by omega⟩

theorem RP_lower (l : ℕ) (c : Dev nD) (o : ℕ) (ho : o % 2 = 1) (ho' : o ≤ 7) :
    RP m l c (Spec.peer c o)
      = Spec.lower (XL m l (Spec.peer c (o - 1))) (XL m l (Spec.peer c o)) ((par m).wi (lf l) c) ((par m).wo (lf l) c) := by
  unfold RP; rw [dist_peer_le c o ho']; unfold Spec.piece; rw [if_pos ho]; rfl

theorem RP_upper (l : ℕ) (c : Dev nD) (o : ℕ) (ho : o % 2 = 0) (ho' : o ≤ 7) :
    RP m l c (Spec.peer c o)
      = Spec.upper (XL m l (Spec.peer c o)) (XL m l (Spec.peer c (o + 1))) ((par m).wi (lf l) c) ((par m).wo (lf l) c) := by
  unfold RP; rw [dist_peer_le c o ho']; unfold Spec.piece; rw [if_neg (by omega)]; rfl

omit m in

theorem pay7_eq (a b : Spec.Chunk F) (wi : Spec.WIn F) (wo : Spec.WOut F) : k0_pay7 a b wi wo = Spec.lower a b wi wo := rfl
omit m in
theorem pay10_eq (a b : Spec.Chunk F) (wi : Spec.WIn F) (wo : Spec.WOut F) : k0_pay10 (k0_pay8 a b wi) wo = Spec.upper a b wi wo := rfl
omit m in
theorem pay11_eq (a b : Spec.Chunk F) (wi : Spec.WIn F) (wo : Spec.WOut F) : k0_pay11 (k0_pay8 a b wi) wo = Spec.lower a b wi wo := rfl
omit m in
theorem pay14_eq (a b : Spec.Chunk F) (wi : Spec.WIn F) (wo : Spec.WOut F) : k0_pay14 (k0_pay13 a b wi wo) = Spec.upper a b wi wo := rfl
omit m in
theorem pay15_eq (a b : Spec.Chunk F) (wi : Spec.WIn F) (wo : Spec.WOut F) : k0_pay15 (k0_pay12 a b wi wo) = Spec.lower a b wi wo := rfl
omit m in
theorem pay17_eq (a b : Spec.Chunk F) (wi : Spec.WIn F) (wo : Spec.WOut F) : k0_pay17 a b wi wo = Spec.upper a b wi wo := rfl
omit m in
theorem pay18_eq (a b : Spec.Chunk F) (wi : Spec.WIn F) (wo : Spec.WOut F) : k0_pay18 (k0_pay16 a b wi wo) = Spec.lower a b wi wo := rfl

omit m in
theorem lower_congr {a a' b b' : Spec.Chunk F} {wi wi' : Spec.WIn F} {wo wo' : Spec.WOut F}
    (ha : a = a') (hb : b = b') (hwi : wi = wi') (hwo : wo = wo') : Spec.lower a b wi wo = Spec.lower a' b' wi' wo' := by
  subst ha hb hwi hwo; rfl
omit m in
theorem upper_congr {a a' b b' : Spec.Chunk F} {wi wi' : Spec.WIn F} {wo wo' : Spec.WOut F}
    (ha : a = a') (hb : b = b') (hwi : wi = wi') (hwo : wo = wo') : Spec.upper a b wi wo = Spec.upper a' b' wi' wo' := by
  subst ha hb hwi hwo; rfl

/-- The chunk at row offset `off` of the activations gathered for layer `l`. -/
abbrev xld (l : ℕ) (off : Fin S512x1024.rank → ℕ) (inb : ∀ a, off a + S64x1024.size a ≤ S512x1024.size a) :=
  View.readAt (Elt F) (Memref.whole cc0_scratch0 : Memref sig .tc .vmem S512x1024 .bf16).view (Rect.unit (s := S512x1024) off S64x1024.size inb).toLoadRect (xfAll m l)

theorem rs_gen_1 (l : ℕ) (c : Dev nD) (f1 : Buf (Elt F) ((c : Thread nD τ).loc cc0_scratch1)) (x : Spec.Chunk F) (hx : x = RP m l c (Spec.peer c 1)) : ∀ i ∈ (chunkM rsM (Spec.peer c 1)).view.set, (View.write (Elt F) ((Memref.whole cc0_scratch1 : Memref sig .tc .vmem S512x1024 .bf16).access (Rect.unit (s := S512x1024) (k0_off6 c 1#32) S64x1024.size (Facts₀.k0_off6_inb c 1))) f1 x Finset.univ) i = rsAll m l c i := rs_store_val_1 c f1 x (fun k => RP m l c k) hx
theorem rs_gen_2 (l : ℕ) (c : Dev nD) (f1 : Buf (Elt F) ((c : Thread nD τ).loc cc0_scratch1)) (x : Spec.Chunk F) (hx : x = RP m l c (Spec.peer c 2)) : ∀ i ∈ (chunkM rsM (Spec.peer c 2)).view.set, (View.write (Elt F) ((Memref.whole cc0_scratch1 : Memref sig .tc .vmem S512x1024 .bf16).access (Rect.unit (s := S512x1024) (k0_off6 c 2#32) S64x1024.size (Facts₀.k0_off6_inb c 2))) f1 x Finset.univ) i = rsAll m l c i := rs_store_val_2 c f1 x (fun k => RP m l c k) hx
theorem rs_gen_3 (l : ℕ) (c : Dev nD) (f1 : Buf (Elt F) ((c : Thread nD τ).loc cc0_scratch1)) (x : Spec.Chunk F) (hx : x = RP m l c (Spec.peer c 3)) : ∀ i ∈ (chunkM rsM (Spec.peer c 3)).view.set, (View.write (Elt F) ((Memref.whole cc0_scratch1 : Memref sig .tc .vmem S512x1024 .bf16).access (Rect.unit (s := S512x1024) (k0_off6 c 3#32) S64x1024.size (Facts₀.k0_off6_inb c 3))) f1 x Finset.univ) i = rsAll m l c i := rs_store_val_3 c f1 x (fun k => RP m l c k) hx
theorem rs_gen_4 (l : ℕ) (c : Dev nD) (f1 : Buf (Elt F) ((c : Thread nD τ).loc cc0_scratch1)) (x : Spec.Chunk F) (hx : x = RP m l c (Spec.peer c 4)) : ∀ i ∈ (chunkM rsM (Spec.peer c 4)).view.set, (View.write (Elt F) ((Memref.whole cc0_scratch1 : Memref sig .tc .vmem S512x1024 .bf16).access (Rect.unit (s := S512x1024) (k0_off6 c 4#32) S64x1024.size (Facts₀.k0_off6_inb c 4))) f1 x Finset.univ) i = rsAll m l c i := rs_store_val_4 c f1 x (fun k => RP m l c k) hx
theorem rs_gen_5 (l : ℕ) (c : Dev nD) (f1 : Buf (Elt F) ((c : Thread nD τ).loc cc0_scratch1)) (x : Spec.Chunk F) (hx : x = RP m l c (Spec.peer c 5)) : ∀ i ∈ (chunkM rsM (Spec.peer c 5)).view.set, (View.write (Elt F) ((Memref.whole cc0_scratch1 : Memref sig .tc .vmem S512x1024 .bf16).access (Rect.unit (s := S512x1024) (k0_off6 c 5#32) S64x1024.size (Facts₀.k0_off6_inb c 5))) f1 x Finset.univ) i = rsAll m l c i := rs_store_val_5 c f1 x (fun k => RP m l c k) hx
theorem rs_gen_6 (l : ℕ) (c : Dev nD) (f1 : Buf (Elt F) ((c : Thread nD τ).loc cc0_scratch1)) (x : Spec.Chunk F) (hx : x = RP m l c (Spec.peer c 6)) : ∀ i ∈ (chunkM rsM (Spec.peer c 6)).view.set, (View.write (Elt F) ((Memref.whole cc0_scratch1 : Memref sig .tc .vmem S512x1024 .bf16).access (Rect.unit (s := S512x1024) (k0_off6 c 6#32) S64x1024.size (Facts₀.k0_off6_inb c 6))) f1 x Finset.univ) i = rsAll m l c i := rs_store_val_6 c f1 x (fun k => RP m l c k) hx
theorem rs_gen_7 (l : ℕ) (c : Dev nD) (f1 : Buf (Elt F) ((c : Thread nD τ).loc cc0_scratch1)) (x : Spec.Chunk F) (hx : x = RP m l c (Spec.peer c 7)) : ∀ i ∈ (chunkM rsM (Spec.peer c 7)).view.set, (View.write (Elt F) ((Memref.whole cc0_scratch1 : Memref sig .tc .vmem S512x1024 .bf16).access (Rect.unit (s := S512x1024) (k0_off6 c 7#32) S64x1024.size (Facts₀.k0_off6_inb c 7))) f1 x Finset.univ) i = rsAll m l c i := rs_store_val_7 c f1 x (fun k => RP m l c k) hx

/-- Each half a device stores for a peer is the specification's: the tile's halves are one function, of the peer's chunk,
    its neighbour's and the layer's weights. -/
theorem rs_val_0_1 (c : Dev nD) (f1 : Buf (Elt F) ((c : Thread nD τ).loc cc0_scratch1)) (f3 : Buf (Elt F) ((c : Thread nD τ).loc cc0_scratch3)) (f4 : Buf (Elt F) ((c : Thread nD τ).loc cc0_scratch4)) :
    ∀ i ∈ (chunkM rsM (Spec.peer c 1)).view.set, (View.write (Elt F) ((Memref.whole cc0_scratch1 : Memref sig .tc .vmem S512x1024 .bf16).access (Rect.unit (s := S512x1024) (k0_off6 c 1#32) S64x1024.size (Facts₀.k0_off6_inb c 1))) f1 (k0_pay7 (xld m 0 (k0_off6 c 0#32) (Facts₀.k0_off6_inb c 0)) (xld m 0 (k0_off6 c 1#32) (Facts₀.k0_off6_inb c 1)) (wInT0 m c f3) (wOutT0 m c f4)) Finset.univ) i = rsAll m 0 c i :=
  rs_gen_1 m 0 c f1 _ ((pay7_eq _ _ _ _).trans ((lower_congr ((xf_load_val_0 c (fun k => XL m 0 k)).trans (congrArg (XL m 0) (peer_off_zero c).symm)) (xf_load_val_1 c (fun k => XL m 0 k)) (wIn_val_0 m c f3) (wOut_val_0 m c f4)).trans (RP_lower m 0 c 1 rfl (by decide)).symm))

theorem rs_val_0_2 (c : Dev nD) (f1 : Buf (Elt F) ((c : Thread nD τ).loc cc0_scratch1)) (f3 : Buf (Elt F) ((c : Thread nD τ).loc cc0_scratch3)) (f4 : Buf (Elt F) ((c : Thread nD τ).loc cc0_scratch4)) :
    ∀ i ∈ (chunkM rsM (Spec.peer c 2)).view.set, (View.write (Elt F) ((Memref.whole cc0_scratch1 : Memref sig .tc .vmem S512x1024 .bf16).access (Rect.unit (s := S512x1024) (k0_off6 c 2#32) S64x1024.size (Facts₀.k0_off6_inb c 2))) f1 (k0_pay10 (k0_pay8 (xld m 0 (k0_off6 c 2#32) (Facts₀.k0_off6_inb c 2)) (xld m 0 (k0_off6 c 3#32) (Facts₀.k0_off6_inb c 3)) (wInT0 m c f3)) (wOutT0 m c f4)) Finset.univ) i = rsAll m 0 c i :=
  rs_gen_2 m 0 c f1 _ ((pay10_eq _ _ _ _).trans ((upper_congr (xf_load_val_2 c (fun k => XL m 0 k)) (xf_load_val_3 c (fun k => XL m 0 k)) (wIn_val_0 m c f3) (wOut_val_0 m c f4)).trans (RP_upper m 0 c 2 rfl (by decide)).symm))

theorem rs_val_0_3 (c : Dev nD) (f1 : Buf (Elt F) ((c : Thread nD τ).loc cc0_scratch1)) (f3 : Buf (Elt F) ((c : Thread nD τ).loc cc0_scratch3)) (f4 : Buf (Elt F) ((c : Thread nD τ).loc cc0_scratch4)) :
    ∀ i ∈ (chunkM rsM (Spec.peer c 3)).view.set, (View.write (Elt F) ((Memref.whole cc0_scratch1 : Memref sig .tc .vmem S512x1024 .bf16).access (Rect.unit (s := S512x1024) (k0_off6 c 3#32) S64x1024.size (Facts₀.k0_off6_inb c 3))) f1 (k0_pay11 (k0_pay8 (xld m 0 (k0_off6 c 2#32) (Facts₀.k0_off6_inb c 2)) (xld m 0 (k0_off6 c 3#32) (Facts₀.k0_off6_inb c 3)) (wInT0 m c f3)) (wOutT0 m c f4)) Finset.univ) i = rsAll m 0 c i :=
  rs_gen_3 m 0 c f1 _ ((pay11_eq _ _ _ _).trans ((lower_congr (xf_load_val_2 c (fun k => XL m 0 k)) (xf_load_val_3 c (fun k => XL m 0 k)) (wIn_val_0 m c f3) (wOut_val_0 m c f4)).trans (RP_lower m 0 c 3 rfl (by decide)).symm))

theorem rs_val_0_4 (c : Dev nD) (f1 : Buf (Elt F) ((c : Thread nD τ).loc cc0_scratch1)) (f3 : Buf (Elt F) ((c : Thread nD τ).loc cc0_scratch3)) (f4 : Buf (Elt F) ((c : Thread nD τ).loc cc0_scratch4)) :
    ∀ i ∈ (chunkM rsM (Spec.peer c 4)).view.set, (View.write (Elt F) ((Memref.whole cc0_scratch1 : Memref sig .tc .vmem S512x1024 .bf16).access (Rect.unit (s := S512x1024) (k0_off6 c 4#32) S64x1024.size (Facts₀.k0_off6_inb c 4))) f1 (k0_pay14 (k0_pay13 (xld m 0 (k0_off6 c 4#32) (Facts₀.k0_off6_inb c 4)) (xld m 0 (k0_off6 c 5#32) (Facts₀.k0_off6_inb c 5)) (wInT0 m c f3) (wOutT0 m c f4))) Finset.univ) i = rsAll m 0 c i :=
  rs_gen_4 m 0 c f1 _ ((pay14_eq _ _ _ _).trans ((upper_congr (xf_load_val_4 c (fun k => XL m 0 k)) (xf_load_val_5 c (fun k => XL m 0 k)) (wIn_val_0 m c f3) (wOut_val_0 m c f4)).trans (RP_upper m 0 c 4 rfl (by decide)).symm))

theorem rs_val_0_5 (c : Dev nD) (f1 : Buf (Elt F) ((c : Thread nD τ).loc cc0_scratch1)) (f3 : Buf (Elt F) ((c : Thread nD τ).loc cc0_scratch3)) (f4 : Buf (Elt F) ((c : Thread nD τ).loc cc0_scratch4)) :
    ∀ i ∈ (chunkM rsM (Spec.peer c 5)).view.set, (View.write (Elt F) ((Memref.whole cc0_scratch1 : Memref sig .tc .vmem S512x1024 .bf16).access (Rect.unit (s := S512x1024) (k0_off6 c 5#32) S64x1024.size (Facts₀.k0_off6_inb c 5))) f1 (k0_pay15 (k0_pay12 (xld m 0 (k0_off6 c 4#32) (Facts₀.k0_off6_inb c 4)) (xld m 0 (k0_off6 c 5#32) (Facts₀.k0_off6_inb c 5)) (wInT0 m c f3) (wOutT0 m c f4))) Finset.univ) i = rsAll m 0 c i :=
  rs_gen_5 m 0 c f1 _ ((pay15_eq _ _ _ _).trans ((lower_congr (xf_load_val_4 c (fun k => XL m 0 k)) (xf_load_val_5 c (fun k => XL m 0 k)) (wIn_val_0 m c f3) (wOut_val_0 m c f4)).trans (RP_lower m 0 c 5 rfl (by decide)).symm))

theorem rs_val_0_6 (c : Dev nD) (f1 : Buf (Elt F) ((c : Thread nD τ).loc cc0_scratch1)) (f3 : Buf (Elt F) ((c : Thread nD τ).loc cc0_scratch3)) (f4 : Buf (Elt F) ((c : Thread nD τ).loc cc0_scratch4)) :
    ∀ i ∈ (chunkM rsM (Spec.peer c 6)).view.set, (View.write (Elt F) ((Memref.whole cc0_scratch1 : Memref sig .tc .vmem S512x1024 .bf16).access (Rect.unit (s := S512x1024) (k0_off6 c 6#32) S64x1024.size (Facts₀.k0_off6_inb c 6))) f1 (k0_pay17 (xld m 0 (k0_off6 c 6#32) (Facts₀.k0_off6_inb c 6)) (xld m 0 (k0_off6 c 7#32) (Facts₀.k0_off6_inb c 7)) (wInT0 m c f3) (wOutT0 m c f4)) Finset.univ) i = rsAll m 0 c i :=
  rs_gen_6 m 0 c f1 _ ((pay17_eq _ _ _ _).trans ((upper_congr (xf_load_val_6 c (fun k => XL m 0 k)) (xf_load_val_7 c (fun k => XL m 0 k)) (wIn_val_0 m c f3) (wOut_val_0 m c f4)).trans (RP_upper m 0 c 6 rfl (by decide)).symm))

theorem rs_val_0_7 (c : Dev nD) (f1 : Buf (Elt F) ((c : Thread nD τ).loc cc0_scratch1)) (f3 : Buf (Elt F) ((c : Thread nD τ).loc cc0_scratch3)) (f4 : Buf (Elt F) ((c : Thread nD τ).loc cc0_scratch4)) :
    ∀ i ∈ (chunkM rsM (Spec.peer c 7)).view.set, (View.write (Elt F) ((Memref.whole cc0_scratch1 : Memref sig .tc .vmem S512x1024 .bf16).access (Rect.unit (s := S512x1024) (k0_off6 c 7#32) S64x1024.size (Facts₀.k0_off6_inb c 7))) f1 (k0_pay18 (k0_pay16 (xld m 0 (k0_off6 c 6#32) (Facts₀.k0_off6_inb c 6)) (xld m 0 (k0_off6 c 7#32) (Facts₀.k0_off6_inb c 7)) (wInT0 m c f3) (wOutT0 m c f4))) Finset.univ) i = rsAll m 0 c i :=
  rs_gen_7 m 0 c f1 _ ((pay18_eq _ _ _ _).trans ((lower_congr (xf_load_val_6 c (fun k => XL m 0 k)) (xf_load_val_7 c (fun k => XL m 0 k)) (wIn_val_0 m c f3) (wOut_val_0 m c f4)).trans (RP_lower m 0 c 7 rfl (by decide)).symm))

omit m in

theorem win_read_cons (P : FVec F S1024x2048 .bf16) (L : List (View.Piece (Elt F) S1024x2048 .bf16)) :
    (Memref.whole cc0_scratch5 : Memref sig .tc .vmem S1024x2048 .bf16).view.readCov (⟨(Rect.unit (s := S1024x2048) ![0, 0] S1024x2048.size inb_S1024x2048_S1024x2048_0_0), P⟩ :: L) (Rect.unit (s := S1024x2048) ![0, 0] S1024x2048.size inb_S1024x2048_S1024x2048_0_0).toLoadRect = P :=
  View.readCov_cons_toLoadRect _ _ _ _
omit m in
theorem wout_read_cons (P : FVec F S2048x1024 .bf16) (L : List (View.Piece (Elt F) S2048x1024 .bf16)) :
    (Memref.whole cc0_scratch6 : Memref sig .tc .vmem S2048x1024 .bf16).view.readCov (⟨(Rect.unit (s := S2048x1024) ![0, 0] S2048x1024.size inb_S2048x1024_S2048x1024_0_0), P⟩ :: L) (Rect.unit (s := S2048x1024) ![0, 0] S2048x1024.size inb_S2048x1024_S2048x1024_0_0).toLoadRect = P :=
  View.readCov_cons_toLoadRect _ _ _ _

omit m in

theorem pay25_val (X : Vec F S1x1024x2048 .f32) (D : S1024x2048.Idx → Elt F .f32)
    (hX : shapeCast S1024x2048 X shapeCasts_S1x1024x2048_S1024x2048 = D) : k0_pay25 (k0_pay24 X) = Spec.narrowIn D := by
  unfold k0_pay25 k0_pay24
  refine (shapeCast_self _ _).trans ?_
  rw [hX]; rfl
omit m in
theorem pay26_val (X : Vec F S1x2048x1024 .f32) (D : S2048x1024.Idx → Elt F .f32)
    (hX : shapeCast S2048x1024 X shapeCasts_S1x2048x1024_S2048x1024 = D) : k0_pay26 X = Spec.narrowOut D := by
  unfold k0_pay26
  refine (shapeCast_self _ _).trans ?_
  rw [hX]; rfl

abbrev wInT1 (c : Dev nD) (f3 : Buf (Elt F) ((c : Thread nD τ).loc cc0_scratch3)) : Spec.WIn F :=
  ((Memref.whole cc0_scratch5 : Memref sig .tc .vmem S1024x2048 .bf16).view.readCov [⟨(Rect.unit (s := S1024x2048) ![0, 0] S1024x2048.size inb_S1024x2048_S1024x2048_0_0), k0_pay25 (k0_pay24 (View.readAt (Elt F) (Memref.whole cc0_scratch3 : Memref sig .tc .vmem S2x1024x2048 .f32).view (Rect.unit (s := S2x1024x2048) ![1, 0, 0] S1x1024x2048.size inb_S2x1024x2048_S1x1024x2048_1_0_0).toLoadRect (View.write (Elt F) (((Memref.whole cc0_scratch3 : Memref sig .tc .vmem S2x1024x2048 .f32).slice (Rect.unit (s := S2x1024x2048) ![1, 0, 0] S1x1024x2048.size inb_S2x1024x2048_S1x1024x2048_1_0_0) (fun _ => rfl)).squeeze S1024x2048 squeezes_S1x1024x2048_S1024x2048).view (View.write (Elt F) (((Memref.whole cc0_scratch3 : Memref sig .tc .vmem S2x1024x2048 .f32).slice (Rect.unit (s := S2x1024x2048) ![0, 0, 0] S1x1024x2048.size inb_S2x1024x2048_S1x1024x2048_0_0_0) (fun _ => rfl)).squeeze S1024x2048 squeezes_S1x1024x2048_S1024x2048).view f3 (ReadAs.same.apply (View.read (Elt F) (Memref.whole main_arg1).view (m ((c : Thread nD τ).loc main_arg1)))) Finset.univ) (ReadAs.same.apply (View.read (Elt F) (Memref.whole main_arg3).view (m ((c : Thread nD τ).loc main_arg3)))) Finset.univ)))⟩, ⟨(Rect.unit (s := S1024x2048) ![0, 0] S1024x2048.size inb_S1024x2048_S1024x2048_0_0), k0_pay3 (View.readAt (Elt F) (Memref.whole cc0_scratch3 : Memref sig .tc .vmem S2x1024x2048 .f32).view (Rect.unit (s := S2x1024x2048) ![0, 0, 0] S1x1024x2048.size inb_S2x1024x2048_S1x1024x2048_0_0_0).toLoadRect (View.write (Elt F) (((Memref.whole cc0_scratch3 : Memref sig .tc .vmem S2x1024x2048 .f32).slice (Rect.unit (s := S2x1024x2048) ![0, 0, 0] S1x1024x2048.size inb_S2x1024x2048_S1x1024x2048_0_0_0) (fun _ => rfl)).squeeze S1024x2048 squeezes_S1x1024x2048_S1024x2048).view f3 (ReadAs.same.apply (View.read (Elt F) (Memref.whole main_arg1).view (m ((c : Thread nD τ).loc main_arg1)))) Finset.univ))⟩] (Rect.unit (s := S1024x2048) ![0, 0] S1024x2048.size inb_S1024x2048_S1024x2048_0_0).toLoadRect)

theorem wIn_val_1 (c : Dev nD) (f3 : Buf (Elt F) ((c : Thread nD τ).loc cc0_scratch3)) :
    (wInT1 m c f3) = (par m).wi (lf 1) c :=
  (win_read_cons _ _).trans (pay25_val _ _ (slot_read_in ![1, 0, 0] inb_S2x1024x2048_S1x1024x2048_1_0_0 (fun _ => rfl) _ _))
abbrev wOutT1 (c : Dev nD) (f4 : Buf (Elt F) ((c : Thread nD τ).loc cc0_scratch4)) : Spec.WOut F :=
  ((Memref.whole cc0_scratch6 : Memref sig .tc .vmem S2048x1024 .bf16).view.readCov [⟨(Rect.unit (s := S2048x1024) ![0, 0] S2048x1024.size inb_S2048x1024_S2048x1024_0_0), k0_pay26 (View.readAt (Elt F) (Memref.whole cc0_scratch4 : Memref sig .tc .vmem S2x2048x1024 .f32).view (Rect.unit (s := S2x2048x1024) ![1, 0, 0] S1x2048x1024.size inb_S2x2048x1024_S1x2048x1024_1_0_0).toLoadRect (View.write (Elt F) (((Memref.whole cc0_scratch4 : Memref sig .tc .vmem S2x2048x1024 .f32).slice (Rect.unit (s := S2x2048x1024) ![1, 0, 0] S1x2048x1024.size inb_S2x2048x1024_S1x2048x1024_1_0_0) (fun _ => rfl)).squeeze S2048x1024 squeezes_S1x2048x1024_S2048x1024).view (View.write (Elt F) (((Memref.whole cc0_scratch4 : Memref sig .tc .vmem S2x2048x1024 .f32).slice (Rect.unit (s := S2x2048x1024) ![0, 0, 0] S1x2048x1024.size inb_S2x2048x1024_S1x2048x1024_0_0_0) (fun _ => rfl)).squeeze S2048x1024 squeezes_S1x2048x1024_S2048x1024).view f4 (ReadAs.same.apply (View.read (Elt F) (Memref.whole main_arg2).view (m ((c : Thread nD τ).loc main_arg2)))) Finset.univ) (ReadAs.same.apply (View.read (Elt F) (Memref.whole main_arg4).view (m ((c : Thread nD τ).loc main_arg4)))) Finset.univ))⟩, ⟨(Rect.unit (s := S2048x1024) ![0, 0] S2048x1024.size inb_S2048x1024_S2048x1024_0_0), k0_pay4 (View.readAt (Elt F) (Memref.whole cc0_scratch4 : Memref sig .tc .vmem S2x2048x1024 .f32).view (Rect.unit (s := S2x2048x1024) ![0, 0, 0] S1x2048x1024.size inb_S2x2048x1024_S1x2048x1024_0_0_0).toLoadRect (View.write (Elt F) (((Memref.whole cc0_scratch4 : Memref sig .tc .vmem S2x2048x1024 .f32).slice (Rect.unit (s := S2x2048x1024) ![0, 0, 0] S1x2048x1024.size inb_S2x2048x1024_S1x2048x1024_0_0_0) (fun _ => rfl)).squeeze S2048x1024 squeezes_S1x2048x1024_S2048x1024).view f4 (ReadAs.same.apply (View.read (Elt F) (Memref.whole main_arg2).view (m ((c : Thread nD τ).loc main_arg2)))) Finset.univ))⟩] (Rect.unit (s := S2048x1024) ![0, 0] S2048x1024.size inb_S2048x1024_S2048x1024_0_0).toLoadRect)

theorem wOut_val_1 (c : Dev nD) (f4 : Buf (Elt F) ((c : Thread nD τ).loc cc0_scratch4)) :
    (wOutT1 m c f4) = (par m).wo (lf 1) c :=
  (wout_read_cons _ _).trans (pay26_val _ _ (slot_read_out ![1, 0, 0] inb_S2x2048x1024_S1x2048x1024_1_0_0 (fun _ => rfl) _ _))

omit m in
theorem pay29_eq (a b : Spec.Chunk F) (wi : Spec.WIn F) (wo : Spec.WOut F) : k0_pay29 a b wi wo = Spec.lower a b wi wo := rfl
omit m in
theorem pay32_eq (a b : Spec.Chunk F) (wi : Spec.WIn F) (wo : Spec.WOut F) : k0_pay32 (k0_pay31 a b wi wo) = Spec.upper a b wi wo := rfl
omit m in
theorem pay33_eq (a b : Spec.Chunk F) (wi : Spec.WIn F) (wo : Spec.WOut F) : k0_pay33 (k0_pay30 a b wi wo) = Spec.lower a b wi wo := rfl
omit m in
theorem pay35_eq (a b : Spec.Chunk F) (wi : Spec.WIn F) (wo : Spec.WOut F) : k0_pay35 a b wi wo = Spec.upper a b wi wo := rfl
omit m in
theorem pay36_eq (a b : Spec.Chunk F) (wi : Spec.WIn F) (wo : Spec.WOut F) : k0_pay36 (k0_pay34 a b wi wo) = Spec.lower a b wi wo := rfl
omit m in
theorem pay38_eq (a b : Spec.Chunk F) (wi : Spec.WIn F) (wo : Spec.WOut F) : k0_pay38 a b wi wo = Spec.upper a b wi wo := rfl
omit m in
theorem pay39_eq (a b : Spec.Chunk F) (wi : Spec.WIn F) (wo : Spec.WOut F) : k0_pay39 (k0_pay37 a b wi wo) = Spec.lower a b wi wo := rfl

theorem rs_val_1_1 (c : Dev nD) (f3 : Buf (Elt F) ((c : Thread nD τ).loc cc0_scratch3)) (f4 : Buf (Elt F) ((c : Thread nD τ).loc cc0_scratch4)) :
    ∀ i ∈ (chunkM rsM (Spec.peer c 1)).view.set, (View.write (Elt F) ((Memref.whole cc0_scratch1 : Memref sig .tc .vmem S512x1024 .bf16).access (Rect.unit (s := S512x1024) (k0_off6 c 1#32) S64x1024.size (Facts₀.k0_off6_inb c 1))) (rsAll m 0 c) (k0_pay29 (xld m 1 (k0_off6 c 0#32) (Facts₀.k0_off6_inb c 0)) (xld m 1 (k0_off6 c 1#32) (Facts₀.k0_off6_inb c 1)) (wInT1 m c f3) (wOutT1 m c f4)) Finset.univ) i = rsAll m 1 c i :=
  rs_gen_1 m 1 c (rsAll m 0 c) _ ((pay29_eq _ _ _ _).trans ((lower_congr ((xf_load_val_0 c (fun k => XL m 1 k)).trans (congrArg (XL m 1) (peer_off_zero c).symm)) (xf_load_val_1 c (fun k => XL m 1 k)) (wIn_val_1 m c f3) (wOut_val_1 m c f4)).trans (RP_lower m 1 c 1 rfl (by decide)).symm))

theorem rs_val_1_2 (c : Dev nD) (f3 : Buf (Elt F) ((c : Thread nD τ).loc cc0_scratch3)) (f4 : Buf (Elt F) ((c : Thread nD τ).loc cc0_scratch4)) :
    ∀ i ∈ (chunkM rsM (Spec.peer c 2)).view.set, (View.write (Elt F) ((Memref.whole cc0_scratch1 : Memref sig .tc .vmem S512x1024 .bf16).access (Rect.unit (s := S512x1024) (k0_off6 c 2#32) S64x1024.size (Facts₀.k0_off6_inb c 2))) (rsAll m 0 c) (k0_pay32 (k0_pay31 (xld m 1 (k0_off6 c 2#32) (Facts₀.k0_off6_inb c 2)) (xld m 1 (k0_off6 c 3#32) (Facts₀.k0_off6_inb c 3)) (wInT1 m c f3) (wOutT1 m c f4))) Finset.univ) i = rsAll m 1 c i :=
  rs_gen_2 m 1 c (rsAll m 0 c) _ ((pay32_eq _ _ _ _).trans ((upper_congr (xf_load_val_2 c (fun k => XL m 1 k)) (xf_load_val_3 c (fun k => XL m 1 k)) (wIn_val_1 m c f3) (wOut_val_1 m c f4)).trans (RP_upper m 1 c 2 rfl (by decide)).symm))

theorem rs_val_1_3 (c : Dev nD) (f3 : Buf (Elt F) ((c : Thread nD τ).loc cc0_scratch3)) (f4 : Buf (Elt F) ((c : Thread nD τ).loc cc0_scratch4)) :
    ∀ i ∈ (chunkM rsM (Spec.peer c 3)).view.set, (View.write (Elt F) ((Memref.whole cc0_scratch1 : Memref sig .tc .vmem S512x1024 .bf16).access (Rect.unit (s := S512x1024) (k0_off6 c 3#32) S64x1024.size (Facts₀.k0_off6_inb c 3))) (rsAll m 0 c) (k0_pay33 (k0_pay30 (xld m 1 (k0_off6 c 2#32) (Facts₀.k0_off6_inb c 2)) (xld m 1 (k0_off6 c 3#32) (Facts₀.k0_off6_inb c 3)) (wInT1 m c f3) (wOutT1 m c f4))) Finset.univ) i = rsAll m 1 c i :=
  rs_gen_3 m 1 c (rsAll m 0 c) _ ((pay33_eq _ _ _ _).trans ((lower_congr (xf_load_val_2 c (fun k => XL m 1 k)) (xf_load_val_3 c (fun k => XL m 1 k)) (wIn_val_1 m c f3) (wOut_val_1 m c f4)).trans (RP_lower m 1 c 3 rfl (by decide)).symm))

theorem rs_val_1_4 (c : Dev nD) (f3 : Buf (Elt F) ((c : Thread nD τ).loc cc0_scratch3)) (f4 : Buf (Elt F) ((c : Thread nD τ).loc cc0_scratch4)) :
    ∀ i ∈ (chunkM rsM (Spec.peer c 4)).view.set, (View.write (Elt F) ((Memref.whole cc0_scratch1 : Memref sig .tc .vmem S512x1024 .bf16).access (Rect.unit (s := S512x1024) (k0_off6 c 4#32) S64x1024.size (Facts₀.k0_off6_inb c 4))) (rsAll m 0 c) (k0_pay35 (xld m 1 (k0_off6 c 4#32) (Facts₀.k0_off6_inb c 4)) (xld m 1 (k0_off6 c 5#32) (Facts₀.k0_off6_inb c 5)) (wInT1 m c f3) (wOutT1 m c f4)) Finset.univ) i = rsAll m 1 c i :=
  rs_gen_4 m 1 c (rsAll m 0 c) _ ((pay35_eq _ _ _ _).trans ((upper_congr (xf_load_val_4 c (fun k => XL m 1 k)) (xf_load_val_5 c (fun k => XL m 1 k)) (wIn_val_1 m c f3) (wOut_val_1 m c f4)).trans (RP_upper m 1 c 4 rfl (by decide)).symm))

theorem rs_val_1_5 (c : Dev nD) (f3 : Buf (Elt F) ((c : Thread nD τ).loc cc0_scratch3)) (f4 : Buf (Elt F) ((c : Thread nD τ).loc cc0_scratch4)) :
    ∀ i ∈ (chunkM rsM (Spec.peer c 5)).view.set, (View.write (Elt F) ((Memref.whole cc0_scratch1 : Memref sig .tc .vmem S512x1024 .bf16).access (Rect.unit (s := S512x1024) (k0_off6 c 5#32) S64x1024.size (Facts₀.k0_off6_inb c 5))) (rsAll m 0 c) (k0_pay36 (k0_pay34 (xld m 1 (k0_off6 c 4#32) (Facts₀.k0_off6_inb c 4)) (xld m 1 (k0_off6 c 5#32) (Facts₀.k0_off6_inb c 5)) (wInT1 m c f3) (wOutT1 m c f4))) Finset.univ) i = rsAll m 1 c i :=
  rs_gen_5 m 1 c (rsAll m 0 c) _ ((pay36_eq _ _ _ _).trans ((lower_congr (xf_load_val_4 c (fun k => XL m 1 k)) (xf_load_val_5 c (fun k => XL m 1 k)) (wIn_val_1 m c f3) (wOut_val_1 m c f4)).trans (RP_lower m 1 c 5 rfl (by decide)).symm))

theorem rs_val_1_6 (c : Dev nD) (f3 : Buf (Elt F) ((c : Thread nD τ).loc cc0_scratch3)) (f4 : Buf (Elt F) ((c : Thread nD τ).loc cc0_scratch4)) :
    ∀ i ∈ (chunkM rsM (Spec.peer c 6)).view.set, (View.write (Elt F) ((Memref.whole cc0_scratch1 : Memref sig .tc .vmem S512x1024 .bf16).access (Rect.unit (s := S512x1024) (k0_off6 c 6#32) S64x1024.size (Facts₀.k0_off6_inb c 6))) (rsAll m 0 c) (k0_pay38 (xld m 1 (k0_off6 c 6#32) (Facts₀.k0_off6_inb c 6)) (xld m 1 (k0_off6 c 7#32) (Facts₀.k0_off6_inb c 7)) (wInT1 m c f3) (wOutT1 m c f4)) Finset.univ) i = rsAll m 1 c i :=
  rs_gen_6 m 1 c (rsAll m 0 c) _ ((pay38_eq _ _ _ _).trans ((upper_congr (xf_load_val_6 c (fun k => XL m 1 k)) (xf_load_val_7 c (fun k => XL m 1 k)) (wIn_val_1 m c f3) (wOut_val_1 m c f4)).trans (RP_upper m 1 c 6 rfl (by decide)).symm))

theorem rs_val_1_7 (c : Dev nD) (f3 : Buf (Elt F) ((c : Thread nD τ).loc cc0_scratch3)) (f4 : Buf (Elt F) ((c : Thread nD τ).loc cc0_scratch4)) :
    ∀ i ∈ (chunkM rsM (Spec.peer c 7)).view.set, (View.write (Elt F) ((Memref.whole cc0_scratch1 : Memref sig .tc .vmem S512x1024 .bf16).access (Rect.unit (s := S512x1024) (k0_off6 c 7#32) S64x1024.size (Facts₀.k0_off6_inb c 7))) (rsAll m 0 c) (k0_pay39 (k0_pay37 (xld m 1 (k0_off6 c 6#32) (Facts₀.k0_off6_inb c 6)) (xld m 1 (k0_off6 c 7#32) (Facts₀.k0_off6_inb c 7)) (wInT1 m c f3) (wOutT1 m c f4))) Finset.univ) i = rsAll m 1 c i :=
  rs_gen_7 m 1 c (rsAll m 0 c) _ ((pay39_eq _ _ _ _).trans ((lower_congr (xf_load_val_6 c (fun k => XL m 1 k)) (xf_load_val_7 c (fun k => XL m 1 k)) (wIn_val_1 m c f3) (wOut_val_1 m c f4)).trans (RP_lower m 1 c 7 rfl (by decide)).symm))

omit m in
theorem pay44_val (X : Vec F S1x1024x2048 .f32) (D : S1024x2048.Idx → Elt F .f32)
    (hX : shapeCast S1024x2048 X shapeCasts_S1x1024x2048_S1024x2048 = D) : k0_pay44 X = Spec.narrowIn D := by
  unfold k0_pay44
  refine (shapeCast_self _ _).trans ?_
  rw [hX]; rfl
omit m in
theorem pay45_val (X : Vec F S1x2048x1024 .f32) (D : S2048x1024.Idx → Elt F .f32)
    (hX : shapeCast S2048x1024 X shapeCasts_S1x2048x1024_S2048x1024 = D) : k0_pay45 X = Spec.narrowOut D := by
  unfold k0_pay45
  refine (shapeCast_self _ _).trans ?_
  rw [hX]; rfl

abbrev wInT2 (c : Dev nD) (f3 : Buf (Elt F) ((c : Thread nD τ).loc cc0_scratch3)) : Spec.WIn F :=
  ((Memref.whole cc0_scratch5 : Memref sig .tc .vmem S1024x2048 .bf16).view.readCov [⟨(Rect.unit (s := S1024x2048) ![0, 0] S1024x2048.size inb_S1024x2048_S1024x2048_0_0), k0_pay44 (View.readAt (Elt F) (Memref.whole cc0_scratch3 : Memref sig .tc .vmem S2x1024x2048 .f32).view (Rect.unit (s := S2x1024x2048) ![0, 0, 0] S1x1024x2048.size inb_S2x1024x2048_S1x1024x2048_0_0_0).toLoadRect (View.write (Elt F) (((Memref.whole cc0_scratch3 : Memref sig .tc .vmem S2x1024x2048 .f32).slice (Rect.unit (s := S2x1024x2048) ![0, 0, 0] S1x1024x2048.size inb_S2x1024x2048_S1x1024x2048_0_0_0) (fun _ => rfl)).squeeze S1024x2048 squeezes_S1x1024x2048_S1024x2048).view (View.write (Elt F) (((Memref.whole cc0_scratch3 : Memref sig .tc .vmem S2x1024x2048 .f32).slice (Rect.unit (s := S2x1024x2048) ![1, 0, 0] S1x1024x2048.size inb_S2x1024x2048_S1x1024x2048_1_0_0) (fun _ => rfl)).squeeze S1024x2048 squeezes_S1x1024x2048_S1024x2048).view (View.write (Elt F) (((Memref.whole cc0_scratch3 : Memref sig .tc .vmem S2x1024x2048 .f32).slice (Rect.unit (s := S2x1024x2048) ![0, 0, 0] S1x1024x2048.size inb_S2x1024x2048_S1x1024x2048_0_0_0) (fun _ => rfl)).squeeze S1024x2048 squeezes_S1x1024x2048_S1024x2048).view f3 (ReadAs.same.apply (View.read (Elt F) (Memref.whole main_arg1).view (m ((c : Thread nD τ).loc main_arg1)))) Finset.univ) (ReadAs.same.apply (View.read (Elt F) (Memref.whole main_arg3).view (m ((c : Thread nD τ).loc main_arg3)))) Finset.univ) (ReadAs.same.apply (View.read (Elt F) (Memref.whole main_arg5).view (m ((c : Thread nD τ).loc main_arg5)))) Finset.univ))⟩, ⟨(Rect.unit (s := S1024x2048) ![0, 0] S1024x2048.size inb_S1024x2048_S1024x2048_0_0), k0_pay25 (k0_pay24 (View.readAt (Elt F) (Memref.whole cc0_scratch3 : Memref sig .tc .vmem S2x1024x2048 .f32).view (Rect.unit (s := S2x1024x2048) ![1, 0, 0] S1x1024x2048.size inb_S2x1024x2048_S1x1024x2048_1_0_0).toLoadRect (View.write (Elt F) (((Memref.whole cc0_scratch3 : Memref sig .tc .vmem S2x1024x2048 .f32).slice (Rect.unit (s := S2x1024x2048) ![1, 0, 0] S1x1024x2048.size inb_S2x1024x2048_S1x1024x2048_1_0_0) (fun _ => rfl)).squeeze S1024x2048 squeezes_S1x1024x2048_S1024x2048).view (View.write (Elt F) (((Memref.whole cc0_scratch3 : Memref sig .tc .vmem S2x1024x2048 .f32).slice (Rect.unit (s := S2x1024x2048) ![0, 0, 0] S1x1024x2048.size inb_S2x1024x2048_S1x1024x2048_0_0_0) (fun _ => rfl)).squeeze S1024x2048 squeezes_S1x1024x2048_S1024x2048).view f3 (ReadAs.same.apply (View.read (Elt F) (Memref.whole main_arg1).view (m ((c : Thread nD τ).loc main_arg1)))) Finset.univ) (ReadAs.same.apply (View.read (Elt F) (Memref.whole main_arg3).view (m ((c : Thread nD τ).loc main_arg3)))) Finset.univ)))⟩, ⟨(Rect.unit (s := S1024x2048) ![0, 0] S1024x2048.size inb_S1024x2048_S1024x2048_0_0), k0_pay3 (View.readAt (Elt F) (Memref.whole cc0_scratch3 : Memref sig .tc .vmem S2x1024x2048 .f32).view (Rect.unit (s := S2x1024x2048) ![0, 0, 0] S1x1024x2048.size inb_S2x1024x2048_S1x1024x2048_0_0_0).toLoadRect (View.write (Elt F) (((Memref.whole cc0_scratch3 : Memref sig .tc .vmem S2x1024x2048 .f32).slice (Rect.unit (s := S2x1024x2048) ![0, 0, 0] S1x1024x2048.size inb_S2x1024x2048_S1x1024x2048_0_0_0) (fun _ => rfl)).squeeze S1024x2048 squeezes_S1x1024x2048_S1024x2048).view f3 (ReadAs.same.apply (View.read (Elt F) (Memref.whole main_arg1).view (m ((c : Thread nD τ).loc main_arg1)))) Finset.univ))⟩] (Rect.unit (s := S1024x2048) ![0, 0] S1024x2048.size inb_S1024x2048_S1024x2048_0_0).toLoadRect)

theorem wIn_val_2 (c : Dev nD) (f3 : Buf (Elt F) ((c : Thread nD τ).loc cc0_scratch3)) :
    (wInT2 m c f3) = (par m).wi (lf 2) c :=
  (win_read_cons _ _).trans (pay44_val _ _ (slot_read_in ![0, 0, 0] inb_S2x1024x2048_S1x1024x2048_0_0_0 (fun _ => rfl) _ _))
abbrev wOutT2 (c : Dev nD) (f4 : Buf (Elt F) ((c : Thread nD τ).loc cc0_scratch4)) : Spec.WOut F :=
  ((Memref.whole cc0_scratch6 : Memref sig .tc .vmem S2048x1024 .bf16).view.readCov [⟨(Rect.unit (s := S2048x1024) ![0, 0] S2048x1024.size inb_S2048x1024_S2048x1024_0_0), k0_pay45 (View.readAt (Elt F) (Memref.whole cc0_scratch4 : Memref sig .tc .vmem S2x2048x1024 .f32).view (Rect.unit (s := S2x2048x1024) ![0, 0, 0] S1x2048x1024.size inb_S2x2048x1024_S1x2048x1024_0_0_0).toLoadRect (View.write (Elt F) (((Memref.whole cc0_scratch4 : Memref sig .tc .vmem S2x2048x1024 .f32).slice (Rect.unit (s := S2x2048x1024) ![0, 0, 0] S1x2048x1024.size inb_S2x2048x1024_S1x2048x1024_0_0_0) (fun _ => rfl)).squeeze S2048x1024 squeezes_S1x2048x1024_S2048x1024).view (View.write (Elt F) (((Memref.whole cc0_scratch4 : Memref sig .tc .vmem S2x2048x1024 .f32).slice (Rect.unit (s := S2x2048x1024) ![1, 0, 0] S1x2048x1024.size inb_S2x2048x1024_S1x2048x1024_1_0_0) (fun _ => rfl)).squeeze S2048x1024 squeezes_S1x2048x1024_S2048x1024).view (View.write (Elt F) (((Memref.whole cc0_scratch4 : Memref sig .tc .vmem S2x2048x1024 .f32).slice (Rect.unit (s := S2x2048x1024) ![0, 0, 0] S1x2048x1024.size inb_S2x2048x1024_S1x2048x1024_0_0_0) (fun _ => rfl)).squeeze S2048x1024 squeezes_S1x2048x1024_S2048x1024).view f4 (ReadAs.same.apply (View.read (Elt F) (Memref.whole main_arg2).view (m ((c : Thread nD τ).loc main_arg2)))) Finset.univ) (ReadAs.same.apply (View.read (Elt F) (Memref.whole main_arg4).view (m ((c : Thread nD τ).loc main_arg4)))) Finset.univ) (ReadAs.same.apply (View.read (Elt F) (Memref.whole main_arg6).view (m ((c : Thread nD τ).loc main_arg6)))) Finset.univ))⟩, ⟨(Rect.unit (s := S2048x1024) ![0, 0] S2048x1024.size inb_S2048x1024_S2048x1024_0_0), k0_pay26 (View.readAt (Elt F) (Memref.whole cc0_scratch4 : Memref sig .tc .vmem S2x2048x1024 .f32).view (Rect.unit (s := S2x2048x1024) ![1, 0, 0] S1x2048x1024.size inb_S2x2048x1024_S1x2048x1024_1_0_0).toLoadRect (View.write (Elt F) (((Memref.whole cc0_scratch4 : Memref sig .tc .vmem S2x2048x1024 .f32).slice (Rect.unit (s := S2x2048x1024) ![1, 0, 0] S1x2048x1024.size inb_S2x2048x1024_S1x2048x1024_1_0_0) (fun _ => rfl)).squeeze S2048x1024 squeezes_S1x2048x1024_S2048x1024).view (View.write (Elt F) (((Memref.whole cc0_scratch4 : Memref sig .tc .vmem S2x2048x1024 .f32).slice (Rect.unit (s := S2x2048x1024) ![0, 0, 0] S1x2048x1024.size inb_S2x2048x1024_S1x2048x1024_0_0_0) (fun _ => rfl)).squeeze S2048x1024 squeezes_S1x2048x1024_S2048x1024).view f4 (ReadAs.same.apply (View.read (Elt F) (Memref.whole main_arg2).view (m ((c : Thread nD τ).loc main_arg2)))) Finset.univ) (ReadAs.same.apply (View.read (Elt F) (Memref.whole main_arg4).view (m ((c : Thread nD τ).loc main_arg4)))) Finset.univ))⟩, ⟨(Rect.unit (s := S2048x1024) ![0, 0] S2048x1024.size inb_S2048x1024_S2048x1024_0_0), k0_pay4 (View.readAt (Elt F) (Memref.whole cc0_scratch4 : Memref sig .tc .vmem S2x2048x1024 .f32).view (Rect.unit (s := S2x2048x1024) ![0, 0, 0] S1x2048x1024.size inb_S2x2048x1024_S1x2048x1024_0_0_0).toLoadRect (View.write (Elt F) (((Memref.whole cc0_scratch4 : Memref sig .tc .vmem S2x2048x1024 .f32).slice (Rect.unit (s := S2x2048x1024) ![0, 0, 0] S1x2048x1024.size inb_S2x2048x1024_S1x2048x1024_0_0_0) (fun _ => rfl)).squeeze S2048x1024 squeezes_S1x2048x1024_S2048x1024).view f4 (ReadAs.same.apply (View.read (Elt F) (Memref.whole main_arg2).view (m ((c : Thread nD τ).loc main_arg2)))) Finset.univ))⟩] (Rect.unit (s := S2048x1024) ![0, 0] S2048x1024.size inb_S2048x1024_S2048x1024_0_0).toLoadRect)

theorem wOut_val_2 (c : Dev nD) (f4 : Buf (Elt F) ((c : Thread nD τ).loc cc0_scratch4)) :
    (wOutT2 m c f4) = (par m).wo (lf 2) c :=
  (wout_read_cons _ _).trans (pay45_val _ _ (slot_read_out ![0, 0, 0] inb_S2x2048x1024_S1x2048x1024_0_0_0 (fun _ => rfl) _ _))

omit m in
theorem pay49_eq (a b : Spec.Chunk F) (wi : Spec.WIn F) (wo : Spec.WOut F) : k0_pay49 (k0_pay46 a b wi) wo = Spec.lower a b wi wo := rfl
omit m in
theorem pay51_eq (a b : Spec.Chunk F) (wi : Spec.WIn F) (wo : Spec.WOut F) : k0_pay51 a b wi wo = Spec.upper a b wi wo := rfl
omit m in
theorem pay53_eq (a b : Spec.Chunk F) (wi : Spec.WIn F) (wo : Spec.WOut F) : shapeCast S64x1024 (k0_pay52 a b wi wo) shapeCasts_S64x1024_S64x1024 = Spec.lower a b wi wo := rfl
omit m in
theorem pay55_eq (a b : Spec.Chunk F) (wi : Spec.WIn F) (wo : Spec.WOut F) : k0_pay55 a b wi wo = Spec.upper a b wi wo := rfl
omit m in
theorem pay56_eq (a b : Spec.Chunk F) (wi : Spec.WIn F) (wo : Spec.WOut F) : k0_pay56 a b wi wo = Spec.lower a b wi wo := rfl
omit m in
theorem pay58_eq (a b : Spec.Chunk F) (wi : Spec.WIn F) (wo : Spec.WOut F) : k0_pay58 a b wi wo = Spec.upper a b wi wo := rfl
omit m in
theorem pay59_eq (a b : Spec.Chunk F) (wi : Spec.WIn F) (wo : Spec.WOut F) : k0_pay59 a b wi wo = Spec.lower a b wi wo := rfl

theorem rs_val_2_1 (c : Dev nD) (f3 : Buf (Elt F) ((c : Thread nD τ).loc cc0_scratch3)) (f4 : Buf (Elt F) ((c : Thread nD τ).loc cc0_scratch4)) :
    ∀ i ∈ (chunkM rsM (Spec.peer c 1)).view.set, (View.write (Elt F) ((Memref.whole cc0_scratch1 : Memref sig .tc .vmem S512x1024 .bf16).access (Rect.unit (s := S512x1024) (k0_off6 c 1#32) S64x1024.size (Facts₀.k0_off6_inb c 1))) (rsAll m 1 c) (k0_pay49 (k0_pay46 (xld m 2 (k0_off6 c 0#32) (Facts₀.k0_off6_inb c 0)) (xld m 2 (k0_off6 c 1#32) (Facts₀.k0_off6_inb c 1)) (wInT2 m c f3)) (wOutT2 m c f4)) Finset.univ) i = rsAll m 2 c i :=
  rs_gen_1 m 2 c (rsAll m 1 c) _ ((pay49_eq _ _ _ _).trans ((lower_congr ((xf_load_val_0 c (fun k => XL m 2 k)).trans (congrArg (XL m 2) (peer_off_zero c).symm)) (xf_load_val_1 c (fun k => XL m 2 k)) (wIn_val_2 m c f3) (wOut_val_2 m c f4)).trans (RP_lower m 2 c 1 rfl (by decide)).symm))

theorem rs_val_2_2 (c : Dev nD) (f3 : Buf (Elt F) ((c : Thread nD τ).loc cc0_scratch3)) (f4 : Buf (Elt F) ((c : Thread nD τ).loc cc0_scratch4)) :
    ∀ i ∈ (chunkM rsM (Spec.peer c 2)).view.set, (View.write (Elt F) ((Memref.whole cc0_scratch1 : Memref sig .tc .vmem S512x1024 .bf16).access (Rect.unit (s := S512x1024) (k0_off6 c 2#32) S64x1024.size (Facts₀.k0_off6_inb c 2))) (rsAll m 1 c) (k0_pay51 (xld m 2 (k0_off6 c 2#32) (Facts₀.k0_off6_inb c 2)) (xld m 2 (k0_off6 c 3#32) (Facts₀.k0_off6_inb c 3)) (wInT2 m c f3) (wOutT2 m c f4)) Finset.univ) i = rsAll m 2 c i :=
  rs_gen_2 m 2 c (rsAll m 1 c) _ ((pay51_eq _ _ _ _).trans ((upper_congr (xf_load_val_2 c (fun k => XL m 2 k)) (xf_load_val_3 c (fun k => XL m 2 k)) (wIn_val_2 m c f3) (wOut_val_2 m c f4)).trans (RP_upper m 2 c 2 rfl (by decide)).symm))

theorem rs_val_2_3 (c : Dev nD) (f3 : Buf (Elt F) ((c : Thread nD τ).loc cc0_scratch3)) (f4 : Buf (Elt F) ((c : Thread nD τ).loc cc0_scratch4)) :
    ∀ i ∈ (chunkM rsM (Spec.peer c 3)).view.set, (View.write (Elt F) ((Memref.whole cc0_scratch1 : Memref sig .tc .vmem S512x1024 .bf16).access (Rect.unit (s := S512x1024) (k0_off6 c 3#32) S64x1024.size (Facts₀.k0_off6_inb c 3))) (rsAll m 1 c) (shapeCast S64x1024 (k0_pay52 (xld m 2 (k0_off6 c 2#32) (Facts₀.k0_off6_inb c 2)) (xld m 2 (k0_off6 c 3#32) (Facts₀.k0_off6_inb c 3)) (wInT2 m c f3) (wOutT2 m c f4)) shapeCasts_S64x1024_S64x1024) Finset.univ) i = rsAll m 2 c i :=
  rs_gen_3 m 2 c (rsAll m 1 c) _ ((pay53_eq _ _ _ _).trans ((lower_congr (xf_load_val_2 c (fun k => XL m 2 k)) (xf_load_val_3 c (fun k => XL m 2 k)) (wIn_val_2 m c f3) (wOut_val_2 m c f4)).trans (RP_lower m 2 c 3 rfl (by decide)).symm))

theorem rs_val_2_4 (c : Dev nD) (f3 : Buf (Elt F) ((c : Thread nD τ).loc cc0_scratch3)) (f4 : Buf (Elt F) ((c : Thread nD τ).loc cc0_scratch4)) :
    ∀ i ∈ (chunkM rsM (Spec.peer c 4)).view.set, (View.write (Elt F) ((Memref.whole cc0_scratch1 : Memref sig .tc .vmem S512x1024 .bf16).access (Rect.unit (s := S512x1024) (k0_off6 c 4#32) S64x1024.size (Facts₀.k0_off6_inb c 4))) (rsAll m 1 c) (k0_pay55 (xld m 2 (k0_off6 c 4#32) (Facts₀.k0_off6_inb c 4)) (xld m 2 (k0_off6 c 5#32) (Facts₀.k0_off6_inb c 5)) (wInT2 m c f3) (wOutT2 m c f4)) Finset.univ) i = rsAll m 2 c i :=
  rs_gen_4 m 2 c (rsAll m 1 c) _ ((pay55_eq _ _ _ _).trans ((upper_congr (xf_load_val_4 c (fun k => XL m 2 k)) (xf_load_val_5 c (fun k => XL m 2 k)) (wIn_val_2 m c f3) (wOut_val_2 m c f4)).trans (RP_upper m 2 c 4 rfl (by decide)).symm))

theorem rs_val_2_5 (c : Dev nD) (f3 : Buf (Elt F) ((c : Thread nD τ).loc cc0_scratch3)) (f4 : Buf (Elt F) ((c : Thread nD τ).loc cc0_scratch4)) :
    ∀ i ∈ (chunkM rsM (Spec.peer c 5)).view.set, (View.write (Elt F) ((Memref.whole cc0_scratch1 : Memref sig .tc .vmem S512x1024 .bf16).access (Rect.unit (s := S512x1024) (k0_off6 c 5#32) S64x1024.size (Facts₀.k0_off6_inb c 5))) (rsAll m 1 c) (k0_pay56 (xld m 2 (k0_off6 c 4#32) (Facts₀.k0_off6_inb c 4)) (xld m 2 (k0_off6 c 5#32) (Facts₀.k0_off6_inb c 5)) (wInT2 m c f3) (wOutT2 m c f4)) Finset.univ) i = rsAll m 2 c i :=
  rs_gen_5 m 2 c (rsAll m 1 c) _ ((pay56_eq _ _ _ _).trans ((lower_congr (xf_load_val_4 c (fun k => XL m 2 k)) (xf_load_val_5 c (fun k => XL m 2 k)) (wIn_val_2 m c f3) (wOut_val_2 m c f4)).trans (RP_lower m 2 c 5 rfl (by decide)).symm))

theorem rs_val_2_6 (c : Dev nD) (f3 : Buf (Elt F) ((c : Thread nD τ).loc cc0_scratch3)) (f4 : Buf (Elt F) ((c : Thread nD τ).loc cc0_scratch4)) :
    ∀ i ∈ (chunkM rsM (Spec.peer c 6)).view.set, (View.write (Elt F) ((Memref.whole cc0_scratch1 : Memref sig .tc .vmem S512x1024 .bf16).access (Rect.unit (s := S512x1024) (k0_off6 c 6#32) S64x1024.size (Facts₀.k0_off6_inb c 6))) (rsAll m 1 c) (k0_pay58 (xld m 2 (k0_off6 c 6#32) (Facts₀.k0_off6_inb c 6)) (xld m 2 (k0_off6 c 7#32) (Facts₀.k0_off6_inb c 7)) (wInT2 m c f3) (wOutT2 m c f4)) Finset.univ) i = rsAll m 2 c i :=
  rs_gen_6 m 2 c (rsAll m 1 c) _ ((pay58_eq _ _ _ _).trans ((upper_congr (xf_load_val_6 c (fun k => XL m 2 k)) (xf_load_val_7 c (fun k => XL m 2 k)) (wIn_val_2 m c f3) (wOut_val_2 m c f4)).trans (RP_upper m 2 c 6 rfl (by decide)).symm))

theorem rs_val_2_7 (c : Dev nD) (f3 : Buf (Elt F) ((c : Thread nD τ).loc cc0_scratch3)) (f4 : Buf (Elt F) ((c : Thread nD τ).loc cc0_scratch4)) :
    ∀ i ∈ (chunkM rsM (Spec.peer c 7)).view.set, (View.write (Elt F) ((Memref.whole cc0_scratch1 : Memref sig .tc .vmem S512x1024 .bf16).access (Rect.unit (s := S512x1024) (k0_off6 c 7#32) S64x1024.size (Facts₀.k0_off6_inb c 7))) (rsAll m 1 c) (k0_pay59 (xld m 2 (k0_off6 c 6#32) (Facts₀.k0_off6_inb c 6)) (xld m 2 (k0_off6 c 7#32) (Facts₀.k0_off6_inb c 7)) (wInT2 m c f3) (wOutT2 m c f4)) Finset.univ) i = rsAll m 2 c i :=
  rs_gen_7 m 2 c (rsAll m 1 c) _ ((pay59_eq _ _ _ _).trans ((lower_congr (xf_load_val_6 c (fun k => XL m 2 k)) (xf_load_val_7 c (fun k => XL m 2 k)) (wIn_val_2 m c f3) (wOut_val_2 m c f4)).trans (RP_lower m 2 c 7 rfl (by decide)).symm))

end Cert.KernelIdeal.Proto

end
-- ==== Proof.KI.ValsR.lean ====
import proofs.«900981_g7700000000000982_dist_mlpseq_tp1d_bs_bs_b64_d1024_h2048_v7x_i8_bf16_1_alg».proof.Proof.KI.Vals
import proofs.«900981_g7700000000000982_dist_mlpseq_tp1d_bs_bs_b64_d1024_h2048_v7x_i8_bf16_1_alg».proof.Proof.KI.Inv

noncomputable section

namespace Cert.KernelIdeal.Proto

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ)

section Pay
variable (a b : Spec.Chunk F) (wi : Spec.WIn F) (wo : Spec.WOut F) (acc : FVec F S64x1024 .f32) (v1 v2 v3 : Spec.Chunk F)

theorem pay28_eq : k0_pay28 a b wi wo = Spec.keep a b wi wo := rfl

theorem pay48_eq : k0_pay48 (k0_pay46 a b wi) wo = Spec.keep a b wi wo := rfl

theorem pay19_eq : k0_pay19 acc v1 v2 = Spec.plus (Spec.plus acc v1) v2 := rfl
theorem pay21_eq : k0_pay21 acc (k0_pay20 v1) v2 v3 = Spec.plus (Spec.plus (Spec.plus acc v1) v2) v3 := rfl
theorem pay22_eq : k0_pay22 acc v1 v2 = Spec.plus (Spec.plus acc v1) v2 := rfl
theorem pay40_eq : k0_pay40 acc v1 v2 v3 = Spec.plus (Spec.plus (Spec.plus acc v1) v2) v3 := rfl
theorem pay41_eq : k0_pay41 acc v1 v2 = Spec.plus (Spec.plus acc v1) v2 := rfl
theorem pay42_eq : k0_pay42 acc v1 v2 = Spec.plus (Spec.plus acc v1) v2 := rfl
theorem pay60_eq : k0_pay60 acc v1 = Spec.plus acc v1 := rfl
theorem pay61_eq : k0_pay61 acc v1 v2 v3 = Spec.plus (Spec.plus (Spec.plus acc v1) v2) v3 := rfl
theorem pay62_eq : k0_pay62 acc v1 v2 = Spec.plus (Spec.plus acc v1) v2 := rfl

theorem pay43_eq : k0_pay43 acc = k0_pay23 acc := rfl

end Pay

theorem RP_peer (l : ℕ) (c : Dev nD) (W : ℕ) (h1 : W ≠ 0) (h2 : W < 8) :
    RP m l (Spec.peer c W) c
      = Spec.piece (Spec.XL (par m) l) ((par m).wi (lf l)) ((par m).wo (lf l)) (Spec.peer c W) (8 - W) := by
  unfold RP
  rw [show dist (Spec.peer c W) c = 8 - W from dist_peer_self c ⟨W, h2⟩ (fun e => h1 (congrArg Fin.val e))]

theorem sum_val (l : ℕ) (hl : l < 2) (c : Dev nD) :
    k0_pay23 (Spec.plus (Spec.plus (Spec.plus (Spec.plus (Spec.plus (Spec.plus (Spec.plus (Spec.keep (XL m l c) (XL m l (Spec.peer c 1)) ((par m).wi (lf l) c) ((par m).wo (lf l) c)) (RP m l (Spec.peer c 7) c)) (RP m l (Spec.peer c 6) c)) (RP m l (Spec.peer c 5) c)) (RP m l (Spec.peer c 4) c)) (RP m l (Spec.peer c 3) c)) (RP m l (Spec.peer c 2) c)) (RP m l (Spec.peer c 1) c))
      = XL m (l + 1) c := by
  rw [RP_peer m l c 7 (by decide) (by decide), RP_peer m l c 6 (by decide) (by decide), RP_peer m l c 5 (by decide) (by decide), RP_peer m l c 4 (by decide) (by decide),
    RP_peer m l c 3 (by decide) (by decide), RP_peer m l c 2 (by decide) (by decide), RP_peer m l c 1 (by decide) (by decide)]
  rcases l with _ | _ | l
  · rfl
  · rfl
  · omega

theorem out_val (c : Dev nD) :
    k0_pay1 (Spec.plus (Spec.plus (Spec.plus (Spec.plus (Spec.plus (Spec.plus (Spec.plus (Spec.keep (XL m 2 c) (XL m 2 (Spec.peer c 1)) ((par m).wi (lf 2) c) ((par m).wo (lf 2) c)) (RP m 2 (Spec.peer c 7) c)) (RP m 2 (Spec.peer c 6) c)) (RP m 2 (Spec.peer c 5) c)) (RP m 2 (Spec.peer c 4) c)) (RP m 2 (Spec.peer c 3) c)) (RP m 2 (Spec.peer c 2) c)) (RP m 2 (Spec.peer c 1) c))
      = outAt m c := by
  rw [RP_peer m 2 c 7 (by decide) (by decide), RP_peer m 2 c 6 (by decide) (by decide), RP_peer m 2 c 5 (by decide) (by decide), RP_peer m 2 c 4 (by decide) (by decide),
    RP_peer m 2 c 3 (by decide) (by decide), RP_peer m 2 c 2 (by decide) (by decide), RP_peer m 2 c 1 (by decide) (by decide)]
  rfl

end Cert.KernelIdeal.Proto

end
-- ==== Proof.KI.ValsR2.lean ====
import proofs.«900981_g7700000000000982_dist_mlpseq_tp1d_bs_bs_b64_d1024_h2048_v7x_i8_bf16_1_alg».proof.Proof.KI.ValsR
import proofs.«900981_g7700000000000982_dist_mlpseq_tp1d_bs_bs_b64_d1024_h2048_v7x_i8_bf16_1_alg».proof.Proof.KI.Vals

noncomputable section

namespace Cert.KernelIdeal.Proto

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ)

section Core
variable (c : Dev nD) (a b : Spec.Chunk F) (wIn : Spec.WIn F) (wOut : Spec.WOut F) (r7 r6 r5 r4 r3 r2 r1 : Spec.Chunk F)

theorem sum_core (l : ℕ) (hl : l < 2)
    (ha : a = XL m l c) (hb : b = XL m l (Spec.peer c 1)) (hwi : wIn = (par m).wi (lf l) c) (hwo : wOut = (par m).wo (lf l) c)
    (h7 : r7 = RP m l (Spec.peer c 7) c) (h6 : r6 = RP m l (Spec.peer c 6) c) (h5 : r5 = RP m l (Spec.peer c 5) c)
    (h4 : r4 = RP m l (Spec.peer c 4) c) (h3 : r3 = RP m l (Spec.peer c 3) c) (h2 : r2 = RP m l (Spec.peer c 2) c)
    (h1 : r1 = RP m l (Spec.peer c 1) c) :
    k0_pay23 (Spec.plus (Spec.plus (Spec.plus (Spec.plus (Spec.plus (Spec.plus (Spec.plus (Spec.keep a b wIn wOut) (r7)) (r6)) (r5)) (r4)) (r3)) (r2)) (r1)) = XL m (l + 1) c := by
  subst ha hb hwi hwo h7 h6 h5 h4 h3 h2 h1
  exact sum_val m l hl c

theorem out_core
    (ha : a = XL m 2 c) (hb : b = XL m 2 (Spec.peer c 1)) (hwi : wIn = (par m).wi (lf 2) c) (hwo : wOut = (par m).wo (lf 2) c)
    (h7 : r7 = RP m 2 (Spec.peer c 7) c) (h6 : r6 = RP m 2 (Spec.peer c 6) c) (h5 : r5 = RP m 2 (Spec.peer c 5) c)
    (h4 : r4 = RP m 2 (Spec.peer c 4) c) (h3 : r3 = RP m 2 (Spec.peer c 3) c) (h2 : r2 = RP m 2 (Spec.peer c 2) c)
    (h1 : r1 = RP m 2 (Spec.peer c 1) c) :
    k0_pay1 (Spec.plus (Spec.plus (Spec.plus (Spec.plus (Spec.plus (Spec.plus (Spec.plus (Spec.keep a b wIn wOut) (r7)) (r6)) (r5)) (r4)) (r3)) (r2)) (r1)) = outAt m c := by
  subst ha hb hwi hwo h7 h6 h5 h4 h3 h2 h1
  exact out_val m c

end Core

theorem own_val_1 (c : Dev nD) (f0 : Buf (Elt F) ((c : Thread nD τ).loc cc0_scratch0)) (wIn : Spec.WIn F) (wOut : Spec.WOut F)
    (hwi : wIn = (par m).wi (lf 0) c) (hwo : wOut = (par m).wo (lf 0) c) :
    ∀ i ∈ (chunkM xfM c).view.set,
      (View.write (Elt F) ((Memref.whole cc0_scratch0 : Memref sig .tc .vmem S512x1024 .bf16).access (Rect.unit (s := S512x1024) (k0_off1 c) S64x1024.size (Facts₀.k0_off1_inb c))) f0
        (k0_pay23 (k0_pay22 (k0_pay21 (k0_pay19 (k0_pay6 (View.readAt (Elt F) (Memref.whole cc0_scratch0 : Memref sig .tc .vmem S512x1024 .bf16).view (Rect.unit (s := S512x1024) (k0_off6 c 0#32) S64x1024.size (Facts₀.k0_off6_inb c 0)).toLoadRect (xfAll m 0)) (View.readAt (Elt F) (Memref.whole cc0_scratch0 : Memref sig .tc .vmem S512x1024 .bf16).view (Rect.unit (s := S512x1024) (k0_off6 c 1#32) S64x1024.size (Facts₀.k0_off6_inb c 1)).toLoadRect (xfAll m 0)) wIn wOut)
          (View.readAt (Elt F) (Memref.whole cc0_scratch2 : Memref sig .tc .vmem S512x1024 .bf16).view (Rect.unit (s := S512x1024) (k0_off6 c 7#32) S64x1024.size (Facts₀.k0_off6_inb c 7)).toLoadRect (rrAll m 0 c)) (View.readAt (Elt F) (Memref.whole cc0_scratch2 : Memref sig .tc .vmem S512x1024 .bf16).view (Rect.unit (s := S512x1024) (k0_off6 c 6#32) S64x1024.size (Facts₀.k0_off6_inb c 6)).toLoadRect (rrAll m 0 c)))
          (k0_pay20 (View.readAt (Elt F) (Memref.whole cc0_scratch2 : Memref sig .tc .vmem S512x1024 .bf16).view (Rect.unit (s := S512x1024) (k0_off6 c 5#32) S64x1024.size (Facts₀.k0_off6_inb c 5)).toLoadRect (rrAll m 0 c))) (View.readAt (Elt F) (Memref.whole cc0_scratch2 : Memref sig .tc .vmem S512x1024 .bf16).view (Rect.unit (s := S512x1024) (k0_off6 c 4#32) S64x1024.size (Facts₀.k0_off6_inb c 4)).toLoadRect (rrAll m 0 c)) (View.readAt (Elt F) (Memref.whole cc0_scratch2 : Memref sig .tc .vmem S512x1024 .bf16).view (Rect.unit (s := S512x1024) (k0_off6 c 3#32) S64x1024.size (Facts₀.k0_off6_inb c 3)).toLoadRect (rrAll m 0 c)))
          (View.readAt (Elt F) (Memref.whole cc0_scratch2 : Memref sig .tc .vmem S512x1024 .bf16).view (Rect.unit (s := S512x1024) (k0_off6 c 2#32) S64x1024.size (Facts₀.k0_off6_inb c 2)).toLoadRect (rrAll m 0 c)) (View.readAt (Elt F) (Memref.whole cc0_scratch2 : Memref sig .tc .vmem S512x1024 .bf16).view (Rect.unit (s := S512x1024) (k0_off6 c 1#32) S64x1024.size (Facts₀.k0_off6_inb c 1)).toLoadRect (rrAll m 0 c)))) Finset.univ) i = xfAll m 1 i :=
  own_store_val c f0 _ (fun k => XL m 1 k) (by
    rw [pay22_eq, pay21_eq, pay19_eq]
    exact sum_core m c _ _ wIn wOut _ _ _ _ _ _ _ 0 (by decide) (xf_load_val_0 c _) (xf_load_val_1 c _) hwi hwo (rr_load_val_7 c _) (rr_load_val_6 c _) (rr_load_val_5 c _) (rr_load_val_4 c _) (rr_load_val_3 c _) (rr_load_val_2 c _) (rr_load_val_1 c _))

theorem own_val_2 (c : Dev nD) (f0 : Buf (Elt F) ((c : Thread nD τ).loc cc0_scratch0)) (wIn : Spec.WIn F) (wOut : Spec.WOut F)
    (hwi : wIn = (par m).wi (lf 1) c) (hwo : wOut = (par m).wo (lf 1) c) :
    ∀ i ∈ (chunkM xfM c).view.set,
      (View.write (Elt F) ((Memref.whole cc0_scratch0 : Memref sig .tc .vmem S512x1024 .bf16).access (Rect.unit (s := S512x1024) (k0_off1 c) S64x1024.size (Facts₀.k0_off1_inb c))) f0
        (k0_pay43 (k0_pay42 (k0_pay41 (k0_pay40 (k0_pay28 (View.readAt (Elt F) (Memref.whole cc0_scratch0 : Memref sig .tc .vmem S512x1024 .bf16).view (Rect.unit (s := S512x1024) (k0_off6 c 0#32) S64x1024.size (Facts₀.k0_off6_inb c 0)).toLoadRect (xfAll m 1)) (View.readAt (Elt F) (Memref.whole cc0_scratch0 : Memref sig .tc .vmem S512x1024 .bf16).view (Rect.unit (s := S512x1024) (k0_off6 c 1#32) S64x1024.size (Facts₀.k0_off6_inb c 1)).toLoadRect (xfAll m 1)) wIn wOut)
          (View.readAt (Elt F) (Memref.whole cc0_scratch2 : Memref sig .tc .vmem S512x1024 .bf16).view (Rect.unit (s := S512x1024) (k0_off6 c 7#32) S64x1024.size (Facts₀.k0_off6_inb c 7)).toLoadRect (rrAll m 1 c)) (View.readAt (Elt F) (Memref.whole cc0_scratch2 : Memref sig .tc .vmem S512x1024 .bf16).view (Rect.unit (s := S512x1024) (k0_off6 c 6#32) S64x1024.size (Facts₀.k0_off6_inb c 6)).toLoadRect (rrAll m 1 c)) (View.readAt (Elt F) (Memref.whole cc0_scratch2 : Memref sig .tc .vmem S512x1024 .bf16).view (Rect.unit (s := S512x1024) (k0_off6 c 5#32) S64x1024.size (Facts₀.k0_off6_inb c 5)).toLoadRect (rrAll m 1 c)))
          (View.readAt (Elt F) (Memref.whole cc0_scratch2 : Memref sig .tc .vmem S512x1024 .bf16).view (Rect.unit (s := S512x1024) (k0_off6 c 4#32) S64x1024.size (Facts₀.k0_off6_inb c 4)).toLoadRect (rrAll m 1 c)) (View.readAt (Elt F) (Memref.whole cc0_scratch2 : Memref sig .tc .vmem S512x1024 .bf16).view (Rect.unit (s := S512x1024) (k0_off6 c 3#32) S64x1024.size (Facts₀.k0_off6_inb c 3)).toLoadRect (rrAll m 1 c)))
          (View.readAt (Elt F) (Memref.whole cc0_scratch2 : Memref sig .tc .vmem S512x1024 .bf16).view (Rect.unit (s := S512x1024) (k0_off6 c 2#32) S64x1024.size (Facts₀.k0_off6_inb c 2)).toLoadRect (rrAll m 1 c)) (View.readAt (Elt F) (Memref.whole cc0_scratch2 : Memref sig .tc .vmem S512x1024 .bf16).view (Rect.unit (s := S512x1024) (k0_off6 c 1#32) S64x1024.size (Facts₀.k0_off6_inb c 1)).toLoadRect (rrAll m 1 c)))) Finset.univ) i = xfAll m 2 i :=
  own_store_val c f0 _ (fun k => XL m 2 k) (by
    rw [pay43_eq, pay42_eq, pay41_eq, pay40_eq, pay28_eq]
    exact sum_core m c _ _ wIn wOut _ _ _ _ _ _ _ 1 (by decide) (xf_load_val_0 c _) (xf_load_val_1 c _) hwi hwo (rr_load_val_7 c _) (rr_load_val_6 c _) (rr_load_val_5 c _) (rr_load_val_4 c _) (rr_load_val_3 c _) (rr_load_val_2 c _) (rr_load_val_1 c _))

theorem res_val (c : Dev nD) (wIn : Spec.WIn F) (wOut : Spec.WOut F)
    (hwi : wIn = (par m).wi (lf 2) c) (hwo : wOut = (par m).wo (lf 2) c) :
    k0_pay1 (k0_pay63 (k0_pay62 (k0_pay61 (k0_pay60 (k0_pay48 (k0_pay46 (View.readAt (Elt F) (Memref.whole cc0_scratch0 : Memref sig .tc .vmem S512x1024 .bf16).view (Rect.unit (s := S512x1024) (k0_off6 c 0#32) S64x1024.size (Facts₀.k0_off6_inb c 0)).toLoadRect (xfAll m 2)) (View.readAt (Elt F) (Memref.whole cc0_scratch0 : Memref sig .tc .vmem S512x1024 .bf16).view (Rect.unit (s := S512x1024) (k0_off6 c 1#32) S64x1024.size (Facts₀.k0_off6_inb c 1)).toLoadRect (xfAll m 2)) wIn) wOut)
          (View.readAt (Elt F) (Memref.whole cc0_scratch2 : Memref sig .tc .vmem S512x1024 .bf16).view (Rect.unit (s := S512x1024) (k0_off6 c 7#32) S64x1024.size (Facts₀.k0_off6_inb c 7)).toLoadRect (rrAll m 2 c)))
          (View.readAt (Elt F) (Memref.whole cc0_scratch2 : Memref sig .tc .vmem S512x1024 .bf16).view (Rect.unit (s := S512x1024) (k0_off6 c 6#32) S64x1024.size (Facts₀.k0_off6_inb c 6)).toLoadRect (rrAll m 2 c)) (View.readAt (Elt F) (Memref.whole cc0_scratch2 : Memref sig .tc .vmem S512x1024 .bf16).view (Rect.unit (s := S512x1024) (k0_off6 c 5#32) S64x1024.size (Facts₀.k0_off6_inb c 5)).toLoadRect (rrAll m 2 c)) (View.readAt (Elt F) (Memref.whole cc0_scratch2 : Memref sig .tc .vmem S512x1024 .bf16).view (Rect.unit (s := S512x1024) (k0_off6 c 4#32) S64x1024.size (Facts₀.k0_off6_inb c 4)).toLoadRect (rrAll m 2 c)))
          (View.readAt (Elt F) (Memref.whole cc0_scratch2 : Memref sig .tc .vmem S512x1024 .bf16).view (Rect.unit (s := S512x1024) (k0_off6 c 3#32) S64x1024.size (Facts₀.k0_off6_inb c 3)).toLoadRect (rrAll m 2 c)) (View.readAt (Elt F) (Memref.whole cc0_scratch2 : Memref sig .tc .vmem S512x1024 .bf16).view (Rect.unit (s := S512x1024) (k0_off6 c 2#32) S64x1024.size (Facts₀.k0_off6_inb c 2)).toLoadRect (rrAll m 2 c)))
          (View.readAt (Elt F) (Memref.whole cc0_scratch2 : Memref sig .tc .vmem S512x1024 .bf16).view (Rect.unit (s := S512x1024) (k0_off6 c 1#32) S64x1024.size (Facts₀.k0_off6_inb c 1)).toLoadRect (rrAll m 2 c))) = outAt m c := by
  rw [pay62_eq, pay61_eq, pay60_eq, pay48_eq]
  exact out_core m c _ _ wIn wOut _ _ _ _ _ _ _ (xf_load_val_0 c _) (xf_load_val_1 c _) hwi hwo (rr_load_val_7 c _) (rr_load_val_6 c _) (rr_load_val_5 c _) (rr_load_val_4 c _) (rr_load_val_3 c _) (rr_load_val_2 c _) (rr_load_val_1 c _)

theorem out_staged (c : Dev nD) (fo : Buf (Elt F) ((c : Thread nD τ).loc cc0_stg1_0)) (x : FVec F S64x1024 .bf16) (h : x = outAt m c) :
    (Memref.whole cc0_stg1_0 : Memref sig .tc .vmem S64x1024 .bf16).view.writes (Elt F) fo
        [⟨Rect.unit (s := S64x1024) ![0, 0] S64x1024.size Facts₀.inb_S64x1024_S64x1024_0_0, x⟩] = outAt m c := by
  rw [← h]
  show View.write (Elt F) ((Memref.whole cc0_stg1_0 : Memref sig .tc .vmem S64x1024 .bf16).access
      (Rect.unit (s := S64x1024) ![0, 0] S64x1024.size Facts₀.inb_S64x1024_S64x1024_0_0)) fo x Finset.univ = x
  exact Memref.write_access_unit_zero_univ (Elt F) cc0_stg1_0 zero_offsets _ fo x

end Cert.KernelIdeal.Proto

end
-- ==== Proof.KI.Sends.lean ====
import proofs.«900981_g7700000000000982_dist_mlpseq_tp1d_bs_bs_b64_d1024_h2048_v7x_i8_bf16_1_alg».proof.Proof.KI.Glue
import proofs.«900981_g7700000000000982_dist_mlpseq_tp1d_bs_bs_b64_d1024_h2048_v7x_i8_bf16_1_alg».proof.Proof.KI.Tables

noncomputable section

namespace Cert.KernelIdeal.Proto

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ)

theorem peer_ne_nat (c : Dev nD) (o : ℕ) (ho : 1 ≤ o) (ho' : o ≤ 7) : c ≠ Spec.peer c o :=
  peer_ne c ⟨o, by omega⟩ (fun h => by have := congrArg Fin.val h; simp at this; omega)
theorem peer_ne_nat' (c : Dev nD) (o : ℕ) (ho : 1 ≤ o) (ho' : o ≤ 7) : Spec.peer c o ≠ c := fun h => peer_ne_nat c o ho ho' h.symm
theorem dist_peer_nat (c : Dev nD) (o : ℕ) (ho' : o ≤ 7) : dist c (Spec.peer c o) = o := dist_self_peer c ⟨o, by omega⟩

omit [FloatOps F] in

theorem amount_chunk (M : Memref sig .tc .vmem S512x1024 .bf16) (k : Dev nD) (q : DmaSem sig) :
    (chunkM M k).view.amount (.dma q) = (chunkM M 0).view.dmaCredit := rfl

omit [FloatOps F] in

theorem amount_chunk_rr (k : Dev nD) (q : DmaSem sig) : (chunkM rrM k).view.amount (.dma q) = N := rfl

theorem wp_ag_send (K : GSem nD τ sig → ℕ) (c : Dev nD) (o : ℕ) (ho : 1 ≤ o) (ho' : o ≤ 7) (l : ℕ) (hl : l < 3)
    {hsc : (chunkM xfM c : Memref sig (Dev.tc (Spec.peer c o) : Thread nD τ).2.kind .vmem S64x1024 .bf16).view.ref.isScScratch = false}
    {hsrc : (chunkM xfM c : Memref sig .tc .vmem S64x1024 .bf16).view.WordExact} {hdst : (chunkM xfM c : Memref sig .tc .vmem S64x1024 .bf16).view.WordExact}
    {hsem : DmaTarget.Typed .vmem (.dma (dsem 1 c)) (.remote (Dev.tc (Spec.peer c o) : Thread nD τ) (chunkM xfM c : Memref sig .tc .vmem S64x1024 .bf16) (.dma (dsem 0 (Spec.peer c o))) hsc)}
    {α : Type} {Q : α → sProp 𝕄} {k : PUnit → Prog (TpuEff nD τ sig (Elt F) Λ₀ .tc) α}
    (fd : Buf (Elt F) ((chunkM xfM c).view.loc (Spec.peer c o : Thread nD τ))) (E : sProp 𝕄) (O : CellTallies nD τ sig ℕ) (W : Waits sig ℕ)
    (hE : E ⊢ (if 1 ≤ l then iprop(slot (F := F) rrM c (Spec.peer c o) ∗ reached ER (cell c 3 (Spec.peer c o)) l) else iprop(emp))) :
    iprop(cellInv ER (sched m) (K (cell c 0 (Spec.peer c o))) (cell c 0 (Spec.peer c o))
        ∗ cellInv ER (sched m) (K (cell (Spec.peer c o) 1 c)) (cell (Spec.peer c o) 1 c)
        ∗ ((chunkM xfM c).view.loc (c : Thread nD τ) ↦[(chunkM xfM c).view.set]{agShare o} xfAll m l)
        ∗ (((chunkM xfM c).view.loc (Spec.peer c o : Thread nD τ) ↦[(chunkM xfM c).view.set]{fullShare} fd) ∗ E)
        ∗ owes (c : Thread nD τ) (O + tallyAt (cell (Spec.peer c o) 1 c) l N) W
        ∗ dutyTok ER (cell c 0 (Spec.peer c o)) l 0 ∗ reached ER (cell c 0 (Spec.peer c o)) l
        ∗ dutyTok ER (cell (Spec.peer c o) 1 c) l 0 ∗ reached ER (cell (Spec.peer c o) 1 c) l)
      ⊢ iprop(((cred (tallyAt (cell c 0 (Spec.peer c o)) l N) ∗ owes (c : Thread nD τ) O W)
            -∗ wp frame (wpE (defs₀ (F := F)) Variants.none (c : Thread nD τ) none) Set.univ (k ⟨⟩) Q)
          -∗ wp frame (wpE (defs₀ (F := F)) Variants.none (c : Thread nD τ) none) Set.univ
              (.op (.enqueueDma (chunkM xfM c) (.remote (Dev.tc (Spec.peer c o) : Thread nD τ) (chunkM xfM c) (.dma (dsem 0 (Spec.peer c o))) hsc) (.dma (dsem 1 c)) hsrc hdst hsem) k) Q) := by
  exact Rounds.wp_send_pointsTo_with Variants.none ER (sched m) (c : Thread nD τ) none
    (κ₁ := K (cell c 0 (Spec.peer c o))) (κ₂ := K (cell (Spec.peer c o) 1 c))
    (r₁ := l) (r₂ := l) (d₁ := 0) (d₂ := 0) (fd := fd) (F := E)
    (mem_duties_cell m c (Spec.peer c o) 0 (peer_ne_nat' c o ho ho') l hl)
    (mem_duties_cell m (Spec.peer c o) c 1 (peer_ne_nat c o ho ho') l hl)
    l l N (amount_chunk xfM c _) (sr_amount_cell m c (Spec.peer c o) 0 l 0) (sr_amount_cell m (Spec.peer c o) c 1 l 0)
    O rfl (W := W)
    (by rw [sr_payload_agSend, dist_peer_nat c o ho'])
    (by
      rw [payload_agRecv]; unfold agRecvPay
      exact BI.sep_mono (pts_congr xfM (Spec.peer c o) c fullShare _ _ (ag_landed m c l fd)) hE)

theorem wp_rs_send (K : GSem nD τ sig → ℕ) (c : Dev nD) (o : ℕ) (ho : 1 ≤ o) (ho' : o ≤ 7) (l : ℕ) (hl : l < 3)
    {hsc : (chunkM rrM c : Memref sig (Dev.tc (Spec.peer c o) : Thread nD τ).2.kind .vmem S64x1024 .bf16).view.ref.isScScratch = false}
    {hsrc : (chunkM rsM (Spec.peer c o) : Memref sig .tc .vmem S64x1024 .bf16).view.WordExact} {hdst : (chunkM rrM c : Memref sig .tc .vmem S64x1024 .bf16).view.WordExact}
    {hsem : DmaTarget.Typed .vmem (.dma (dsem 3 c)) (.remote (Dev.tc (Spec.peer c o) : Thread nD τ) (chunkM rrM c : Memref sig .tc .vmem S64x1024 .bf16) (.dma (dsem 2 (Spec.peer c o))) hsc)}
    {α : Type} {Q : α → sProp 𝕄} {k : PUnit → Prog (TpuEff nD τ sig (Elt F) Λ₀ .tc) α}
    (fd : Buf (Elt F) ((chunkM rrM c).view.loc (Spec.peer c o : Thread nD τ))) (E : sProp 𝕄) (O : CellTallies nD τ sig ℕ) (W : Waits sig ℕ)
    (hE : E ⊢ (if l < 2 then iprop(slot (F := F) xfM c (Spec.peer c o) ∗ reached ER (cell c 1 (Spec.peer c o)) (l + 1)) else iprop(emp))) :
    iprop(cellInv ER (sched m) (K (cell c 2 (Spec.peer c o))) (cell c 2 (Spec.peer c o))
        ∗ cellInv ER (sched m) (K (cell (Spec.peer c o) 3 c)) (cell (Spec.peer c o) 3 c)
        ∗ ((chunkM rsM (Spec.peer c o)).view.loc (c : Thread nD τ) ↦[(chunkM rsM (Spec.peer c o)).view.set]{fullShare} rsAll m l c)
        ∗ (((chunkM rrM c).view.loc (Spec.peer c o : Thread nD τ) ↦[(chunkM rrM c).view.set]{fullShare} fd) ∗ E)
        ∗ owes (c : Thread nD τ) (O + tallyAt (cell (Spec.peer c o) 3 c) l N) W
        ∗ dutyTok ER (cell c 2 (Spec.peer c o)) l 0 ∗ reached ER (cell c 2 (Spec.peer c o)) l
        ∗ dutyTok ER (cell (Spec.peer c o) 3 c) l 0 ∗ reached ER (cell (Spec.peer c o) 3 c) l)
      ⊢ iprop(((cred (tallyAt (cell c 2 (Spec.peer c o)) l N) ∗ owes (c : Thread nD τ) O W)
            -∗ wp frame (wpE (defs₀ (F := F)) Variants.none (c : Thread nD τ) none) Set.univ (k ⟨⟩) Q)
          -∗ wp frame (wpE (defs₀ (F := F)) Variants.none (c : Thread nD τ) none) Set.univ
              (.op (.enqueueDma (chunkM rsM (Spec.peer c o)) (.remote (Dev.tc (Spec.peer c o) : Thread nD τ) (chunkM rrM c) (.dma (dsem 2 (Spec.peer c o))) hsc) (.dma (dsem 3 c)) hsrc hdst hsem) k) Q) := by
  exact Rounds.wp_send_pointsTo_with Variants.none ER (sched m) (c : Thread nD τ) none
    (κ₁ := K (cell c 2 (Spec.peer c o))) (κ₂ := K (cell (Spec.peer c o) 3 c))
    (r₁ := l) (r₂ := l) (d₁ := 0) (d₂ := 0) (fd := fd) (F := E)
    (mem_duties_cell m c (Spec.peer c o) 2 (peer_ne_nat' c o ho ho') l hl)
    (mem_duties_cell m (Spec.peer c o) c 3 (peer_ne_nat c o ho ho') l hl)
    l l N (amount_chunk_rr c _) (sr_amount_cell m c (Spec.peer c o) 2 l 0) (sr_amount_cell m (Spec.peer c o) c 3 l 0)
    O rfl (W := W)
    (by rw [sr_payload_rsSend])
    (by
      rw [payload_rsRecv]; unfold rsRecvPay
      exact BI.sep_mono (pts_congr rrM (Spec.peer c o) c fullShare _ _ (rs_landed m c (Spec.peer c o) l fd)) hE)

theorem wp_ag_send' (K : GSem nD τ sig → ℕ) (c : Dev nD) (n : Dev nD) (o : ℕ) (hn : n = Spec.peer c o) (ho : 1 ≤ o) (ho' : o ≤ 7) (l : ℕ) (hl : l < 3)
    {hsc : (chunkM xfM c : Memref sig (Dev.tc n : Thread nD τ).2.kind .vmem S64x1024 .bf16).view.ref.isScScratch = false}
    {hsrc : (chunkM xfM c : Memref sig .tc .vmem S64x1024 .bf16).view.WordExact} {hdst : (chunkM xfM c : Memref sig .tc .vmem S64x1024 .bf16).view.WordExact}
    {hsem : DmaTarget.Typed .vmem (.dma (dsem 1 c)) (.remote (Dev.tc n : Thread nD τ) (chunkM xfM c : Memref sig .tc .vmem S64x1024 .bf16) (.dma (dsem 0 (Spec.peer c o))) hsc)}
    {α : Type} {Q : α → sProp 𝕄} {k : PUnit → Prog (TpuEff nD τ sig (Elt F) Λ₀ .tc) α}
    (fd : Buf (Elt F) ((chunkM xfM c).view.loc (Spec.peer c o : Thread nD τ))) (E : sProp 𝕄) (O : CellTallies nD τ sig ℕ) (W : Waits sig ℕ)
    (hE : E ⊢ (if 1 ≤ l then iprop(slot (F := F) rrM c (Spec.peer c o) ∗ reached ER (cell c 3 (Spec.peer c o)) l) else iprop(emp))) :
    iprop(cellInv ER (sched m) (K (cell c 0 (Spec.peer c o))) (cell c 0 (Spec.peer c o))
        ∗ cellInv ER (sched m) (K (cell (Spec.peer c o) 1 c)) (cell (Spec.peer c o) 1 c)
        ∗ ((chunkM xfM c).view.loc (c : Thread nD τ) ↦[(chunkM xfM c).view.set]{agShare o} xfAll m l)
        ∗ (((chunkM xfM c).view.loc (Spec.peer c o : Thread nD τ) ↦[(chunkM xfM c).view.set]{fullShare} fd) ∗ E)
        ∗ owes (c : Thread nD τ) (O + tallyAt (cell (Spec.peer c o) 1 c) l N) W
        ∗ dutyTok ER (cell c 0 (Spec.peer c o)) l 0 ∗ reached ER (cell c 0 (Spec.peer c o)) l
        ∗ dutyTok ER (cell (Spec.peer c o) 1 c) l 0 ∗ reached ER (cell (Spec.peer c o) 1 c) l)
      ⊢ iprop(((cred (tallyAt (cell c 0 (Spec.peer c o)) l N) ∗ owes (c : Thread nD τ) O W)
            -∗ wp frame (wpE (defs₀ (F := F)) Variants.none (c : Thread nD τ) none) Set.univ (k ⟨⟩) Q)
          -∗ wp frame (wpE (defs₀ (F := F)) Variants.none (c : Thread nD τ) none) Set.univ
              (.op (.enqueueDma (chunkM xfM c) (.remote (Dev.tc n : Thread nD τ) (chunkM xfM c) (.dma (dsem 0 (Spec.peer c o))) hsc) (.dma (dsem 1 c)) hsrc hdst hsem) k) Q) := by
  subst hn; exact wp_ag_send m K c o ho ho' l hl fd E O W hE

theorem wp_rs_send' (K : GSem nD τ sig → ℕ) (c : Dev nD) (n : Dev nD) (o : ℕ) (hn : n = Spec.peer c o) (ho : 1 ≤ o) (ho' : o ≤ 7) (l : ℕ) (hl : l < 3)
    {hsc : (chunkM rrM c : Memref sig (Dev.tc n : Thread nD τ).2.kind .vmem S64x1024 .bf16).view.ref.isScScratch = false}
    {hsrc : (chunkM rsM (Spec.peer c o) : Memref sig .tc .vmem S64x1024 .bf16).view.WordExact} {hdst : (chunkM rrM c : Memref sig .tc .vmem S64x1024 .bf16).view.WordExact}
    {hsem : DmaTarget.Typed .vmem (.dma (dsem 3 c)) (.remote (Dev.tc n : Thread nD τ) (chunkM rrM c : Memref sig .tc .vmem S64x1024 .bf16) (.dma (dsem 2 (Spec.peer c o))) hsc)}
    {α : Type} {Q : α → sProp 𝕄} {k : PUnit → Prog (TpuEff nD τ sig (Elt F) Λ₀ .tc) α}
    (fd : Buf (Elt F) ((chunkM rrM c).view.loc (Spec.peer c o : Thread nD τ))) (E : sProp 𝕄) (O : CellTallies nD τ sig ℕ) (W : Waits sig ℕ)
    (hE : E ⊢ (if l < 2 then iprop(slot (F := F) xfM c (Spec.peer c o) ∗ reached ER (cell c 1 (Spec.peer c o)) (l + 1)) else iprop(emp))) :
    iprop(cellInv ER (sched m) (K (cell c 2 (Spec.peer c o))) (cell c 2 (Spec.peer c o))
        ∗ cellInv ER (sched m) (K (cell (Spec.peer c o) 3 c)) (cell (Spec.peer c o) 3 c)
        ∗ ((chunkM rsM (Spec.peer c o)).view.loc (c : Thread nD τ) ↦[(chunkM rsM (Spec.peer c o)).view.set]{fullShare} rsAll m l c)
        ∗ (((chunkM rrM c).view.loc (Spec.peer c o : Thread nD τ) ↦[(chunkM rrM c).view.set]{fullShare} fd) ∗ E)
        ∗ owes (c : Thread nD τ) (O + tallyAt (cell (Spec.peer c o) 3 c) l N) W
        ∗ dutyTok ER (cell c 2 (Spec.peer c o)) l 0 ∗ reached ER (cell c 2 (Spec.peer c o)) l
        ∗ dutyTok ER (cell (Spec.peer c o) 3 c) l 0 ∗ reached ER (cell (Spec.peer c o) 3 c) l)
      ⊢ iprop(((cred (tallyAt (cell c 2 (Spec.peer c o)) l N) ∗ owes (c : Thread nD τ) O W)
            -∗ wp frame (wpE (defs₀ (F := F)) Variants.none (c : Thread nD τ) none) Set.univ (k ⟨⟩) Q)
          -∗ wp frame (wpE (defs₀ (F := F)) Variants.none (c : Thread nD τ) none) Set.univ
              (.op (.enqueueDma (chunkM rsM (Spec.peer c o)) (.remote (Dev.tc n : Thread nD τ) (chunkM rrM c) (.dma (dsem 2 (Spec.peer c o))) hsc) (.dma (dsem 3 c)) hsrc hdst hsem) k) Q) := by
  subst hn; exact wp_rs_send m K c o ho ho' l hl fd E O W hE

end Cert.KernelIdeal.Proto

end
-- ==== Proof.KI.Body.lean ====
/- The run of the kernel body on one device: its local steps — loads, stores, the weights' transfers, every wait — one
   after another, and each transfer to a peer by one application of the rounds library's send rule, its
   landing handing the peer the chunk at its exact contents and the slot the peer writes next; between runs the chunks'
   contents are restated as the layer's gathered activations and halves, which is where the values enter. -/
import proofs.«900981_g7700000000000982_dist_mlpseq_tp1d_bs_bs_b64_d1024_h2048_v7x_i8_bf16_1_alg».proof.Proof.KI.Finish
import proofs.«900981_g7700000000000982_dist_mlpseq_tp1d_bs_bs_b64_d1024_h2048_v7x_i8_bf16_1_alg».proof.Proof.KI.Glue
import proofs.«900981_g7700000000000982_dist_mlpseq_tp1d_bs_bs_b64_d1024_h2048_v7x_i8_bf16_1_alg».proof.Proof.KI.Ledger2
import proofs.«900981_g7700000000000982_dist_mlpseq_tp1d_bs_bs_b64_d1024_h2048_v7x_i8_bf16_1_alg».proof.Proof.KI.Vals
import proofs.«900981_g7700000000000982_dist_mlpseq_tp1d_bs_bs_b64_d1024_h2048_v7x_i8_bf16_1_alg».proof.Proof.KI.Vals2
import proofs.«900981_g7700000000000982_dist_mlpseq_tp1d_bs_bs_b64_d1024_h2048_v7x_i8_bf16_1_alg».proof.Proof.KI.ValsR
import proofs.«900981_g7700000000000982_dist_mlpseq_tp1d_bs_bs_b64_d1024_h2048_v7x_i8_bf16_1_alg».proof.Proof.KI.ValsR2
import proofs.«900981_g7700000000000982_dist_mlpseq_tp1d_bs_bs_b64_d1024_h2048_v7x_i8_bf16_1_alg».proof.Proof.KI.Sends
import proofs.«900981_g7700000000000982_dist_mlpseq_tp1d_bs_bs_b64_d1024_h2048_v7x_i8_bf16_1_alg».proof.Proof.KI.Canon
noncomputable section
namespace Cert.KernelIdeal.Proto
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
variable {F : FTy → Type} [FloatOps F]
local notation "𝕄" => MT nD τ sig ℕ (Elt F) ℕ UU ℕ
variable (m : (ℓ : Loc nD τ sig) → Buf (Elt F) ℓ)

attribute [local sl_rounds] sr_duties_bar sr_amount_bar sr_expect_bar sr_payload_bar sr_duties_cell sr_amount_cell sr_expect_cell
  sr_payload_agSend_1 sr_payload_agSend_2 sr_payload_agSend_3 sr_payload_agSend_4 sr_payload_agSend_5 sr_payload_agSend_6 sr_payload_agSend_7
  sr_payload_agRecv0 sr_payload_agRecv1 sr_payload_agRecv2 sr_payload_rsSend sr_payload_rsRecv0 sr_payload_rsRecv1 sr_payload_rsRecv2

/-- A chunk held whole at known contents is in particular free to be written. -/
theorem slot_intro (M : Memref sig .tc .vmem S512x1024 .bf16) (t k : Dev nD) (f : Buf (Elt F) ((chunkM M k).view.loc (t : Thread nD τ))) :
    ((chunkM M k).view.loc (t : Thread nD τ) ↦[(chunkM M k).view.set]{fullShare} f : sProp 𝕄) ⊢ slot (F := F) M t k := by
  unfold slot; iintro H; iexists f; iexact H

/-- The staged result, whole, at contents known to be the device's result. -/
theorem out_staged_pts (c : Dev nD) (W : Buf (Elt F) ((c : Thread nD τ).loc cc0_stg1_0)) (h : W = outAt m c) :
    (View.loc (c : Thread nD τ) (Memref.whole cc0_stg1_0 : Memref sig .tc .vmem S64x1024 .bf16).view ↦[(Memref.whole cc0_stg1_0 : Memref sig .tc .vmem S64x1024 .bf16).view.set]{fullShare} W : sProp 𝕄)
      ⊢ (((c : Thread nD τ).loc cc0_stg1_0) ↦{fullShare} outAt m c) := by
  subst h; exact Entails.of_eq (whole_eq (F := F) cc0_stg1_0 c fullShare _)

set_option maxHeartbeats 64000000 in
theorem sound_body (K : GSem nD τ sig → ℕ) (c : Dev nD)
    (f0 : Buf (Elt F) ((c : Thread nD τ).loc cc0_scratch0)) (f1 : Buf (Elt F) ((c : Thread nD τ).loc cc0_scratch1)) (f2 : Buf (Elt F) ((c : Thread nD τ).loc cc0_scratch2))
    (f3 : Buf (Elt F) ((c : Thread nD τ).loc cc0_scratch3)) (f4 : Buf (Elt F) ((c : Thread nD τ).loc cc0_scratch4))
    (f5 : Buf (Elt F) ((c : Thread nD τ).loc cc0_scratch5)) (f6 : Buf (Elt F) ((c : Thread nD τ).loc cc0_scratch6))
    (fo : Buf (Elt F) ((c : Thread nD τ).loc cc0_stg1_0)) (W : Waits sig ℕ) (Kt : PUnit → sProp 𝕄) :
    iprop(ctxP m K c ∗ ctxS m c f0 f1 f2 f3 f4 f5 f6 ∗ idleSems (F := F) c
        ∗ owes (c : Thread nD τ) (O₀ c) W
        ∗ (((c : Thread nD τ).loc cc0_stg0_0) ↦{fullShare} xin m c)
        ∗ (((c : Thread nD τ).loc cc0_stg1_0) ↦{fullShare} fo)
        ∗ ((Φ₁ m c ∗ (∃ W', owes (c : Thread nD τ) 0 W')
              ∗ (((c : Thread nD τ).loc cc0_stg0_0) ↦{fullShare} xin m c)
              ∗ (((c : Thread nD τ).loc cc0_stg1_0) ↦{fullShare} outAt m c)) -∗ Kt ⟨⟩))
      ⊢ wp frame (wpE (defs₀ (F := F)) 𝒱₀ (c : Thread nD τ) none) Set.univ
          (cc0_body (F := F) (Memref.whole cc0_stg0_0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11)
          Kt := by
  iintro ⟨HP, HS, Hidle, HO, Hx, Hout, Hk⟩
  unfold ctxP ctxS
  icases HP with ⟨#HIb, #HIb1, #HIb2, #HIb3, #HIb4, #HIb5, #HIb6, #HIb7, #HIo0_1, #HIo0_2, #HIo0_3, #HIo0_4, #HIo0_5, #HIo0_6, #HIo0_7, #HIo1_1, #HIo1_2, #HIo1_3, #HIo1_4, #HIo1_5, #HIo1_6, #HIo1_7, #HIo2_1, #HIo2_2, #HIo2_3, #HIo2_4, #HIo2_5, #HIo2_6, #HIo2_7, #HIo3_1, #HIo3_2, #HIo3_3, #HIo3_4, #HIo3_5, #HIo3_6, #HIo3_7, #HIp1_1, #HIp1_2, #HIp1_3, #HIp1_4, #HIp1_5, #HIp1_6, #HIp1_7, #HIp3_1, #HIp3_2, #HIp3_3, #HIp3_4, #HIp3_5, #HIp3_6, #HIp3_7, #Hrb1, #Hrb2, #Hrb3, #Hrb4, #Hrb5, #Hrb6, #Hrb7, #Hro0_1, #Hro0_2, #Hro0_3, #Hro0_4, #Hro0_5, #Hro0_6, #Hro0_7, #Hro1_1, #Hro1_2, #Hro1_3, #Hro1_4, #Hro1_5, #Hro1_6, #Hro1_7, #Hro2_1, #Hro2_2, #Hro2_3, #Hro2_4, #Hro2_5, #Hro2_6, #Hro2_7, #Hro3_1, #Hro3_2, #Hro3_3, #Hro3_4, #Hro3_5, #Hro3_6, #Hro3_7, #Hrp1_1, #Hrp1_2, #Hrp1_3, #Hrp1_4, #Hrp1_5, #Hrp1_6, #Hrp1_7, #Hrp3_1, #Hrp3_2, #Hrp3_3, #Hrp3_4, #Hrp3_5, #Hrp3_6, #Hrp3_7, #Hlev⟩
  icases HS with ⟨Htb1, Htb2, Htb3, Htb4, Htb5, Htb6, Htb7, Hts0_0_1, Htp1_0_1, Hts2_0_1, Htp3_0_1, Hts0_0_2, Htp1_0_2, Hts2_0_2, Htp3_0_2, Hts0_0_3, Htp1_0_3, Hts2_0_3, Htp3_0_3, Hts0_0_4, Htp1_0_4, Hts2_0_4, Htp3_0_4, Hts0_0_5, Htp1_0_5, Hts2_0_5, Htp3_0_5, Hts0_0_6, Htp1_0_6, Hts2_0_6, Htp3_0_6, Hts0_0_7, Htp1_0_7, Hts2_0_7, Htp3_0_7, Hts0_1_1, Htp1_1_1, Hts2_1_1, Htp3_1_1, Hts0_1_2, Htp1_1_2, Hts2_1_2, Htp3_1_2, Hts0_1_3, Htp1_1_3, Hts2_1_3, Htp3_1_3, Hts0_1_4, Htp1_1_4, Hts2_1_4, Htp3_1_4, Hts0_1_5, Htp1_1_5, Hts2_1_5, Htp3_1_5, Hts0_1_6, Htp1_1_6, Hts2_1_6, Htp3_1_6, Hts0_1_7, Htp1_1_7, Hts2_1_7, Htp3_1_7, Hts0_2_1, Htp1_2_1, Hts2_2_1, Htp3_2_1, Hts0_2_2, Htp1_2_2, Hts2_2_2, Htp3_2_2, Hts0_2_3, Htp1_2_3, Hts2_2_3, Htp3_2_3, Hts0_2_4, Htp1_2_4, Hts2_2_4, Htp3_2_4, Hts0_2_5, Htp1_2_5, Hts2_2_5, Htp3_2_5, Hts0_2_6, Htp1_2_6, Hts2_2_6, Htp3_2_6, Hts0_2_7, Htp1_2_7, Hts2_2_7, Htp3_2_7, Hatb, Hat0_1, Hat0_2, Hat0_3, Hat0_4, Hat0_5, Hat0_6, Hat0_7, Hat1_1, Hat1_2, Hat1_3, Hat1_4, Hat1_5, Hat1_6, Hat1_7, Hat2_1, Hat2_2, Hat2_3, Hat2_4, Hat2_5, Hat2_6, Hat2_7, Hat3_1, Hat3_2, Hat3_3, Hat3_4, Hat3_5, Hat3_6, Hat3_7, Hcrb, Hcr1_0_1, Hcr1_0_2, Hcr1_0_3, Hcr1_0_4, Hcr1_0_5, Hcr1_0_6, Hcr1_0_7, Hcr3_0_1, Hcr3_0_2, Hcr3_0_3, Hcr3_0_4, Hcr3_0_5, Hcr3_0_6, Hcr3_0_7, Hcr1_1_1, Hcr1_1_2, Hcr1_1_3, Hcr1_1_4, Hcr1_1_5, Hcr1_1_6, Hcr1_1_7, Hcr3_1_1, Hcr3_1_2, Hcr3_1_3, Hcr3_1_4, Hcr3_1_5, Hcr3_1_6, Hcr3_1_7, Hcr1_2_1, Hcr1_2_2, Hcr1_2_3, Hcr1_2_4, Hcr1_2_5, Hcr1_2_6, Hcr1_2_7, Hcr3_2_1, Hcr3_2_2, Hcr3_2_3, Hcr3_2_4, Hcr3_2_5, Hcr3_2_6, Hcr3_2_7, Hw1, Hw2, Hw3, Hw4, Hw5, Hw6, Hxf0, Hxf1, Hxf2, Hxf3, Hxf4, Hxf5, Hxf6, Hxf7, Hrs0, Hrs1, Hrs2, Hrs3, Hrs4, Hrs5, Hrs6, Hrs7, Hrr0, Hrr1, Hrr2, Hrr3, Hrr4, Hrr5, Hrr6, Hrr7, Hsc3, Hsc4, Hsc5, Hsc6, Hws0, Hws1, Hws2, Hws3⟩
  ihave Hx := (Entails.of_eq (whole_eq (F := F) cc0_stg0_0 c fullShare (xin m c)).symm) $$ Hx
  ihave Hout := (Entails.of_eq (whole_eq (F := F) cc0_stg1_0 c fullShare fo).symm) $$ Hout
  have hd1 : c ∈ (sched (F := F) m).duties (barCell (Spec.peer c 1)) 0 := mem_duties_bar m _ _ (peer_ne c 1 (by decide))
  have hd2 : c ∈ (sched (F := F) m).duties (barCell (Spec.peer c 2)) 0 := mem_duties_bar m _ _ (peer_ne c 2 (by decide))
  have hd3 : c ∈ (sched (F := F) m).duties (barCell (Spec.peer c 3)) 0 := mem_duties_bar m _ _ (peer_ne c 3 (by decide))
  have hd4 : c ∈ (sched (F := F) m).duties (barCell (Spec.peer c 4)) 0 := mem_duties_bar m _ _ (peer_ne c 4 (by decide))
  have hd5 : c ∈ (sched (F := F) m).duties (barCell (Spec.peer c 5)) 0 := mem_duties_bar m _ _ (peer_ne c 5 (by decide))
  have hd6 : c ∈ (sched (F := F) m).duties (barCell (Spec.peer c 6)) 0 := mem_duties_bar m _ _ (peer_ne c 6 (by decide))
  have hd7 : c ∈ (sched (F := F) m).duties (barCell (Spec.peer c 7)) 0 := mem_duties_bar m _ _ (peer_ne c 7 (by decide))
  have hne1 : Spec.peer c 1 ≠ c := peer_ne' c 1 (by decide)
  have hne2 : Spec.peer c 2 ≠ c := peer_ne' c 2 (by decide)
  have hne3 : Spec.peer c 3 ≠ c := peer_ne' c 3 (by decide)
  have hne4 : Spec.peer c 4 ≠ c := peer_ne' c 4 (by decide)
  have hne5 : Spec.peer c 5 ≠ c := peer_ne' c 5 (by decide)
  have hne6 : Spec.peer c 6 ≠ c := peer_ne' c 6 (by decide)
  have hne7 : Spec.peer c 7 ≠ c := peer_ne' c 7 (by decide)
  have hne'1 : c ≠ Spec.peer c 1 := peer_ne c 1 (by decide)
  have hne'2 : c ≠ Spec.peer c 2 := peer_ne c 2 (by decide)
  have hne'3 : c ≠ Spec.peer c 3 := peer_ne c 3 (by decide)
  have hne'4 : c ≠ Spec.peer c 4 := peer_ne c 4 (by decide)
  have hne'5 : c ≠ Spec.peer c 5 := peer_ne c 5 (by decide)
  have hne'6 : c ≠ Spec.peer c 6 := peer_ne c 6 (by decide)
  have hne'7 : c ≠ Spec.peer c 7 := peer_ne c 7 (by decide)
  have hiOwn := incl_xf_own c
  have hiOwnS := incl_xf_own_st c
  have hiX0 := incl_xf_0 c
  have hiX1 := incl_xf_1 c
  have hiS1 := incl_rs_1_st c
  have hiSl1 := incl_rs_1 c
  have hiR1 := incl_rr_1 c
  have hiX2 := incl_xf_2 c
  have hiS2 := incl_rs_2_st c
  have hiSl2 := incl_rs_2 c
  have hiR2 := incl_rr_2 c
  have hiX3 := incl_xf_3 c
  have hiS3 := incl_rs_3_st c
  have hiSl3 := incl_rs_3 c
  have hiR3 := incl_rr_3 c
  have hiX4 := incl_xf_4 c
  have hiS4 := incl_rs_4_st c
  have hiSl4 := incl_rs_4 c
  have hiR4 := incl_rr_4 c
  have hiX5 := incl_xf_5 c
  have hiS5 := incl_rs_5_st c
  have hiSl5 := incl_rs_5 c
  have hiR5 := incl_rr_5 c
  have hiX6 := incl_xf_6 c
  have hiS6 := incl_rs_6_st c
  have hiSl6 := incl_rs_6 c
  have hiR6 := incl_rr_6 c
  have hiX7 := incl_xf_7 c
  have hiS7 := incl_rs_7_st c
  have hiSl7 := incl_rs_7 c
  have hiR7 := incl_rr_7 c
  have hB_7_1 := below_at c 7 1 (by decide)
  simp only [pays, paysLayer, List.drop, owedOf, List.cons_append, List.nil_append, List.append_assoc] at hB_7_1
  have hB_14_0 := below_at c 14 0 (by decide)
  simp only [pays, paysLayer, List.drop, owedOf, List.cons_append, List.nil_append, List.append_assoc] at hB_14_0
  have hB_14_2 := below_at c 14 2 (by decide)
  simp only [pays, paysLayer, List.drop, owedOf, List.cons_append, List.nil_append, List.append_assoc] at hB_14_2
  have hB_15_2 := below_at c 15 2 (by decide)
  simp only [pays, paysLayer, List.drop, owedOf, List.cons_append, List.nil_append, List.append_assoc] at hB_15_2
  have hB_17_2 := below_at c 17 2 (by decide)
  simp only [pays, paysLayer, List.drop, owedOf, List.cons_append, List.nil_append, List.append_assoc] at hB_17_2
  have hB_19_2 := below_at c 19 2 (by decide)
  simp only [pays, paysLayer, List.drop, owedOf, List.cons_append, List.nil_append, List.append_assoc] at hB_19_2
  have hB_21_3 := below_at c 21 3 (by decide)
  simp only [pays, paysLayer, List.drop, owedOf, List.cons_append, List.nil_append, List.append_assoc] at hB_21_3
  have hB_21_4 := below_at c 21 4 (by decide)
  simp only [pays, paysLayer, List.drop, owedOf, List.cons_append, List.nil_append, List.append_assoc] at hB_21_4
  have hB_28_0 := below_at c 28 0 (by decide)
  simp only [pays, paysLayer, List.drop, owedOf, List.cons_append, List.nil_append, List.append_assoc] at hB_28_0
  have hB_28_6 := below_at c 28 6 (by decide)
  simp only [pays, paysLayer, List.drop, owedOf, List.cons_append, List.nil_append, List.append_assoc] at hB_28_6
  have hB_29_6 := below_at c 29 6 (by decide)
  simp only [pays, paysLayer, List.drop, owedOf, List.cons_append, List.nil_append, List.append_assoc] at hB_29_6
  have hB_31_6 := below_at c 31 6 (by decide)
  simp only [pays, paysLayer, List.drop, owedOf, List.cons_append, List.nil_append, List.append_assoc] at hB_31_6
  have hB_33_6 := below_at c 33 6 (by decide)
  simp only [pays, paysLayer, List.drop, owedOf, List.cons_append, List.nil_append, List.append_assoc] at hB_33_6
  have hB_35_7 := below_at c 35 7 (by decide)
  simp only [pays, paysLayer, List.drop, owedOf, List.cons_append, List.nil_append, List.append_assoc] at hB_35_7
  have hB_35_8 := below_at c 35 8 (by decide)
  simp only [pays, paysLayer, List.drop, owedOf, List.cons_append, List.nil_append, List.append_assoc] at hB_35_8
  have hB_42_0 := below_at c 42 0 (by decide)
  simp only [pays, paysLayer, List.drop, owedOf, List.cons_append, List.nil_append, List.append_assoc] at hB_42_0
  have hB_42_10 := below_at c 42 10 (by decide)
  simp only [pays, paysLayer, List.drop, owedOf, List.cons_append, List.nil_append, List.append_assoc] at hB_42_10
  have hB_43_10 := below_at c 43 10 (by decide)
  simp only [pays, paysLayer, List.drop, owedOf, List.cons_append, List.nil_append, List.append_assoc] at hB_43_10
  have hB_45_10 := below_at c 45 10 (by decide)
  simp only [pays, paysLayer, List.drop, owedOf, List.cons_append, List.nil_append, List.append_assoc] at hB_45_10
  have hB_47_10 := below_at c 47 10 (by decide)
  simp only [pays, paysLayer, List.drop, owedOf, List.cons_append, List.nil_append, List.append_assoc] at hB_47_10
  have hB_49_11 := below_at c 49 11 (by decide)
  simp only [pays, paysLayer, List.drop, owedOf, List.cons_append, List.nil_append, List.append_assoc] at hB_49_11
  have hB_49_12 := below_at c 49 12 (by decide)
  simp only [pays, paysLayer, List.drop, owedOf, List.cons_append, List.nil_append, List.append_assoc] at hB_49_12
  have hmwBar : ∀ (O : CellTallies nD τ sig ℕ), Below 1 O → ((levAts L lv : sProp 𝕄) ⊢ MayWait (c : Thread nD τ) (.reg barS) 0 O) := fun O h => mayWait_at (F := F) c _ 0 1 O (mem_L_of_lt _ _ _ (by decide)) (lv_bar c 0) h
  have hmw0_0 : ∀ (k : Dev nD) (O : CellTallies nD τ sig ℕ), Below 4 O → ((levAts L lv : sProp 𝕄) ⊢ MayWait (c : Thread nD τ) (.dma (dsem 0 k)) 0 O) := fun k O h => mayWait_at (F := F) c _ 0 4 O (mem_L_of_lt _ _ _ (by decide)) (by rw [lv_cell]; rfl) h
  have hmw0_1 : ∀ (k : Dev nD) (O : CellTallies nD τ sig ℕ), Below 8 O → ((levAts L lv : sProp 𝕄) ⊢ MayWait (c : Thread nD τ) (.dma (dsem 0 k)) 1 O) := fun k O h => mayWait_at (F := F) c _ 1 8 O (mem_L_of_lt _ _ _ (by decide)) (by rw [lv_cell]; rfl) h
  have hmw0_2 : ∀ (k : Dev nD) (O : CellTallies nD τ sig ℕ), Below 12 O → ((levAts L lv : sProp 𝕄) ⊢ MayWait (c : Thread nD τ) (.dma (dsem 0 k)) 2 O) := fun k O h => mayWait_at (F := F) c _ 2 12 O (mem_L_of_lt _ _ _ (by decide)) (by rw [lv_cell]; rfl) h
  have hmw1_0 : ∀ (k : Dev nD) (O : CellTallies nD τ sig ℕ), Below 2 O → ((levAts L lv : sProp 𝕄) ⊢ MayWait (c : Thread nD τ) (.dma (dsem 1 k)) 0 O) := fun k O h => mayWait_at (F := F) c _ 0 2 O (mem_L_of_lt _ _ _ (by decide)) (by rw [lv_cell]; rfl) h
  have hmw1_1 : ∀ (k : Dev nD) (O : CellTallies nD τ sig ℕ), Below 6 O → ((levAts L lv : sProp 𝕄) ⊢ MayWait (c : Thread nD τ) (.dma (dsem 1 k)) 1 O) := fun k O h => mayWait_at (F := F) c _ 1 6 O (mem_L_of_lt _ _ _ (by decide)) (by rw [lv_cell]; rfl) h
  have hmw1_2 : ∀ (k : Dev nD) (O : CellTallies nD τ sig ℕ), Below 10 O → ((levAts L lv : sProp 𝕄) ⊢ MayWait (c : Thread nD τ) (.dma (dsem 1 k)) 2 O) := fun k O h => mayWait_at (F := F) c _ 2 10 O (mem_L_of_lt _ _ _ (by decide)) (by rw [lv_cell]; rfl) h
  have hmw2_0 : ∀ (k : Dev nD) (O : CellTallies nD τ sig ℕ), Below 4 O → ((levAts L lv : sProp 𝕄) ⊢ MayWait (c : Thread nD τ) (.dma (dsem 2 k)) 0 O) := fun k O h => mayWait_at (F := F) c _ 0 4 O (mem_L_of_lt _ _ _ (by decide)) (by rw [lv_cell]; rfl) h
  have hmw2_1 : ∀ (k : Dev nD) (O : CellTallies nD τ sig ℕ), Below 8 O → ((levAts L lv : sProp 𝕄) ⊢ MayWait (c : Thread nD τ) (.dma (dsem 2 k)) 1 O) := fun k O h => mayWait_at (F := F) c _ 1 8 O (mem_L_of_lt _ _ _ (by decide)) (by rw [lv_cell]; rfl) h
  have hmw2_2 : ∀ (k : Dev nD) (O : CellTallies nD τ sig ℕ), Below 12 O → ((levAts L lv : sProp 𝕄) ⊢ MayWait (c : Thread nD τ) (.dma (dsem 2 k)) 2 O) := fun k O h => mayWait_at (F := F) c _ 2 12 O (mem_L_of_lt _ _ _ (by decide)) (by rw [lv_cell]; rfl) h
  have hmw3_0 : ∀ (k : Dev nD) (O : CellTallies nD τ sig ℕ), Below 3 O → ((levAts L lv : sProp 𝕄) ⊢ MayWait (c : Thread nD τ) (.dma (dsem 3 k)) 0 O) := fun k O h => mayWait_at (F := F) c _ 0 3 O (mem_L_of_lt _ _ _ (by decide)) (by rw [lv_cell]; rfl) h
  have hmw3_1 : ∀ (k : Dev nD) (O : CellTallies nD τ sig ℕ), Below 7 O → ((levAts L lv : sProp 𝕄) ⊢ MayWait (c : Thread nD τ) (.dma (dsem 3 k)) 1 O) := fun k O h => mayWait_at (F := F) c _ 1 7 O (mem_L_of_lt _ _ _ (by decide)) (by rw [lv_cell]; rfl) h
  have hmw3_2 : ∀ (k : Dev nD) (O : CellTallies nD τ sig ℕ), Below 11 O → ((levAts L lv : sProp 𝕄) ⊢ MayWait (c : Thread nD τ) (.dma (dsem 3 k)) 2 O) := fun k O h => mayWait_at (F := F) c _ 2 11 O (mem_L_of_lt _ _ _ (by decide)) (by rw [lv_cell]; rfl) h
  have hmwW0 : ∀ (O : CellTallies nD τ sig ℕ), Below 0 O → ((levAts L lv : sProp 𝕄) ⊢ MayWait (c : Thread nD τ) (.dma (⟨34, by have := nds; omega⟩ : DmaSem sig)) 0 O) := fun O h => mayWait_at (F := F) c _ 0 0 O (mem_L_of_lt _ _ _ (by decide)) (lv_w c 0 0) h
  have hmwW1 : ∀ (O : CellTallies nD τ sig ℕ), Below 0 O → ((levAts L lv : sProp 𝕄) ⊢ MayWait (c : Thread nD τ) (.dma (⟨35, by have := nds; omega⟩ : DmaSem sig)) 0 O) := fun O h => mayWait_at (F := F) c _ 0 0 O (mem_L_of_lt _ _ _ (by decide)) (lv_w c 1 0) h
  have hmwW2 : ∀ (O : CellTallies nD τ sig ℕ), Below 0 O → ((levAts L lv : sProp 𝕄) ⊢ MayWait (c : Thread nD τ) (.dma (⟨36, by have := nds; omega⟩ : DmaSem sig)) 0 O) := fun O h => mayWait_at (F := F) c _ 0 0 O (mem_L_of_lt _ _ _ (by decide)) (lv_w c 2 0) h
  have hmwW3 : ∀ (O : CellTallies nD τ sig ℕ), Below 0 O → ((levAts L lv : sProp 𝕄) ⊢ MayWait (c : Thread nD τ) (.dma (⟨37, by have := nds; omega⟩ : DmaSem sig)) 0 O) := fun O h => mayWait_at (F := F) c _ 0 0 O (mem_L_of_lt _ _ _ (by decide)) (lv_w c 3 0) h
  conv in O₀ c => simp only [O₀, owedAfter, List.drop, pays, paysLayer, owedOf, List.cons_append, List.nil_append, List.append_assoc]
  sl_unfold [cc0_body]
  sl_exec_parts
  -- the barrier round's payloads, one peer at a time, each slot opened; the own chunk made ready for the seven transfers
  ihave Hp := (bar_split (F := F) c _) $$ Hatb_pay1
  icases Hp with ⟨⟨Hdx1, Hdr1⟩, ⟨Hdx2, Hdr2⟩, ⟨Hdx3, Hdr3⟩, ⟨Hdx4, Hdr4⟩, ⟨Hdx5, Hdr5⟩, ⟨Hdx6, Hdr6⟩, ⟨Hdx7, Hdr7⟩⟩
  icases Hdx1 with ⟨%fdx1, Hdx1⟩
  icases Hdr1 with ⟨%fdr1, Hdr1⟩
  icases Hdx2 with ⟨%fdx2, Hdx2⟩
  icases Hdr2 with ⟨%fdr2, Hdr2⟩
  icases Hdx3 with ⟨%fdx3, Hdx3⟩
  icases Hdr3 with ⟨%fdr3, Hdr3⟩
  icases Hdx4 with ⟨%fdx4, Hdx4⟩
  icases Hdr4 with ⟨%fdr4, Hdr4⟩
  icases Hdx5 with ⟨%fdx5, Hdx5⟩
  icases Hdr5 with ⟨%fdr5, Hdr5⟩
  icases Hdx6 with ⟨%fdx6, Hdx6⟩
  icases Hdr6 with ⟨%fdr6, Hdr6⟩
  icases Hdx7 with ⟨%fdx7, Hdx7⟩
  icases Hdr7 with ⟨%fdr7, Hdr7⟩
  -- the own chunk holds layer 0's activations: made ready for the seven transfers
  have hv_own_0 : ∀ i ∈ (chunkM xfM c).view.set, (sound_body.sl.Hxf0_w1 m c f0) i = xfAll m 0 i := own0_val m c f0
  ihave Hsh := (own_ready (F := F) c _ (xfAll m 0) hv_own_0) $$ Hxf0
  icases Hsh with ⟨Hsh7, Hsh6, Hsh5, Hsh4, Hsh3, Hsh2, Hsh1, Hkeep⟩
  unfold pts
  -- layer 0: the gather's transfer to the device 7 places on
  iapply (wp_ag_send' m K c _ 7 (by simp only [sl_canon]) (by decide) (by decide) 0 (by decide) fdx7 iprop(emp) _ _ (BI.Entails.refl _)) $$ [Hsh7 Hdx7 HO Hts0_0_7 Htp1_0_7]
  · iframe ∗ HIo0_7 HIp1_7 Hro0_7 Hrp1_7
  iintro ⟨Hcs0_0_7, HO⟩
  sl_exec_parts
  -- layer 0: the gather's transfer to the device 6 places on
  iapply (wp_ag_send' m K c _ 6 (by simp only [sl_canon]) (by decide) (by decide) 0 (by decide) fdx6 iprop(emp) _ _ (BI.Entails.refl _)) $$ [Hsh6 Hdx6 HO Hts0_0_6 Htp1_0_6]
  · iframe ∗ HIo0_6 HIp1_6 Hro0_6 Hrp1_6
  iintro ⟨Hcs0_0_6, HO⟩
  sl_exec_parts
  -- layer 0: the gather's transfer to the device 5 places on
  iapply (wp_ag_send' m K c _ 5 (by simp only [sl_canon]) (by decide) (by decide) 0 (by decide) fdx5 iprop(emp) _ _ (BI.Entails.refl _)) $$ [Hsh5 Hdx5 HO Hts0_0_5 Htp1_0_5]
  · iframe ∗ HIo0_5 HIp1_5 Hro0_5 Hrp1_5
  iintro ⟨Hcs0_0_5, HO⟩
  sl_exec_parts
  -- layer 0: the gather's transfer to the device 4 places on
  iapply (wp_ag_send' m K c _ 4 (by simp only [sl_canon]) (by decide) (by decide) 0 (by decide) fdx4 iprop(emp) _ _ (BI.Entails.refl _)) $$ [Hsh4 Hdx4 HO Hts0_0_4 Htp1_0_4]
  · iframe ∗ HIo0_4 HIp1_4 Hro0_4 Hrp1_4
  iintro ⟨Hcs0_0_4, HO⟩
  sl_exec_parts
  -- layer 0: the gather's transfer to the device 3 places on
  iapply (wp_ag_send' m K c _ 3 (by simp only [sl_canon]) (by decide) (by decide) 0 (by decide) fdx3 iprop(emp) _ _ (BI.Entails.refl _)) $$ [Hsh3 Hdx3 HO Hts0_0_3 Htp1_0_3]
  · iframe ∗ HIo0_3 HIp1_3 Hro0_3 Hrp1_3
  iintro ⟨Hcs0_0_3, HO⟩
  sl_exec_parts
  -- layer 0: the gather's transfer to the device 2 places on
  iapply (wp_ag_send' m K c _ 2 (by simp only [sl_canon]) (by decide) (by decide) 0 (by decide) fdx2 iprop(emp) _ _ (BI.Entails.refl _)) $$ [Hsh2 Hdx2 HO Hts0_0_2 Htp1_0_2]
  · iframe ∗ HIo0_2 HIp1_2 Hro0_2 Hrp1_2
  iintro ⟨Hcs0_0_2, HO⟩
  sl_exec_parts
  -- layer 0: the gather's transfer to the device 1 places on
  iapply (wp_ag_send' m K c _ 1 (by simp only [sl_canon]) (by decide) (by decide) 0 (by decide) fdx1 iprop(emp) _ _ (BI.Entails.refl _)) $$ [Hsh1 Hdx1 HO Hts0_0_1 Htp1_0_1]
  · iframe ∗ HIo0_1 HIp1_1 Hro0_1 Hrp1_1
  iintro ⟨Hcs0_0_1, HO⟩
  sl_exec_parts
  -- layer 0: the scatter's transfer to the device 1 places on, the slot of the gather buffer riding back
  icases Hat1_1_reached with #Hre1_1_1
  ihave Hslx1 := (slot_intro (F := F) xfM c (Spec.peer c 1) _) $$ Hat1_1_pay1
  have hv_rs_0_1 : ∀ i ∈ (chunkM rsM (Spec.peer c 1)).view.set, (sound_body.sl.Hrs1_w3 m c f1 f3 f4) i = rsAll m 0 c i := rs_val_0_1 m c f1 f3 f4
  ihave Hrs1 := (pts_congr (F := F) rsM c (Spec.peer c 1) fullShare _ (rsAll m 0 c) hv_rs_0_1) $$ Hrs1
  unfold pts
  iapply (wp_rs_send' m K c _ 1 (by simp only [sl_canon]) (by decide) (by decide) 0 (by decide) fdr1 iprop(slot (F := F) xfM c (Spec.peer c 1) ∗ reached ER (cell c 1 (Spec.peer c 1)) 1) _ _ (BI.Entails.refl _)) $$ [Hrs1 Hdr1 Hslx1 HO Hts2_0_1 Htp3_0_1]
  · iframe ∗ HIo2_1 HIp3_1 Hro2_1 Hrp3_1 Hre1_1_1
  iintro ⟨Hcs2_0_1, HO⟩
  sl_exec_parts
  -- layer 0: the scatter's transfer to the device 2 places on, the slot of the gather buffer riding back
  icases Hat1_2_reached with #Hre1_1_2
  ihave Hslx2 := (slot_intro (F := F) xfM c (Spec.peer c 2) _) $$ Hat1_2_pay1
  have hv_rs_0_2 : ∀ i ∈ (chunkM rsM (Spec.peer c 2)).view.set, (sound_body.sl.Hrs2_w1 m c f1 f3 f4) i = rsAll m 0 c i := rs_val_0_2 m c f1 f3 f4
  ihave Hrs2 := (pts_congr (F := F) rsM c (Spec.peer c 2) fullShare _ (rsAll m 0 c) hv_rs_0_2) $$ Hrs2
  unfold pts
  iapply (wp_rs_send' m K c _ 2 (by simp only [sl_canon]) (by decide) (by decide) 0 (by decide) fdr2 iprop(slot (F := F) xfM c (Spec.peer c 2) ∗ reached ER (cell c 1 (Spec.peer c 2)) 1) _ _ (BI.Entails.refl _)) $$ [Hrs2 Hdr2 Hslx2 HO Hts2_0_2 Htp3_0_2]
  · iframe ∗ HIo2_2 HIp3_2 Hro2_2 Hrp3_2 Hre1_1_2
  iintro ⟨Hcs2_0_2, HO⟩
  sl_exec_parts
  -- layer 0: the scatter's transfer to the device 3 places on, the slot of the gather buffer riding back
  icases Hat1_3_reached with #Hre1_1_3
  ihave Hslx3 := (slot_intro (F := F) xfM c (Spec.peer c 3) _) $$ Hat1_3_pay1
  have hv_rs_0_3 : ∀ i ∈ (chunkM rsM (Spec.peer c 3)).view.set, (sound_body.sl.Hrs3_w1 m c f1 f3 f4) i = rsAll m 0 c i := rs_val_0_3 m c f1 f3 f4
  ihave Hrs3 := (pts_congr (F := F) rsM c (Spec.peer c 3) fullShare _ (rsAll m 0 c) hv_rs_0_3) $$ Hrs3
  unfold pts
  iapply (wp_rs_send' m K c _ 3 (by simp only [sl_canon]) (by decide) (by decide) 0 (by decide) fdr3 iprop(slot (F := F) xfM c (Spec.peer c 3) ∗ reached ER (cell c 1 (Spec.peer c 3)) 1) _ _ (BI.Entails.refl _)) $$ [Hrs3 Hdr3 Hslx3 HO Hts2_0_3 Htp3_0_3]
  · iframe ∗ HIo2_3 HIp3_3 Hro2_3 Hrp3_3 Hre1_1_3
  iintro ⟨Hcs2_0_3, HO⟩
  sl_exec_parts
  -- layer 0: the scatter's transfer to the device 4 places on, the slot of the gather buffer riding back
  icases Hat1_4_reached with #Hre1_1_4
  ihave Hslx4 := (slot_intro (F := F) xfM c (Spec.peer c 4) _) $$ Hat1_4_pay1
  have hv_rs_0_4 : ∀ i ∈ (chunkM rsM (Spec.peer c 4)).view.set, (sound_body.sl.Hrs4_w1 m c f1 f3 f4) i = rsAll m 0 c i := rs_val_0_4 m c f1 f3 f4
  ihave Hrs4 := (pts_congr (F := F) rsM c (Spec.peer c 4) fullShare _ (rsAll m 0 c) hv_rs_0_4) $$ Hrs4
  unfold pts
  iapply (wp_rs_send' m K c _ 4 (by simp only [sl_canon]) (by decide) (by decide) 0 (by decide) fdr4 iprop(slot (F := F) xfM c (Spec.peer c 4) ∗ reached ER (cell c 1 (Spec.peer c 4)) 1) _ _ (BI.Entails.refl _)) $$ [Hrs4 Hdr4 Hslx4 HO Hts2_0_4 Htp3_0_4]
  · iframe ∗ HIo2_4 HIp3_4 Hro2_4 Hrp3_4 Hre1_1_4
  iintro ⟨Hcs2_0_4, HO⟩
  sl_exec_parts
  -- layer 0: the scatter's transfer to the device 5 places on, the slot of the gather buffer riding back
  icases Hat1_5_reached with #Hre1_1_5
  ihave Hslx5 := (slot_intro (F := F) xfM c (Spec.peer c 5) _) $$ Hat1_5_pay1
  have hv_rs_0_5 : ∀ i ∈ (chunkM rsM (Spec.peer c 5)).view.set, (sound_body.sl.Hrs5_w1 m c f1 f3 f4) i = rsAll m 0 c i := rs_val_0_5 m c f1 f3 f4
  ihave Hrs5 := (pts_congr (F := F) rsM c (Spec.peer c 5) fullShare _ (rsAll m 0 c) hv_rs_0_5) $$ Hrs5
  unfold pts
  iapply (wp_rs_send' m K c _ 5 (by simp only [sl_canon]) (by decide) (by decide) 0 (by decide) fdr5 iprop(slot (F := F) xfM c (Spec.peer c 5) ∗ reached ER (cell c 1 (Spec.peer c 5)) 1) _ _ (BI.Entails.refl _)) $$ [Hrs5 Hdr5 Hslx5 HO Hts2_0_5 Htp3_0_5]
  · iframe ∗ HIo2_5 HIp3_5 Hro2_5 Hrp3_5 Hre1_1_5
  iintro ⟨Hcs2_0_5, HO⟩
  sl_exec_parts
  -- layer 0: the scatter's transfer to the device 6 places on, the slot of the gather buffer riding back
  icases Hat1_6_reached with #Hre1_1_6
  ihave Hslx6 := (slot_intro (F := F) xfM c (Spec.peer c 6) _) $$ Hat1_6_pay1
  have hv_rs_0_6 : ∀ i ∈ (chunkM rsM (Spec.peer c 6)).view.set, (sound_body.sl.Hrs6_w1 m c f1 f3 f4) i = rsAll m 0 c i := rs_val_0_6 m c f1 f3 f4
  ihave Hrs6 := (pts_congr (F := F) rsM c (Spec.peer c 6) fullShare _ (rsAll m 0 c) hv_rs_0_6) $$ Hrs6
  unfold pts
  iapply (wp_rs_send' m K c _ 6 (by simp only [sl_canon]) (by decide) (by decide) 0 (by decide) fdr6 iprop(slot (F := F) xfM c (Spec.peer c 6) ∗ reached ER (cell c 1 (Spec.peer c 6)) 1) _ _ (BI.Entails.refl _)) $$ [Hrs6 Hdr6 Hslx6 HO Hts2_0_6 Htp3_0_6]
  · iframe ∗ HIo2_6 HIp3_6 Hro2_6 Hrp3_6 Hre1_1_6
  iintro ⟨Hcs2_0_6, HO⟩
  sl_exec_parts
  -- layer 0: the scatter's transfer to the device 7 places on, the slot of the gather buffer riding back
  icases Hat1_7_reached with #Hre1_1_7
  ihave Hslx7 := (slot_intro (F := F) xfM c (Spec.peer c 7) _) $$ Hat1_7_pay1
  have hv_rs_0_7 : ∀ i ∈ (chunkM rsM (Spec.peer c 7)).view.set, (sound_body.sl.Hrs7_w1 m c f1 f3 f4) i = rsAll m 0 c i := rs_val_0_7 m c f1 f3 f4
  ihave Hrs7 := (pts_congr (F := F) rsM c (Spec.peer c 7) fullShare _ (rsAll m 0 c) hv_rs_0_7) $$ Hrs7
  unfold pts
  iapply (wp_rs_send' m K c _ 7 (by simp only [sl_canon]) (by decide) (by decide) 0 (by decide) fdr7 iprop(slot (F := F) xfM c (Spec.peer c 7) ∗ reached ER (cell c 1 (Spec.peer c 7)) 1) _ _ (BI.Entails.refl _)) $$ [Hrs7 Hdr7 Hslx7 HO Hts2_0_7 Htp3_0_7]
  · iframe ∗ HIo2_7 HIp3_7 Hro2_7 Hrp3_7 Hre1_1_7
  iintro ⟨Hcs2_0_7, HO⟩
  sl_exec_parts
  -- the seven shares of the own chunk are back with the rest: whole again, for the store that ends layer 0
  ihave Hxf0 := (own_back (F := F) c (xfAll m 0)) $$ [Hat0_7_pay1 Hat0_6_pay1 Hat0_5_pay1 Hat0_4_pay1 Hat0_3_pay1 Hat0_2_pay1 Hat0_1_pay1 Hkeep]
  · iframe ∗
  -- what layer 0's waits handed over, named for layer 1: the rounds reached, the peers' slots, the read chunks freed
  icases Hat0_1_reached with #Hre0_1_1
  icases Hat2_1_reached with #Hre2_1_1
  icases Hat3_1_reached with #Hre3_1_1
  icases Hat3_1_pay3 with #Hrq1_1_1
  icases Hat3_1_pay2 with Hdx1
  ihave Hslr1 := (slot_intro (F := F) rrM c (Spec.peer c 1) _) $$ Hat3_1_pay1
  icases Hat2_1_pay1 with Hrs1
  icases Hat0_2_reached with #Hre0_1_2
  icases Hat2_2_reached with #Hre2_1_2
  icases Hat3_2_reached with #Hre3_1_2
  icases Hat3_2_pay3 with #Hrq1_1_2
  icases Hat3_2_pay2 with Hdx2
  ihave Hslr2 := (slot_intro (F := F) rrM c (Spec.peer c 2) _) $$ Hat3_2_pay1
  icases Hat2_2_pay1 with Hrs2
  icases Hat0_3_reached with #Hre0_1_3
  icases Hat2_3_reached with #Hre2_1_3
  icases Hat3_3_reached with #Hre3_1_3
  icases Hat3_3_pay3 with #Hrq1_1_3
  icases Hat3_3_pay2 with Hdx3
  ihave Hslr3 := (slot_intro (F := F) rrM c (Spec.peer c 3) _) $$ Hat3_3_pay1
  icases Hat2_3_pay1 with Hrs3
  icases Hat0_4_reached with #Hre0_1_4
  icases Hat2_4_reached with #Hre2_1_4
  icases Hat3_4_reached with #Hre3_1_4
  icases Hat3_4_pay3 with #Hrq1_1_4
  icases Hat3_4_pay2 with Hdx4
  ihave Hslr4 := (slot_intro (F := F) rrM c (Spec.peer c 4) _) $$ Hat3_4_pay1
  icases Hat2_4_pay1 with Hrs4
  icases Hat0_5_reached with #Hre0_1_5
  icases Hat2_5_reached with #Hre2_1_5
  icases Hat3_5_reached with #Hre3_1_5
  icases Hat3_5_pay3 with #Hrq1_1_5
  icases Hat3_5_pay2 with Hdx5
  ihave Hslr5 := (slot_intro (F := F) rrM c (Spec.peer c 5) _) $$ Hat3_5_pay1
  icases Hat2_5_pay1 with Hrs5
  icases Hat0_6_reached with #Hre0_1_6
  icases Hat2_6_reached with #Hre2_1_6
  icases Hat3_6_reached with #Hre3_1_6
  icases Hat3_6_pay3 with #Hrq1_1_6
  icases Hat3_6_pay2 with Hdx6
  ihave Hslr6 := (slot_intro (F := F) rrM c (Spec.peer c 6) _) $$ Hat3_6_pay1
  icases Hat2_6_pay1 with Hrs6
  icases Hat0_7_reached with #Hre0_1_7
  icases Hat2_7_reached with #Hre2_1_7
  icases Hat3_7_reached with #Hre3_1_7
  icases Hat3_7_pay3 with #Hrq1_1_7
  icases Hat3_7_pay2 with Hdx7
  ihave Hslr7 := (slot_intro (F := F) rrM c (Spec.peer c 7) _) $$ Hat3_7_pay1
  icases Hat2_7_pay1 with Hrs7
  sl_exec_parts
  -- the own chunk holds layer 1's activations: made ready for the seven transfers
  have hv_own_1 : ∀ i ∈ (chunkM xfM c).view.set, (sound_body.sl.Hxf0_w1_1 m c f3 f4) i = xfAll m 1 i := own_val_1 m c (xfAll m 0) _ _ (wIn_val_0 m c f3) (wOut_val_0 m c f4)
  ihave Hsh := (own_ready (F := F) c _ (xfAll m 1) hv_own_1) $$ Hxf0
  icases Hsh with ⟨Hsh7, Hsh6, Hsh5, Hsh4, Hsh3, Hsh2, Hsh1, Hkeep⟩
  unfold pts
  -- layer 1: the gather's transfer to the device 7 places on, the slot of the receive buffer riding back
  iapply (wp_ag_send' m K c _ 7 (by simp only [sl_canon]) (by decide) (by decide) 1 (by decide) Hat3_7_pay2_v iprop(slot (F := F) rrM c (Spec.peer c 7) ∗ reached ER (cell c 3 (Spec.peer c 7)) 1) _ _ (BI.Entails.refl _)) $$ [Hsh7 Hdx7 Hslr7 HO Hts0_1_7 Htp1_1_7]
  · iframe ∗ HIo0_7 HIp1_7 Hre0_1_7 Hrq1_1_7 Hre3_1_7
  iintro ⟨Hcs0_1_7, HO⟩
  sl_exec_parts
  -- layer 1: the gather's transfer to the device 6 places on, the slot of the receive buffer riding back
  iapply (wp_ag_send' m K c _ 6 (by simp only [sl_canon]) (by decide) (by decide) 1 (by decide) Hat3_6_pay2_v iprop(slot (F := F) rrM c (Spec.peer c 6) ∗ reached ER (cell c 3 (Spec.peer c 6)) 1) _ _ (BI.Entails.refl _)) $$ [Hsh6 Hdx6 Hslr6 HO Hts0_1_6 Htp1_1_6]
  · iframe ∗ HIo0_6 HIp1_6 Hre0_1_6 Hrq1_1_6 Hre3_1_6
  iintro ⟨Hcs0_1_6, HO⟩
  sl_exec_parts
  -- layer 1: the gather's transfer to the device 5 places on, the slot of the receive buffer riding back
  iapply (wp_ag_send' m K c _ 5 (by simp only [sl_canon]) (by decide) (by decide) 1 (by decide) Hat3_5_pay2_v iprop(slot (F := F) rrM c (Spec.peer c 5) ∗ reached ER (cell c 3 (Spec.peer c 5)) 1) _ _ (BI.Entails.refl _)) $$ [Hsh5 Hdx5 Hslr5 HO Hts0_1_5 Htp1_1_5]
  · iframe ∗ HIo0_5 HIp1_5 Hre0_1_5 Hrq1_1_5 Hre3_1_5
  iintro ⟨Hcs0_1_5, HO⟩
  sl_exec_parts
  -- layer 1: the gather's transfer to the device 4 places on, the slot of the receive buffer riding back
  iapply (wp_ag_send' m K c _ 4 (by simp only [sl_canon]) (by decide) (by decide) 1 (by decide) Hat3_4_pay2_v iprop(slot (F := F) rrM c (Spec.peer c 4) ∗ reached ER (cell c 3 (Spec.peer c 4)) 1) _ _ (BI.Entails.refl _)) $$ [Hsh4 Hdx4 Hslr4 HO Hts0_1_4 Htp1_1_4]
  · iframe ∗ HIo0_4 HIp1_4 Hre0_1_4 Hrq1_1_4 Hre3_1_4
  iintro ⟨Hcs0_1_4, HO⟩
  sl_exec_parts
  -- layer 1: the gather's transfer to the device 3 places on, the slot of the receive buffer riding back
  iapply (wp_ag_send' m K c _ 3 (by simp only [sl_canon]) (by decide) (by decide) 1 (by decide) Hat3_3_pay2_v iprop(slot (F := F) rrM c (Spec.peer c 3) ∗ reached ER (cell c 3 (Spec.peer c 3)) 1) _ _ (BI.Entails.refl _)) $$ [Hsh3 Hdx3 Hslr3 HO Hts0_1_3 Htp1_1_3]
  · iframe ∗ HIo0_3 HIp1_3 Hre0_1_3 Hrq1_1_3 Hre3_1_3
  iintro ⟨Hcs0_1_3, HO⟩
  sl_exec_parts
  -- layer 1: the gather's transfer to the device 2 places on, the slot of the receive buffer riding back
  iapply (wp_ag_send' m K c _ 2 (by simp only [sl_canon]) (by decide) (by decide) 1 (by decide) Hat3_2_pay2_v iprop(slot (F := F) rrM c (Spec.peer c 2) ∗ reached ER (cell c 3 (Spec.peer c 2)) 1) _ _ (BI.Entails.refl _)) $$ [Hsh2 Hdx2 Hslr2 HO Hts0_1_2 Htp1_1_2]
  · iframe ∗ HIo0_2 HIp1_2 Hre0_1_2 Hrq1_1_2 Hre3_1_2
  iintro ⟨Hcs0_1_2, HO⟩
  sl_exec_parts
  -- layer 1: the gather's transfer to the device 1 places on, the slot of the receive buffer riding back
  iapply (wp_ag_send' m K c _ 1 (by simp only [sl_canon]) (by decide) (by decide) 1 (by decide) Hat3_1_pay2_v iprop(slot (F := F) rrM c (Spec.peer c 1) ∗ reached ER (cell c 3 (Spec.peer c 1)) 1) _ _ (BI.Entails.refl _)) $$ [Hsh1 Hdx1 Hslr1 HO Hts0_1_1 Htp1_1_1]
  · iframe ∗ HIo0_1 HIp1_1 Hre0_1_1 Hrq1_1_1 Hre3_1_1
  iintro ⟨Hcs0_1_1, HO⟩
  sl_exec_parts
  -- layer 1: the scatter's transfer to the device 1 places on, the slot of the gather buffer riding back
  icases Hat1_1_reached with #Hre1_2_1
  ihave Hslx1 := (slot_intro (F := F) xfM c (Spec.peer c 1) _) $$ Hat1_1_pay1
  icases Hat1_1_pay3 with #Hrq3_1_1
  icases Hat1_1_pay2 with Hdr1
  have hv_rs_1_1 : ∀ i ∈ (chunkM rsM (Spec.peer c 1)).view.set, (sound_body.sl.Hrs1_w3_1 m c f3 f4) i = rsAll m 1 c i := rs_val_1_1 m c f3 f4
  ihave Hrs1 := (pts_congr (F := F) rsM c (Spec.peer c 1) fullShare _ (rsAll m 1 c) hv_rs_1_1) $$ Hrs1
  unfold pts
  iapply (wp_rs_send' m K c _ 1 (by simp only [sl_canon]) (by decide) (by decide) 1 (by decide) Hat1_1_pay2_v iprop(slot (F := F) xfM c (Spec.peer c 1) ∗ reached ER (cell c 1 (Spec.peer c 1)) 2) _ _ (BI.Entails.refl _)) $$ [Hrs1 Hdr1 Hslx1 HO Hts2_1_1 Htp3_1_1]
  · iframe ∗ HIo2_1 HIp3_1 Hre2_1_1 Hrq3_1_1 Hre1_2_1
  iintro ⟨Hcs2_1_1, HO⟩
  sl_exec_parts
  -- layer 1: the scatter's transfer to the device 2 places on, the slot of the gather buffer riding back
  icases Hat1_2_reached with #Hre1_2_2
  ihave Hslx2 := (slot_intro (F := F) xfM c (Spec.peer c 2) _) $$ Hat1_2_pay1
  icases Hat1_2_pay3 with #Hrq3_1_2
  icases Hat1_2_pay2 with Hdr2
  have hv_rs_1_2 : ∀ i ∈ (chunkM rsM (Spec.peer c 2)).view.set, (sound_body.sl.Hrs2_w1_1 m c f3 f4) i = rsAll m 1 c i := rs_val_1_2 m c f3 f4
  ihave Hrs2 := (pts_congr (F := F) rsM c (Spec.peer c 2) fullShare _ (rsAll m 1 c) hv_rs_1_2) $$ Hrs2
  unfold pts
  iapply (wp_rs_send' m K c _ 2 (by simp only [sl_canon]) (by decide) (by decide) 1 (by decide) Hat1_2_pay2_v iprop(slot (F := F) xfM c (Spec.peer c 2) ∗ reached ER (cell c 1 (Spec.peer c 2)) 2) _ _ (BI.Entails.refl _)) $$ [Hrs2 Hdr2 Hslx2 HO Hts2_1_2 Htp3_1_2]
  · iframe ∗ HIo2_2 HIp3_2 Hre2_1_2 Hrq3_1_2 Hre1_2_2
  iintro ⟨Hcs2_1_2, HO⟩
  sl_exec_parts
  -- layer 1: the scatter's transfer to the device 3 places on, the slot of the gather buffer riding back
  icases Hat1_3_reached with #Hre1_2_3
  ihave Hslx3 := (slot_intro (F := F) xfM c (Spec.peer c 3) _) $$ Hat1_3_pay1
  icases Hat1_3_pay3 with #Hrq3_1_3
  icases Hat1_3_pay2 with Hdr3
  have hv_rs_1_3 : ∀ i ∈ (chunkM rsM (Spec.peer c 3)).view.set, (sound_body.sl.Hrs3_w1_1 m c f3 f4) i = rsAll m 1 c i := rs_val_1_3 m c f3 f4
  ihave Hrs3 := (pts_congr (F := F) rsM c (Spec.peer c 3) fullShare _ (rsAll m 1 c) hv_rs_1_3) $$ Hrs3
  unfold pts
  iapply (wp_rs_send' m K c _ 3 (by simp only [sl_canon]) (by decide) (by decide) 1 (by decide) Hat1_3_pay2_v iprop(slot (F := F) xfM c (Spec.peer c 3) ∗ reached ER (cell c 1 (Spec.peer c 3)) 2) _ _ (BI.Entails.refl _)) $$ [Hrs3 Hdr3 Hslx3 HO Hts2_1_3 Htp3_1_3]
  · iframe ∗ HIo2_3 HIp3_3 Hre2_1_3 Hrq3_1_3 Hre1_2_3
  iintro ⟨Hcs2_1_3, HO⟩
  sl_exec_parts
  -- layer 1: the scatter's transfer to the device 4 places on, the slot of the gather buffer riding back
  icases Hat1_4_reached with #Hre1_2_4
  ihave Hslx4 := (slot_intro (F := F) xfM c (Spec.peer c 4) _) $$ Hat1_4_pay1
  icases Hat1_4_pay3 with #Hrq3_1_4
  icases Hat1_4_pay2 with Hdr4
  have hv_rs_1_4 : ∀ i ∈ (chunkM rsM (Spec.peer c 4)).view.set, (sound_body.sl.Hrs4_w1_1 m c f3 f4) i = rsAll m 1 c i := rs_val_1_4 m c f3 f4
  ihave Hrs4 := (pts_congr (F := F) rsM c (Spec.peer c 4) fullShare _ (rsAll m 1 c) hv_rs_1_4) $$ Hrs4
  unfold pts
  iapply (wp_rs_send' m K c _ 4 (by simp only [sl_canon]) (by decide) (by decide) 1 (by decide) Hat1_4_pay2_v iprop(slot (F := F) xfM c (Spec.peer c 4) ∗ reached ER (cell c 1 (Spec.peer c 4)) 2) _ _ (BI.Entails.refl _)) $$ [Hrs4 Hdr4 Hslx4 HO Hts2_1_4 Htp3_1_4]
  · iframe ∗ HIo2_4 HIp3_4 Hre2_1_4 Hrq3_1_4 Hre1_2_4
  iintro ⟨Hcs2_1_4, HO⟩
  sl_exec_parts
  -- layer 1: the scatter's transfer to the device 5 places on, the slot of the gather buffer riding back
  icases Hat1_5_reached with #Hre1_2_5
  ihave Hslx5 := (slot_intro (F := F) xfM c (Spec.peer c 5) _) $$ Hat1_5_pay1
  icases Hat1_5_pay3 with #Hrq3_1_5
  icases Hat1_5_pay2 with Hdr5
  have hv_rs_1_5 : ∀ i ∈ (chunkM rsM (Spec.peer c 5)).view.set, (sound_body.sl.Hrs5_w1_1 m c f3 f4) i = rsAll m 1 c i := rs_val_1_5 m c f3 f4
  ihave Hrs5 := (pts_congr (F := F) rsM c (Spec.peer c 5) fullShare _ (rsAll m 1 c) hv_rs_1_5) $$ Hrs5
  unfold pts
  iapply (wp_rs_send' m K c _ 5 (by simp only [sl_canon]) (by decide) (by decide) 1 (by decide) Hat1_5_pay2_v iprop(slot (F := F) xfM c (Spec.peer c 5) ∗ reached ER (cell c 1 (Spec.peer c 5)) 2) _ _ (BI.Entails.refl _)) $$ [Hrs5 Hdr5 Hslx5 HO Hts2_1_5 Htp3_1_5]
  · iframe ∗ HIo2_5 HIp3_5 Hre2_1_5 Hrq3_1_5 Hre1_2_5
  iintro ⟨Hcs2_1_5, HO⟩
  sl_exec_parts
  -- layer 1: the scatter's transfer to the device 6 places on, the slot of the gather buffer riding back
  icases Hat1_6_reached with #Hre1_2_6
  ihave Hslx6 := (slot_intro (F := F) xfM c (Spec.peer c 6) _) $$ Hat1_6_pay1
  icases Hat1_6_pay3 with #Hrq3_1_6
  icases Hat1_6_pay2 with Hdr6
  have hv_rs_1_6 : ∀ i ∈ (chunkM rsM (Spec.peer c 6)).view.set, (sound_body.sl.Hrs6_w1_1 m c f3 f4) i = rsAll m 1 c i := rs_val_1_6 m c f3 f4
  ihave Hrs6 := (pts_congr (F := F) rsM c (Spec.peer c 6) fullShare _ (rsAll m 1 c) hv_rs_1_6) $$ Hrs6
  unfold pts
  iapply (wp_rs_send' m K c _ 6 (by simp only [sl_canon]) (by decide) (by decide) 1 (by decide) Hat1_6_pay2_v iprop(slot (F := F) xfM c (Spec.peer c 6) ∗ reached ER (cell c 1 (Spec.peer c 6)) 2) _ _ (BI.Entails.refl _)) $$ [Hrs6 Hdr6 Hslx6 HO Hts2_1_6 Htp3_1_6]
  · iframe ∗ HIo2_6 HIp3_6 Hre2_1_6 Hrq3_1_6 Hre1_2_6
  iintro ⟨Hcs2_1_6, HO⟩
  sl_exec_parts
  -- layer 1: the scatter's transfer to the device 7 places on, the slot of the gather buffer riding back
  icases Hat1_7_reached with #Hre1_2_7
  ihave Hslx7 := (slot_intro (F := F) xfM c (Spec.peer c 7) _) $$ Hat1_7_pay1
  icases Hat1_7_pay3 with #Hrq3_1_7
  icases Hat1_7_pay2 with Hdr7
  have hv_rs_1_7 : ∀ i ∈ (chunkM rsM (Spec.peer c 7)).view.set, (sound_body.sl.Hrs7_w1_1 m c f3 f4) i = rsAll m 1 c i := rs_val_1_7 m c f3 f4
  ihave Hrs7 := (pts_congr (F := F) rsM c (Spec.peer c 7) fullShare _ (rsAll m 1 c) hv_rs_1_7) $$ Hrs7
  unfold pts
  iapply (wp_rs_send' m K c _ 7 (by simp only [sl_canon]) (by decide) (by decide) 1 (by decide) Hat1_7_pay2_v iprop(slot (F := F) xfM c (Spec.peer c 7) ∗ reached ER (cell c 1 (Spec.peer c 7)) 2) _ _ (BI.Entails.refl _)) $$ [Hrs7 Hdr7 Hslx7 HO Hts2_1_7 Htp3_1_7]
  · iframe ∗ HIo2_7 HIp3_7 Hre2_1_7 Hrq3_1_7 Hre1_2_7
  iintro ⟨Hcs2_1_7, HO⟩
  sl_exec_parts
  -- the seven shares of the own chunk are back with the rest: whole again, for the store that ends layer 1
  ihave Hxf0 := (own_back (F := F) c (xfAll m 1)) $$ [Hat0_7_pay1 Hat0_6_pay1 Hat0_5_pay1 Hat0_4_pay1 Hat0_3_pay1 Hat0_2_pay1 Hat0_1_pay1 Hkeep]
  · iframe ∗
  -- what layer 1's waits handed over, named for layer 2: the rounds reached, the peers' slots, the read chunks freed
  icases Hat0_1_reached with #Hre0_2_1
  icases Hat2_1_reached with #Hre2_2_1
  icases Hat3_1_reached with #Hre3_2_1
  icases Hat3_1_pay3 with #Hrq1_2_1
  icases Hat3_1_pay2 with Hdx1
  ihave Hslr1 := (slot_intro (F := F) rrM c (Spec.peer c 1) _) $$ Hat3_1_pay1
  icases Hat2_1_pay1 with Hrs1
  icases Hat0_2_reached with #Hre0_2_2
  icases Hat2_2_reached with #Hre2_2_2
  icases Hat3_2_reached with #Hre3_2_2
  icases Hat3_2_pay3 with #Hrq1_2_2
  icases Hat3_2_pay2 with Hdx2
  ihave Hslr2 := (slot_intro (F := F) rrM c (Spec.peer c 2) _) $$ Hat3_2_pay1
  icases Hat2_2_pay1 with Hrs2
  icases Hat0_3_reached with #Hre0_2_3
  icases Hat2_3_reached with #Hre2_2_3
  icases Hat3_3_reached with #Hre3_2_3
  icases Hat3_3_pay3 with #Hrq1_2_3
  icases Hat3_3_pay2 with Hdx3
  ihave Hslr3 := (slot_intro (F := F) rrM c (Spec.peer c 3) _) $$ Hat3_3_pay1
  icases Hat2_3_pay1 with Hrs3
  icases Hat0_4_reached with #Hre0_2_4
  icases Hat2_4_reached with #Hre2_2_4
  icases Hat3_4_reached with #Hre3_2_4
  icases Hat3_4_pay3 with #Hrq1_2_4
  icases Hat3_4_pay2 with Hdx4
  ihave Hslr4 := (slot_intro (F := F) rrM c (Spec.peer c 4) _) $$ Hat3_4_pay1
  icases Hat2_4_pay1 with Hrs4
  icases Hat0_5_reached with #Hre0_2_5
  icases Hat2_5_reached with #Hre2_2_5
  icases Hat3_5_reached with #Hre3_2_5
  icases Hat3_5_pay3 with #Hrq1_2_5
  icases Hat3_5_pay2 with Hdx5
  ihave Hslr5 := (slot_intro (F := F) rrM c (Spec.peer c 5) _) $$ Hat3_5_pay1
  icases Hat2_5_pay1 with Hrs5
  icases Hat0_6_reached with #Hre0_2_6
  icases Hat2_6_reached with #Hre2_2_6
  icases Hat3_6_reached with #Hre3_2_6
  icases Hat3_6_pay3 with #Hrq1_2_6
  icases Hat3_6_pay2 with Hdx6
  ihave Hslr6 := (slot_intro (F := F) rrM c (Spec.peer c 6) _) $$ Hat3_6_pay1
  icases Hat2_6_pay1 with Hrs6
  icases Hat0_7_reached with #Hre0_2_7
  icases Hat2_7_reached with #Hre2_2_7
  icases Hat3_7_reached with #Hre3_2_7
  icases Hat3_7_pay3 with #Hrq1_2_7
  icases Hat3_7_pay2 with Hdx7
  ihave Hslr7 := (slot_intro (F := F) rrM c (Spec.peer c 7) _) $$ Hat3_7_pay1
  icases Hat2_7_pay1 with Hrs7
  sl_exec_parts
  -- the own chunk holds layer 2's activations: made ready for the seven transfers
  have hv_own_2 : ∀ i ∈ (chunkM xfM c).view.set, (sound_body.sl.Hxf0_w1_2 m c f3 f4) i = xfAll m 2 i := own_val_2 m c (xfAll m 1) _ _ (wIn_val_1 m c f3) (wOut_val_1 m c f4)
  ihave Hsh := (own_ready (F := F) c _ (xfAll m 2) hv_own_2) $$ Hxf0
  icases Hsh with ⟨Hsh7, Hsh6, Hsh5, Hsh4, Hsh3, Hsh2, Hsh1, Hkeep⟩
  unfold pts
  -- layer 2: the gather's transfer to the device 7 places on, the slot of the receive buffer riding back
  iapply (wp_ag_send' m K c _ 7 (by simp only [sl_canon]) (by decide) (by decide) 2 (by decide) Hat3_7_pay2_v iprop(slot (F := F) rrM c (Spec.peer c 7) ∗ reached ER (cell c 3 (Spec.peer c 7)) 2) _ _ (BI.Entails.refl _)) $$ [Hsh7 Hdx7 Hslr7 HO Hts0_2_7 Htp1_2_7]
  · iframe ∗ HIo0_7 HIp1_7 Hre0_2_7 Hrq1_2_7 Hre3_2_7
  iintro ⟨Hcs0_2_7, HO⟩
  sl_exec_parts
  -- layer 2: the gather's transfer to the device 6 places on, the slot of the receive buffer riding back
  iapply (wp_ag_send' m K c _ 6 (by simp only [sl_canon]) (by decide) (by decide) 2 (by decide) Hat3_6_pay2_v iprop(slot (F := F) rrM c (Spec.peer c 6) ∗ reached ER (cell c 3 (Spec.peer c 6)) 2) _ _ (BI.Entails.refl _)) $$ [Hsh6 Hdx6 Hslr6 HO Hts0_2_6 Htp1_2_6]
  · iframe ∗ HIo0_6 HIp1_6 Hre0_2_6 Hrq1_2_6 Hre3_2_6
  iintro ⟨Hcs0_2_6, HO⟩
  sl_exec_parts
  -- layer 2: the gather's transfer to the device 5 places on, the slot of the receive buffer riding back
  iapply (wp_ag_send' m K c _ 5 (by simp only [sl_canon]) (by decide) (by decide) 2 (by decide) Hat3_5_pay2_v iprop(slot (F := F) rrM c (Spec.peer c 5) ∗ reached ER (cell c 3 (Spec.peer c 5)) 2) _ _ (BI.Entails.refl _)) $$ [Hsh5 Hdx5 Hslr5 HO Hts0_2_5 Htp1_2_5]
  · iframe ∗ HIo0_5 HIp1_5 Hre0_2_5 Hrq1_2_5 Hre3_2_5
  iintro ⟨Hcs0_2_5, HO⟩
  sl_exec_parts
  -- layer 2: the gather's transfer to the device 4 places on, the slot of the receive buffer riding back
  iapply (wp_ag_send' m K c _ 4 (by simp only [sl_canon]) (by decide) (by decide) 2 (by decide) Hat3_4_pay2_v iprop(slot (F := F) rrM c (Spec.peer c 4) ∗ reached ER (cell c 3 (Spec.peer c 4)) 2) _ _ (BI.Entails.refl _)) $$ [Hsh4 Hdx4 Hslr4 HO Hts0_2_4 Htp1_2_4]
  · iframe ∗ HIo0_4 HIp1_4 Hre0_2_4 Hrq1_2_4 Hre3_2_4
  iintro ⟨Hcs0_2_4, HO⟩
  sl_exec_parts
  -- layer 2: the gather's transfer to the device 3 places on, the slot of the receive buffer riding back
  iapply (wp_ag_send' m K c _ 3 (by simp only [sl_canon]) (by decide) (by decide) 2 (by decide) Hat3_3_pay2_v iprop(slot (F := F) rrM c (Spec.peer c 3) ∗ reached ER (cell c 3 (Spec.peer c 3)) 2) _ _ (BI.Entails.refl _)) $$ [Hsh3 Hdx3 Hslr3 HO Hts0_2_3 Htp1_2_3]
  · iframe ∗ HIo0_3 HIp1_3 Hre0_2_3 Hrq1_2_3 Hre3_2_3
  iintro ⟨Hcs0_2_3, HO⟩
  sl_exec_parts
  -- layer 2: the gather's transfer to the device 2 places on, the slot of the receive buffer riding back
  iapply (wp_ag_send' m K c _ 2 (by simp only [sl_canon]) (by decide) (by decide) 2 (by decide) Hat3_2_pay2_v iprop(slot (F := F) rrM c (Spec.peer c 2) ∗ reached ER (cell c 3 (Spec.peer c 2)) 2) _ _ (BI.Entails.refl _)) $$ [Hsh2 Hdx2 Hslr2 HO Hts0_2_2 Htp1_2_2]
  · iframe ∗ HIo0_2 HIp1_2 Hre0_2_2 Hrq1_2_2 Hre3_2_2
  iintro ⟨Hcs0_2_2, HO⟩
  sl_exec_parts
  -- layer 2: the gather's transfer to the device 1 places on, the slot of the receive buffer riding back
  iapply (wp_ag_send' m K c _ 1 (by simp only [sl_canon]) (by decide) (by decide) 2 (by decide) Hat3_1_pay2_v iprop(slot (F := F) rrM c (Spec.peer c 1) ∗ reached ER (cell c 3 (Spec.peer c 1)) 2) _ _ (BI.Entails.refl _)) $$ [Hsh1 Hdx1 Hslr1 HO Hts0_2_1 Htp1_2_1]
  · iframe ∗ HIo0_1 HIp1_1 Hre0_2_1 Hrq1_2_1 Hre3_2_1
  iintro ⟨Hcs0_2_1, HO⟩
  sl_exec_parts
  -- layer 2: the scatter's transfer to the device 1 places on
  icases Hat1_1_pay3 with #Hrq3_2_1
  icases Hat1_1_pay2 with Hdr1
  have hv_rs_2_1 : ∀ i ∈ (chunkM rsM (Spec.peer c 1)).view.set, (sound_body.sl.Hrs1_w1 m c f3 f4) i = rsAll m 2 c i := rs_val_2_1 m c f3 f4
  ihave Hrs1 := (pts_congr (F := F) rsM c (Spec.peer c 1) fullShare _ (rsAll m 2 c) hv_rs_2_1) $$ Hrs1
  unfold pts
  iapply (wp_rs_send' m K c _ 1 (by simp only [sl_canon]) (by decide) (by decide) 2 (by decide) Hat1_1_pay2_v iprop(emp) _ _ (BI.Entails.refl _)) $$ [Hrs1 Hdr1  HO Hts2_2_1 Htp3_2_1]
  · iframe ∗ HIo2_1 HIp3_1 Hre2_2_1 Hrq3_2_1
  iintro ⟨Hcs2_2_1, HO⟩
  sl_exec_parts
  -- layer 2: the scatter's transfer to the device 2 places on
  icases Hat1_2_pay3 with #Hrq3_2_2
  icases Hat1_2_pay2 with Hdr2
  have hv_rs_2_2 : ∀ i ∈ (chunkM rsM (Spec.peer c 2)).view.set, (sound_body.sl.Hrs2_w1_2 m c f3 f4) i = rsAll m 2 c i := rs_val_2_2 m c f3 f4
  ihave Hrs2 := (pts_congr (F := F) rsM c (Spec.peer c 2) fullShare _ (rsAll m 2 c) hv_rs_2_2) $$ Hrs2
  unfold pts
  iapply (wp_rs_send' m K c _ 2 (by simp only [sl_canon]) (by decide) (by decide) 2 (by decide) Hat1_2_pay2_v iprop(emp) _ _ (BI.Entails.refl _)) $$ [Hrs2 Hdr2  HO Hts2_2_2 Htp3_2_2]
  · iframe ∗ HIo2_2 HIp3_2 Hre2_2_2 Hrq3_2_2
  iintro ⟨Hcs2_2_2, HO⟩
  sl_exec_parts
  -- layer 2: the scatter's transfer to the device 3 places on
  icases Hat1_3_pay3 with #Hrq3_2_3
  icases Hat1_3_pay2 with Hdr3
  have hv_rs_2_3 : ∀ i ∈ (chunkM rsM (Spec.peer c 3)).view.set, (sound_body.sl.Hrs3_w1_2 m c f3 f4) i = rsAll m 2 c i := rs_val_2_3 m c f3 f4
  ihave Hrs3 := (pts_congr (F := F) rsM c (Spec.peer c 3) fullShare _ (rsAll m 2 c) hv_rs_2_3) $$ Hrs3
  unfold pts
  iapply (wp_rs_send' m K c _ 3 (by simp only [sl_canon]) (by decide) (by decide) 2 (by decide) Hat1_3_pay2_v iprop(emp) _ _ (BI.Entails.refl _)) $$ [Hrs3 Hdr3  HO Hts2_2_3 Htp3_2_3]
  · iframe ∗ HIo2_3 HIp3_3 Hre2_2_3 Hrq3_2_3
  iintro ⟨Hcs2_2_3, HO⟩
  sl_exec_parts
  -- layer 2: the scatter's transfer to the device 4 places on
  icases Hat1_4_pay3 with #Hrq3_2_4
  icases Hat1_4_pay2 with Hdr4
  have hv_rs_2_4 : ∀ i ∈ (chunkM rsM (Spec.peer c 4)).view.set, (sound_body.sl.Hrs4_w1_2 m c f3 f4) i = rsAll m 2 c i := rs_val_2_4 m c f3 f4
  ihave Hrs4 := (pts_congr (F := F) rsM c (Spec.peer c 4) fullShare _ (rsAll m 2 c) hv_rs_2_4) $$ Hrs4
  unfold pts
  iapply (wp_rs_send' m K c _ 4 (by simp only [sl_canon]) (by decide) (by decide) 2 (by decide) Hat1_4_pay2_v iprop(emp) _ _ (BI.Entails.refl _)) $$ [Hrs4 Hdr4  HO Hts2_2_4 Htp3_2_4]
  · iframe ∗ HIo2_4 HIp3_4 Hre2_2_4 Hrq3_2_4
  iintro ⟨Hcs2_2_4, HO⟩
  sl_exec_parts
  -- layer 2: the scatter's transfer to the device 5 places on
  icases Hat1_5_pay3 with #Hrq3_2_5
  icases Hat1_5_pay2 with Hdr5
  have hv_rs_2_5 : ∀ i ∈ (chunkM rsM (Spec.peer c 5)).view.set, (sound_body.sl.Hrs5_w1_2 m c f3 f4) i = rsAll m 2 c i := rs_val_2_5 m c f3 f4
  ihave Hrs5 := (pts_congr (F := F) rsM c (Spec.peer c 5) fullShare _ (rsAll m 2 c) hv_rs_2_5) $$ Hrs5
  unfold pts
  iapply (wp_rs_send' m K c _ 5 (by simp only [sl_canon]) (by decide) (by decide) 2 (by decide) Hat1_5_pay2_v iprop(emp) _ _ (BI.Entails.refl _)) $$ [Hrs5 Hdr5  HO Hts2_2_5 Htp3_2_5]
  · iframe ∗ HIo2_5 HIp3_5 Hre2_2_5 Hrq3_2_5
  iintro ⟨Hcs2_2_5, HO⟩
  sl_exec_parts
  -- layer 2: the scatter's transfer to the device 6 places on
  icases Hat1_6_pay3 with #Hrq3_2_6
  icases Hat1_6_pay2 with Hdr6
  have hv_rs_2_6 : ∀ i ∈ (chunkM rsM (Spec.peer c 6)).view.set, (sound_body.sl.Hrs6_w1_2 m c f3 f4) i = rsAll m 2 c i := rs_val_2_6 m c f3 f4
  ihave Hrs6 := (pts_congr (F := F) rsM c (Spec.peer c 6) fullShare _ (rsAll m 2 c) hv_rs_2_6) $$ Hrs6
  unfold pts
  iapply (wp_rs_send' m K c _ 6 (by simp only [sl_canon]) (by decide) (by decide) 2 (by decide) Hat1_6_pay2_v iprop(emp) _ _ (BI.Entails.refl _)) $$ [Hrs6 Hdr6  HO Hts2_2_6 Htp3_2_6]
  · iframe ∗ HIo2_6 HIp3_6 Hre2_2_6 Hrq3_2_6
  iintro ⟨Hcs2_2_6, HO⟩
  sl_exec_parts
  -- layer 2: the scatter's transfer to the device 7 places on
  icases Hat1_7_pay3 with #Hrq3_2_7
  icases Hat1_7_pay2 with Hdr7
  have hv_rs_2_7 : ∀ i ∈ (chunkM rsM (Spec.peer c 7)).view.set, (sound_body.sl.Hrs7_w1_2 m c f3 f4) i = rsAll m 2 c i := rs_val_2_7 m c f3 f4
  ihave Hrs7 := (pts_congr (F := F) rsM c (Spec.peer c 7) fullShare _ (rsAll m 2 c) hv_rs_2_7) $$ Hrs7
  unfold pts
  iapply (wp_rs_send' m K c _ 7 (by simp only [sl_canon]) (by decide) (by decide) 2 (by decide) Hat1_7_pay2_v iprop(emp) _ _ (BI.Entails.refl _)) $$ [Hrs7 Hdr7  HO Hts2_2_7 Htp3_2_7]
  · iframe ∗ HIo2_7 HIp3_7 Hre2_2_7 Hrq3_2_7
  iintro ⟨Hcs2_2_7, HO⟩
  sl_exec_parts
  -- the end. The own chunk whole again;
  ihave Hxf0 := (own_back (F := F) c (xfAll m 2)) $$ [Hat0_7_pay1 Hat0_6_pay1 Hat0_5_pay1 Hat0_4_pay1 Hat0_3_pay1 Hat0_2_pay1 Hat0_1_pay1 Hkeep]
  · iframe ∗
  -- every own cell has consumed its three rounds: closed, its counter the device's again, at zero
  imod (close_cell (F := F) m K c 0 (Spec.peer c 1) hne1) $$ [Hat0_1] with Hz0_1
  · iframe ∗ HIo0_1
  imod (close_cell (F := F) m K c 0 (Spec.peer c 2) hne2) $$ [Hat0_2] with Hz0_2
  · iframe ∗ HIo0_2
  imod (close_cell (F := F) m K c 0 (Spec.peer c 3) hne3) $$ [Hat0_3] with Hz0_3
  · iframe ∗ HIo0_3
  imod (close_cell (F := F) m K c 0 (Spec.peer c 4) hne4) $$ [Hat0_4] with Hz0_4
  · iframe ∗ HIo0_4
  imod (close_cell (F := F) m K c 0 (Spec.peer c 5) hne5) $$ [Hat0_5] with Hz0_5
  · iframe ∗ HIo0_5
  imod (close_cell (F := F) m K c 0 (Spec.peer c 6) hne6) $$ [Hat0_6] with Hz0_6
  · iframe ∗ HIo0_6
  imod (close_cell (F := F) m K c 0 (Spec.peer c 7) hne7) $$ [Hat0_7] with Hz0_7
  · iframe ∗ HIo0_7
  imod (close_cell (F := F) m K c 1 (Spec.peer c 1) hne1) $$ [Hat1_1] with Hz1_1
  · iframe ∗ HIo1_1
  imod (close_cell (F := F) m K c 1 (Spec.peer c 2) hne2) $$ [Hat1_2] with Hz1_2
  · iframe ∗ HIo1_2
  imod (close_cell (F := F) m K c 1 (Spec.peer c 3) hne3) $$ [Hat1_3] with Hz1_3
  · iframe ∗ HIo1_3
  imod (close_cell (F := F) m K c 1 (Spec.peer c 4) hne4) $$ [Hat1_4] with Hz1_4
  · iframe ∗ HIo1_4
  imod (close_cell (F := F) m K c 1 (Spec.peer c 5) hne5) $$ [Hat1_5] with Hz1_5
  · iframe ∗ HIo1_5
  imod (close_cell (F := F) m K c 1 (Spec.peer c 6) hne6) $$ [Hat1_6] with Hz1_6
  · iframe ∗ HIo1_6
  imod (close_cell (F := F) m K c 1 (Spec.peer c 7) hne7) $$ [Hat1_7] with Hz1_7
  · iframe ∗ HIo1_7
  imod (close_cell (F := F) m K c 2 (Spec.peer c 1) hne1) $$ [Hat2_1] with Hz2_1
  · iframe ∗ HIo2_1
  imod (close_cell (F := F) m K c 2 (Spec.peer c 2) hne2) $$ [Hat2_2] with Hz2_2
  · iframe ∗ HIo2_2
  imod (close_cell (F := F) m K c 2 (Spec.peer c 3) hne3) $$ [Hat2_3] with Hz2_3
  · iframe ∗ HIo2_3
  imod (close_cell (F := F) m K c 2 (Spec.peer c 4) hne4) $$ [Hat2_4] with Hz2_4
  · iframe ∗ HIo2_4
  imod (close_cell (F := F) m K c 2 (Spec.peer c 5) hne5) $$ [Hat2_5] with Hz2_5
  · iframe ∗ HIo2_5
  imod (close_cell (F := F) m K c 2 (Spec.peer c 6) hne6) $$ [Hat2_6] with Hz2_6
  · iframe ∗ HIo2_6
  imod (close_cell (F := F) m K c 2 (Spec.peer c 7) hne7) $$ [Hat2_7] with Hz2_7
  · iframe ∗ HIo2_7
  imod (close_cell (F := F) m K c 3 (Spec.peer c 1) hne1) $$ [Hat3_1] with Hz3_1
  · iframe ∗ HIo3_1
  imod (close_cell (F := F) m K c 3 (Spec.peer c 2) hne2) $$ [Hat3_2] with Hz3_2
  · iframe ∗ HIo3_2
  imod (close_cell (F := F) m K c 3 (Spec.peer c 3) hne3) $$ [Hat3_3] with Hz3_3
  · iframe ∗ HIo3_3
  imod (close_cell (F := F) m K c 3 (Spec.peer c 4) hne4) $$ [Hat3_4] with Hz3_4
  · iframe ∗ HIo3_4
  imod (close_cell (F := F) m K c 3 (Spec.peer c 5) hne5) $$ [Hat3_5] with Hz3_5
  · iframe ∗ HIo3_5
  imod (close_cell (F := F) m K c 3 (Spec.peer c 6) hne6) $$ [Hat3_6] with Hz3_6
  · iframe ∗ HIo3_6
  imod (close_cell (F := F) m K c 3 (Spec.peer c 7) hne7) $$ [Hat3_7] with Hz3_7
  · iframe ∗ HIo3_7
  sl_step
  iapply Hk
  -- the three 512-row buffers whole again, the scratch and the weights as launched, the 36 semaphores at zero
  ihave Hb0 := (chunks_back (F := F) xfM (Or.inl rfl) c _ _ _ _ _ _ _ _) $$ [Hxf0 Hat1_1_pay1 Hat1_2_pay1 Hat1_3_pay1 Hat1_4_pay1 Hat1_5_pay1 Hat1_6_pay1 Hat1_7_pay1]
  · iframe ∗
  ihave Hb1 := (chunks_back (F := F) rsM (Or.inr (Or.inl rfl)) c _ _ _ _ _ _ _ _) $$ [Hrs0 Hat2_1_pay1 Hat2_2_pay1 Hat2_3_pay1 Hat2_4_pay1 Hat2_5_pay1 Hat2_6_pay1 Hat2_7_pay1]
  · iframe ∗
  ihave Hb2 := (chunks_back (F := F) rrM (Or.inr (Or.inr rfl)) c _ _ _ _ _ _ _ _) $$ [Hrr0 Hat3_1_pay1 Hat3_2_pay1 Hat3_3_pay1 Hat3_4_pay1 Hat3_5_pay1 Hat3_6_pay1 Hat3_7_pay1]
  · iframe ∗
  ihave Hsb := (scratch_back (F := F) c _ _ _ _) $$ [Hb0 Hb1 Hb2 Hsc3 Hsc4 Hsc5 Hsc6]
  · iframe ∗
  ihave Hwb := (weights_back (F := F) m c) $$ [Hw1 Hw2 Hw3 Hw4 Hw5 Hw6]
  · iframe ∗
  ihave Hzs := (sems_back (F := F) c) $$ [Hz0_1 Hz0_2 Hz0_3 Hz0_4 Hz0_5 Hz0_6 Hz0_7 Hz1_1 Hz1_2 Hz1_3 Hz1_4 Hz1_5 Hz1_6 Hz1_7 Hz2_1 Hz2_2 Hz2_3 Hz2_4 Hz2_5 Hz2_6 Hz2_7 Hz3_1 Hz3_2 Hz3_3 Hz3_4 Hz3_5 Hz3_6 Hz3_7 Hidle Hws0 Hws1 Hws2 Hws3]
  · iframe ∗
  unfold Φ₁
  isplitl [Hsb Hwb Hzs]; · iframe ∗
  isplitl [HO]; · iexists _; iexact HO
  isplitl [Hx]; · iapply (Entails.of_eq (whole_eq (F := F) cc0_stg0_0 c fullShare (xin m c))) $$ Hx
  -- the staged result is the device's block of the third layer's output
  have hv_out : ((Memref.whole cc0_stg1_0 : Memref sig .tc .vmem S64x1024 .bf16).view.writes (Elt F) fo [⟨Rect.unit (s := S64x1024) ![0, 0] S64x1024.size Facts₀.inb_S64x1024_S64x1024_0_0, k0_pay1 (sound_body.sl.r_25 m c f3 f4)⟩]) = outAt m c := out_staged m c fo _ (res_val m c _ _ (wIn_val_2 m c f3) (wOut_val_2 m c f4))
  iapply (out_staged_pts (F := F) m c _ hv_out) $$ Hout

end Cert.KernelIdeal.Proto
end
-- ==== Proof.KI.Launch.lean ====
import proofs.«900981_g7700000000000982_dist_mlpseq_tp1d_bs_bs_b64_d1024_h2048_v7x_i8_bf16_1_alg».proof.Proof.KI.Body

noncomputable section

namespace Cert.KernelIdeal.Proto

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ)

theorem owns_whole_eq (c : Dev nD) (b : Ref sig .tc) (Xc : b.ty.Contents (Elt F)) :
    (owns (Ix := ℕ) (Name := ℕ) (U := UU) (Lvl := ℕ) (c : Thread nD τ) (Memref.whole b) fullShare Xc : sProp 𝕄)
      = iprop(∃ f : Buf (Elt F) (((c : Dev nD) : Thread nD τ).loc b), ⌜f = Xc⌝ ∗ (((c : Thread nD τ).loc b) ↦{fullShare} f)) := by
  unfold owns; simp only [Memref.view_whole, View.read_whole, View.set_whole]

set_option maxRecDepth 8000 in

theorem body_eq : defs₀ (F := F) .tc cfg0.body (cfg0.bodyArgs t0_0 (cfg0.slots t0_0))
    = (cc0_body (F := F) (Memref.whole cc0_stg0_0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11) := rfl

set_option maxRecDepth 8000 in

theorem body_obligation (c : Dev nD) : BodyObligation (dats (F := F) m 0 c) (defs₀ (F := F)) 𝒱₀ 0 Set.univ := fun t => by
  rw [fin_N0 t]
  rw [bigSep_W0, bigSep_W0]
  simp only [owns_whole_eq]
  rw [body_eq]
  iintro ⟨HΦ, Ho, ⟨%d0, %g0, %hg0, Hx⟩, ⟨%d1, %g1, %hg1, Hout⟩⟩
  ihave HΦ' := (show (dats m 0 c).Φ t0_0.castSucc ⊢ Φ₀ m c from Entails.of_eq rfl) $$ HΦ
  unfold Φ₀
  icases HΦ' with ⟨⟨%K, HP⟩, ⟨%f0, %f1, %f2, %f3, %f4, %f5, %f6, HS⟩, Hidle⟩
  have hx : g0 = xin m c := by rw [hg0]; unfold Dat.before; rw [if_pos (fetch0_0 t0_0)]; rfl
  subst hx
  unfold Dat.owesAt Pipeline.owesWithin
  icases Ho with ⟨%W, %hW, HO⟩
  rw [show (dats m 0 c).owed t0_0.castSucc = O₀ c from rfl]
  iapply (sound_body m K c f0 f1 f2 f3 f4 f5 f6 g1 W _)
  isplitl [HP]; · iexact HP
  isplitl [HS]; · iexact HS
  isplitl [Hidle]; · iexact Hidle
  isplitl [HO]; · iexact HO
  isplitl [Hx]; · iexact Hx
  isplitl [Hout]; · iexact Hout
  iintro ⟨HΦ, ⟨%W', HO'⟩, Hx', Hout'⟩
  rw [show (dats m 0 c).owed t0_0.succ = 0 from rfl]
  isplitl [HΦ]; · iapply (show Φ₁ m c ⊢ (dats m 0 c).Φ t0_0.succ from Entails.of_eq rfl); iexact HΦ
  isplitl [HO']
  · iexists W'
    isplitr; · ipureintro; exact fun _ _ => Or.inl trivial
    iexact HO'
  isplitl [Hx']
  · iexists _; isplitr; · (ipureintro; rfl)
    iexact Hx'
  iexists _; isplitr; · (ipureintro; rfl)
  iexact Hout'

theorem pays_above : ∀ c : Dev nD, ∀ p ∈ pays c, p.1.1.2 = Proc.tc ∧ p.2.1 ∈ L p.1 ∧ 0 < lv p.1 p.2.1 := by decide

theorem below_owedOf (x : ℕ) : ∀ l : List (GSem nD τ sig × ℕ × ℕ), (∀ p ∈ l, p.1.1.2 = Proc.tc ∧ p.2.1 ∈ L p.1 ∧ x < lv p.1 p.2.1) → Below x (owedOf l)
  | [], _ => below_zero x
  | p :: l, h => below_add p.1 p.2.1 p.2.2 (below_owedOf x l fun q hq => h q (List.mem_cons_of_mem _ hq))
      (h p (List.mem_cons_self ..)).1 (h p (List.mem_cons_self ..)).2.1 (h p (List.mem_cons_self ..)).2.2

theorem below_O₀ (c : Dev nD) : Below 0 (O₀ c) := below_owedOf 0 (pays c) (pays_above c)
theorem stage_lv (c : Dev nD) (w : Fin cfg0.W) (s : Fin (cfg0.win w).nbuf) :
    lv (((c : Thread nD τ), SemLoc.dma ((cfg0.win w).sem s)) : GSem nD τ sig) 0 = 0 := by
  fin_cases w <;> fin_cases s <;> rfl

theorem hwaits (c : Dev nD) : (levAts L lv : sProp 𝕄) ⊢ Pipeline.cellsWaits cfgs (dats m) 0 0 c :=
  Pipeline.cellsWaits_intro cfgs (dats m) 0 0 c fun w s t => by
    rcases t with ⟨_ | _, ht⟩
    · refine mayWait_of_below c _ 0 (O₀ c) (by rw [L_tc]; decide) ?_
      rw [stage_lv]
      exact below_O₀ c
    · show _ ⊢ MayWait (c : Thread nD τ) _ 0 0
      rw [MayWait_zero]; iintro -; iempintro

def QY (c : Dev nD) (s : MemSt nD τ sig (Elt F)) : Prop :=
  s.mem ((c : Thread nD τ).loc main_arg1) = m ((c : Thread nD τ).loc main_arg1)
  ∧ s.mem ((c : Thread nD τ).loc main_arg2) = m ((c : Thread nD τ).loc main_arg2)
  ∧ s.mem ((c : Thread nD τ).loc main_arg3) = m ((c : Thread nD τ).loc main_arg3)
  ∧ s.mem ((c : Thread nD τ).loc main_arg4) = m ((c : Thread nD τ).loc main_arg4)
  ∧ s.mem ((c : Thread nD τ).loc main_arg5) = m ((c : Thread nD τ).loc main_arg5)
  ∧ s.mem ((c : Thread nD τ).loc main_arg6) = m ((c : Thread nD τ).loc main_arg6)

theorem hY (c : Dev nD) (s' : Phys nD τ sig (Elt F)) :
    iprop(weightsBack m c ∗ emp ∗ Idealize.ShloMosaic.SI s') ⊢ |={Set.univ}=> iprop(⌜QY m c s'.mem⌝ ∗ Idealize.ShloMosaic.SI s') := by
  unfold weightsBack
  iintro ⟨⟨H1, H2, H3, H4, H5, H6⟩, -, HSI⟩
  icombine HSI H1 gives %h1
  icombine HSI H2 gives %h2
  icombine HSI H3 gives %h3
  icombine HSI H4 gives %h4
  icombine HSI H5 gives %h5
  icombine HSI H6 gives %h6
  imodintro
  isplitr
  · ipureintro
    exact ⟨Buf.eq_of_forall_mem_univ h1, Buf.eq_of_forall_mem_univ h2, Buf.eq_of_forall_mem_univ h3, Buf.eq_of_forall_mem_univ h4,
      Buf.eq_of_forall_mem_univ h5, Buf.eq_of_forall_mem_univ h6⟩
  iexact HSI

theorem final_value (c : Dev nD) : (dats (F := F) m 0 c).arrAt (1 : Fin 2) cfg0.N = outAt m c := by
  have ho : ((cfg0.win (1 : Fin 2)).blk t0_0).view.read (Elt F) ((dats (F := F) m 0 c).arrAt (1 : Fin 2) cfg0.N)
      = (dats (F := F) m 0 c).flushed (1 : Fin 2) t0_0 := by
    rw [show cfg0.N = (t0_0 : Fin cfg0.N).val + 1 from rfl, (dats (F := F) m 0 c).arrAt_succ (1 : Fin 2) t0_0, flush0_1 t0_0, if_pos rfl]
    exact View.read_write_univ _ _
  have hz : (fun a => (win0_1.index t0_0) a * main_v1.ty.shape.size a) = fun _ => 0 := funext fun a => by fin_cases a <;> decide
  have hr := fun f => Memref.read_access_unit_zero (Elt F) main_v1 hz (fun a => by fin_cases a <;> decide) f
  rw [hr] at ho
  rw [ho]
  rfl

theorem ownSemFacts : Pipeline.OwnSemFacts cfg0.spec osem := by decide

theorem share_eq (c : Dev nD) (w : Fin cfg0.W) : (dats m 0 c).share w = fullShare := by unfold Dat.share; split <;> rfl

set_option maxRecDepth 40000 in

theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v1) = outAt m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_region_owing_glob_pf (pcfgs (F := F)) (fun p => (cfgs p).toPCfg_adm) (dats m) 0 cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := hwaits m)
    (G := G m) (G' := G' m) (u₀ := u₀)
    (hu₀ := hu₀ m)
    (hglob := glob m)
    (hA := fun _ _ => rfl) (hpf := fun _ k => k.elim0)
    (X := X m) (Y := weightsBack m) (Z := fun _ => iprop(emp))
    (hX := hX m ρ) (hin := hin m) (hout := hout m)
    (QY := QY m)
    (hY := hY m)
    (hQ := fun s h c => ⟨((h c).1 (1 : Fin 2)).trans (final_value m c),
      ((h c).1 (0 : Fin 2)).trans ((dats (F := F) m 0 c).arrAt_in (0 : Fin 2) rfl _), (h c).2.2⟩)

end Cert.KernelIdeal.Proto

end
-- ==== Proof.KI.ValueK.lean ====
import proofs.«900981_g7700000000000982_dist_mlpseq_tp1d_bs_bs_b64_d1024_h2048_v7x_i8_bf16_1_alg».proof.Proof.KI.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.ValueK

open Idealize.ShloMosaic Idealize.ShloMosaic.ValueIdx Cert.KernelIdeal Cert.KernelIdeal.Gen Cert.KernelIdeal.Spec

theorem lhs_mm1_0 (i : S128x2048.Idx) (q : dot_S128x1024_S1024x2048_S128x2048_1_0_0_1_n_n.contr.Idx) :
    (dot_S128x1024_S1024x2048_S128x2048_1_0_0_1_n_n.lhsIdx i q 0).val = (i 0).val := by
  unfold DotDims.lhsIdx
  rw [dif_neg (show ¬(0 : Fin S128x1024.rank) ∈ dot_S128x1024_S1024x2048_S128x2048_1_0_0_1_n_n.lhsBatch by decide), dif_pos (show (0 : Fin S128x1024.rank) ∈ dot_S128x1024_S1024x2048_S128x2048_1_0_0_1_n_n.lhsNonContracting by decide)]
  rfl
theorem lhs_mm1_1 (i : S128x2048.Idx) (q : dot_S128x1024_S1024x2048_S128x2048_1_0_0_1_n_n.contr.Idx) :
    (dot_S128x1024_S1024x2048_S128x2048_1_0_0_1_n_n.lhsIdx i q 1).val = (q ⟨0, by decide⟩).val :=
  dot_S128x1024_S1024x2048_S128x2048_1_0_0_1_n_n.lhsIdx_val_of_single rfl i q
theorem rhs_mm1_0 (i : S128x2048.Idx) (q : dot_S128x1024_S1024x2048_S128x2048_1_0_0_1_n_n.contr.Idx) :
    (dot_S128x1024_S1024x2048_S128x2048_1_0_0_1_n_n.rhsIdx i q 0).val = (q ⟨0, by decide⟩).val :=
  dot_S128x1024_S1024x2048_S128x2048_1_0_0_1_n_n.rhsIdx_val_of_single rfl i q
theorem rhs_mm1_1 (i : S128x2048.Idx) (q : dot_S128x1024_S1024x2048_S128x2048_1_0_0_1_n_n.contr.Idx) :
    (dot_S128x1024_S1024x2048_S128x2048_1_0_0_1_n_n.rhsIdx i q 1).val = (i 1).val := by
  unfold DotDims.rhsIdx
  rw [dif_neg (show ¬(1 : Fin S1024x2048.rank) ∈ dot_S128x1024_S1024x2048_S128x2048_1_0_0_1_n_n.rhsBatch by decide), dif_pos (show (1 : Fin S1024x2048.rank) ∈ dot_S128x1024_S1024x2048_S128x2048_1_0_0_1_n_n.rhsNonContracting by decide)]
  rfl

theorem mm1_apply {φ₁ φ₂ : FTy} (a : FVec Ideal S128x1024 φ₁) (w : FVec Ideal S1024x2048 φ₂) (p : Fin 128) (h : Fin 2048) :
    (show EReal from matmul (F := Ideal) dot_S128x1024_S1024x2048_S128x2048_1_0_0_1_n_n none a w (constant (F := Ideal) S128x2048 .f32 0x00000000#32) (ix2 p h))
      = ∑ k : Fin 1024, (show EReal from a (ix2 p k)) * (show EReal from w (ix2 k h)) := by
  refine (Ideal.matmul_constant_zero_apply dot_S128x1024_S1024x2048_S128x2048_1_0_0_1_n_n none a w (ix2 p h)).trans ?_
  rw [← Equiv.sum_comp (contrEquiv1 dot_S128x1024_S1024x2048_S128x2048_1_0_0_1_n_n 1024 rfl rfl).symm]
  refine Finset.sum_congr rfl fun k _ => ?_
  have hk := contrEquiv1_symm_val dot_S128x1024_S1024x2048_S128x2048_1_0_0_1_n_n 1024 rfl rfl k
  have el : dot_S128x1024_S1024x2048_S128x2048_1_0_0_1_n_n.lhsIdx (ix2 p h) ((contrEquiv1 dot_S128x1024_S1024x2048_S128x2048_1_0_0_1_n_n 1024 rfl rfl).symm k) = ix2 p k := funext fun a => Fin.ext (by
    match a with
    | ⟨0, _⟩ => exact lhs_mm1_0 _ _
    | ⟨1, _⟩ => exact (lhs_mm1_1 _ _).trans hk)
  have er : dot_S128x1024_S1024x2048_S128x2048_1_0_0_1_n_n.rhsIdx (ix2 p h) ((contrEquiv1 dot_S128x1024_S1024x2048_S128x2048_1_0_0_1_n_n 1024 rfl rfl).symm k) = ix2 k h := funext fun a => Fin.ext (by
    match a with
    | ⟨0, _⟩ => exact (rhs_mm1_0 _ _).trans hk
    | ⟨1, _⟩ => exact rhs_mm1_1 _ _)
  rw [el, er]

theorem lhs_mm2_0 (i : S128x1024.Idx) (q : dot_S128x2048_S2048x1024_S128x1024_1_0_0_1_n_n.contr.Idx) :
    (dot_S128x2048_S2048x1024_S128x1024_1_0_0_1_n_n.lhsIdx i q 0).val = (i 0).val := by
  unfold DotDims.lhsIdx
  rw [dif_neg (show ¬(0 : Fin S128x2048.rank) ∈ dot_S128x2048_S2048x1024_S128x1024_1_0_0_1_n_n.lhsBatch by decide), dif_pos (show (0 : Fin S128x2048.rank) ∈ dot_S128x2048_S2048x1024_S128x1024_1_0_0_1_n_n.lhsNonContracting by decide)]
  rfl
theorem lhs_mm2_1 (i : S128x1024.Idx) (q : dot_S128x2048_S2048x1024_S128x1024_1_0_0_1_n_n.contr.Idx) :
    (dot_S128x2048_S2048x1024_S128x1024_1_0_0_1_n_n.lhsIdx i q 1).val = (q ⟨0, by decide⟩).val :=
  dot_S128x2048_S2048x1024_S128x1024_1_0_0_1_n_n.lhsIdx_val_of_single rfl i q
theorem rhs_mm2_0 (i : S128x1024.Idx) (q : dot_S128x2048_S2048x1024_S128x1024_1_0_0_1_n_n.contr.Idx) :
    (dot_S128x2048_S2048x1024_S128x1024_1_0_0_1_n_n.rhsIdx i q 0).val = (q ⟨0, by decide⟩).val :=
  dot_S128x2048_S2048x1024_S128x1024_1_0_0_1_n_n.rhsIdx_val_of_single rfl i q
theorem rhs_mm2_1 (i : S128x1024.Idx) (q : dot_S128x2048_S2048x1024_S128x1024_1_0_0_1_n_n.contr.Idx) :
    (dot_S128x2048_S2048x1024_S128x1024_1_0_0_1_n_n.rhsIdx i q 1).val = (i 1).val := by
  unfold DotDims.rhsIdx
  rw [dif_neg (show ¬(1 : Fin S2048x1024.rank) ∈ dot_S128x2048_S2048x1024_S128x1024_1_0_0_1_n_n.rhsBatch by decide), dif_pos (show (1 : Fin S2048x1024.rank) ∈ dot_S128x2048_S2048x1024_S128x1024_1_0_0_1_n_n.rhsNonContracting by decide)]
  rfl

theorem mm2_apply {φ₁ φ₂ : FTy} (a : FVec Ideal S128x2048 φ₁) (w : FVec Ideal S2048x1024 φ₂) (p : Fin 128) (h : Fin 1024) :
    (show EReal from matmul (F := Ideal) dot_S128x2048_S2048x1024_S128x1024_1_0_0_1_n_n none a w (constant (F := Ideal) S128x1024 .f32 0x00000000#32) (ix2 p h))
      = ∑ k : Fin 2048, (show EReal from a (ix2 p k)) * (show EReal from w (ix2 k h)) := by
  refine (Ideal.matmul_constant_zero_apply dot_S128x2048_S2048x1024_S128x1024_1_0_0_1_n_n none a w (ix2 p h)).trans ?_
  rw [← Equiv.sum_comp (contrEquiv1 dot_S128x2048_S2048x1024_S128x1024_1_0_0_1_n_n 2048 rfl rfl).symm]
  refine Finset.sum_congr rfl fun k _ => ?_
  have hk := contrEquiv1_symm_val dot_S128x2048_S2048x1024_S128x1024_1_0_0_1_n_n 2048 rfl rfl k
  have el : dot_S128x2048_S2048x1024_S128x1024_1_0_0_1_n_n.lhsIdx (ix2 p h) ((contrEquiv1 dot_S128x2048_S2048x1024_S128x1024_1_0_0_1_n_n 2048 rfl rfl).symm k) = ix2 p k := funext fun a => Fin.ext (by
    match a with
    | ⟨0, _⟩ => exact lhs_mm2_0 _ _
    | ⟨1, _⟩ => exact (lhs_mm2_1 _ _).trans hk)
  have er : dot_S128x2048_S2048x1024_S128x1024_1_0_0_1_n_n.rhsIdx (ix2 p h) ((contrEquiv1 dot_S128x2048_S2048x1024_S128x1024_1_0_0_1_n_n 2048 rfl rfl).symm k) = ix2 k h := funext fun a => Fin.ext (by
    match a with
    | ⟨0, _⟩ => exact (rhs_mm2_0 _ _).trans hk
    | ⟨1, _⟩ => exact rhs_mm2_1 _ _)
  rw [el, er]

def half (x : Chunk Ideal) (wi : WIn Ideal) (wo : WOut Ideal) (r : Fin 64) (n : Fin 1024) : EReal :=
  ∑ h : Fin 2048,
    max (∑ k : Fin 1024, (show EReal from x (ix2 r k)) * (show EReal from wi (ix2 k h))) 0 * (show EReal from wo (ix2 h n))

def cat (a b : Chunk Ideal) : FVec Ideal S128x1024 .bf16 :=
  concatenate S128x1024 0 [⟨S64x1024, a⟩, ⟨S64x1024, b⟩] concatenates_S64x1024_S64x1024_S128x1024_d0

def up (r : Fin 64) : Fin 128 := ⟨r.val, by have := r.isLt; omega⟩
def lo (r : Fin 64) : Fin 128 := ⟨64 + r.val, by have := r.isLt; omega⟩

theorem cat_up (a b : Chunk Ideal) (r : Fin 64) (k : Fin 1024) : cat a b (ix2 (up r) k) = a (ix2 r k) := by
  unfold cat
  exact concatenate_pair_apply_left (0 : Fin S128x1024.rank) a b concatenates_S64x1024_S64x1024_S128x1024_d0 (ix2 (up r) k) rfl (ix2 r k)
    (fun b => by
      match b with
      | ⟨0, _⟩ => rfl
      | ⟨1, _⟩ => rfl)

theorem cat_lo (a b : Chunk Ideal) (r : Fin 64) (k : Fin 1024) : cat a b (ix2 (lo r) k) = b (ix2 r k) := by
  unfold cat
  exact concatenate_pair_apply_right (0 : Fin S128x1024.rank) a b concatenates_S64x1024_S64x1024_S128x1024_d0 (ix2 (lo r) k) rfl rfl (ix2 r k)
    (fun b hb => by
      match b, hb with
      | ⟨0, _⟩, hb => exact absurd rfl hb
      | ⟨1, _⟩, _ => rfl)
    (by show r.val + 64 = 64 + r.val; omega)

theorem tile_apply (a b : Chunk Ideal) (wi : WIn Ideal) (wo : WOut Ideal) (p : Fin 128) (n : Fin 1024) :
    (show EReal from k0_pay5 (F := Ideal) a b wi wo (ix2 p n))
      = ∑ h : Fin 2048,
          max (∑ k : Fin 1024, (show EReal from cat a b (ix2 p k)) * (show EReal from wi (ix2 k h))) 0 * (show EReal from wo (ix2 h n)) := by
  unfold k0_pay5
  refine (mm2_apply _ wo p n).trans ?_
  refine Finset.sum_congr rfl fun h _ => ?_
  show max (show EReal from matmul (F := Ideal) dot_S128x1024_S1024x2048_S128x2048_1_0_0_1_n_n none (cat a b) wi (constant (F := Ideal) S128x2048 .f32 0x00000000#32) (ix2 p h))
      (Ideal.ofBits .f32 0x00000000#32) * _ = _
  rw [mm1_apply, Ideal.ofBits_zero_f32]

theorem pay16_eq (a b : Chunk Ideal) (wi : WIn Ideal) (wo : WOut Ideal) :
    k0_pay16 (F := Ideal) a b wi wo = k0_pay5 (F := Ideal) a b wi wo := rfl

theorem tile_up (a b : Chunk Ideal) (wi : WIn Ideal) (wo : WOut Ideal) (r : Fin 64) (n : Fin 1024) :
    (show EReal from k0_pay5 (F := Ideal) a b wi wo (ix2 (up r) n)) = half a wi wo r n := by
  rw [tile_apply]; unfold half
  refine Finset.sum_congr rfl fun h _ => ?_
  congr 2
  exact Finset.sum_congr rfl fun k _ => by rw [cat_up]

theorem tile_lo (a b : Chunk Ideal) (wi : WIn Ideal) (wo : WOut Ideal) (r : Fin 64) (n : Fin 1024) :
    (show EReal from k0_pay5 (F := Ideal) a b wi wo (ix2 (lo r) n)) = half b wi wo r n := by
  rw [tile_apply]; unfold half
  refine Finset.sum_congr rfl fun h _ => ?_
  congr 2
  exact Finset.sum_congr rfl fun k _ => by rw [cat_lo]

theorem keep_apply (a b : Chunk Ideal) (wi : WIn Ideal) (wo : WOut Ideal) (r : Fin 64) (n : Fin 1024) :
    (show EReal from keep (F := Ideal) a b wi wo (ix2 r n)) = half a wi wo r n := by
  unfold keep k0_pay6
  refine (slice2_axis0_apply 0 (k0_pay5 (F := Ideal) a b wi wo) slices_S128x1024_o0_0_S64x1024 r n (up r)
    (by show r.val = 0 + r.val; omega)).trans ?_
  exact tile_up a b wi wo r n

theorem upper_apply (a b : Chunk Ideal) (wi : WIn Ideal) (wo : WOut Ideal) (r : Fin 64) (n : Fin 1024) :
    (show EReal from upper (F := Ideal) a b wi wo (ix2 r n)) = half a wi wo r n := by
  unfold upper k0_pay17
  refine (congrFun (shapeCast_self _ shapeCasts_S64x1024_S64x1024) (ix2 r n)).trans ?_
  show (show EReal from extractStridedSlice S64x1024 ![0, 0] (k0_pay16 (F := Ideal) a b wi wo) slices_S128x1024_o0_0_S64x1024 (ix2 r n)) = _
  rw [pay16_eq]
  exact keep_apply a b wi wo r n

theorem lower_apply (a b : Chunk Ideal) (wi : WIn Ideal) (wo : WOut Ideal) (r : Fin 64) (n : Fin 1024) :
    (show EReal from lower (F := Ideal) a b wi wo (ix2 r n)) = half b wi wo r n := by
  unfold lower k0_pay7
  refine (congrFun (shapeCast_self _ shapeCasts_S64x1024_S64x1024) (ix2 r n)).trans ?_
  show (show EReal from extractStridedSlice S64x1024 ![64, 0] (k0_pay5 (F := Ideal) a b wi wo) slices_S128x1024_o64_0_S64x1024 (ix2 r n)) = _
  refine (slice2_axis0_apply 64 (k0_pay5 (F := Ideal) a b wi wo) slices_S128x1024_o64_0_S64x1024 r n (lo r) rfl).trans ?_
  exact tile_lo a b wi wo r n

theorem plus_apply (acc : FVec Ideal S64x1024 .f32) (v : Chunk Ideal) (i : S64x1024.Idx) :
    (show EReal from plus (F := Ideal) acc v i) = (show EReal from acc i) + (show EReal from v i) := rfl

section Layer
variable (X : Dev nD → Chunk Ideal) (wi : Dev nD → WIn Ideal) (wo : Dev nD → WOut Ideal)

theorem piece_apply (j : Dev nD) (d : ℕ) (r : Fin 64) (n : Fin 1024) :
    (show EReal from Spec.piece (F := Ideal) X wi wo j d (ix2 r n)) = half (X (peer j d)) (wi j) (wo j) r n := by
  unfold Spec.piece
  split_ifs with h
  · exact lower_apply _ _ _ _ r n
  · exact upper_apply _ _ _ _ r n

theorem own_apply (c : Dev nD) (r : Fin 64) (n : Fin 1024) :
    (show EReal from Spec.own (F := Ideal) X wi wo c (ix2 r n)) = half (X c) (wi c) (wo c) r n :=
  keep_apply _ _ _ _ r n

end Layer

theorem peer_back : ∀ c : Dev nD, peer (peer c 7) 1 = c ∧ peer (peer c 6) 2 = c ∧ peer (peer c 5) 3 = c ∧ peer (peer c 4) 4 = c
    ∧ peer (peer c 3) 5 = c ∧ peer (peer c 2) 6 = c ∧ peer (peer c 1) 7 = c := by decide

theorem ring_perm : ∀ c : Dev nD, (Finset.univ : Finset (Dev nD)).val
    = (↑[c, peer c 7, peer c 6, peer c 5, peer c 4, peer c 3, peer c 2, peer c 1] : Multiset (Dev nD)) := by decide

theorem ring_sum (g : Dev nD → EReal) (c : Dev nD) :
    g c + g (peer c 7) + g (peer c 6) + g (peer c 5) + g (peer c 4) + g (peer c 3) + g (peer c 2) + g (peer c 1) = ∑ j : Dev nD, g j := by
  rw [Finset.sum_eq_multiset_sum, ring_perm c]
  simp only [Multiset.map_coe, Multiset.sum_coe, List.map_cons, List.map_nil, List.sum_cons, List.sum_nil, add_zero, add_assoc]

def layer (x : Chunk Ideal) (wi : Dev nD → WIn Ideal) (wo : Dev nD → WOut Ideal) (r : Fin 64) (n : Fin 1024) : EReal :=
  ∑ j : Dev nD, ∑ h : Fin 2048,
    max (∑ k : Fin 1024, (show EReal from x (ix2 r k)) * (show EReal from wi j (ix2 k h))) 0 * (show EReal from wo j (ix2 h n))

theorem layer_eq (x : Chunk Ideal) (wi : Dev nD → WIn Ideal) (wo : Dev nD → WOut Ideal) (r : Fin 64) (n : Fin 1024) :
    layer x wi wo r n = ∑ j : Dev nD, half x (wi j) (wo j) r n := rfl

theorem res_apply (X : Dev nD → Chunk Ideal) (wi : Dev nD → WIn Ideal) (wo : Dev nD → WOut Ideal) (c : Dev nD) (r : Fin 64) (n : Fin 1024) :
    (show EReal from Spec.res X wi wo c (ix2 r n)) = layer (X c) wi wo r n := by
  obtain ⟨h1, h2, h3, h4, h5, h6, h7⟩ := peer_back c
  have e : (show EReal from Spec.res X wi wo c (ix2 r n))
      = (show EReal from Spec.own (F := Ideal) X wi wo c (ix2 r n))
        + (show EReal from Spec.piece (F := Ideal) X wi wo (peer c 7) 1 (ix2 r n))
        + (show EReal from Spec.piece (F := Ideal) X wi wo (peer c 6) 2 (ix2 r n))
        + (show EReal from Spec.piece (F := Ideal) X wi wo (peer c 5) 3 (ix2 r n))
        + (show EReal from Spec.piece (F := Ideal) X wi wo (peer c 4) 4 (ix2 r n))
        + (show EReal from Spec.piece (F := Ideal) X wi wo (peer c 3) 5 (ix2 r n))
        + (show EReal from Spec.piece (F := Ideal) X wi wo (peer c 2) 6 (ix2 r n))
        + (show EReal from Spec.piece (F := Ideal) X wi wo (peer c 1) 7 (ix2 r n)) := rfl
  rw [e, own_apply, piece_apply, piece_apply, piece_apply, piece_apply, piece_apply, piece_apply, piece_apply,
    h1, h2, h3, h4, h5, h6, h7, layer_eq]
  exact ring_sum (fun j => half (X c) (wi j) (wo j) r n) c

theorem next_apply (X : Dev nD → Chunk Ideal) (wi : Dev nD → WIn Ideal) (wo : Dev nD → WOut Ideal) (c : Dev nD) (r : Fin 64) (n : Fin 1024) :
    (show EReal from Spec.next X wi wo c (ix2 r n)) = layer (X c) wi wo r n := by
  unfold Spec.next k0_pay23
  refine (congrFun (shapeCast_self _ shapeCasts_S64x1024_S64x1024) (ix2 r n)).trans ?_
  exact res_apply X wi wo c r n

theorem out_apply (P : Params Ideal) (c : Dev nD) (r : Fin 64) (n : Fin 1024) :
    (show EReal from Spec.out P c (ix2 r n)) = layer (Spec.X2 P c) (P.wi 2) (P.wo 2) r n := by
  unfold Spec.out k0_pay1
  exact res_apply (Spec.X2 P) (P.wi 2) (P.wo 2) c r n

theorem paramsOf_x0 (b0 : Dev nD → Vec Ideal S64x1024 .f32) (w1 w3 w5 : Dev nD → Vec Ideal S1024x2048 .f32) (w2 w4 w6 : Dev nD → Vec Ideal S2048x1024 .f32)
    (c : Dev nD) (i : S64x1024.Idx) :
    (show EReal from (Spec.paramsOf b0 w1 w2 w3 w4 w5 w6).x0 c i) = (show EReal from b0 c i) := by
  show (show EReal from k0_pay2 (F := Ideal) (b0 c) i) = _
  unfold k0_pay2
  refine (congrFun (shapeCast_self _ shapeCasts_S64x1024_S64x1024) i).trans ?_
  show (show EReal from shapeCast S64x1024 (b0 c) shapeCasts_S64x1024_S64x1024 i) = _
  rw [shapeCast_self]
theorem narrowIn_apply (w : Vec Ideal S1024x2048 .f32) (i : S1024x2048.Idx) : (show EReal from Spec.narrowIn w i) = (show EReal from w i) := by
  rfl
theorem narrowOut_apply (w : Vec Ideal S2048x1024 .f32) (i : S2048x1024.Idx) : (show EReal from Spec.narrowOut w i) = (show EReal from w i) := by
  rfl

end Cert.KernelIdeal.ValueK

end
-- ==== Proof.RefValue.lean ====
import proofs.«900981_g7700000000000982_dist_mlpseq_tp1d_bs_bs_b64_d1024_h2048_v7x_i8_bf16_1_alg».proof.Proof.Gen.ReferenceIdeal.Run
import proofs.«900981_g7700000000000982_dist_mlpseq_tp1d_bs_bs_b64_d1024_h2048_v7x_i8_bf16_1_alg».proof.Proof.Gen.ReferenceIdeal.Read
import proofs.«900981_g7700000000000982_dist_mlpseq_tp1d_bs_bs_b64_d1024_h2048_v7x_i8_bf16_1_alg».proof.Proof.KI.ValueK
import Idealize.ShloMosaic.Lib.ValueIdx
import Idealize.ShloMosaic.Lib.Layout
import Idealize.ShloMosaic.PureOps.Ideal.Laws

noncomputable section

open scoped BigOperators

namespace Cert.ReferenceIdeal.RefValue

open Idealize.ShloMosaic Idealize.ShloMosaic.ValueIdx

theorem sum_split (f : Fin 16384 → EReal) :
    ∑ H : Fin 16384, f H = ∑ j : Fin 8, ∑ h : Fin 2048, f ⟨j.val * 2048 + h.val, by omega⟩ := by
  rw [← (finProdFinEquiv (m := 8) (n := 2048)).sum_comp, Fintype.sum_prod_type]
  refine Finset.sum_congr rfl fun j _ => Finset.sum_congr rfl fun h _ => ?_
  congr 1
  apply Fin.ext
  show h.val + 2048 * j.val = j.val * 2048 + h.val
  omega

def refLayer (Y : (⟨2, ![512, 1024]⟩ : Shape).Idx → EReal) (Wi : (⟨2, ![1024, 16384]⟩ : Shape).Idx → EReal)
    (Wo : (⟨2, ![16384, 1024]⟩ : Shape).Idx → EReal) (R : Fin 512) (n : Fin 1024) : EReal :=
  ∑ H : Fin 16384, max (∑ k : Fin 1024, Y (ix2 R k) * Wi (ix2 k H)) 0 * Wo (ix2 H n)

theorem v3_apply (Y : (⟨2, ![512, 1024]⟩ : Shape).Idx → EReal) (Wi : (⟨2, ![1024, 16384]⟩ : Shape).Idx → EReal)
    (Wo : (⟨2, ![16384, 1024]⟩ : Shape).Idx → EReal) (R : Fin 512) (n : Fin 1024) :
    Read.val_main_v3 (F := Ideal) Y Wi Wo (ix2 R n) = refLayer Y Wi Wo R n := by
  rw [Read.val_main_v3_apply]
  unfold refLayer
  refine Finset.sum_congr rfl fun H _ => ?_
  rw [Read.val_main_v2_apply, Read.val_main_v0_apply, Read.val_main_v1_apply, Read.val_main_cst_apply, Ideal.maximumf_def,
    Ideal.ofBits_def, Ideal.ofBits_zero_f32]
  have e1 : ∀ k : Fin 1024, Read.lidx_main_v0 (Read.lidx_main_v3 (ix2 R n) H) k = ix2 R k := fun k =>
    funext fun a => Fin.ext (by match a with | ⟨0, _⟩ => rfl | ⟨1, _⟩ => rfl)
  have e2 : ∀ k : Fin 1024, Read.ridx_main_v0 (Read.lidx_main_v3 (ix2 R n) H) k = ix2 k H := fun k =>
    funext fun a => Fin.ext (by match a with | ⟨0, _⟩ => rfl | ⟨1, _⟩ => rfl)
  have e3 : Read.ridx_main_v3 (ix2 R n) H = ix2 H n :=
    funext fun a => Fin.ext (by match a with | ⟨0, _⟩ => rfl | ⟨1, _⟩ => rfl)
  simp only [e1, e2, e3]

theorem v7_eq (x0 : (⟨2, ![512, 1024]⟩ : Shape).Idx → EReal)
    (x1 : (⟨2, ![1024, 16384]⟩ : Shape).Idx → EReal) (x2 : (⟨2, ![16384, 1024]⟩ : Shape).Idx → EReal)
    (x3 : (⟨2, ![1024, 16384]⟩ : Shape).Idx → EReal) (x4 : (⟨2, ![16384, 1024]⟩ : Shape).Idx → EReal) :
    Read.val_main_v7 (F := Ideal) x0 x1 x2 x3 x4 = Read.val_main_v3 (F := Ideal) (Read.val_main_v3 (F := Ideal) x0 x1 x2) x3 x4 := rfl

theorem v11_eq (x0 : (⟨2, ![512, 1024]⟩ : Shape).Idx → EReal)
    (x1 : (⟨2, ![1024, 16384]⟩ : Shape).Idx → EReal) (x2 : (⟨2, ![16384, 1024]⟩ : Shape).Idx → EReal)
    (x3 : (⟨2, ![1024, 16384]⟩ : Shape).Idx → EReal) (x4 : (⟨2, ![16384, 1024]⟩ : Shape).Idx → EReal)
    (x5 : (⟨2, ![1024, 16384]⟩ : Shape).Idx → EReal) (x6 : (⟨2, ![16384, 1024]⟩ : Shape).Idx → EReal) :
    Read.val_main_v11 (F := Ideal) x0 x1 x2 x3 x4 x5 x6
      = Read.val_main_v3 (F := Ideal) (Read.val_main_v7 (F := Ideal) x0 x1 x2 x3 x4) x5 x6 := rfl

def RowsOf (X : Dev Cert.KernelIdeal.nD → Cert.KernelIdeal.Spec.Chunk Ideal) (Y : (⟨2, ![512, 1024]⟩ : Shape).Idx → EReal) : Prop :=
  ∀ (c : Fin 8) (r : Fin 64) (k : Fin 1024),
    (show EReal from X c (ix2 r k)) = Y (ix2 ⟨c.val * 64 + r.val, by omega⟩ k)

def ColsOf (wi : Dev Cert.KernelIdeal.nD → Cert.KernelIdeal.Spec.WIn Ideal) (Wi : (⟨2, ![1024, 16384]⟩ : Shape).Idx → EReal) : Prop :=
  ∀ (j : Fin 8) (k : Fin 1024) (h : Fin 2048),
    (show EReal from wi j (ix2 k h)) = Wi (ix2 k ⟨j.val * 2048 + h.val, by omega⟩)

def SlabsOf (wo : Dev Cert.KernelIdeal.nD → Cert.KernelIdeal.Spec.WOut Ideal) (Wo : (⟨2, ![16384, 1024]⟩ : Shape).Idx → EReal) : Prop :=
  ∀ (j : Fin 8) (h : Fin 2048) (n : Fin 1024),
    (show EReal from wo j (ix2 h n)) = Wo (ix2 ⟨j.val * 2048 + h.val, by omega⟩ n)

theorem layer_block {X : Dev Cert.KernelIdeal.nD → Cert.KernelIdeal.Spec.Chunk Ideal} {Y : (⟨2, ![512, 1024]⟩ : Shape).Idx → EReal}
    {wi : Dev Cert.KernelIdeal.nD → Cert.KernelIdeal.Spec.WIn Ideal} {Wi : (⟨2, ![1024, 16384]⟩ : Shape).Idx → EReal}
    {wo : Dev Cert.KernelIdeal.nD → Cert.KernelIdeal.Spec.WOut Ideal} {Wo : (⟨2, ![16384, 1024]⟩ : Shape).Idx → EReal}
    (hX : RowsOf X Y) (hi : ColsOf wi Wi) (ho : SlabsOf wo Wo) (c : Fin 8) (r : Fin 64) (n : Fin 1024) :
    Cert.KernelIdeal.ValueK.layer (X c) wi wo r n = refLayer Y Wi Wo ⟨c.val * 64 + r.val, by omega⟩ n := by
  unfold Cert.KernelIdeal.ValueK.layer refLayer
  rw [sum_split]
  refine Finset.sum_congr rfl fun j _ => Finset.sum_congr rfl fun h _ => ?_
  rw [ho j h n]
  congr 2
  refine Finset.sum_congr rfl fun k _ => ?_
  rw [hX c r k, hi j k h]

theorem next_rows {X : Dev Cert.KernelIdeal.nD → Cert.KernelIdeal.Spec.Chunk Ideal} {Y : (⟨2, ![512, 1024]⟩ : Shape).Idx → EReal}
    {wi : Dev Cert.KernelIdeal.nD → Cert.KernelIdeal.Spec.WIn Ideal} {Wi : (⟨2, ![1024, 16384]⟩ : Shape).Idx → EReal}
    {wo : Dev Cert.KernelIdeal.nD → Cert.KernelIdeal.Spec.WOut Ideal} {Wo : (⟨2, ![16384, 1024]⟩ : Shape).Idx → EReal}
    (hX : RowsOf X Y) (hi : ColsOf wi Wi) (ho : SlabsOf wo Wo) :
    RowsOf (Cert.KernelIdeal.Spec.next X wi wo) (Read.val_main_v3 (F := Ideal) Y Wi Wo) := by
  intro c r n
  rw [Cert.KernelIdeal.ValueK.next_apply, layer_block hX hi ho, v3_apply]

theorem block_rows64 {α : Type} (A : (⟨2, ![512, 1024]⟩ : Shape).Idx → α) (c : Fin 8) (r : Fin 64) (k : Fin 1024) :
    (Layout.block ⟨2, ![64, 1024]⟩ ⟨2, ![512, 1024]⟩ 0 8 c A) (ix2 r k) = A (ix2 ⟨c.val * 64 + r.val, by omega⟩ k) := by
  rw [Layout.block_apply]
  congr 1
  funext a
  apply Fin.ext
  match a with
  | ⟨0, _⟩ => rfl
  | ⟨1, _⟩ => rfl

theorem block_cols2048 {α : Type} (A : (⟨2, ![1024, 16384]⟩ : Shape).Idx → α) (j : Fin 8) (k : Fin 1024) (h : Fin 2048) :
    (Layout.block ⟨2, ![1024, 2048]⟩ ⟨2, ![1024, 16384]⟩ 1 8 j A) (ix2 k h) = A (ix2 k ⟨j.val * 2048 + h.val, by omega⟩) := by
  rw [Layout.block_apply]
  congr 1
  funext a
  apply Fin.ext
  match a with
  | ⟨0, _⟩ => rfl
  | ⟨1, _⟩ => rfl

theorem block_rows2048 {α : Type} (A : (⟨2, ![16384, 1024]⟩ : Shape).Idx → α) (j : Fin 8) (h : Fin 2048) (n : Fin 1024) :
    (Layout.block ⟨2, ![2048, 1024]⟩ ⟨2, ![16384, 1024]⟩ 0 8 j A) (ix2 h n) = A (ix2 ⟨j.val * 2048 + h.val, by omega⟩ n) := by
  rw [Layout.block_apply]
  congr 1
  funext a
  apply Fin.ext
  match a with
  | ⟨0, _⟩ => rfl
  | ⟨1, _⟩ => rfl

theorem colsOf_narrowIn (A : (⟨2, ![1024, 16384]⟩ : Shape).Idx → EReal) :
    ColsOf (fun j => Cert.KernelIdeal.Spec.narrowIn (F := Ideal) (Layout.block ⟨2, ![1024, 2048]⟩ ⟨2, ![1024, 16384]⟩ 1 8 j A)) A := by
  intro j k h
  exact (Cert.KernelIdeal.ValueK.narrowIn_apply _ _).trans (block_cols2048 A j k h)

theorem slabsOf_narrowOut (A : (⟨2, ![16384, 1024]⟩ : Shape).Idx → EReal) :
    SlabsOf (fun j => Cert.KernelIdeal.Spec.narrowOut (F := Ideal) (Layout.block ⟨2, ![2048, 1024]⟩ ⟨2, ![16384, 1024]⟩ 0 8 j A)) A := by
  intro j h n
  exact (Cert.KernelIdeal.ValueK.narrowOut_apply _ _).trans (block_rows2048 A j h n)

theorem out_eq_block
    (A0 : (⟨2, ![512, 1024]⟩ : Shape).Idx → EReal)
    (A1 : (⟨2, ![1024, 16384]⟩ : Shape).Idx → EReal) (A2 : (⟨2, ![16384, 1024]⟩ : Shape).Idx → EReal)
    (A3 : (⟨2, ![1024, 16384]⟩ : Shape).Idx → EReal) (A4 : (⟨2, ![16384, 1024]⟩ : Shape).Idx → EReal)
    (A5 : (⟨2, ![1024, 16384]⟩ : Shape).Idx → EReal) (A6 : (⟨2, ![16384, 1024]⟩ : Shape).Idx → EReal)
    (c : Dev Cert.KernelIdeal.nD) :
    Cert.KernelIdeal.Spec.out (F := Ideal)
        (Cert.KernelIdeal.Spec.paramsOf
          (fun c => Layout.block ⟨2, ![64, 1024]⟩ ⟨2, ![512, 1024]⟩ 0 8 c A0)
          (fun c => Layout.block ⟨2, ![1024, 2048]⟩ ⟨2, ![1024, 16384]⟩ 1 8 c A1)
          (fun c => Layout.block ⟨2, ![2048, 1024]⟩ ⟨2, ![16384, 1024]⟩ 0 8 c A2)
          (fun c => Layout.block ⟨2, ![1024, 2048]⟩ ⟨2, ![1024, 16384]⟩ 1 8 c A3)
          (fun c => Layout.block ⟨2, ![2048, 1024]⟩ ⟨2, ![16384, 1024]⟩ 0 8 c A4)
          (fun c => Layout.block ⟨2, ![1024, 2048]⟩ ⟨2, ![1024, 16384]⟩ 1 8 c A5)
          (fun c => Layout.block ⟨2, ![2048, 1024]⟩ ⟨2, ![16384, 1024]⟩ 0 8 c A6)) c
      = Layout.block ⟨2, ![64, 1024]⟩ ⟨2, ![512, 1024]⟩ 0 8 c
          (Cert.ReferenceIdeal.Read.val_main_v12 (F := Ideal) A0 A1 A2 A3 A4 A5 A6) := by
  funext i
  obtain ⟨r, n, rfl⟩ : ∃ (r : Fin 64) (n : Fin 1024), i = ix2 r n := ⟨i 0, i 1, eq_ix2 i⟩
  generalize hP : Cert.KernelIdeal.Spec.paramsOf (F := Ideal)
          (fun c => Layout.block ⟨2, ![64, 1024]⟩ ⟨2, ![512, 1024]⟩ 0 8 c A0)
          (fun c => Layout.block ⟨2, ![1024, 2048]⟩ ⟨2, ![1024, 16384]⟩ 1 8 c A1)
          (fun c => Layout.block ⟨2, ![2048, 1024]⟩ ⟨2, ![16384, 1024]⟩ 0 8 c A2)
          (fun c => Layout.block ⟨2, ![1024, 2048]⟩ ⟨2, ![1024, 16384]⟩ 1 8 c A3)
          (fun c => Layout.block ⟨2, ![2048, 1024]⟩ ⟨2, ![16384, 1024]⟩ 0 8 c A4)
          (fun c => Layout.block ⟨2, ![1024, 2048]⟩ ⟨2, ![1024, 16384]⟩ 1 8 c A5)
          (fun c => Layout.block ⟨2, ![2048, 1024]⟩ ⟨2, ![16384, 1024]⟩ 0 8 c A6) = P
  have h0 : RowsOf P.x0 A0 := fun c r k => by
    rw [← hP, Cert.KernelIdeal.ValueK.paramsOf_x0]; exact block_rows64 A0 c r k
  have hi0 : ColsOf (P.wi 0) A1 := by rw [← hP]; exact colsOf_narrowIn A1
  have ho0 : SlabsOf (P.wo 0) A2 := by rw [← hP]; exact slabsOf_narrowOut A2
  have hi1 : ColsOf (P.wi 1) A3 := by rw [← hP]; exact colsOf_narrowIn A3
  have ho1 : SlabsOf (P.wo 1) A4 := by rw [← hP]; exact slabsOf_narrowOut A4
  have hi2 : ColsOf (P.wi 2) A5 := by rw [← hP]; exact colsOf_narrowIn A5
  have ho2 : SlabsOf (P.wo 2) A6 := by rw [← hP]; exact slabsOf_narrowOut A6
  have h2 : RowsOf (Cert.KernelIdeal.Spec.X2 P) (Read.val_main_v7 (F := Ideal) A0 A1 A2 A3 A4) := by
    rw [v7_eq]; exact next_rows (next_rows h0 hi0 ho0) hi1 ho1
  rw [block_rows64, Read.val_main_v12_apply, Ideal.truncf_def, v11_eq, v3_apply]
  show (show EReal from Cert.KernelIdeal.Spec.out P c (ix2 r n)) = _
  rw [Cert.KernelIdeal.ValueK.out_apply, layer_block h2 hi2 ho2]

end Cert.ReferenceIdeal.RefValue

end
-- ==== Proof.Claims.lean ====
import proofs.«900981_g7700000000000982_dist_mlpseq_tp1d_bs_bs_b64_d1024_h2048_v7x_i8_bf16_1_alg».proof.Defs
import proofs.«900981_g7700000000000982_dist_mlpseq_tp1d_bs_bs_b64_d1024_h2048_v7x_i8_bf16_1_alg».proof.Proof.KI.Launch
import proofs.«900981_g7700000000000982_dist_mlpseq_tp1d_bs_bs_b64_d1024_h2048_v7x_i8_bf16_1_alg».proof.Proof.RefValue
import proofs.«900981_g7700000000000982_dist_mlpseq_tp1d_bs_bs_b64_d1024_h2048_v7x_i8_bf16_1_alg».proof.Proof.Gen.Kernel
import proofs.«900981_g7700000000000982_dist_mlpseq_tp1d_bs_bs_b64_d1024_h2048_v7x_i8_bf16_1_alg».proof.Proof.Gen.Pre_finite_inputs_Kernel
import proofs.«900981_g7700000000000982_dist_mlpseq_tp1d_bs_bs_b64_d1024_h2048_v7x_i8_bf16_1_alg».proof.Proof.Gen.Pre_finite_inputs_ReferenceIdeal

noncomputable section

open Idealize.ShloMosaic Idealize.ShloMosaic.TcCoe Idealize.SL.Sem

namespace Cert.Proof.Claims

/-- The word-level program and the idealized one are one text: their kernel tables agree, label by label. -/
theorem defs_eq {F : FTy → Type} [FloatOps F] : (Cert.Kernel.defs (F := F)) = Cert.KernelIdeal.defs :=
  congrArg (Pipeline.defs Cert.KernelIdeal.pcfgs) (congrArg Defs.onTc (funext fun
    | 0 => funext fun (_, _) => rfl))

theorem frame_ki : Cert.frame_KernelIdeal := fun m ρ _ =>
  (θ_run Cert.KernelIdeal.defs _ _).mono (fun _ h c => (h c).2) (Cert.KernelIdeal.Proto.run (F := Ideal) m ρ)

/-- The run holds at any float values, so it is also the run of the same text at the machine words. -/
theorem frame_k : Cert.frame_Kernel := fun m ρ _ =>
  defs_eq (F := Bits) ▸ (θ_run Cert.KernelIdeal.defs _ _).mono (fun _ h c => (h c).2) (Cert.KernelIdeal.Proto.run (F := Bits) m ρ)

theorem frame_r : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The one block of `x` is the whole of the device's argument array. -/
theorem xin_eq (m : (ℓ : Loc Cert.KernelIdeal.nD Cert.KernelIdeal.τ Cert.KernelIdeal.sig) → Buf (Elt Ideal) ℓ) (c : Dev Cert.KernelIdeal.nD) :
    Cert.KernelIdeal.Proto.xin m c = m ((c.tc : Thread Cert.KernelIdeal.nD Cert.KernelIdeal.τ).loc Cert.KernelIdeal.main_arg0) := by
  have hz : (fun a => (Cert.KernelIdeal.win0_0.index (0 : Fin 1)) a * Cert.KernelIdeal.main_arg0.ty.shape.size a) = fun _ => 0 :=
    funext fun a => by fin_cases a <;> decide
  exact Memref.read_access_unit_zero (Elt Ideal) Cert.KernelIdeal.main_arg0 hz (fun a => by fin_cases a <;> decide) _

/-- The kernel's parameters are read off the devices' argument arrays, whatever those are known to hold. -/
theorem par_eq (m : (ℓ : Loc Cert.KernelIdeal.nD Cert.KernelIdeal.τ Cert.KernelIdeal.sig) → Buf (Elt Ideal) ℓ)
    {b0 : Dev Cert.KernelIdeal.nD → Vec Ideal Cert.KernelIdeal.S64x1024 .f32}
    {w1 w3 w5 : Dev Cert.KernelIdeal.nD → Vec Ideal Cert.KernelIdeal.S1024x2048 .f32} {w2 w4 w6 : Dev Cert.KernelIdeal.nD → Vec Ideal Cert.KernelIdeal.S2048x1024 .f32}
    (h : ∀ c : Dev Cert.KernelIdeal.nD, m ((c.tc : Thread Cert.KernelIdeal.nD Cert.KernelIdeal.τ).loc Cert.KernelIdeal.main_arg0) = b0 c ∧ m ((c.tc : Thread Cert.KernelIdeal.nD Cert.KernelIdeal.τ).loc Cert.KernelIdeal.main_arg1) = w1 c ∧ m ((c.tc : Thread Cert.KernelIdeal.nD Cert.KernelIdeal.τ).loc Cert.KernelIdeal.main_arg2) = w2 c
      ∧ m ((c.tc : Thread Cert.KernelIdeal.nD Cert.KernelIdeal.τ).loc Cert.KernelIdeal.main_arg3) = w3 c ∧ m ((c.tc : Thread Cert.KernelIdeal.nD Cert.KernelIdeal.τ).loc Cert.KernelIdeal.main_arg4) = w4 c ∧ m ((c.tc : Thread Cert.KernelIdeal.nD Cert.KernelIdeal.τ).loc Cert.KernelIdeal.main_arg5) = w5 c ∧ m ((c.tc : Thread Cert.KernelIdeal.nD Cert.KernelIdeal.τ).loc Cert.KernelIdeal.main_arg6) = w6 c) :
    Cert.KernelIdeal.Proto.par m = Cert.KernelIdeal.Spec.paramsOf (F := Ideal) b0 w1 w2 w3 w4 w5 w6 := by
  unfold Cert.KernelIdeal.Proto.par
  have e0 : (fun c => Cert.KernelIdeal.Proto.xin m c) = b0 := funext fun c => (xin_eq m c).trans (h c).1
  have e1 : _ = w1 := funext fun c => (h c).2.1
  have e2 : _ = w2 := funext fun c => (h c).2.2.1
  have e3 : _ = w3 := funext fun c => (h c).2.2.2.1
  have e4 : _ = w4 := funext fun c => (h c).2.2.2.2.1
  have e5 : _ = w5 := funext fun c => (h c).2.2.2.2.2.1
  have e6 : _ = w6 := funext fun c => (h c).2.2.2.2.2.2
  rw [e0, e1, e2, e3, e4, e5, e6]

/-- Both programs run; the reference ends with its composed term, each device with its block of rows of it. -/
theorem algebraic : Cert.algebraic_KernelIdeal_ReferenceIdeal := by
  intro m ρ m' ρ' _ hagree
  refine ⟨Cert.ReferenceIdeal.Read.val_main_v12 (F := Ideal) (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)) (m' (((0 : Dev Cert.ReferenceIdeal.nD).tc : Thread Cert.ReferenceIdeal.nD Cert.ReferenceIdeal.τ).loc Cert.ReferenceIdeal.main_arg2)) (m' (((0 : Dev Cert.ReferenceIdeal.nD).tc : Thread Cert.ReferenceIdeal.nD Cert.ReferenceIdeal.τ).loc Cert.ReferenceIdeal.main_arg3)) (m' (((0 : Dev Cert.ReferenceIdeal.nD).tc : Thread Cert.ReferenceIdeal.nD Cert.ReferenceIdeal.τ).loc Cert.ReferenceIdeal.main_arg4)) (m' (((0 : Dev Cert.ReferenceIdeal.nD).tc : Thread Cert.ReferenceIdeal.nD Cert.ReferenceIdeal.τ).loc Cert.ReferenceIdeal.main_arg5)) (m' (((0 : Dev Cert.ReferenceIdeal.nD).tc : Thread Cert.ReferenceIdeal.nD Cert.ReferenceIdeal.τ).loc Cert.ReferenceIdeal.main_arg6)), ?_, ?_⟩
  · refine (θ_run Cert.KernelIdeal.defs _ _).mono (fun _ h c => ⟨(h c).1.trans ?_, (h c).2⟩) (Cert.KernelIdeal.Proto.run (F := Ideal) m ρ)
    unfold Cert.KernelIdeal.Proto.outAt
    rw [par_eq m hagree]
    exact Cert.ReferenceIdeal.RefValue.out_eq_block _ _ _ _ _ _ _ c
  · refine (θ_run Cert.ReferenceIdeal.defs _ _).mono (fun _ h => ⟨((h 0).1).trans ?_, (h 0).2⟩) (Cert.ReferenceIdeal.Value.run (F := Ideal) m' ρ')
    exact Cert.ReferenceIdeal.Read.val_main_v12_eq _ _ _ _ _ _ _

end Cert.Proof.Claims

end
-- ==== Proof.lean ====
/- Eight devices hold 64 rows of the activations and a 2048-wide slice of each of three layers' weights; every device ends with
   its rows of the product of the three layers x ↦ max(x · W_in, 0) · W_out taken over the whole arrays. -/
import proofs.«900981_g7700000000000982_dist_mlpseq_tp1d_bs_bs_b64_d1024_h2048_v7x_i8_bf16_1_alg».proof.Defs
import proofs.«900981_g7700000000000982_dist_mlpseq_tp1d_bs_bs_b64_d1024_h2048_v7x_i8_bf16_1_alg».proof.Proof.Gen.Kernel
import proofs.«900981_g7700000000000982_dist_mlpseq_tp1d_bs_bs_b64_d1024_h2048_v7x_i8_bf16_1_alg».proof.Proof.Gen.Kernel.Skeleton
import proofs.«900981_g7700000000000982_dist_mlpseq_tp1d_bs_bs_b64_d1024_h2048_v7x_i8_bf16_1_alg».proof.Proof.Gen.Kernel.Launch
import proofs.«900981_g7700000000000982_dist_mlpseq_tp1d_bs_bs_b64_d1024_h2048_v7x_i8_bf16_1_alg».proof.Proof.Gen.Kernel.Points
import proofs.«900981_g7700000000000982_dist_mlpseq_tp1d_bs_bs_b64_d1024_h2048_v7x_i8_bf16_1_alg».proof.Proof.Gen.Kernel.Frame
import proofs.«900981_g7700000000000982_dist_mlpseq_tp1d_bs_bs_b64_d1024_h2048_v7x_i8_bf16_1_alg».proof.Proof.Gen.KernelIdeal
import proofs.«900981_g7700000000000982_dist_mlpseq_tp1d_bs_bs_b64_d1024_h2048_v7x_i8_bf16_1_alg».proof.Proof.Gen.KernelIdeal.Skeleton
import proofs.«900981_g7700000000000982_dist_mlpseq_tp1d_bs_bs_b64_d1024_h2048_v7x_i8_bf16_1_alg».proof.Proof.Gen.KernelIdeal.Launch
import proofs.«900981_g7700000000000982_dist_mlpseq_tp1d_bs_bs_b64_d1024_h2048_v7x_i8_bf16_1_alg».proof.Proof.Gen.KernelIdeal.Points
import proofs.«900981_g7700000000000982_dist_mlpseq_tp1d_bs_bs_b64_d1024_h2048_v7x_i8_bf16_1_alg».proof.Proof.Gen.KernelIdeal.Frame
import proofs.«900981_g7700000000000982_dist_mlpseq_tp1d_bs_bs_b64_d1024_h2048_v7x_i8_bf16_1_alg».proof.Proof.Gen.ReferenceIdeal
import proofs.«900981_g7700000000000982_dist_mlpseq_tp1d_bs_bs_b64_d1024_h2048_v7x_i8_bf16_1_alg».proof.Proof.Gen.Pre_finite_inputs_Kernel
import proofs.«900981_g7700000000000982_dist_mlpseq_tp1d_bs_bs_b64_d1024_h2048_v7x_i8_bf16_1_alg».proof.Proof.Gen.Pre_finite_inputs_ReferenceIdeal
import proofs.«900981_g7700000000000982_dist_mlpseq_tp1d_bs_bs_b64_d1024_h2048_v7x_i8_bf16_1_alg».proof.Proof.Claims
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  Claims.frame_k, Claims.frame_ki, Claims.frame_r, Claims.preserves, Claims.algebraic⟩

end Cert.Proof

end
